-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x512 : Shape := ⟨4, ![8, 19, 512, 512]⟩
abbrev S8x1x512x512 : Shape := ⟨4, ![8, 1, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  reducesTo_S8x19x512x512_S_d0_1_2_3 : S8x19x512x512.ReducesTo [0, 1, 2, 3] S_
  h_S_ : 0 < S_.numel
  bcast_S_S8x1x512x512 : S_.BroadcastsInDim S8x1x512x512 (![] : Fin 0 → Fin S8x1x512x512.rank)
  reducesTo_S8x1x512x512_S_d0_1_2_3 : S8x1x512x512.ReducesTo [0, 1, 2, 3] S_

variable [Facts]

def fn {F : FTy → Type} [FloatOps F] (main_arg0 : FVec F S8x19x512x512 .f32) (main_arg1 : FVec F S8x1x512x512 .f32) (main_arg2 : IVec S8x512x512 32) (main_arg3 : IVec S8x1x512x512 32) : IVec S_ 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 1 := constantI S_ 1 1#1
  let main_v3 : IVec S_ 1 := (fun x v => Host.reduce IntOp.andi x v reducesTo_S8x19x512x512_S_d0_1_2_3 h_S_) main_v2 main_c
  let main_v4 : FVec F S8x1x512x512 .f32 := Host.absf main_arg1
  let main_cst_0 : FVec F S_ .f32 := constant S_ .f32 0x7F800000#32
  let main_v5 : FVec F S8x1x512x512 .f32 := broadcastInDim S8x1x512x512 ![] bcast_S_S8x1x512x512 main_cst_0
  let main_v6 : IVec S8x1x512x512 1 := cmpf .olt main_v4 main_v5
  let main_c_1 : IVec S_ 1 := constantI S_ 1 1#1
  let main_v7 : IVec S_ 1 := (fun x v => Host.reduce IntOp.andi x v reducesTo_S8x1x512x512_S_d0_1_2_3 h_S_) main_v6 main_c_1
  let main_v8 : IVec S_ 1 := andi main_v3 main_v7
  main_v8
-- ==== Kernel.lean ====
abbrev S8x19x512x512 : Shape := ⟨4, ![8, 19, 512, 512]⟩
abbrev S8x1x512x512 : Shape := ⟨4, ![8, 1, 512, 512]⟩
abbrev S8x512x512 : Shape := ⟨3, ![8, 512, 512]⟩
abbrev S8x8x128 : Shape := ⟨3, ![8, 8, 128]⟩
abbrev S1x19x128x512 : Shape := ⟨4, ![1, 19, 128, 512]⟩
abbrev S1x128x512 : Shape := ⟨3, ![1, 128, 512]⟩
abbrev S1x1x128x512 : Shape := ⟨4, ![1, 1, 128, 512]⟩
abbrev S1x8x128 : Shape := ⟨3, ![1, 8, 128]⟩
abbrev S8x128 : Shape := ⟨2, ![8, 128]⟩
abbrev S19x128x512 : Shape := ⟨3, ![19, 128, 512]⟩
abbrev S128x512 : Shape := ⟨2, ![128, 512]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x1x19 : Shape := ⟨3, ![8, 1, 19]⟩
abbrev S8x19 : Shape := ⟨2, ![8, 19]⟩
abbrev S8x1x1 : Shape := ⟨3, ![8, 1, 1]⟩
abbrev S8 : Shape := ⟨1, ![8]⟩
abbrev S_ : Shape := ⟨0, ![]⟩
abbrev S8x1 : Shape := ⟨2, ![8, 1]⟩
abbrev S4 : Shape := ⟨1, ![4]⟩

abbrev nBuf : Space → Nat
  | .hbm => 121
  | .vmem => 11
  | .smem => 0
  | _ => 0

abbrev bufTy : (tb : Table) → Fin (tcTables nBuf tb) → BufTy
  | .hbm, ⟨0, _⟩ => ⟨S8x19x512x512, .f32⟩
  | .hbm, ⟨1, _⟩ => ⟨S8x1x512x512, .f32⟩
  | .hbm, ⟨2, _⟩ => ⟨S8x512x512, .i32⟩
  | .hbm, ⟨3, _⟩ => ⟨S8x1x512x512, .i32⟩
  | .hbm, ⟨4, _⟩ => ⟨S8x8x128, .f32⟩
  | .hbm, ⟨5, _⟩ => ⟨S8x1x19, .f32⟩
  | .hbm, ⟨6, _⟩ => ⟨S8x19, .f32⟩
  | .hbm, ⟨7, _⟩ => ⟨S8x1x19, .f32⟩
  | .hbm, ⟨8, _⟩ => ⟨S8x19, .f32⟩
  | .hbm, ⟨9, _⟩ => ⟨S8x1x19, .f32⟩
  | .hbm, ⟨10, _⟩ => ⟨S8x19, .f32⟩
  | .hbm, ⟨11, _⟩ => ⟨S8x1x19, .f32⟩
  | .hbm, ⟨12, _⟩ => ⟨S8x19, .f32⟩
  | .hbm, ⟨13, _⟩ => ⟨S8x1x1, .f32⟩
  | .hbm, ⟨14, _⟩ => ⟨S8, .f32⟩
  | .hbm, ⟨15, _⟩ => ⟨S8x1x1, .f32⟩
  | .hbm, ⟨16, _⟩ => ⟨S8, .f32⟩
  | .hbm, ⟨17, _⟩ => ⟨S8x1x1, .f32⟩
  | .hbm, ⟨18, _⟩ => ⟨S8, .f32⟩
  | .hbm, ⟨19, _⟩ => ⟨S8x1x1, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8x1, .f32⟩
  | .hbm, ⟨24, _⟩ => ⟨S_, .f32⟩
  | .hbm, ⟨25, _⟩ => ⟨S8x1, .f32⟩
  | .hbm, ⟨26, _⟩ => ⟨S8x1, .f32⟩
  | .hbm, ⟨27, _⟩ => ⟨S8x19, .f32⟩
  | .hbm, ⟨28, _⟩ => ⟨S8x19, .f32⟩
  | .hbm, ⟨29, _⟩ => ⟨S_, .f32⟩
  | .hbm, ⟨30, _⟩ => ⟨S8x19, .f32⟩
  | .hbm, ⟨31, _⟩ => ⟨S8x19, .i1⟩
  | .hbm, ⟨32, _⟩ => ⟨S8x19, .f32⟩
  | .hbm, ⟨33, _⟩ => ⟨S_, .f32⟩
  | .hbm, ⟨34, _⟩ => ⟨S8x19, .f32⟩
  | .hbm, ⟨35, _⟩ => ⟨S8x19, .f32⟩
  | .hbm, ⟨36, _⟩ => ⟨S_, .f32⟩
  | .hbm, ⟨37, _⟩ => ⟨S8x19, .f32⟩
  | .hbm, ⟨38, _⟩ => ⟨S8x19, .f32⟩
  | .hbm, ⟨39, _⟩ => ⟨S8x19, .f32⟩
  | .hbm, ⟨40, _⟩ => ⟨S_, .f32⟩
  | .hbm, ⟨41, _⟩ => ⟨S8x19, .f32⟩
  | .hbm, ⟨42, _⟩ => ⟨S8x19, .f32⟩
  | .hbm, ⟨43, _⟩ => ⟨S8x19, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8x19, .f32⟩
  | .hbm, ⟨48, _⟩ => ⟨S_, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8, .f32⟩
  | .hbm, ⟨58, _⟩ => ⟨S8x1, .f32⟩
  | .hbm, ⟨59, _⟩ => ⟨S_, .f32⟩
  | .hbm, ⟨60, _⟩ => ⟨S8x1, .f32⟩
  | .hbm, ⟨61, _⟩ => ⟨S8x1, .f32⟩
  | .hbm, ⟨62, _⟩ => ⟨S8x19, .f32⟩
  | .hbm, ⟨63, _⟩ => ⟨S8x19, .f32⟩
  | .hbm, ⟨64, _⟩ => ⟨S_, .f32⟩
  | .hbm, ⟨65, _⟩ => ⟨S8x19, .f32⟩
  | .hbm, ⟨66, _⟩ => ⟨S8x19, .i1⟩
  | .hbm, ⟨67, _⟩ => ⟨S8x19, .f32⟩
  | .hbm, ⟨68, _⟩ => ⟨S_, .f32⟩
  | .hbm, ⟨69, _⟩ => ⟨S8x19, .f32⟩
  | .hbm, ⟨70, _⟩ => ⟨S8x19, .f32⟩
  | .hbm, ⟨71, _⟩ => ⟨S_, .f32⟩
  | .hbm, ⟨72, _⟩ => ⟨S8x19, .f32⟩
  | .hbm, ⟨73, _⟩ => ⟨S8x19, .f32⟩
  | .hbm, ⟨74, _⟩ => ⟨S8x19, .f32⟩
  | .hbm, ⟨75, _⟩ => ⟨S_, .f32⟩
  | .hbm, ⟨76, _⟩ => ⟨S8x19, .f32⟩
  | .hbm, ⟨77, _⟩ => ⟨S8x19, .f32⟩
  | .hbm, ⟨78, _⟩ => ⟨S8x19, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8x19, .f32⟩
  | .hbm, ⟨83, _⟩ => ⟨S_, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S1, .f32⟩
  | .hbm, ⟨117, _⟩ => ⟨S1, .f32⟩
  | .hbm, ⟨118, _⟩ => ⟨S1, .f32⟩
  | .hbm, ⟨119, _⟩ => ⟨S1, .f32⟩
  | .hbm, ⟨120, _⟩ => ⟨S4, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128x512, .i32⟩
  | .local _ .vmem, ⟨3, _⟩ => ⟨S1x128x512, .i32⟩
  | .local _ .vmem, ⟨4, _⟩ => ⟨S1x1x128x512, .f32⟩
  | .local _ .vmem, ⟨5, _⟩ => ⟨S1x1x128x512, .f32⟩
  | .local _ .vmem, ⟨6, _⟩ => ⟨S1x1x128x512, .i32⟩
  | .local _ .vmem, ⟨7, _⟩ => ⟨S1x1x128x512, .i32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_18 : Ref sig .tc := ⟨.hbm, 89, rfl⟩
abbrev main_v66 : Ref sig .tc := ⟨.hbm, 90, rfl⟩
abbrev main_cst_19 : Ref sig .tc := ⟨.hbm, 91, rfl⟩
abbrev main_v67 : Ref sig .tc := ⟨.hbm, 92, rfl⟩
abbrev main_cst_20 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_24 : Ref sig .tc := ⟨.hbm, 107, rfl⟩
abbrev main_v78 : Ref sig .tc := ⟨.hbm, 108, rfl⟩
abbrev main_cst_25 : Ref sig .tc := ⟨.hbm, 109, rfl⟩
abbrev main_v79 : Ref sig .tc := ⟨.hbm, 110, rfl⟩
abbrev main_cst_26 : Ref sig .tc := ⟨.hbm, 111, rfl⟩
abbrev main_v80 : Ref sig .tc := ⟨.hbm, 112, rfl⟩
abbrev main_cst_27 : Ref sig .tc := ⟨.hbm, 113, rfl⟩
abbrev main_v81 : Ref sig .tc := ⟨.hbm, 114, rfl⟩
abbrev main_cst_28 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_370 : BitVec 32 := 3#32
  let v1173 : BitVec 1 := Scalar.cmpi .eq arg1 c3_i32_370
  let v1174 : BitVec 32 := Scalar.extui v1173
  let c0_i32_371 : BitVec 32 := 0#32
  let v1175 : BitVec 1 := Scalar.cmpi .ne v1174 c0_i32_371
  v1175

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x19x128x512_S1x19x128x512_0_0_0_0 : ∀ a, (![0, 0, 0, 0] : Fin 4 → Nat) a + S1x19x128x512.size a ≤ S1x19x128x512.size a
  h_S1x19x128x512 : 0 < S1x19x128x512.numel
  shapeCasts_S1x19x128x512_S19x128x512 : S1x19x128x512.ShapeCasts S19x128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S128x512 : S1x1x128x512.ShapeCasts S128x512
  natLt_1_32 : 1 < 32
  reduces_S19x128x512_S128x512 : S19x128x512.Reduces [0] S128x512
  shapeCasts_S128x512_S1x128x512 : S128x512.ShapeCasts S1x128x512
  broadcasts_S1x128x512_S19x128x512 : S1x128x512.Broadcasts S19x128x512
  iota_S8x128_d0_w32 : S8x128.Iotas .tc 32 [0]
  iota_S8x128_d1_w32 : S8x128.Iotas .tc 32 [1]
  slices_S19x128x512_o0_0_0_S1x128x512 : S19x128x512.Slices ![0, 0, 0] S1x128x512
  reduces_S128x512_S128 : S128x512.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  broadcasts_S1x1_S8x128 : S1x1.Broadcasts S8x128
  slices_S19x128x512_o1_0_0_S1x128x512 : S19x128x512.Slices ![1, 0, 0] S1x128x512
  slices_S19x128x512_o2_0_0_S1x128x512 : S19x128x512.Slices ![2, 0, 0] S1x128x512
  slices_S19x128x512_o3_0_0_S1x128x512 : S19x128x512.Slices ![3, 0, 0] S1x128x512
  slices_S19x128x512_o4_0_0_S1x128x512 : S19x128x512.Slices ![4, 0, 0] S1x128x512
  slices_S19x128x512_o5_0_0_S1x128x512 : S19x128x512.Slices ![5, 0, 0] S1x128x512
  slices_S19x128x512_o6_0_0_S1x128x512 : S19x128x512.Slices ![6, 0, 0] S1x128x512
  slices_S19x128x512_o7_0_0_S1x128x512 : S19x128x512.Slices ![7, 0, 0] S1x128x512
  slices_S19x128x512_o8_0_0_S1x128x512 : S19x128x512.Slices ![8, 0, 0] S1x128x512
  slices_S19x128x512_o9_0_0_S1x128x512 : S19x128x512.Slices ![9, 0, 0] S1x128x512
  slices_S19x128x512_o10_0_0_S1x128x512 : S19x128x512.Slices ![10, 0, 0] S1x128x512
  slices_S19x128x512_o11_0_0_S1x128x512 : S19x128x512.Slices ![11, 0, 0] S1x128x512
  slices_S19x128x512_o12_0_0_S1x128x512 : S19x128x512.Slices ![12, 0, 0] S1x128x512
  slices_S19x128x512_o13_0_0_S1x128x512 : S19x128x512.Slices ![13, 0, 0] S1x128x512
  slices_S19x128x512_o14_0_0_S1x128x512 : S19x128x512.Slices ![14, 0, 0] S1x128x512
  slices_S19x128x512_o15_0_0_S1x128x512 : S19x128x512.Slices ![15, 0, 0] S1x128x512
  slices_S19x128x512_o16_0_0_S1x128x512 : S19x128x512.Slices ![16, 0, 0] S1x128x512
  slices_S19x128x512_o17_0_0_S1x128x512 : S19x128x512.Slices ![17, 0, 0] S1x128x512
  slices_S19x128x512_o18_0_0_S1x128x512 : S19x128x512.Slices ![18, 0, 0] S1x128x512
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x19_0_0_0 : S8x8x128.Slices ![0, 0, 0] S8x1x19
  shapeCasts_S8x1x19_S8x19 : S8x1x19.ShapeCasts S8x19
  slices_S8x8x128_S8x1x19_0_1_0 : S8x8x128.Slices ![0, 1, 0] S8x1x19
  slices_S8x8x128_S8x1x19_0_2_0 : S8x8x128.Slices ![0, 2, 0] S8x1x19
  slices_S8x8x128_S8x1x19_0_3_0 : S8x8x128.Slices ![0, 3, 0] S8x1x19
  slices_S8x8x128_S8x1x1_0_4_0 : S8x8x128.Slices ![0, 4, 0] S8x1x1
  shapeCasts_S8x1x1_S8 : S8x1x1.ShapeCasts S8
  slices_S8x8x128_S8x1x1_0_5_0 : S8x8x128.Slices ![0, 5, 0] S8x1x1
  slices_S8x8x128_S8x1x1_0_6_0 : S8x8x128.Slices ![0, 6, 0] S8x1x1
  slices_S8x8x128_S8x1x1_0_7_0 : S8x8x128.Slices ![0, 7, 0] S8x1x1
  reducesTo_S8x19_S8_d1 : S8x19.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x19_0_1 : S8x1.BroadcastsInDim S8x19 (![0, 1] : Fin 2 → Fin S8x19.rank)
  bcast_S_S8x19 : S_.BroadcastsInDim S8x19 (![] : Fin 0 → Fin S8x19.rank)
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  concatenates_S1_S1_S1_S1_S4_d0 : Shape.Concatenates [S1, S1, S1, S1] S4 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x512.size a ≤ S8x19x512x512.size a
  hwx0_0 : ∀ i : grid0.Coords, EltTy.bits .f32 = 32 ∨ (Rect.block (s := S8x19x512x512) S1x19x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x512x512.size a
  hwx0_1 : ∀ i : grid0.Coords, EltTy.bits .i32 = 32 ∨ (Rect.block (s := S8x512x512) S1x128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x512.size a ≤ S8x1x512x512.size a
  hwx0_2 : ∀ i : grid0.Coords, EltTy.bits .f32 = 32 ∨ (Rect.block (s := S8x1x512x512) S1x1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x512.size a ≤ S8x1x512x512.size a
  hwx0_3 : ∀ i : grid0.Coords, EltTy.bits .i32 = 32 ∨ (Rect.block (s := S8x1x512x512) S1x1x128x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

abbrev win0_0 : Pipeline.Window sig grid0 :=
  Pipeline.Window.ofSpec (Memref.whole main_arg0) S1x19x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x19x512x512 : Shape := ⟨4, ![8, 19, 512, 512]⟩
abbrev S8x1x512x512 : Shape := ⟨4, ![8, 1, 512, 512]⟩
abbrev S8x512x512 : Shape := ⟨3, ![8, 512, 512]⟩
abbrev S8x262144 : Shape := ⟨2, ![8, 262144]⟩
abbrev S_ : Shape := ⟨0, ![]⟩
abbrev S8x20 : Shape := ⟨2, ![8, 20]⟩
abbrev S8 : Shape := ⟨1, ![8]⟩
abbrev S8x1 : Shape := ⟨2, ![8, 1]⟩
abbrev S8x262144x1 : Shape := ⟨3, ![8, 262144, 1]⟩
abbrev S8x262144x2 : Shape := ⟨3, ![8, 262144, 2]⟩
abbrev S8x19 : Shape := ⟨2, ![8, 19]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S1x1x1 : Shape := ⟨3, ![1, 1, 1]⟩
abbrev S2097152 : Shape := ⟨1, ![2097152]⟩
abbrev S4 : Shape := ⟨1, ![4]⟩

abbrev nBuf : Space → Nat
  | .hbm => 369
  | .vmem => 0
  | .smem => 0
  | _ => 0

abbrev hbmTy0_0 (i : Nat) : BufTy := match i % 128 with
  | 0 => ⟨S8x19x512x512, .f32⟩
  | 1 => ⟨S8x1x512x512, .f32⟩
  | 2 => ⟨S8x512x512, .i32⟩
  | 3 => ⟨S8x1x512x512, .i32⟩
  | 4 => ⟨S8x262144, .i32⟩
  | 5 => ⟨S_, .i32⟩
  | 6 => ⟨S8x262144, .i32⟩
  | 7 => ⟨S8x262144, .i1⟩
  | 8 => ⟨S_, .i32⟩
  | 9 => ⟨S8x262144, .i32⟩
  | 10 => ⟨S8x262144, .i1⟩
  | 11 => ⟨S8x262144, .i1⟩
  | 12 => ⟨S_, .i32⟩
  | 13 => ⟨S_, .i32⟩
  | 14 => ⟨S8x262144, .i32⟩
  | 15 => ⟨S8x262144, .i32⟩
  | 16 => ⟨S_, .f32⟩
  | 17 => ⟨S8x20, .f32⟩
  | 18 => ⟨S8, .i32⟩
  | 19 => ⟨S8x1, .i32⟩
  | 20 => ⟨S_, .i32⟩
  | 21 => ⟨S8x1, .i32⟩
  | 22 => ⟨S8x1, .i1⟩
  | 23 => ⟨S_, .i32⟩
  | 24 => ⟨S8x1, .i32⟩
  | 25 => ⟨S8x1, .i32⟩
  | 26 => ⟨S8x1, .i32⟩
  | 27 => ⟨S_, .i32⟩
  | 28 => ⟨S8x262144, .i32⟩
  | 29 => ⟨S8x262144, .i1⟩
  | 30 => ⟨S_, .i32⟩
  | 31 => ⟨S8x262144, .i32⟩
  | 32 => ⟨S8x262144, .i32⟩
  | 33 => ⟨S8x262144, .i32⟩
  | 34 => ⟨S8x262144, .i32⟩
  | 35 => ⟨S8x262144x1, .i32⟩
  | 36 => ⟨S8x262144x1, .i32⟩
  | 37 => ⟨S8x262144x2, .i32⟩
  | 38 => ⟨S_, .f32⟩
  | 39 => ⟨S8x262144, .f32⟩
  | 40 => ⟨S8x20, .f32⟩
  | 41 => ⟨S8x19, .f32⟩
  | 42 => ⟨S_, .f32⟩
  | 43 => ⟨S8, .f32⟩
  | 44 => ⟨S8x1, .f32⟩
  | 45 => ⟨S_, .f32⟩
  | 46 => ⟨S8x1, .f32⟩
  | 47 => ⟨S8x1, .f32⟩
  | 48 => ⟨S8x19, .f32⟩
  | 49 => ⟨S8x19, .f32⟩
  | 50 => ⟨S_, .f32⟩
  | 51 => ⟨S8x19, .f32⟩
  | 52 => ⟨S8x19, .i1⟩
  | 53 => ⟨S8x19, .f32⟩
  | 54 => ⟨S_, .f32⟩
  | 55 => ⟨S8x19, .f32⟩
  | 56 => ⟨S8x19, .f32⟩
  | 57 => ⟨S_, .f32⟩
  | 58 => ⟨S8x19, .f32⟩
  | 59 => ⟨S8x19, .f32⟩
  | 60 => ⟨S8x19, .f32⟩
  | 61 => ⟨S_, .f32⟩
  | 62 => ⟨S8x19, .f32⟩
  | 63 => ⟨S8x19, .f32⟩
  | 64 => ⟨S_, .f32⟩
  | 65 => ⟨S8x512x512, .f32⟩
  | 66 => ⟨S_, .f32⟩
  | 67 => ⟨S8x512x512, .f32⟩
  | 68 => ⟨S8x512x512, .f32⟩
  | 69 => ⟨S8x1x512x512, .f32⟩
  | 70 => ⟨S8x19x512x512, .f32⟩
  | 71 => ⟨S8x19x512x512, .f32⟩
  | 72 => ⟨S8x19x512x512, .f32⟩
  | 73 => ⟨S_, .f32⟩
  | 74 => ⟨S8x512x512, .f32⟩
  | 75 => ⟨S8x1x512x512, .f32⟩
  | 76 => ⟨S8x1x512x512, .f32⟩
  | 77 => ⟨S8x19x512x512, .f32⟩
  | 78 => ⟨S8x19x512x512, .f32⟩
  | 79 => ⟨S_, .i32⟩
  | 80 => ⟨S_, .i32⟩
  | 81 => ⟨S_, .i32⟩
  | 82 => ⟨S8x512x512, .i32⟩
  | 83 => ⟨S8x512x512, .i32⟩
  | 84 => ⟨S_, .i32⟩
  | 85 => ⟨S8x512x512, .i32⟩
  | 86 => ⟨S8x512x512, .i32⟩
  | 87 => ⟨S8x1x512x512, .i32⟩
  | 88 => ⟨S_, .i32⟩
  | 89 => ⟨S8x1x512x512, .i32⟩
  | 90 => ⟨S8x1x512x512, .i1⟩
  | 91 => ⟨S_, .i32⟩
  | 92 => ⟨S8x1x512x512, .i32⟩
  | 93 => ⟨S8x1x512x512, .i32⟩
  | 94 => ⟨S8x1x512x512, .i32⟩
  | 95 => ⟨S8x1x512x512x1, .i32⟩
  | 96 => ⟨S1, .i32⟩
  | 97 => ⟨S_, .i32⟩
  | 98 => ⟨S8x1x512x512x1, .i32⟩
  | 99 => ⟨S8x1x512x512x1, .i1⟩
  | 100 => ⟨S1x1x1x1x1, .i32⟩
  | 101 => ⟨S8x1x512x512x1, .i32⟩
  | 102 => ⟨S8x1x512x512x1, .i1⟩
  | 103 => ⟨S8x1x512x512x1, .i1⟩
  | 104 => ⟨S_, .i1⟩
  | 105 => ⟨S8x1x512x512, .i1⟩
  | 106 => ⟨S8x1x512x512, .f32⟩
  | 107 => ⟨S_, .f32⟩
  | 108 => ⟨S8x1x512x512, .f32⟩
  | 109 => ⟨S8x1x512x512, .f32⟩
  | 110 => ⟨S8x512x512, .f32⟩
  | 111 => ⟨S8x262144, .i32⟩
  | 112 => ⟨S_, .i32⟩
  | 113 => ⟨S8x262144, .i32⟩
  | 114 => ⟨S8x262144, .i1⟩
  | 115 => ⟨S_, .i32⟩
  | 116 => ⟨S8x262144, .i32⟩
  | 117 => ⟨S8x262144, .i32⟩
  | 118 => ⟨S8x262144, .i32⟩
  | 119 => ⟨S8x262144x1, .i32⟩
  | 120 => ⟨S1, .i32⟩
  | 121 => ⟨S_, .i32⟩
  | 122 => ⟨S8x262144x1, .i32⟩
  | 123 => ⟨S8x262144x1, .i1⟩
  | 124 => ⟨S1x1x1, .i32⟩
  | 125 => ⟨S8x262144x1, .i32⟩
  | 126 => ⟨S8x262144x1, .i1⟩
  | 127 => ⟨S8x262144x1, .i1⟩
  | _ => ⟨S8x19x512x512, .f32⟩

abbrev hbmTy0_1 (i : Nat) : BufTy := match i % 128 with
  | 0 => ⟨S_, .i1⟩
  | 1 => ⟨S8x262144, .i1⟩
  | 2 => ⟨S8x262144, .f32⟩
  | 3 => ⟨S_, .f32⟩
  | 4 => ⟨S8x262144, .f32⟩
  | 5 => ⟨S8x262144, .f32⟩
  | 6 => ⟨S8x512x512, .f32⟩
  | 7 => ⟨S8x512x512, .i1⟩
  | 8 => ⟨S_, .f32⟩
  | 9 => ⟨S_, .f32⟩
  | 10 => ⟨S8x512x512, .f32⟩
  | 11 => ⟨S8x512x512, .f32⟩
  | 12 => ⟨S8x512x512, .f32⟩
  | 13 => ⟨S_, .f32⟩
  | 14 => ⟨S8, .f32⟩
  | 15 => ⟨S8, .f32⟩
  | 16 => ⟨S_, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S_, .f32⟩
  | 24 => ⟨S_, .f32⟩
  | 25 => ⟨S_, .f32⟩
  | 26 => ⟨S2097152, .f32⟩
  | 27 => ⟨S2097152, .i32⟩
  | 28 => ⟨S2097152, .f32⟩
  | 29 => ⟨S_, .f32⟩
  | 30 => ⟨S2097152, .f32⟩
  | 31 => ⟨S2097152, .i1⟩
  | 32 => ⟨S_, .f32⟩
  | 33 => ⟨S2097152, .f32⟩
  | 34 => ⟨S2097152, .i1⟩
  | 35 => ⟨S2097152, .i32⟩
  | 36 => ⟨S_, .i32⟩
  | 37 => ⟨S_, .i32⟩
  | 38 => ⟨S_, .f32⟩
  | 39 => ⟨S2097152, .i32⟩
  | 40 => ⟨S_, .i32⟩
  | 41 => ⟨S_, .i32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S2097152, .f32⟩
  | 50 => ⟨S2097152, .f32⟩
  | 51 => ⟨S2097152, .f32⟩
  | 52 => ⟨S_, .f32⟩
  | 53 => ⟨S_, .f32⟩
  | 54 => ⟨S_, .f32⟩
  | 55 => ⟨S2097152, .f32⟩
  | 56 => ⟨S2097152, .f32⟩
  | 57 => ⟨S2097152, .f32⟩
  | 58 => ⟨S2097152, .f32⟩
  | 59 => ⟨S_, .f32⟩
  | 60 => ⟨S2097152, .f32⟩
  | 61 => ⟨S2097152, .f32⟩
  | 62 => ⟨S2097152, .f32⟩
  | 63 => ⟨S2097152, .f32⟩
  | 64 => ⟨S2097152, .f32⟩
  | 65 => ⟨S2097152, .f32⟩
  | 66 => ⟨S2097152, .f32⟩
  | 67 => ⟨S2097152, .f32⟩
  | 68 => ⟨S2097152, .f32⟩
  | 69 => ⟨S2097152, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S8x512x512, .f32⟩
  | 78 => ⟨S_, .f32⟩
  | 79 => ⟨S8x512x512, .f32⟩
  | 80 => ⟨S8x512x512, .i1⟩
  | 81 => ⟨S_, .i32⟩
  | 82 => ⟨S_, .i32⟩
  | 83 => ⟨S8x512x512, .i32⟩
  | 84 => ⟨S8x512x512, .i32⟩
  | 85 => ⟨S8x262144, .i32⟩
  | 86 => ⟨S_, .i32⟩
  | 87 => ⟨S8x262144, .i32⟩
  | 88 => ⟨S8x262144, .i1⟩
  | 89 => ⟨S_, .i32⟩
  | 90 => ⟨S8x262144, .i32⟩
  | 91 => ⟨S8x262144, .i1⟩
  | 92 => ⟨S8x262144, .i1⟩
  | 93 => ⟨S_, .i32⟩
  | 94 => ⟨S_, .i32⟩
  | 95 => ⟨S8x262144, .i32⟩
  | 96 => ⟨S8x262144, .i32⟩
  | 97 => ⟨S_, .f32⟩
  | 98 => ⟨S8x20, .f32⟩
  | 99 => ⟨S8, .i32⟩
  | 100 => ⟨S8x1, .i32⟩
  | 101 => ⟨S_, .i32⟩
  | 102 => ⟨S8x1, .i32⟩
  | 103 => ⟨S8x1, .i1⟩
  | 104 => ⟨S_, .i32⟩
  | 105 => ⟨S8x1, .i32⟩
  | 106 => ⟨S8x1, .i32⟩
  | 107 => ⟨S8x1, .i32⟩
  | 108 => ⟨S_, .i32⟩
  | 109 => ⟨S8x262144, .i32⟩
  | 110 => ⟨S8x262144, .i1⟩
  | 111 => ⟨S_, .i32⟩
  | 112 => ⟨S8x262144, .i32⟩
  | 113 => ⟨S8x262144, .i32⟩
  | 114 => ⟨S8x262144, .i32⟩
  | 115 => ⟨S8x262144, .i32⟩
  | 116 => ⟨S8x262144x1, .i32⟩
  | 117 => ⟨S8x262144x1, .i32⟩
  | 118 => ⟨S8x262144x2, .i32⟩
  | 119 => ⟨S_, .f32⟩
  | 120 => ⟨S8x262144, .f32⟩
  | 121 => ⟨S8x20, .f32⟩
  | 122 => ⟨S8x19, .f32⟩
  | 123 => ⟨S_, .f32⟩
  | 124 => ⟨S8, .f32⟩
  | 125 => ⟨S8x1, .f32⟩
  | 126 => ⟨S_, .f32⟩
  | 127 => ⟨S8x1, .f32⟩
  | _ => ⟨S8x19x512x512, .f32⟩

abbrev hbmTy0_2 (i : Nat) : BufTy := match i % 128 with
  | 0 => ⟨S8x1, .f32⟩
  | 1 => ⟨S8x19, .f32⟩
  | 2 => ⟨S8x19, .f32⟩
  | 3 => ⟨S_, .f32⟩
  | 4 => ⟨S8x19, .f32⟩
  | 5 => ⟨S8x19, .i1⟩
  | 6 => ⟨S8x19, .f32⟩
  | 7 => ⟨S_, .f32⟩
  | 8 => ⟨S8x19, .f32⟩
  | 9 => ⟨S8x19, .f32⟩
  | 10 => ⟨S_, .f32⟩
  | 11 => ⟨S8x19, .f32⟩
  | 12 => ⟨S8x19, .f32⟩
  | 13 => ⟨S8x19, .f32⟩
  | 14 => ⟨S_, .f32⟩
  | 15 => ⟨S8x19, .f32⟩
  | 16 => ⟨S8x19, .f32⟩
  | 17 => ⟨S_, .f32⟩
  | 18 => ⟨S8x512x512, .f32⟩
  | 19 => ⟨S_, .f32⟩
  | 20 => ⟨S8x512x512, .f32⟩
  | 21 => ⟨S8x512x512, .f32⟩
  | 22 => ⟨S8x1x512x512, .f32⟩
  | 23 => ⟨S8x19x512x512, .f32⟩
  | 24 => ⟨S8x19x512x512, .f32⟩
  | 25 => ⟨S8x19x512x512, .f32⟩
  | 26 => ⟨S_, .f32⟩
  | 27 => ⟨S8x512x512, .f32⟩
  | 28 => ⟨S8x1x512x512, .f32⟩
  | 29 => ⟨S8x1x512x512, .f32⟩
  | 30 => ⟨S8x19x512x512, .f32⟩
  | 31 => ⟨S8x19x512x512, .f32⟩
  | 32 => ⟨S_, .i32⟩
  | 33 => ⟨S_, .i32⟩
  | 34 => ⟨S_, .i32⟩
  | 35 => ⟨S8x512x512, .i32⟩
  | 36 => ⟨S8x512x512, .i32⟩
  | 37 => ⟨S_, .i32⟩
  | 38 => ⟨S8x512x512, .i32⟩
  | 39 => ⟨S8x512x512, .i32⟩
  | 40 => ⟨S8x1x512x512, .i32⟩
  | 41 => ⟨S_, .i32⟩
  | 42 => ⟨S8x1x512x512, .i32⟩
  | 43 => ⟨S8x1x512x512, .i1⟩
  | 44 => ⟨S_, .i32⟩
  | 45 => ⟨S8x1x512x512, .i32⟩
  | 46 => ⟨S8x1x512x512, .i32⟩
  | 47 => ⟨S8x1x512x512, .i32⟩
  | 48 => ⟨S8x1x512x512x1, .i32⟩
  | 49 => ⟨S1, .i32⟩
  | 50 => ⟨S_, .i32⟩
  | 51 => ⟨S8x1x512x512x1, .i32⟩
  | 52 => ⟨S8x1x512x512x1, .i1⟩
  | 53 => ⟨S1x1x1x1x1, .i32⟩
  | 54 => ⟨S8x1x512x512x1, .i32⟩
  | 55 => ⟨S8x1x512x512x1, .i1⟩
  | 56 => ⟨S8x1x512x512x1, .i1⟩
  | 57 => ⟨S_, .i1⟩
  | 58 => ⟨S8x1x512x512, .i1⟩
  | 59 => ⟨S8x1x512x512, .f32⟩
  | 60 => ⟨S_, .f32⟩
  | 61 => ⟨S8x1x512x512, .f32⟩
  | 62 => ⟨S8x1x512x512, .f32⟩
  | 63 => ⟨S8x512x512, .f32⟩
  | 64 => ⟨S8x262144, .i32⟩
  | 65 => ⟨S_, .i32⟩
  | 66 => ⟨S8x262144, .i32⟩
  | 67 => ⟨S8x262144, .i1⟩
  | 68 => ⟨S_, .i32⟩
  | 69 => ⟨S8x262144, .i32⟩
  | 70 => ⟨S8x262144, .i32⟩
  | 71 => ⟨S8x262144, .i32⟩
  | 72 => ⟨S8x262144x1, .i32⟩
  | 73 => ⟨S1, .i32⟩
  | 74 => ⟨S_, .i32⟩
  | 75 => ⟨S8x262144x1, .i32⟩
  | 76 => ⟨S8x262144x1, .i1⟩
  | 77 => ⟨S1x1x1, .i32⟩
  | 78 => ⟨S8x262144x1, .i32⟩
  | 79 => ⟨S8x262144x1, .i1⟩
  | 80 => ⟨S8x262144x1, .i1⟩
  | 81 => ⟨S_, .i1⟩
  | 82 => ⟨S8x262144, .i1⟩
  | 83 => ⟨S8x262144, .f32⟩
  | 84 => ⟨S_, .f32⟩
  | 85 => ⟨S8x262144, .f32⟩
  | 86 => ⟨S8x262144, .f32⟩
  | 87 => ⟨S8x512x512, .f32⟩
  | 88 => ⟨S8x512x512, .i1⟩
  | 89 => ⟨S_, .f32⟩
  | 90 => ⟨S_, .f32⟩
  | 91 => ⟨S8x512x512, .f32⟩
  | 92 => ⟨S8x512x512, .f32⟩
  | 93 => ⟨S8x512x512, .f32⟩
  | 94 => ⟨S_, .f32⟩
  | 95 => ⟨S8, .f32⟩
  | 96 => ⟨S8, .f32⟩
  | 97 => ⟨S_, .f32⟩
  | 98 => ⟨S8, .f32⟩
  | 99 => ⟨S_, .f32⟩
  | 100 => ⟨S8, .f32⟩
  | 101 => ⟨S8, .f32⟩
  | 102 => ⟨S8, .f32⟩
  | 103 => ⟨S_, .f32⟩
  | 104 => ⟨S_, .f32⟩
  | 105 => ⟨S_, .f32⟩
  | 106 => ⟨S_, .f32⟩
  | 107 => ⟨S_, .f32⟩
  | 108 => ⟨S1, .f32⟩
  | 109 => ⟨S1, .f32⟩
  | 110 => ⟨S1, .f32⟩
  | 111 => ⟨S1, .f32⟩
  | 112 => ⟨S4, .f32⟩
  | _ => ⟨S8x19x512x512, .f32⟩

abbrev hbmTy (i : Nat) : BufTy := match i / 128 with
  | 0 => hbmTy0_0 i
  | 1 => hbmTy0_1 i
  | 2 => hbmTy0_2 i
  | _ => ⟨S8x19x512x512, .f32⟩

abbrev bufTy : (tb : Table) → Fin (tcTables nBuf tb) → BufTy
  | .hbm, ⟨i, _⟩ => hbmTy i
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v43 : Ref sig .tc := ⟨.hbm, 78, rfl⟩
abbrev main_c_13 : Ref sig .tc := ⟨.hbm, 79, rfl⟩
abbrev main_c_14 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v44 : Ref sig .tc := ⟨.hbm, 86, rfl⟩
abbrev main_v45 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_cst : Ref sig .tc := ⟨.hbm, 107, rfl⟩
abbrev main_call3_v14 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_cst_15 : Ref sig .tc := ⟨.hbm, 136, rfl⟩
abbrev main_call5_v0 : Ref sig .tc := ⟨.hbm, 137, rfl⟩
abbrev main_call5_v1 : Ref sig .tc := ⟨.hbm, 138, rfl⟩
abbrev main_v52 : Ref sig .tc := ⟨.hbm, 139, rfl⟩
abbrev main_v53 : Ref sig .tc := ⟨.hbm, 140, rfl⟩
abbrev main_cst_16 : Ref sig .tc := ⟨.hbm, 141, rfl⟩
abbrev main_v54 : Ref sig .tc := ⟨.hbm, 142, rfl⟩
abbrev main_v55 : Ref sig .tc := ⟨.hbm, 143, rfl⟩
abbrev main_cst_17 : Ref sig .tc := ⟨.hbm, 144, rfl⟩
abbrev main_v56 : Ref sig .tc := ⟨.hbm, 145, rfl⟩
abbrev main_cst_18 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_cst_19 : Ref sig .tc := ⟨.hbm, 150, rfl⟩
abbrev main_v60 : Ref sig .tc := ⟨.hbm, 151, rfl⟩
abbrev main_cst_20 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_cst_21 : Ref sig .tc := ⟨.hbm, 157, rfl⟩
abbrev main_v65 : Ref sig .tc := ⟨.hbm, 158, rfl⟩
abbrev main_v66 : Ref sig .tc := ⟨.hbm, 159, rfl⟩
abbrev main_cst_22 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_c_23 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_c_24 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_cst_25 : Ref sig .tc := ⟨.hbm, 172, rfl⟩
abbrev main_v76 : Ref sig .tc := ⟨.hbm, 173, rfl⟩
abbrev main_v77 : Ref sig .tc := ⟨.hbm, 174, rfl⟩
abbrev main_cst_26 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_v78 : Ref sig .tc := ⟨.hbm, 179, rfl⟩
abbrev main_v79 : Ref sig .tc := ⟨.hbm, 180, rfl⟩
abbrev main_cst_27 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_v80 : Ref sig .tc := ⟨.hbm, 185, rfl⟩
abbrev main_v81 : Ref sig .tc := ⟨.hbm, 186, rfl⟩
abbrev main_cst_28 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_cst_29 : Ref sig .tc := ⟨.hbm, 198, rfl⟩
abbrev main_v92 : Ref sig .tc := ⟨.hbm, 199, rfl⟩
abbrev main_cst_30 : Ref sig .tc := ⟨.hbm, 200, rfl⟩
abbrev main_v93 : Ref sig .tc := ⟨.hbm, 201, rfl⟩
abbrev main_cst_31 : Ref sig .tc := ⟨.hbm, 202, rfl⟩
abbrev main_v94 : Ref sig .tc := ⟨.hbm, 203, rfl⟩
abbrev main_cst_32 : Ref sig .tc := ⟨.hbm, 204, rfl⟩
abbrev main_v95 : Ref sig .tc := ⟨.hbm, 205, rfl⟩
abbrev main_cst_33 : Ref sig .tc := ⟨.hbm, 206, rfl⟩
abbrev main_v96 : Ref sig .tc := ⟨.hbm, 207, rfl⟩
abbrev main_v97 : Ref sig .tc := ⟨.hbm, 208, rfl⟩
abbrev main_c_34 : Ref sig .tc := ⟨.hbm, 209, rfl⟩
abbrev main_call8_v0 : Ref sig .tc := ⟨.hbm, 210, rfl⟩
abbrev main_call8_v1 : Ref sig .tc := ⟨.hbm, 211, rfl⟩
abbrev main_v98 : Ref sig .tc := ⟨.hbm, 212, rfl⟩
abbrev main_v99 : Ref sig .tc := ⟨.hbm, 213, rfl⟩
abbrev main_c_35 : Ref sig .tc := ⟨.hbm, 214, rfl⟩
abbrev main_v100 : Ref sig .tc := ⟨.hbm, 215, rfl⟩
abbrev main_v101 : Ref sig .tc := ⟨.hbm, 216, rfl⟩
abbrev main_c_36 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_c_37 : Ref sig .tc := ⟨.hbm, 221, rfl⟩
abbrev main_call9_v0 : Ref sig .tc := ⟨.hbm, 222, rfl⟩
abbrev main_call9_v1 : Ref sig .tc := ⟨.hbm, 223, rfl⟩
abbrev main_v105 : Ref sig .tc := ⟨.hbm, 224, rfl⟩
abbrev main_cst_38 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_c_39 : Ref sig .tc := ⟨.hbm, 229, rfl⟩
abbrev main_v109 : Ref sig .tc := ⟨.hbm, 230, rfl⟩
abbrev main_v110 : Ref sig .tc := ⟨.hbm, 231, rfl⟩
abbrev main_c_40 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩
abbrev main_c_41 : Ref sig .tc := ⟨.hbm, 236, rfl⟩
abbrev main_v114 : Ref sig .tc := ⟨.hbm, 237, rfl⟩
abbrev main_v115 : Ref sig .tc := ⟨.hbm, 238, rfl⟩
abbrev main_c_42 : Ref sig .tc := ⟨.hbm, 239, rfl⟩
abbrev main_v116 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_cst_43 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_cst_44 : Ref sig .tc := ⟨.hbm, 251, rfl⟩
abbrev main_v126 : Ref sig .tc := ⟨.hbm, 252, rfl⟩
abbrev main_v127 : Ref sig .tc := ⟨.hbm, 253, rfl⟩
abbrev main_cst_45 : Ref sig .tc := ⟨.hbm, 254, rfl⟩
abbrev main_v128 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_cst_46 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_cst_47 : Ref sig .tc := ⟨.hbm, 263, rfl⟩
abbrev main_v135 : Ref sig .tc := ⟨.hbm, 264, rfl⟩
abbrev main_v136 : Ref sig .tc := ⟨.hbm, 265, rfl⟩
abbrev main_cst_48 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_cst_49 : Ref sig .tc := ⟨.hbm, 270, rfl⟩
abbrev main_v140 : Ref sig .tc := ⟨.hbm, 271, rfl⟩
abbrev main_v141 : Ref sig .tc := ⟨.hbm, 272, rfl⟩
abbrev main_call10_cst : Ref sig .tc := ⟨.hbm, 273, rfl⟩
abbrev main_call10_v0 : Ref sig .tc := ⟨.hbm, 274, rfl⟩
abbrev main_call10_cst_0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_call10_v5 : Ref sig .tc := ⟨.hbm, 280, rfl⟩
abbrev main_call10_v6 : Ref sig .tc := ⟨.hbm, 281, rfl⟩
abbrev main_call10_cst_1 : Ref sig .tc := ⟨.hbm, 282, rfl⟩
abbrev main_call10_v7 : Ref sig .tc := ⟨.hbm, 283, rfl⟩
abbrev main_call10_v8 : Ref sig .tc := ⟨.hbm, 284, rfl⟩
abbrev main_call10_v9 : Ref sig .tc := ⟨.hbm, 285, rfl⟩
abbrev main_call10_v10 : Ref sig .tc := ⟨.hbm, 286, rfl⟩
abbrev main_v142 : Ref sig .tc := ⟨.hbm, 287, rfl⟩
abbrev main_c_50 : Ref sig .tc := ⟨.hbm, 288, rfl⟩
abbrev main_c_51 : Ref sig .tc := ⟨.hbm, 289, rfl⟩
abbrev main_call11_v0 : Ref sig .tc := ⟨.hbm, 290, rfl⟩
abbrev main_call11_v1 : Ref sig .tc := ⟨.hbm, 291, rfl⟩
abbrev main_call11_v2 : Ref sig .tc := ⟨.hbm, 292, rfl⟩
abbrev main_call11_v3 : Ref sig .tc := ⟨.hbm, 293, rfl⟩
abbrev main_call11_v4 : Ref sig .tc := ⟨.hbm, 294, rfl⟩
abbrev main_v143 : Ref sig .tc := ⟨.hbm, 295, rfl⟩
abbrev main_v144 : Ref sig .tc := ⟨.hbm, 296, rfl⟩
abbrev main_call12_c : Ref sig .tc := ⟨.hbm, 297, rfl⟩
abbrev main_call12_v0 : Ref sig .tc := ⟨.hbm, 298, rfl⟩
abbrev main_call12_v1 : Ref sig .tc := ⟨.hbm, 299, rfl⟩
abbrev main_call12_c_0 : Ref sig .tc := ⟨.hbm, 300, rfl⟩
abbrev main_call12_v2 : Ref sig .tc := ⟨.hbm, 301, rfl⟩
abbrev main_call12_v3 : Ref sig .tc := ⟨.hbm, 302, rfl⟩
abbrev main_call12_v4 : Ref sig .tc := ⟨.hbm, 303, rfl⟩
abbrev main_call12_v5 : Ref sig .tc := ⟨.hbm, 304, rfl⟩
abbrev main_call12_c_1 : Ref sig .tc := ⟨.hbm, 305, rfl⟩
abbrev main_call12_c_2 : Ref sig .tc := ⟨.hbm, 306, rfl⟩
abbrev main_call12_v6 : Ref sig .tc := ⟨.hbm, 307, rfl⟩
abbrev main_call12_v7 : Ref sig .tc := ⟨.hbm, 308, rfl⟩
abbrev main_call12_v8 : Ref sig .tc := ⟨.hbm, 309, rfl⟩
abbrev main_call12_v9 : Ref sig .tc := ⟨.hbm, 310, rfl⟩
abbrev main_call12_v10 : Ref sig .tc := ⟨.hbm, 311, rfl⟩
abbrev main_call12_v11 : Ref sig .tc := ⟨.hbm, 312, rfl⟩
abbrev main_call12_c_3 : Ref sig .tc := ⟨.hbm, 313, rfl⟩
abbrev main_call12_v12 : Ref sig .tc := ⟨.hbm, 314, rfl⟩
abbrev main_call12_v13 : Ref sig .tc := ⟨.hbm, 315, rfl⟩
abbrev main_call12_cst : Ref sig .tc := ⟨.hbm, 316, rfl⟩
abbrev main_call12_v14 : Ref sig .tc := ⟨.hbm, 317, rfl⟩
abbrev main_v145 : Ref sig .tc := ⟨.hbm, 318, rfl⟩
abbrev main_v146 : Ref sig .tc := ⟨.hbm, 319, rfl⟩
abbrev main_v147 : Ref sig .tc := ⟨.hbm, 320, rfl⟩
abbrev main_call13_c : Ref sig .tc := ⟨.hbm, 321, rfl⟩
abbrev main_call13_v0 : Ref sig .tc := ⟨.hbm, 322, rfl⟩
abbrev main_call13_v1 : Ref sig .tc := ⟨.hbm, 323, rfl⟩
abbrev main_call13_c_0 : Ref sig .tc := ⟨.hbm, 324, rfl⟩
abbrev main_call13_v2 : Ref sig .tc := ⟨.hbm, 325, rfl⟩
abbrev main_call13_v3 : Ref sig .tc := ⟨.hbm, 326, rfl⟩
abbrev main_call13_v4 : Ref sig .tc := ⟨.hbm, 327, rfl⟩
abbrev main_call13_v5 : Ref sig .tc := ⟨.hbm, 328, rfl⟩
abbrev main_call13_c_1 : Ref sig .tc := ⟨.hbm, 329, rfl⟩
abbrev main_call13_c_2 : Ref sig .tc := ⟨.hbm, 330, rfl⟩
abbrev main_call13_v6 : Ref sig .tc := ⟨.hbm, 331, rfl⟩
abbrev main_call13_v7 : Ref sig .tc := ⟨.hbm, 332, rfl⟩
abbrev main_call13_v8 : Ref sig .tc := ⟨.hbm, 333, rfl⟩
abbrev main_call13_v9 : Ref sig .tc := ⟨.hbm, 334, rfl⟩
abbrev main_call13_v10 : Ref sig .tc := ⟨.hbm, 335, rfl⟩
abbrev main_call13_v11 : Ref sig .tc := ⟨.hbm, 336, rfl⟩
abbrev main_call13_c_3 : Ref sig .tc := ⟨.hbm, 337, rfl⟩
abbrev main_call13_v12 : Ref sig .tc := ⟨.hbm, 338, rfl⟩
abbrev main_call13_v13 : Ref sig .tc := ⟨.hbm, 339, rfl⟩
abbrev main_call13_cst : Ref sig .tc := ⟨.hbm, 340, rfl⟩
abbrev main_call13_v14 : Ref sig .tc := ⟨.hbm, 341, rfl⟩
abbrev main_v148 : Ref sig .tc := ⟨.hbm, 342, rfl⟩
abbrev main_v149 : Ref sig .tc := ⟨.hbm, 343, rfl⟩
abbrev main_v150 : Ref sig .tc := ⟨.hbm, 344, rfl⟩
abbrev main_cst_52 : Ref sig .tc := ⟨.hbm, 345, rfl⟩
abbrev main_call14_v0 : Ref sig .tc := ⟨.hbm, 346, rfl⟩
abbrev main_call14_v1 : Ref sig .tc := ⟨.hbm, 347, rfl⟩
abbrev main_v151 : Ref sig .tc := ⟨.hbm, 348, rfl⟩
abbrev main_v152 : Ref sig .tc := ⟨.hbm, 349, rfl⟩
abbrev main_cst_53 : Ref sig .tc := ⟨.hbm, 350, rfl⟩
abbrev main_v153 : Ref sig .tc := ⟨.hbm, 351, rfl⟩
abbrev main_v154 : Ref sig .tc := ⟨.hbm, 352, rfl⟩
abbrev main_cst_54 : Ref sig .tc := ⟨.hbm, 353, rfl⟩
abbrev main_v155 : Ref sig .tc := ⟨.hbm, 354, rfl⟩
abbrev main_cst_55 : Ref sig .tc := ⟨.hbm, 355, rfl⟩
abbrev main_v156 : Ref sig .tc := ⟨.hbm, 356, rfl⟩
abbrev main_v157 : Ref sig .tc := ⟨.hbm, 357, rfl⟩
abbrev main_v158 : Ref sig .tc := ⟨.hbm, 358, rfl⟩
abbrev main_cst_56 : Ref sig .tc := ⟨.hbm, 359, rfl⟩
abbrev main_v159 : Ref sig .tc := ⟨.hbm, 360, rfl⟩
abbrev main_cst_57 : Ref sig .tc := ⟨.hbm, 361, rfl⟩
abbrev main_v160 : Ref sig .tc := ⟨.hbm, 362, rfl⟩
abbrev main_cst_58 : Ref sig .tc := ⟨.hbm, 363, rfl⟩
abbrev main_v161 : Ref sig .tc := ⟨.hbm, 364, rfl⟩
abbrev main_v162 : Ref sig .tc := ⟨.hbm, 365, rfl⟩
abbrev main_v163 : Ref sig .tc := ⟨.hbm, 366, rfl⟩
abbrev main_v164 : Ref sig .tc := ⟨.hbm, 367, rfl⟩
abbrev main_v165 : Ref sig .tc := ⟨.hbm, 368, rfl⟩

abbrev nD : Nat := 1
abbrev τ : Topo := Topo.v7x

variable {F : FTy → Type} [FloatOps F]

class Facts₀ : Prop where
  shapeCasts_S8x512x512_S8x262144 : S8x512x512.ShapeCasts S8x262144
  bcast_S_S8x262144 : S_.BroadcastsInDim S8x262144 (![] : Fin 0 → Fin S8x262144.rank)
  bcast_S_S8x20 : S_.BroadcastsInDim S8x20 (![] : Fin 0 → Fin S8x20.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  bcast_S8x262144_S8x262144x1_0_1 : S8x262144.BroadcastsInDim S8x262144x1 (![0, 1] : Fin 2 → Fin S8x262144x1.rank)
  concatenates_S8x262144x1_S8x262144x1_S8x262144x2_d2 : Shape.Concatenates [S8x262144x1, S8x262144x1] S8x262144x2 2
  slices_S8x20_S8x19_0_0 : S8x20.Slices ![0, 0] S8x19
  reducesTo_S8x19_S8_d1 : S8x19.ReducesTo [1] S8
  h_S_ : 0 < S_.numel
  bcast_S8x1_S8x19_0_1 : S8x1.BroadcastsInDim S8x19 (![0, 1] : Fin 2 → Fin S8x19.rank)
  bcast_S_S8x19 : S_.BroadcastsInDim S8x19 (![] : Fin 0 → Fin S8x19.rank)
  reducesTo_S8x19x512x512_S8x512x512_d1 : S8x19x512x512.ReducesTo [1] S8x512x512
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x19x512x512_0_1_2_3 : S8x1x512x512.BroadcastsInDim S8x19x512x512 (![0, 1, 2, 3] : Fin 4 → Fin S8x19x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  shapeCasts_S8x262144_S8x262144x1 : S8x262144.ShapeCasts S8x262144x1
  bcast_S_S8x262144x1 : S_.BroadcastsInDim S8x262144x1 (![] : Fin 0 → Fin S8x262144x1.rank)
  bcast_S1_S1x1x1_2 : S1.BroadcastsInDim S1x1x1 (![2] : Fin 1 → Fin S1x1x1.rank)
  bcast_S1x1x1_S8x262144x1_0_1_2 : S1x1x1.BroadcastsInDim S8x262144x1 (![0, 1, 2] : Fin 3 → Fin S8x262144x1.rank)
  reducesTo_S8x262144x1_S8x262144_d2 : S8x262144x1.ReducesTo [2] S8x262144
  shapeCasts_S8x262144_S8x512x512 : S8x262144.ShapeCasts S8x512x512
  reducesTo_S8x512x512_S8_d1_2 : S8x512x512.ReducesTo [1, 2] S8
  bcast_S_S8 : S_.BroadcastsInDim S8 (![] : Fin 0 → Fin S8.rank)
  reducesTo_S8_S_d0 : S8.ReducesTo [0] S_
  shapeCasts_S8x1x512x512_S2097152 : S8x1x512x512.ShapeCasts S2097152
  bcast_S_S2097152 : S_.BroadcastsInDim S2097152 (![] : Fin 0 → Fin S2097152.rank)
  natLt_1_32 : 1 < 32
  reducesTo_S2097152_S_d0 : S2097152.ReducesTo [0] S_
  reducesTo_S8x1x512x512_S8x512x512_d1 : S8x1x512x512.ReducesTo [1] S8x512x512
  bcast_S_S1 : S_.BroadcastsInDim S1 (![] : Fin 0 → Fin S1.rank)
  concatenates_S1_S1_S1_S1_S4_d0 : Shape.Concatenates [S1, S1, S1, S1] S4 0
  scatter_S8x20_S8x262144x2_S8x262144_n_01_01_2_wf : ScatterDims.WF S8x20 S8x262144x2 S8x262144 [] [0, 1] [0, 1] 2
  gather_S8x19x512x512_S8x1x512x512x1_S8x1x512x512_n_1_023_023_1_4_1111_wf : GatherDims.WF S8x19x512x512 S8x1x512x512x1 S8x1x512x512 [] [1] [0, 2, 3] [1] [0, 2, 3] 4 ![1, 1, 1, 1]
  gather_S8x19_S8x262144x1_S8x262144_n_1_0_0_1_2_11_wf : GatherDims.WF S8x19 S8x262144x1 S8x262144 [] [1] [0] [1] [0] 2 ![1, 1]

variable [Facts₀]

def scatter_S8x20_S8x262144x2_S8x262144_n_01_01_2 : ScatterDims S8x20 S8x262144x2 S8x262144 where
  updateWindowDims := []
  insertedWindowDims := [0, 1]
  scatterDimsToOperandDims := [0, 1]
  indexVectorDim := 2
  wf := scatter_S8x20_S8x262144x2_S8x262144_n_01_01_2_wf
def gather_S8x19x512x512_S8x1x512x512x1_S8x1x512x512_n_1_023_023_1_4_1111 : GatherDims S8x19x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x19x512x512_S8x1x512x512x1_S8x1x512x512_n_1_023_023_1_4_1111_wf
def gather_S8x19_S8x262144x1_S8x262144_n_1_0_0_1_2_11 : GatherDims S8x19 S8x262144x1 S8x262144 where
  offsetDims := []
  collapsedSliceDims := [1]
  operandBatchingDims := [0]
  startIndicesBatchingDims := [0]
  startIndexMap := [1]
  indexVectorDim := 2
  sliceSizes := ![1, 1]
  wf := gather_S8x19_S8x262144x1_S8x262144_n_1_0_0_1_2_11_wf

class Facts : Prop extends Facts₀ where

variable [Facts]
-- ==== Proof.KB.Runs.lean ====
import proofs.«428925_j42245298323666_3_alg».proof.Proof.Gen.Kernel.Launch
import proofs.«428925_j42245298323666_3_alg».proof.Proof.Gen.Kernel.Skeleton
import proofs.«428925_j42245298323666_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten []) (fun b => m (c, b))

abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

set_option maxHeartbeats 8000000 in

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem hostOps1_fresh : (hostOps1 : List (HloOp τ sig (Elt F))).Forall fun op => op.fresh = ∅ := by
  simp only [List.Forall, hostOps1]; repeat' constructor

theorem keeps_of_singleton {op : HloOp τ sig (Elt F)} {y : Ref sig .tc} (hw : op.writes = {Proc.devRef .tc y})
    (hy : ∀ w : Fin 5, Pipeline.arrRef spec0 w ≠ y) : ∀ w, Proc.devRef .tc (Pipeline.arrRef spec0 w) ∉ op.writes := by
  intro w; rw [hw, Finset.mem_singleton]; exact StableHlo.devRef_ne_of_ne (hy w)

theorem hostOps1_keeps : (hostOps1 : List (HloOp τ sig (Elt F))).Forall fun op =>
    ∀ w, Proc.devRef .tc (Pipeline.arrRef spec0 w) ∉ op.writes := by
  simp only [List.Forall, hostOps1]
  repeat' apply And.intro
  all_goals exact keeps_of_singleton rfl (by decide)

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp hostOps1_keeps) op hop

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).1 2).trans (((dats 0 c).arrAt_in 2 rfl _).trans ((hA c 2).trans (V_main_arg1 m c))),
     ((h c).1 1).trans (((dats 0 c).arrAt_in 1 rfl _).trans ((hA c 1).trans (V_main_arg2 m c))),
     ((h c).1 3).trans (((dats 0 c).arrAt_in 3 rfl _).trans ((hA c 3).trans (V_main_arg3 m c)))⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel

theorem noFlush0_4 : ∀ t : Fin cfg0.N, ¬cond0_1 (grid0.coords t) → (cfg0.win 4).flush t = false := by decide +kernel

theorem liveAt0_4 : ∀ t : Fin cfg0.N, cond0_1 (grid0.coords t) → cfg0.idle 4 (grid0.coords t) = false := by decide +kernel

abbrev VO0_4 : View sig .tc .vmem S1x8x128 .f32 := (Memref.whole cc0_stg4_0 : Memref sig .tc .vmem S1x8x128 .f32).view

abbrev ms0_0 (t : Fin cfg0.N) : Memref sig .tc .vmem S1x19x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

abbrev scM0_0 : Memref sig .tc .vmem S8x128 .f32 := Memref.whole cc0_scratch0

abbrev VS0_0 : View sig .tc .vmem S8x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.HFrame

end
-- ==== Proof.KB.RunB.lean ====
import proofs.«428925_j42245298323666_3_alg».proof.Proof.KB.Runs

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__nll_bce_kernel i arg2 harg2 arg3 harg3 arg4 harg4 arg5 harg5 arg6 harg6 arg7 harg7) K } := by
  refine ⟨[], ?_, fun xi4 E K => ?run⟩
  case run =>
    simp only [cc0__nll_bce_kernel_eq_skeleton]; unfold cc0__nll_bce_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.HFrame

end
-- ==== Proof.KB.RunA.lean ====
import proofs.«428925_j42245298323666_3_alg».proof.Proof.KB.RunB

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x19x128x512 .f32) (x1 : Vec F S1x128x512 .i32) (x2 : Vec F S1x1x128x512 .f32) (x3 : Vec F S1x1x128x512 .i32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__nll_bce_kernel i arg2 harg2 arg3 harg3 arg4 harg4 arg5 harg5 arg6 harg6 arg7 harg7) K } := by
  refine ⟨[], ?_, fun xi4 E K => ?run⟩
  case run =>
    simp only [cc0__nll_bce_kernel_eq_skeleton]; unfold cc0__nll_bce_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.HFrame

end
-- ==== Proof.KB.RunC.lean ====
import proofs.«428925_j42245298323666_3_alg».proof.Proof.KB.RunA

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) :
    Σ' (L4 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__nll_bce_kernel i arg2 harg2 arg3 harg3 arg4 harg4 arg5 harg5 arg6 harg6 arg7 harg7) K } := by
  refine ⟨?_, ?_, fun E K => ?run⟩
  case run =>
    simp only [cc0__nll_bce_kernel_eq_skeleton]; unfold cc0__nll_bce_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.HFrame

end
-- ==== Proof.KB.Frame.lean ====
import proofs.«428925_j42245298323666_3_alg».proof.Proof.KB.RunC

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole)

def out0_A_4 (hc0 : cond0_0 i) (hc1 : ¬cond0_1 i)
    (x0 : Vec F S1x19x128x512 .f32) (x1 : Vec F S1x128x512 .i32) (x2 : Vec F S1x1x128x512 .f32) (x3 : Vec F S1x1x128x512 .i32) : Vec F S1x8x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

theorem scover0_A_0 (hc0 : cond0_0 i) (hc1 : ¬cond0_1 i)
    (x0 : Vec F S1x19x128x512 .f32) (x1 : Vec F S1x128x512 .i32) (x2 : Vec F S1x1x128x512 .f32) (x3 : Vec F S1x1x128x512 .i32) (y : S8x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S8x128.size (by sl_kernel_rfl) y

def sout0_A_0 (hc0 : cond0_0 i) (hc1 : ¬cond0_1 i)
    (x0 : Vec F S1x19x128x512 .f32) (x1 : Vec F S1x128x512 .i32) (x2 : Vec F S1x1x128x512 .f32) (x3 : Vec F S1x1x128x512 .i32) : Vec F S8x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_B_4 (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) : Vec F S1x8x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) (y : S8x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S8x128.size (by sl_kernel_rfl) y

def sout0_B_0 (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

def out0_C_4 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) : Vec F S1x8x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) (y : S8x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S8x128.size (by sl_kernel_rfl) y

def sout0_C_0 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end

def outsAt0 (c : Dev nD) : (n : ℕ) → n < cfg0.N → Vec F S1x8x128 .f32 × Vec F S8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · by_cases h1 : t.val % 4 = 3
    · exfalso; omega
    · have hn1 : ¬cond0_1 (grid0.coords t) := (fun h => h1 ((hcond0_1 t).mp h))
      rw [Dat.leavesExact_idle (dats m 0 c) 4 t (idleAt0_4 t hn1) (noFlush0_4 t hn1)]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hn1 (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hn1 (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · have hp1 : cond0_1 (grid0.coords t) := ((hcond0_1 t).mpr h1)
      rw [show (dats m 0 c).leavesExact 4 t = owns (c : Thread nD τ) (ms0_4 t) fullShare ((dats m 0 c).after 4 t) from by
        unfold Dat.leavesExact; rw [liveAt0_4 t hp1], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) hp1 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · have hn1 : ¬cond0_1 (grid0.coords t) := (fun h => h1 ((hcond0_1 t).mp h))
      rw [Dat.leavesExact_idle (dats m 0 c) 4 t (idleAt0_4 t hn1) (noFlush0_4 t hn1)]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) hn1 (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
set_option maxHeartbeats 8000000 in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.Kernel.HFrame.run_main' depends on axioms: [propext, Classical.choice, Quot.sound] -/
#guard_msgs in #print axioms run_main

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.HFrame

end
-- ==== Proof.KI.Runs.lean ====
import proofs.«428925_j42245298323666_3_alg».proof.Proof.Gen.KernelIdeal.Launch
import proofs.«428925_j42245298323666_3_alg».proof.Proof.Gen.KernelIdeal.Skeleton
import proofs.«428925_j42245298323666_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten []) (fun b => m (c, b))

abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

set_option maxHeartbeats 8000000 in

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem hostOps1_fresh : (hostOps1 : List (HloOp τ sig (Elt F))).Forall fun op => op.fresh = ∅ := by
  simp only [List.Forall, hostOps1]; repeat' constructor

theorem keeps_of_singleton {op : HloOp τ sig (Elt F)} {y : Ref sig .tc} (hw : op.writes = {Proc.devRef .tc y})
    (hy : ∀ w : Fin 5, Pipeline.arrRef spec0 w ≠ y) : ∀ w, Proc.devRef .tc (Pipeline.arrRef spec0 w) ∉ op.writes := by
  intro w; rw [hw, Finset.mem_singleton]; exact StableHlo.devRef_ne_of_ne (hy w)

theorem hostOps1_keeps : (hostOps1 : List (HloOp τ sig (Elt F))).Forall fun op =>
    ∀ w, Proc.devRef .tc (Pipeline.arrRef spec0 w) ∉ op.writes := by
  simp only [List.Forall, hostOps1]
  repeat' apply And.intro
  all_goals exact keeps_of_singleton rfl (by decide)

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  exact (List.forall_iff_forall_mem.mp hostOps1_keeps) op hop

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).1 2).trans (((dats 0 c).arrAt_in 2 rfl _).trans ((hA c 2).trans (V_main_arg1 m c))),
     ((h c).1 1).trans (((dats 0 c).arrAt_in 1 rfl _).trans ((hA c 1).trans (V_main_arg2 m c))),
     ((h c).1 3).trans (((dats 0 c).arrAt_in 3 rfl _).trans ((hA c 3).trans (V_main_arg3 m c)))⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel

theorem noFlush0_4 : ∀ t : Fin cfg0.N, ¬cond0_1 (grid0.coords t) → (cfg0.win 4).flush t = false := by decide +kernel

theorem liveAt0_4 : ∀ t : Fin cfg0.N, cond0_1 (grid0.coords t) → cfg0.idle 4 (grid0.coords t) = false := by decide +kernel

abbrev VO0_4 : View sig .tc .vmem S1x8x128 .f32 := (Memref.whole cc0_stg4_0 : Memref sig .tc .vmem S1x8x128 .f32).view

abbrev ms0_0 (t : Fin cfg0.N) : Memref sig .tc .vmem S1x19x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

abbrev scM0_0 : Memref sig .tc .vmem S8x128 .f32 := Memref.whole cc0_scratch0

abbrev VS0_0 : View sig .tc .vmem S8x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.HFrame

end
-- ==== Proof.KI.RunB.lean ====
import proofs.«428925_j42245298323666_3_alg».proof.Proof.KI.Runs

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__nll_bce_kernel i arg2 harg2 arg3 harg3 arg4 harg4 arg5 harg5 arg6 harg6 arg7 harg7) K } := by
  refine ⟨[], ?_, fun xi4 E K => ?run⟩
  case run =>
    simp only [cc0__nll_bce_kernel_eq_skeleton]; unfold cc0__nll_bce_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.HFrame

end
-- ==== Proof.KI.RunA.lean ====
import proofs.«428925_j42245298323666_3_alg».proof.Proof.KI.RunB

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x19x128x512 .f32) (x1 : Vec F S1x128x512 .i32) (x2 : Vec F S1x1x128x512 .f32) (x3 : Vec F S1x1x128x512 .i32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__nll_bce_kernel i arg2 harg2 arg3 harg3 arg4 harg4 arg5 harg5 arg6 harg6 arg7 harg7) K } := by
  refine ⟨[], ?_, fun xi4 E K => ?run⟩
  case run =>
    simp only [cc0__nll_bce_kernel_eq_skeleton]; unfold cc0__nll_bce_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.HFrame

end
-- ==== Proof.KI.RunC.lean ====
import proofs.«428925_j42245298323666_3_alg».proof.Proof.KI.RunA

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) :
    Σ' (L4 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__nll_bce_kernel i arg2 harg2 arg3 harg3 arg4 harg4 arg5 harg5 arg6 harg6 arg7 harg7) K } := by
  refine ⟨?_, ?_, fun E K => ?run⟩
  case run =>
    simp only [cc0__nll_bce_kernel_eq_skeleton]; unfold cc0__nll_bce_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.HFrame

end
-- ==== Proof.KI.Frame.lean ====
import proofs.«428925_j42245298323666_3_alg».proof.Proof.KI.RunC

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole)

def out0_A_4 (hc0 : cond0_0 i) (hc1 : ¬cond0_1 i)
    (x0 : Vec F S1x19x128x512 .f32) (x1 : Vec F S1x128x512 .i32) (x2 : Vec F S1x1x128x512 .f32) (x3 : Vec F S1x1x128x512 .i32) : Vec F S1x8x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

theorem scover0_A_0 (hc0 : cond0_0 i) (hc1 : ¬cond0_1 i)
    (x0 : Vec F S1x19x128x512 .f32) (x1 : Vec F S1x128x512 .i32) (x2 : Vec F S1x1x128x512 .f32) (x3 : Vec F S1x1x128x512 .i32) (y : S8x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S8x128.size (by sl_kernel_rfl) y

def sout0_A_0 (hc0 : cond0_0 i) (hc1 : ¬cond0_1 i)
    (x0 : Vec F S1x19x128x512 .f32) (x1 : Vec F S1x128x512 .i32) (x2 : Vec F S1x1x128x512 .f32) (x3 : Vec F S1x1x128x512 .i32) : Vec F S8x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

def out0_B_4 (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) : Vec F S1x8x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) (y : S8x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S8x128.size (by sl_kernel_rfl) y

def sout0_B_0 (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

def out0_C_4 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) : Vec F S1x8x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) (y : S8x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S8x128.size (by sl_kernel_rfl) y

def sout0_C_0 (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

end

def outsAt0 (c : Dev nD) : (n : ℕ) → n < cfg0.N → Vec F S1x8x128 .f32 × Vec F S8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · by_cases h1 : t.val % 4 = 3
    · exfalso; omega
    · have hn1 : ¬cond0_1 (grid0.coords t) := (fun h => h1 ((hcond0_1 t).mp h))
      rw [Dat.leavesExact_idle (dats m 0 c) 4 t (idleAt0_4 t hn1) (noFlush0_4 t hn1)]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hn1 (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hn1 (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · have hp1 : cond0_1 (grid0.coords t) := ((hcond0_1 t).mpr h1)
      rw [show (dats m 0 c).leavesExact 4 t = owns (c : Thread nD τ) (ms0_4 t) fullShare ((dats m 0 c).after 4 t) from by
        unfold Dat.leavesExact; rw [liveAt0_4 t hp1], after0_4]
      rw [outsAt0_C m c t h0 h1]
      unfold out0_C_4 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) hp1 (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · have hn1 : ¬cond0_1 (grid0.coords t) := (fun h => h1 ((hcond0_1 t).mp h))
      rw [Dat.leavesExact_idle (dats m 0 c) 4 t (idleAt0_4 t hn1) (noFlush0_4 t hn1)]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) hn1 (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
set_option maxHeartbeats 8000000 in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.KernelIdeal.HFrame.run_main' depends on axioms: [propext, Classical.choice, Quot.sound] -/
#guard_msgs in #print axioms run_main

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.HFrame

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Scores := Fin 8 → Fin 19 → Fin 512 → Fin 512 → EReal
abbrev Plane := Fin 8 → Fin 512 → Fin 512 → EReal
abbrev Labels := Fin 8 → Fin 512 → Fin 512 → BitVec 32

abbrev c0 : EReal := Ideal.ofBits .f32 0x00000000#32
abbrev c1 : EReal := Ideal.ofBits .f32 0x3F800000#32
abbrev cThr : EReal := Ideal.ofBits .f32 0x3F4CCCCD#32
abbrev cEps : EReal := Ideal.ofBits .f32 0x2B8CBCCC#32
abbrev c20 : EReal := Ideal.ofBits .f32 0x41A00000#32
abbrev cNpix : EReal := Ideal.ofBits .f32 0x4A000000#32

def pixSum (f : Fin 512 → Fin 512 → EReal) : EReal := ∑ i : Fin 512, ∑ j : Fin 512, f i j

section pixel
variable (x : Scores) (e : Plane) (s g : Labels)

def mx (n : Fin 8) (i j : Fin 512) : EReal := Finset.univ.sup fun c : Fin 19 => x n c i j

def lse (n : Fin 8) (i j : Fin 512) : EReal := Ideal.log (∑ c : Fin 19, Ideal.exp (x n c i j - mx x n i j))

def logp (n : Fin 8) (c : Fin 19) (i j : Fin 512) : EReal := (x n c i j - mx x n i j) - lse x n i j

def isCls (n : Fin 8) (c : Fin 19) (i j : Fin 512) : EReal := if s n i j = BitVec.ofNat 32 c.val then 1 else 0

def strong (n : Fin 8) (i j : Fin 512) : EReal := if cThr < e n i j then 1 else 0

def edgeT (n : Fin 8) (i j : Fin 512) : EReal := (((g n i j).toInt : ℝ) : EReal)
def isPos (n : Fin 8) (i j : Fin 512) : EReal := if edgeT g n i j = c1 then 1 else 0
def isNeg (n : Fin 8) (i j : Fin 512) : EReal := if edgeT g n i j = c0 then 1 else 0

def bce (n : Fin 8) (i j : Fin 512) : EReal :=
  max (e n i j) c0 - e n i j * edgeT g n i j + Ideal.log1p (Ideal.exp (-(max (e n i j) (-(e n i j)))))

def sSeg (n : Fin 8) (c : Fin 19) : EReal := pixSum fun i j => logp x n c i j * isCls s n c i j
def cSeg (n : Fin 8) (c : Fin 19) : EReal := pixSum fun i j => isCls s n c i j
def sAtt (n : Fin 8) (c : Fin 19) : EReal := pixSum fun i j => logp x n c i j * (isCls s n c i j * strong e n i j)
def cAtt (n : Fin 8) (c : Fin 19) : EReal := pixSum fun i j => isCls s n c i j * strong e n i j
def nPos (n : Fin 8) : EReal := pixSum fun i j => isPos g n i j
def nNeg (n : Fin 8) : EReal := pixSum fun i j => isNeg g n i j
def bPos (n : Fin 8) : EReal := pixSum fun i j => bce e g n i j * isPos g n i j
def bNeg (n : Fin 8) : EReal := pixSum fun i j => bce e g n i j * isNeg g n i j
end pixel

/-- A class's weight in one image from the per-class pixel counts: one plus its share of the other classes' pixels, if it occurs at all. -/
def clsW (cnt : Fin 19 → EReal) (c : Fin 19) : EReal :=
  ((if c0 < cnt c then (1 : EReal) else 0) * c1) * (c1 - Ideal.div (cnt c) (max (∑ c', cnt c') c1)) + c1

def nllImg (S cnt : Fin 19 → EReal) : EReal :=
  Ideal.div (-(∑ c, clsW cnt c * S c)) (max (∑ c, clsW cnt c * cnt c) cEps)
def nllTot (S cnt : Fin 8 → Fin 19 → EReal) : EReal := ∑ n, nllImg (S n) (cnt n)

def bceTot (P N BP BN : Fin 8 → EReal) : EReal :=
  Ideal.div
    (Ideal.div (∑ n, N n) (max (∑ n, P n + ∑ n, N n) c1) * (∑ n, BP n)
      + Ideal.div (∑ n, P n) (max (∑ n, P n + ∑ n, N n) c1) * (∑ n, BN n))
    cNpix

/-- The four losses from per-image, per-class sums of log-probability and pixel counts. -/
def lossK (x : Scores) (e : Plane) (s g : Labels) : Fin 4 → EReal
  | 0 => c1 * nllTot (sSeg x s) (cSeg s)
  | 1 => c20 * bceTot (nPos g) (nNeg g) (bPos e g) (bNeg e g)
  | 2 => c1 * nllTot (sAtt x e s) (cAtt e s)
  | 3 => c0

def validL (t : BitVec 32) : Prop := 0 ≤ t.toInt ∧ t.toInt < 19
instance (t : BitVec 32) : Decidable (validL t) := by unfold validL; infer_instance

def clipL (t : BitVec 32) : Fin 19 := ⟨(max 0 (min 18 t.toInt)).toNat, by omega⟩

def nllRefImg (x : Scores) (t : Labels) (n : Fin 8) : EReal :=
  let cnt : Fin 19 → EReal := fun c => pixSum fun i j => if t n i j = BitVec.ofNat 32 c.val then 1 else 0
  let wp : Fin 512 → Fin 512 → EReal := fun i j => if validL (t n i j) then clsW cnt (clipL (t n i j)) else c0
  Ideal.div (-(pixSum fun i j => wp i j * logp x n (clipL (t n i j)) i j)) (max (pixSum wp) cEps)
def nllRef (x : Scores) (t : Labels) : EReal := ∑ n, nllRefImg x t n

def attL (e : Plane) (s : Labels) : Labels := fun n i j => if cThr < e n i j then s n i j else 255#32

def bceRef (e : Plane) (g : Labels) : EReal :=
  let P : EReal := ∑ n, nPos g n
  let N : EReal := ∑ n, nNeg g n
  let w : Fin 8 → Fin 512 → Fin 512 → EReal := fun n i j =>
    (if edgeT g n i j = c1 then Ideal.div N (max (P + N) c1) else c0) + (if edgeT g n i j = c0 then Ideal.div P (max (P + N) c1) else c0)
  Ideal.div (∑ n, pixSum fun i j => w n i j * bce e g n i j) cNpix

/-- The same losses pixel by pixel, each pixel weighted by the class weight of its label. -/
def lossR (x : Scores) (e : Plane) (s g : Labels) : Fin 4 → EReal
  | 0 => c1 * nllRef x s
  | 1 => c20 * bceRef e g
  | 2 => c1 * nllRef x (attL e s)
  | 3 => c0

def scoresOf (a : (⟨4, ![8, 19, 512, 512]⟩ : Shape).Idx → EReal) : Scores := fun n c i j => a (ix4 n c i j)
def planeOf (a : (⟨4, ![8, 1, 512, 512]⟩ : Shape).Idx → EReal) : Plane := fun n i j => a (ix4 n 0 i j)
def labelsOf3 (a : (⟨3, ![8, 512, 512]⟩ : Shape).Idx → BitVec 32) : Labels := fun n i j => a (ix3 n i j)
def labelsOf4 (a : (⟨4, ![8, 1, 512, 512]⟩ : Shape).Idx → BitVec 32) : Labels := fun n i j => a (ix4 n 0 i j)

abbrev Sums := Fin 8 → Fin 8 → Fin 128 → EReal

def lane (c : Fin 19) : Fin 128 := ⟨c.val, by omega⟩
def sumsOf (a : (⟨3, ![8, 8, 128]⟩ : Shape).Idx → EReal) : Sums := fun n r l => a (ix3 n r l)

def tailOf (o : Sums) : Fin 4 → EReal
  | 0 => c1 * nllTot (fun n c => o n 0 (lane c)) (fun n c => o n 1 (lane c))
  | 1 => c20 * bceTot (fun n => o n 4 0) (fun n => o n 5 0) (fun n => o n 6 0) (fun n => o n 7 0)
  | 2 => c1 * nllTot (fun n c => o n 2 (lane c)) (fun n c => o n 3 (lane c))
  | 3 => c0

/-- Rows 0 to 7 of an image's table hold its class sums (lane = class) and its edge counts and sums (lane 0). -/
structure HoldsSums (x : Scores) (e : Plane) (s g : Labels) (o : Sums) : Prop where
  r0 : ∀ n c, o n 0 (lane c) = sSeg x s n c
  r1 : ∀ n c, o n 1 (lane c) = cSeg s n c
  r2 : ∀ n c, o n 2 (lane c) = sAtt x e s n c
  r3 : ∀ n c, o n 3 (lane c) = cAtt e s n c
  r4 : ∀ n, o n 4 0 = nPos g n
  r5 : ∀ n, o n 5 0 = nNeg g n
  r6 : ∀ n, o n 6 0 = bPos e g n
  r7 : ∀ n, o n 7 0 = bNeg e g n

theorem tailOf_eq_lossK {x : Scores} {e : Plane} {s g : Labels} {o : Sums} (h : HoldsSums x e s g o) :
    tailOf o = lossK x e s g := by
  funext k
  match k with
  | 0 => simp only [tailOf, lossK, h.r0, h.r1]
  | 1 => simp only [tailOf, lossK, h.r4, h.r5, h.r6, h.r7]
  | 2 => simp only [tailOf, lossK, h.r2, h.r3]
  | 3 => rfl

def vec4 (f : Fin 4 → EReal) : (⟨1, ![4]⟩ : Shape).Idx → EReal := fun j => f (j 0)

end Cert.Spec

end
-- ==== Proof.KI.Tail.lean ====
import proofs.«428925_j42245298323666_3_alg».proof.Proof.Gen.KernelIdeal.Launch
import proofs.«428925_j42245298323666_3_alg».proof.Proof.Spec
import Idealize.ShloMosaic.Lib.ValueIdx
import Idealize.ShloMosaic.Lib.Pipeline.Value
import Idealize.ShloMosaic.PureOps.Ideal.Laws

set_option maxRecDepth 4096

noncomputable section

open scoped BigOperators

namespace Cert.KernelIdeal.TailValue

open Idealize.ShloMosaic Idealize.ShloMosaic.StableHlo Idealize.ShloMosaic.ValueIdx
open Cert.KernelIdeal Cert.KernelIdeal.Gen

section Composite
variable {F : FTy → Type} [FloatOps F]

def clsRow (a : FVec F S8x8x128 .f32) (off : Fin 3 → Nat) (h : S8x8x128.Slices off S8x1x19) : FVec F S8x19 .f32 :=
  fun i => shapeCast S8x19 (extractStridedSlice S8x1x19 off a h) shapeCasts_S8x1x19_S8x19 i

def edgeRow (a : FVec F S8x8x128 .f32) (off : Fin 3 → Nat) (h : S8x8x128.Slices off S8x1x1) : FVec F S8 .f32 :=
  fun i => shapeCast S8 (extractStridedSlice S8x1x1 off a h) shapeCasts_S8x1x1_S8 i

def wHost (cnt : FVec F S8x19 .f32) : FVec F S8x19 .f32 :=
  addf
    (mulf
      (mulf
        (uitofp .f32 (cmpf .ogt cnt (broadcastInDim S8x19 ![] bcast_S_S8x19 (constant S_ .f32 0x00000000#32))))
        (broadcastInDim S8x19 ![] bcast_S_S8x19 (constant S_ .f32 0x3F800000#32)))
      (subf (broadcastInDim S8x19 ![] bcast_S_S8x19 (constant S_ .f32 0x3F800000#32))
        (Host.divf cnt
          (broadcastInDim S8x19 ![0, 1] bcast_S8x1_S8x19_0_1
            (maximumf
              (broadcastInDim S8x1 ![0] bcast_S8_S8x1_0
                (Host.reduceAdd cnt (constant S_ .f32 0x00000000#32) reducesTo_S8x19_S8_d1 h_S_))
              (broadcastInDim S8x1 ![] bcast_S_S8x1 (constant S_ .f32 0x3F800000#32)))))))
    (broadcastInDim S8x19 ![] bcast_S_S8x19 (constant S_ .f32 0x3F800000#32))

def nllHost (S cnt : FVec F S8x19 .f32) : FVec F S_ .f32 :=
  Host.reduceAdd
    (Host.divf
      (Host.negf (Host.reduceAdd (mulf (wHost cnt) S) (constant S_ .f32 0x00000000#32) reducesTo_S8x19_S8_d1 h_S_))
      (maximumf
        (Host.reduceAdd (mulf (wHost cnt) cnt) (constant S_ .f32 0x00000000#32) reducesTo_S8x19_S8_d1 h_S_)
        (broadcastInDim S8 ![] bcast_S_S8 (constant S_ .f32 0x2B8CBCCC#32))))
    (constant S_ .f32 0x00000000#32) reducesTo_S8_S_d0 h_S_

def totHost (x : FVec F S8 .f32) : FVec F S_ .f32 :=
  Host.reduceAdd x (constant S_ .f32 0x00000000#32) reducesTo_S8_S_d0 h_S_

def bceHost (P N BP BN : FVec F S8 .f32) : FVec F S_ .f32 :=
  Host.divf
    (addf
      (mulf (Host.divf (totHost N) (maximumf (addf (totHost P) (totHost N)) (constant S_ .f32 0x3F800000#32))) (totHost BP))
      (mulf (Host.divf (totHost P) (maximumf (addf (totHost P) (totHost N)) (constant S_ .f32 0x3F800000#32))) (totHost BN)))
    (constant S_ .f32 0x4A000000#32)

def lossSeg (a : FVec F S8x8x128 .f32) : FVec F S1 .f32 :=
  broadcastInDim S1 ![] bcast_S_S1
    (mulf (constant S_ .f32 0x3F800000#32)
      (nllHost (clsRow a ![0, 0, 0] slices_S8x8x128_S8x1x19_0_0_0) (clsRow a ![0, 1, 0] slices_S8x8x128_S8x1x19_0_1_0)))
def lossEdge (a : FVec F S8x8x128 .f32) : FVec F S1 .f32 :=
  broadcastInDim S1 ![] bcast_S_S1
    (mulf (constant S_ .f32 0x41A00000#32)
      (bceHost (edgeRow a ![0, 4, 0] slices_S8x8x128_S8x1x1_0_4_0) (edgeRow a ![0, 5, 0] slices_S8x8x128_S8x1x1_0_5_0)
        (edgeRow a ![0, 6, 0] slices_S8x8x128_S8x1x1_0_6_0) (edgeRow a ![0, 7, 0] slices_S8x8x128_S8x1x1_0_7_0)))
def lossAtt (a : FVec F S8x8x128 .f32) : FVec F S1 .f32 :=
  broadcastInDim S1 ![] bcast_S_S1
    (mulf (constant S_ .f32 0x3F800000#32)
      (nllHost (clsRow a ![0, 2, 0] slices_S8x8x128_S8x1x19_0_2_0) (clsRow a ![0, 3, 0] slices_S8x8x128_S8x1x19_0_3_0)))
def lossDual : FVec F S1 .f32 :=
  broadcastInDim S1 ![] bcast_S_S1 (constant S_ .f32 0x00000000#32)

def tailHost (a : FVec F S8x8x128 .f32) : FVec F S4 .f32 :=
  concatenate S4 0 [⟨S1, lossSeg a⟩, ⟨S1, lossEdge a⟩, ⟨S1, lossAtt a⟩, ⟨S1, lossDual⟩] concatenates_S1_S1_S1_S1_S4_d0

end Composite

section Run
variable {F : FTy → Type} [FloatOps F]

theorem after_snoc {Val : EltTy → Type} (l : List (HloOp τ sig Val)) (op : HloOp τ sig Val) (V : Valuation τ sig Val) :
    StableHlo.after (l ++ [op]) V = op.result (StableHlo.after l V) := by
  induction l generalizing V with
  | nil => rfl
  | cons o l ih => rw [List.cons_append, StableHlo.after_cons, StableHlo.after_cons, ih]

def opsInit : List (HloOp τ sig (Elt F)) := (hostOps1 (F := F)).dropLast

set_option maxHeartbeats 4000000 in
theorem hostOps1_split : hostOps1 (F := F) = opsInit (F := F) ++
    [StableHlo.nary ![main_v82, main_v83, main_v84, main_v85] main_v86
      (fun u => concatenate S4 0 [⟨S1, u 0⟩, ⟨S1, u 1⟩, ⟨S1, u 2⟩, ⟨S1, u 3⟩] concatenates_S1_S1_S1_S1_S4_d0)] := rfl

theorem after_init (W : Valuation τ sig (Elt F)) {r : Ref sig .tc} (h : r ≠ main_v86) :
    StableHlo.after (opsInit (F := F)) W (Proc.devRef .tc r) = StableHlo.after (hostOps1 (F := F)) W (Proc.devRef .tc r) := by
  rw [hostOps1_split, after_snoc, nary_result_ne _ _ _ _ _ _ h]

end Run

set_option maxHeartbeats 4000000 in
theorem run_v82 (W : Valuation τ sig (Elt Ideal)) :
    StableHlo.after (hostOps1 (F := Ideal)) W (Proc.devRef .tc main_v82) = lossSeg (F := Ideal) (W (Proc.devRef .tc main_v0)) := by
  after_results_simp
  rfl

set_option maxHeartbeats 4000000 in
theorem run_v83 (W : Valuation τ sig (Elt Ideal)) :
    StableHlo.after (hostOps1 (F := Ideal)) W (Proc.devRef .tc main_v83) = lossEdge (F := Ideal) (W (Proc.devRef .tc main_v0)) := by
  after_results_simp
  rfl

set_option maxHeartbeats 4000000 in
theorem run_v84 (W : Valuation τ sig (Elt Ideal)) :
    StableHlo.after (hostOps1 (F := Ideal)) W (Proc.devRef .tc main_v84) = lossAtt (F := Ideal) (W (Proc.devRef .tc main_v0)) := by
  after_results_simp
  rfl

set_option maxHeartbeats 4000000 in
theorem run_v85 (W : Valuation τ sig (Elt Ideal)) :
    StableHlo.after (hostOps1 (F := Ideal)) W (Proc.devRef .tc main_v85) = lossDual (F := Ideal) := by
  after_results_simp
  rfl

set_option maxHeartbeats 4000000 in

theorem tail_run (W : Valuation τ sig (Elt Ideal)) :
    StableHlo.after (hostOps1 (F := Ideal)) W (Proc.devRef .tc main_v86) = tailHost (F := Ideal) (W (Proc.devRef .tc main_v0)) := by
  rw [hostOps1_split, after_snoc, nary4_result]
  rw [after_init W (by decide : main_v82 ≠ main_v86), after_init W (by decide : main_v83 ≠ main_v86),
    after_init W (by decide : main_v84 ≠ main_v86), after_init W (by decide : main_v85 ≠ main_v86),
    run_v82, run_v83, run_v84, run_v85]
  rfl

section Read
open Cert.Spec Idealize.ShloMosaic.Ideal

def idxEquiv1 {n : Nat} : (⟨1, ![n]⟩ : Shape).Idx ≃ Fin n where
  toFun i := i 0
  invFun k := ix1 k
  left_inv i := (eq_ix1 i).symm
  right_inv _ := rfl
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

theorem bcast0_apply {t : Shape} (h : S_.BroadcastsInDim t (![] : Fin S_.rank → Fin t.rank)) (x : FVec Ideal S_ .f32) (j : t.Idx) :
    broadcastInDim t ![] h x j = x ix0 :=
  broadcastInDim_apply _ h x j ix0 fun a => a.elim0

theorem bcastRow_apply (y : FVec Ideal S8x1 .f32) (n : Fin 8) (c : Fin 19) :
    broadcastInDim S8x19 ![0, 1] bcast_S8x1_S8x19_0_1 y (ix2 n c) = y (ix2 n 0) :=
  broadcastInDim_apply _ _ y (ix2 n c) (ix2 n 0) fun a => match a with | ⟨0, _⟩ => rfl | ⟨1, _⟩ => rfl

theorem bcastCol_apply (y : FVec Ideal S8 .f32) (n : Fin 8) :
    broadcastInDim S8x1 ![0] bcast_S8_S8x1_0 y (ix2 n 0) = y (ix1 n) :=
  broadcastInDim_apply _ _ y (ix2 n 0) (ix1 n) fun a => match a with | ⟨0, _⟩ => rfl

theorem hostDivf_apply {s : Shape} (a b : FVec Ideal s .f32) (i : s.Idx) : Host.divf a b i = Ideal.div (a i) (b i) := rfl
theorem hostNegf_apply {s : Shape} (a : FVec Ideal s .f32) (i : s.Idx) : Host.negf a i = -(a i) := rfl

theorem uitofp_ogt_apply {s : Shape} (a b : FVec Ideal s .f32) (i : s.Idx) :
    (uitofp .f32 (cmpf .ogt a b) : FVec Ideal s .f32) i = if b i < a i then (1 : EReal) else 0 := by
  show (((Ideal.cmp .ogt (a i) (b i)).toNat : ℝ) : EReal) = _
  by_cases h : b i < a i <;> simp [Ideal.cmp, h]

theorem rowSum_apply (x : FVec Ideal S8x19 .f32) (n : Fin 8) :
    Host.reduceAdd x (constant S_ .f32 0x00000000#32) reducesTo_S8x19_S8_d1 h_S_ (ix1 n) = ∑ c : Fin 19, x (ix2 n c) := by
  have hr : S8x19.Reduces [1] S8 := by decide
  show Ideal.hostReduceAdd reducesTo_S8x19_S8_d1 x (Ideal.ofBits .f32 0x00000000#32) (ix1 n) = _
  rw [hostReduceAdd_single reducesTo_S8x19_S8_d1 hr, ofBits_zero_f32, zero_add]
  show (∑ k : Fin 19, x (hr.lift (ix1 n) k)) = _
  refine Finset.sum_congr rfl fun c _ => congrArg x ?_
  funext a
  match a with
  | ⟨0, _⟩ => rfl
  | ⟨1, _⟩ => rfl

theorem totHost_apply (x : FVec Ideal S8 .f32) (j : S_.Idx) : totHost x j = ∑ n : Fin 8, x (ix1 n) := by
  show Ideal.hostReduceAdd reducesTo_S8_S_d0 x (Ideal.ofBits .f32 0x00000000#32) j = _
  rw [hostReduceAdd_total reducesTo_S8_S_d0 (fun b => b.elim0), ofBits_zero_f32, zero_add]
  exact sum_idx1 x

theorem wHost_apply (cnt : FVec Ideal S8x19 .f32) (n : Fin 8) (c : Fin 19) :
    wHost cnt (ix2 n c) = clsW (fun c' => cnt (ix2 n c')) c := by
  unfold wHost
  rw [addf_apply, mulf_apply, mulf_apply, subf_apply, hostDivf_apply, uitofp_ogt_apply, bcastRow_apply, maximumf_apply,
    bcastCol_apply, rowSum_apply]
  rfl

theorem nllHost_apply (S cnt : FVec Ideal S8x19 .f32) (j : S_.Idx) :
    nllHost S cnt j = nllTot (fun n c => S (ix2 n c)) (fun n c => cnt (ix2 n c)) := by
  show totHost _ j = _
  rw [totHost_apply]
  unfold nllTot
  refine Finset.sum_congr rfl fun n _ => ?_
  rw [hostDivf_apply, hostNegf_apply, maximumf_apply, rowSum_apply, rowSum_apply]
  simp only [mulf_apply, wHost_apply]
  rfl

theorem bceHost_apply (P N BP BN : FVec Ideal S8 .f32) (j : S_.Idx) :
    bceHost P N BP BN j = bceTot (fun n => P (ix1 n)) (fun n => N (ix1 n)) (fun n => BP (ix1 n)) (fun n => BN (ix1 n)) := by
  unfold bceHost bceTot
  rw [hostDivf_apply, addf_apply, mulf_apply, mulf_apply, hostDivf_apply, hostDivf_apply, maximumf_apply, addf_apply]
  simp only [totHost_apply]
  rfl

theorem clsRow_apply (a : FVec Ideal S8x8x128 .f32) (r : Nat) (hr : r < 8) (h : S8x8x128.Slices ![0, r, 0] S8x1x19)
    (n : Fin 8) (c : Fin 19) : clsRow a ![0, r, 0] h (ix2 n c) = a (ix3 n ⟨r, hr⟩ (lane c)) := by
  show shapeCast S8x19 (extractStridedSlice S8x1x19 ![0, r, 0] a h) shapeCasts_S8x1x19_S8x19 (ix2 n c) = _
  refine (shapeCast_apply _ shapeCasts_S8x1x19_S8x19 (ix2 n c) (ix3 n 0 c) ?_).trans ?_
  · rw [Shape.rowMajor_val_three, Shape.rowMajor_val_two]
    show (n.val * 1 + 0) * 19 + c.val = n.val * 19 + c.val
    omega
  · refine extractStridedSlice_apply _ a h (ix3 n 0 c) (ix3 n ⟨r, hr⟩ (lane c)) fun b => ?_
    match b with
    | ⟨0, _⟩ => show n.val = 0 + n.val; omega
    | ⟨1, _⟩ => show r = r + 0; omega
    | ⟨2, _⟩ => show c.val = 0 + c.val; omega

theorem edgeRow_apply (a : FVec Ideal S8x8x128 .f32) (r : Nat) (hr : r < 8) (h : S8x8x128.Slices ![0, r, 0] S8x1x1)
    (n : Fin 8) : edgeRow a ![0, r, 0] h (ix1 n) = a (ix3 n ⟨r, hr⟩ 0) := by
  show shapeCast S8 (extractStridedSlice S8x1x1 ![0, r, 0] a h) shapeCasts_S8x1x1_S8 (ix1 n) = _
  refine (shapeCast_apply _ shapeCasts_S8x1x1_S8 (ix1 n) (ix3 n 0 0) ?_).trans ?_
  · rw [Shape.rowMajor_val_three, Shape.rowMajor_val_one]
    show (n.val * 1 + 0) * 1 + 0 = n.val
    omega
  · refine extractStridedSlice_apply _ a h (ix3 n 0 0) (ix3 n ⟨r, hr⟩ 0) fun b => ?_
    match b with
    | ⟨0, _⟩ => show n.val = 0 + n.val; omega
    | ⟨1, _⟩ => show r = r + 0; omega
    | ⟨2, _⟩ => show 0 = 0 + 0; omega

theorem lossSeg_apply (a : FVec Ideal S8x8x128 .f32) : lossSeg a (ix1 0) = tailOf (sumsOf a) 0 := by
  unfold lossSeg
  rw [bcast0_apply, mulf_apply, nllHost_apply]
  simp only [clsRow_apply a 0 (by decide), clsRow_apply a 1 (by decide)]
  rfl

theorem lossAtt_apply (a : FVec Ideal S8x8x128 .f32) : lossAtt a (ix1 0) = tailOf (sumsOf a) 2 := by
  unfold lossAtt
  rw [bcast0_apply, mulf_apply, nllHost_apply]
  simp only [clsRow_apply a 2 (by decide), clsRow_apply a 3 (by decide)]
  rfl

theorem lossEdge_apply (a : FVec Ideal S8x8x128 .f32) : lossEdge a (ix1 0) = tailOf (sumsOf a) 1 := by
  unfold lossEdge
  rw [bcast0_apply, mulf_apply, bceHost_apply]
  simp only [edgeRow_apply a 4 (by decide), edgeRow_apply a 5 (by decide), edgeRow_apply a 6 (by decide),
    edgeRow_apply a 7 (by decide)]
  rfl

theorem lossDual_apply (a : FVec Ideal S8x8x128 .f32) : lossDual (F := Ideal) (ix1 0) = tailOf (sumsOf a) 3 := rfl

theorem concat4_piece (xs : List ((s : Shape) × (s.Idx → EReal))) (h : Shape.Concatenates (xs.map (·.1)) S4 0)
    (k : Fin 4) (hk : k.val < xs.length) (x : S1.Idx → EReal) (hxk : xs[k.val] = ⟨S1, x⟩)
    (hpre : (((xs.take k.val).map (·.1)).map fun s => if h : s.rank = S4.rank then s.size ((0 : Fin S4.rank).cast h.symm) else 0).sum = k.val) :
    concatenate S4 0 xs h (ix1 k) = x (ix1 0) :=
  concatenate_apply_piece (0 : Fin S4.rank) xs h (ix1 k) k.val hk S1 x hxk rfl k.val hpre (ix1 0)
    (fun b hb => absurd (Fin.ext (Nat.lt_one_iff.1 b.isLt)) hb) rfl

theorem tailHost_eq (a : FVec Ideal S8x8x128 .f32) : tailHost a = vec4 (tailOf (sumsOf a)) := by
  funext j
  rw [eq_ix1 j]
  show tailHost a (ix1 (j 0)) = tailOf (sumsOf a) (j 0)
  generalize j 0 = k
  unfold tailHost
  match k with
  | ⟨0, _⟩ => exact (concat4_piece _ _ 0 (by simp) (lossSeg a) rfl rfl).trans (lossSeg_apply a)
  | ⟨1, _⟩ => exact (concat4_piece _ _ 1 (by simp) (lossEdge a) rfl rfl).trans (lossEdge_apply a)
  | ⟨2, _⟩ => exact (concat4_piece _ _ 2 (by simp) (lossAtt a) rfl rfl).trans (lossAtt_apply a)
  | ⟨3, _⟩ => exact (concat4_piece _ _ 3 (by simp) (lossDual (F := Ideal)) rfl rfl).trans (lossDual_apply a)

end Read

theorem tail_value (W : Valuation τ sig (Elt Ideal)) :
    StableHlo.after (hostOps1 (F := Ideal)) W (Proc.devRef .tc main_v86)
      = Cert.Spec.vec4 (Cert.Spec.tailOf (Cert.Spec.sumsOf (W (Proc.devRef .tc main_v0)))) := by
  rw [tail_run]
  exact tailHost_eq _

end Cert.KernelIdeal.TailValue

end
-- ==== Proof.KI.Value.lean ====
import proofs.«428925_j42245298323666_3_alg».proof.Proof.KI.Frame
import proofs.«428925_j42245298323666_3_alg».proof.Proof.KI.Tail
import proofs.«428925_j42245298323666_3_alg».proof.Proof.Spec

set_option maxRecDepth 16384

noncomputable section

namespace Cert.KernelIdeal.KValue

open Cert.KernelIdeal Cert.KernelIdeal.Gen
open Idealize.ShloMosaic Idealize.ShloMosaic.TcCoe
open Idealize.SL Idealize.SL.Sem
open Cert.Spec

variable (m : (ℓ : Loc nD τ sig) → Buf (Elt Ideal) ℓ) (ρ : Dev nD → PrngReg)

theorem main_v86_rest : main_v86 ∈ Pipeline.restRefs sig (cfgs 0).spec :=
  Pipeline.mem_restRefs_of main_v86 (by decide) (by decide)

set_option maxHeartbeats 4000000 in

theorem tail_at (c : Dev nD) :
    Pipeline.afterTail₀ cfgs (HFrame.dats (F := Ideal) m) 0 (HFrame.V0 m) [hostOps1] c main_v86
      = vec4 (tailOf (sumsOf ((HFrame.dats (F := Ideal) m 0 c).arrAt 4 cfg0.N))) := by
  unfold Pipeline.afterTail₀
  show StableHlo.after hostOps1 _ (Proc.devRef .tc main_v86) = _
  rw [TailValue.tail_value]
  exact congrArg (fun a => vec4 (tailOf (sumsOf a)))
    (Pipeline.withArrays_arr spec0 launch0.win.arr_inj c _ _ 4)

set_option maxHeartbeats 4000000 in

theorem run_value_of
    (hs : ∀ (m : (ℓ : Loc nD τ sig) → Buf (Elt Ideal) ℓ) (c : Dev nD),
      HoldsSums (scoresOf (m ((c.tc : Thread nD τ).loc main_arg0))) (planeOf (m ((c.tc : Thread nD τ).loc main_arg1)))
        (labelsOf3 (m ((c.tc : Thread nD τ).loc main_arg2))) (labelsOf4 (m ((c.tc : Thread nD τ).loc main_arg3)))
        (sumsOf ((HFrame.dats (F := Ideal) m 0 c).arrAt 4 cfg0.N)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v86)
          = vec4 (lossK (scoresOf (m ((c.tc : Thread nD τ).loc main_arg0))) (planeOf (m ((c.tc : Thread nD τ).loc main_arg1)))
              (labelsOf3 (m ((c.tc : Thread nD τ).loc main_arg2))) (labelsOf4 (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v86 main_v86_rest).trans ((tail_at m c).trans (congrArg vec4 (tailOf_eq_lossK (hs m c)))),
     ((h c).1 0).trans (((HFrame.dats m 0 c).arrAt_in 0 rfl _).trans ((HFrame.A_eq m c 0).trans (HFrame.V_main_arg0 m c))),
     ((h c).1 2).trans (((HFrame.dats m 0 c).arrAt_in 2 rfl _).trans ((HFrame.A_eq m c 2).trans (HFrame.V_main_arg1 m c))),
     ((h c).1 1).trans (((HFrame.dats m 0 c).arrAt_in 1 rfl _).trans ((HFrame.A_eq m c 1).trans (HFrame.V_main_arg2 m c))),
     ((h c).1 3).trans (((HFrame.dats m 0 c).arrAt_in 3 rfl _).trans ((HFrame.A_eq m c 3).trans (HFrame.V_main_arg3 m c)))⟩)
    (HFrame.run_main m ρ)

end Cert.KernelIdeal.KValue

end
-- ==== Proof.KI.Model.lean ====
import proofs.«428925_j42245298323666_3_alg».proof.Proof.Gen.KernelIdeal.Skeleton

noncomputable section

namespace Cert.KernelIdeal.KValue

open Cert.KernelIdeal Cert.KernelIdeal.Gen
open Idealize.ShloMosaic

variable {F : FTy → Type} [FloatOps F]

def sum2 (v : FVec F S128x512 .f32) : FVec F S1x1 .f32 :=
  shapeCast S1x1
    (multiReduction .add [0] S1
      (shapeCast S128x1 (multiReduction .add [1] S128 v 0x00000000#32 reduces_S128x512_S128 (.inl rfl) rfl)
        shapeCasts_S128_S128x1)
      0x00000000#32 reduces_S128x1_S1 (.inl rfl) rfl)
    shapeCasts_S1_S1x1

def logpK (k : ℕ) (hs : S19x128x512.Slices ![k, 0, 0] S1x128x512) (v19 : FVec F S19x128x512 .f32)
    (v24 : FVec F S128x512 .f32) : FVec F S128x512 .f32 :=
  subf (shapeCast S128x512 (extractStridedSlice S1x128x512 ![k, 0, 0] v19 hs) shapeCasts_S1x128x512_S128x512) v24

def msegK (k : ℕ) (v6 : IVec S128x512 32) : FVec F S128x512 .f32 :=
  sitofp .f32 (extui 32 (cmpi .eq v6 (broadcast S128x512 (BitVec.ofNat 32 k))) natLt_1_32)

def mattK (k : ℕ) (v6 : IVec S128x512 32) (v15 : FVec F S128x512 .f32) : FVec F S128x512 .f32 :=
  mulf (msegK (F := F) k v6) v15

def rowM (v25 : IVec S8x128 32) (r : ℕ) : IVec S8x128 1 := cmpi .eq v25 (broadcast S8x128 (BitVec.ofNat 32 r))

def colM (v26 : IVec S8x128 32) (k : ℕ) : IVec S8x128 1 := cmpi .eq v26 (broadcast S8x128 (BitVec.ofNat 32 k))

def maskedK (row col : IVec S8x128 1) (s : FVec F S1x1 .f32) : FVec F S8x128 .f32 :=
  select (andi row col) (broadcastTo S8x128 (shapeCast S1x1 s shapeCasts_S1x1_S1x1) broadcasts_S1x1_S8x128)
    (broadcast S8x128 (Scalar.ofBits .f32 0x00000000#32))

def accStep (r0 r1 r2 r3 col : IVec S8x128 1) (acc : Vec F S8x128 .f32) (s0 s1 s2 s3 : FVec F S1x1 .f32) :
    FVec F S8x128 .f32 :=
  shapeCast S8x128
    (addf (addf (addf (addf acc (maskedK r0 col s0)) (maskedK r1 col s1)) (maskedK r2 col s2)) (maskedK r3 col s3))
    shapeCasts_S8x128_S8x128

def clsStep (k : ℕ) (hs : S19x128x512.Slices ![k, 0, 0] S1x128x512) (v6 : IVec S128x512 32)
    (v15 : FVec F S128x512 .f32) (v19 : FVec F S19x128x512 .f32) (v24 : FVec F S128x512 .f32)
    (v25 v26 : IVec S8x128 32) (acc : Vec F S8x128 .f32) : FVec F S8x128 .f32 :=
  accStep (rowM v25 0) (rowM v25 1) (rowM v25 2) (rowM v25 3) (colM v26 k) acc
    (sum2 (mulf (logpK k hs v19 v24) (msegK (F := F) k v6)))
    (sum2 (msegK (F := F) k v6))
    (sum2 (mulf (logpK k hs v19 v24) (mattK k v6 v15)))
    (sum2 (mattK k v6 v15))

def edgeM (w : BitVec 32) (v11 : FVec F S128x512 .f32) : FVec F S128x512 .f32 :=
  sitofp .f32 (extui 32 (cmpf .oeq v11 (broadcast S128x512 (Scalar.ofBits .f32 w))) natLt_1_32)

def bceK (v8 v11 : FVec F S128x512 .f32) : FVec F S128x512 .f32 :=
  addf (subf (maximumf v8 (broadcast S128x512 (Scalar.ofBits .f32 0x00000000#32))) (mulf v8 v11))
    (log1p (exp (subf (broadcast S128x512 (Scalar.ofBits .f32 0x00000000#32)) (absf v8))))

def edgeStep (v8 v11 : FVec F S128x512 .f32) (v25 v26 : IVec S8x128 32) (acc : Vec F S8x128 .f32) :
    FVec F S8x128 .f32 :=
  accStep (rowM v25 4) (rowM v25 5) (rowM v25 6) (rowM v25 7) (colM v26 0) acc
    (sum2 (edgeM 0x3F800000#32 v11))
    (sum2 (edgeM 0x00000000#32 v11))
    (sum2 (mulf (bceK v8 v11) (edgeM 0x3F800000#32 v11)))
    (sum2 (mulf (bceK v8 v11) (edgeM 0x00000000#32 v11)))

theorem slicesK : ∀ k : Fin 19, S19x128x512.Slices ![k.val, 0, 0] S1x128x512 := by decide

def clsRounds (v6 : IVec S128x512 32) (v15 : FVec F S128x512 .f32) (v19 : FVec F S19x128x512 .f32)
    (v24 : FVec F S128x512 .f32) (v25 v26 : IVec S8x128 32) (acc : Vec F S8x128 .f32) :
    (k : ℕ) → k ≤ 19 → Vec F S8x128 .f32
  | 0, _ => acc
  | k + 1, h => clsStep k (slicesK ⟨k, by omega⟩) v6 v15 v19 v24 v25 v26 (clsRounds v6 v15 v19 v24 v25 v26 acc k (by omega))

def pointVal (v6 : IVec S128x512 32) (v8 v11 v15 : FVec F S128x512 .f32) (v19 : FVec F S19x128x512 .f32)
    (v24 : FVec F S128x512 .f32) (v25 v26 : IVec S8x128 32) (acc : Vec F S8x128 .f32) : Vec F S8x128 .f32 :=
  edgeStep v8 v11 v25 v26 (clsRounds v6 v15 v19 v24 v25 v26 acc 19 (le_refl 19))

end Cert.KernelIdeal.KValue

end
-- ==== Proof.KI.Iface.lean ====
import proofs.«428925_j42245298323666_3_alg».proof.Proof.KI.Model
import proofs.«428925_j42245298323666_3_alg».proof.Proof.Spec

noncomputable section

namespace Cert.KernelIdeal.KValue

open Cert.KernelIdeal Cert.KernelIdeal.Gen
open Idealize.ShloMosaic Idealize.ShloMosaic.ValueIdx

def row (h : Fin 4) (i : Fin 128) : Fin 512 := ⟨128 * h.val + i.val, by omega⟩

abbrev I0 : IVec S8x128 32 := iota .tc S8x128 32 [0] iota_S8x128_d0_w32
abbrev I1 : IVec S8x128 32 := iota .tc S8x128 32 [1] iota_S8x128_d1_w32

def clsQ (v6 : IVec S128x512 32) (v15 : FVec Ideal S128x512 .f32) (v19 : FVec Ideal S19x128x512 .f32)
    (v24 : FVec Ideal S128x512 .f32) (k : Fin 19) (r : Fin 8) : EReal :=
  if r.val = 0 then sum2 (mulf (logpK k.val (slicesK k) v19 v24) (msegK (F := Ideal) k.val v6)) (ix2 0 0)
  else if r.val = 1 then sum2 (msegK (F := Ideal) k.val v6) (ix2 0 0)
  else if r.val = 2 then sum2 (mulf (logpK k.val (slicesK k) v19 v24) (mattK k.val v6 v15)) (ix2 0 0)
  else if r.val = 3 then sum2 (mattK k.val v6 v15) (ix2 0 0)
  else 0

def edgeQ (v8 v11 : FVec Ideal S128x512 .f32) (r : Fin 8) : EReal :=
  if r.val = 4 then sum2 (edgeM 0x3F800000#32 v11) (ix2 0 0)
  else if r.val = 5 then sum2 (edgeM 0x00000000#32 v11) (ix2 0 0)
  else if r.val = 6 then sum2 (mulf (bceK v8 v11) (edgeM 0x3F800000#32 v11)) (ix2 0 0)
  else if r.val = 7 then sum2 (mulf (bceK v8 v11) (edgeM 0x00000000#32 v11)) (ix2 0 0)
  else 0

open Cert.Spec in

def G (x : Scores) (e : Plane) (s g : Labels) (n : Fin 8) (r : Fin 8) (l : Fin 128) (i j : Fin 512) : EReal :=
  (if hl : l.val < 19 then
      (if r.val = 0 then logp x n ⟨l.val, hl⟩ i j * isCls s n ⟨l.val, hl⟩ i j
       else if r.val = 1 then isCls s n ⟨l.val, hl⟩ i j
       else if r.val = 2 then logp x n ⟨l.val, hl⟩ i j * (isCls s n ⟨l.val, hl⟩ i j * strong e n i j)
       else if r.val = 3 then isCls s n ⟨l.val, hl⟩ i j * strong e n i j
       else 0)
    else 0)
  + (if l.val = 0 then
      (if r.val = 4 then isPos g n i j
       else if r.val = 5 then isNeg g n i j
       else if r.val = 6 then bce e g n i j * isPos g n i j
       else if r.val = 7 then bce e g n i j * isNeg g n i j
       else 0)
    else 0)

end Cert.KernelIdeal.KValue

end
-- ==== Proof.KI.Pieces.lean ====
import proofs.«428925_j42245298323666_3_alg».proof.Proof.KI.RunC
import proofs.«428925_j42245298323666_3_alg».proof.Proof.KI.Iface
import Idealize.ShloMosaic.Lib.Pipeline.Value

set_option maxRecDepth 65536

noncomputable section

namespace Cert.KernelIdeal.KValue

open Cert.KernelIdeal Cert.KernelIdeal.Gen Cert.KernelIdeal.HFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

set_option maxHeartbeats 4000000 in

theorem canonB_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x19x128x512 .f32) (x1 : Vec F S1x128x512 .i32) (x2 : Vec F S1x1x128x512 .f32) (x3 : Vec F S1x1x128x512 .i32) (xs0 : Vec F S8x128 .f32) :
    View.canon (kernelRun0_B c i arg2 harg2 arg3 harg3 arg4 harg4 arg5 harg5 arg6 harg6 arg7 harg7 hc0 hc1 x0 x1 x2 x3 xs0).2.1
      = pointVal (k0_pay4 x1) (k0_pay5 x2) (k0_pay6 x3) (k0_pay7 x2) (k0_pay8 x0) (k0_pay9 x0) I0 I1 xs0 := by
  unfold kernelRun0_B
  dsimp only
  rw [View.canon_cons_unit_zero (S := S8x128) hz2]
  sl_unfold_words
  simp only [View.readAt_eq_ld, harg2.read_unread, harg3.read_unread, harg4.read_unread, harg5.read_unread, harg7.read_unread,
    View.ld_unit_zero (S := S1x19x128x512) hz4, View.ld_unit_zero (S := S1x128x512) hz3,
    View.ld_unit_zero (S := S1x1x128x512) hz4, View.ld_unit_zero (S := S8x128) hz2, ↓View.readCov_cons_toLoadRect]
  rfl

set_option maxHeartbeats 4000000 in

theorem canonA_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x19x128x512 .f32) (x1 : Vec F S1x128x512 .i32) (x2 : Vec F S1x1x128x512 .f32) (x3 : Vec F S1x1x128x512 .i32) :
    View.canon (kernelRun0_A c i arg2 harg2 arg3 harg3 arg4 harg4 arg5 harg5 arg6 harg6 arg7 harg7 hc0 hc1 x0 x1 x2 x3).2.1
      = pointVal (k0_pay4 x1) (k0_pay5 x2) (k0_pay6 x3) (k0_pay7 x2) (k0_pay8 x0) (k0_pay9 x0) I0 I1 (k0_pay3 (F := F)) := by
  unfold kernelRun0_A
  dsimp only
  rw [View.canon_cons_unit_zero (S := S8x128) hz2]
  sl_unfold_words
  simp only [View.readAt_eq_ld, harg2.read_unread, harg3.read_unread, harg4.read_unread, harg5.read_unread, harg7.read_unread,
    View.ld_unit_zero (S := S1x19x128x512) hz4, View.ld_unit_zero (S := S1x128x512) hz3,
    View.ld_unit_zero (S := S1x1x128x512) hz4, View.ld_unit_zero (S := S8x128) hz2, ↓View.readCov_cons_toLoadRect]
  rfl

set_option maxHeartbeats 4000000 in

theorem canonC_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) :
    View.canon (kernelRun0_C c i arg2 harg2 arg3 harg3 arg4 harg4 arg5 harg5 arg6 harg6 arg7 harg7 hc0 hc1 x0 x1 x2 x3 xs0).2.1
      = pointVal (k0_pay4 x1) (k0_pay5 x2) (k0_pay6 x3) (k0_pay7 x2) (k0_pay8 x0) (k0_pay9 x0) I0 I1 xs0 := by
  unfold kernelRun0_C
  dsimp only
  sl_unfold_words
  rw [View.canon_cons_unit_zero (S := S8x128) hz2]
  simp only [View.readAt_eq_ld, harg2.read_unread, harg3.read_unread, harg4.read_unread, harg5.read_unread, harg7.read_unread,
    View.ld_unit_zero (S := S1x19x128x512) hz4, View.ld_unit_zero (S := S1x128x512) hz3,
    View.ld_unit_zero (S := S1x1x128x512) hz4, View.ld_unit_zero (S := S8x128) hz2, ↓View.readCov_cons_toLoadRect]
  rfl

set_option maxHeartbeats 4000000 in

theorem canonC4_eq (c : Dev nD) (i : grid0.Coords) (arg2 : Memref sig .tc .vmem S1x19x128x512 .f32) (harg2 : arg2.IsWhole) (arg3 : Memref sig .tc .vmem S1x128x512 .i32) (harg3 : arg3.IsWhole) (arg4 : Memref sig .tc .vmem S1x1x128x512 .f32) (harg4 : arg4.IsWhole) (arg5 : Memref sig .tc .vmem S1x1x128x512 .i32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x19x128x512 .f32) (x1 : Vec F S1x128x512 .i32) (x2 : Vec F S1x1x128x512 .f32) (x3 : Vec F S1x1x128x512 .i32) (xs0 : Vec F S8x128 .f32) :
    View.canon (kernelRun0_C c i arg2 harg2 arg3 harg3 arg4 harg4 arg5 harg5 arg6 harg6 arg7 harg7 hc0 hc1 x0 x1 x2 x3 xs0).1
      = k0_pay2 (pointVal (k0_pay4 x1) (k0_pay5 x2) (k0_pay6 x3) (k0_pay7 x2) (k0_pay8 x0) (k0_pay9 x0) I0 I1 xs0) := by
  unfold kernelRun0_C
  dsimp only
  sl_unfold_words
  rw [View.canon_cons_unit_zero (S := S1x8x128) hz3]
  simp only [View.readAt_eq_ld, harg2.read_unread, harg3.read_unread, harg4.read_unread, harg5.read_unread, harg7.read_unread,
    View.ld_unit_zero (S := S1x19x128x512) hz4, View.ld_unit_zero (S := S1x128x512) hz3,
    View.ld_unit_zero (S := S1x1x128x512) hz4, View.ld_unit_zero (S := S8x128) hz2, ↓View.readCov_cons_toLoadRect]
  rfl

end Cert.KernelIdeal.KValue

end
-- ==== Proof.KI.Blocks.lean ====
import proofs.«428925_j42245298323666_3_alg».proof.Proof.KI.Runs
import proofs.«428925_j42245298323666_3_alg».proof.Proof.KI.Iface
import Idealize.ShloMosaic.Lib.ValueIdx
import Idealize.ShloMosaic.Lib.Pipeline.Value

noncomputable section

namespace Cert.KernelIdeal.KValue

open Cert.KernelIdeal Cert.KernelIdeal.Gen Cert.KernelIdeal.HFrame
open Idealize.ShloMosaic Idealize.ShloMosaic.ValueIdx

variable {F : FTy → Type} [FloatOps F]
variable (m : (ℓ : Loc nD τ sig) → Buf (Elt F) ℓ)

abbrev segBlk (c : Dev nD) (t : Fin cfg0.N) : Vec F S1x19x128x512 .f32 := iblk m c 0 t
abbrev segArr (c : Dev nD) : Vec F S8x19x512x512 .f32 := V m c main_arg0

abbrev lblBlk (c : Dev nD) (t : Fin cfg0.N) : Vec F S1x128x512 .i32 := iblk m c 1 t
abbrev lblArr (c : Dev nD) : Vec F S8x512x512 .i32 := V m c main_arg2

abbrev edgBlk (c : Dev nD) (t : Fin cfg0.N) : Vec F S1x1x128x512 .f32 := iblk m c 2 t
abbrev edgArr (c : Dev nD) : Vec F S8x1x512x512 .f32 := V m c main_arg1

abbrev elbBlk (c : Dev nD) (t : Fin cfg0.N) : Vec F S1x1x128x512 .i32 := iblk m c 3 t
abbrev elbArr (c : Dev nD) : Vec F S8x1x512x512 .i32 := V m c main_arg3

theorem idx_facts : ∀ t : Fin cfg0.N,
    (win0_0.index t (0 : Fin 4) = t.val / 4 ∧ win0_0.index t (1 : Fin 4) = 0
      ∧ win0_0.index t (2 : Fin 4) = t.val % 4 ∧ win0_0.index t (3 : Fin 4) = 0)
    ∧ (win0_1.index t (0 : Fin 3) = t.val / 4 ∧ win0_1.index t (1 : Fin 3) = t.val % 4
      ∧ win0_1.index t (2 : Fin 3) = 0)
    ∧ (win0_2.index t (0 : Fin 4) = t.val / 4 ∧ win0_2.index t (1 : Fin 4) = 0
      ∧ win0_2.index t (2 : Fin 4) = t.val % 4 ∧ win0_2.index t (3 : Fin 4) = 0)
    ∧ (win0_3.index t (0 : Fin 4) = t.val / 4 ∧ win0_3.index t (1 : Fin 4) = 0
      ∧ win0_3.index t (2 : Fin 4) = t.val % 4 ∧ win0_3.index t (3 : Fin 4) = 0) :=
  (by decide +kernel : ∀ t : Fin grid0.N, _)

def imgOf (t : Fin cfg0.N) : Fin 8 := ⟨t.val / 4, by have := (show t.val < 32 from t.isLt); omega⟩
def tileOf (t : Fin cfg0.N) : Fin 4 := ⟨t.val % 4, by omega⟩
theorem point_eq (t : Fin cfg0.N) : t.val = 4 * (imgOf t).val + (tileOf t).val := by
  show t.val = 4 * (t.val / 4) + t.val % 4
  omega

theorem segBlk_apply (c : Dev nD) (t : Fin cfg0.N) (n : Fin 8) (h : Fin 4) (ht : t.val = 4 * n.val + h.val)
    (cls : Fin 19) (i : Fin 128) (j r : Fin 512) (hr : r.val = 128 * h.val + i.val) :
    segBlk m c t (ix4 0 cls i j) = segArr m c (ix4 n cls r j) := by
  obtain ⟨⟨e0, e1, e2, e3⟩, -⟩ := idx_facts t
  show V m c main_arg0 (((cfg0.win 0).blk t).view.emb (ix4 0 cls i j)) = V m c main_arg0 (ix4 n cls r j)
  refine congrArg (V m c main_arg0) ?_
  funext a; apply Fin.ext
  have hn := n.isLt; have hh := h.isLt
  match a with
  | ⟨0, _⟩ => show win0_0.index t (0 : Fin 4) * 1 + 1 * (0 : Fin 1).val = n.val; omega
  | ⟨1, _⟩ => show win0_0.index t (1 : Fin 4) * 19 + 1 * cls.val = cls.val; omega
  | ⟨2, _⟩ => show win0_0.index t (2 : Fin 4) * 128 + 1 * i.val = r.val; omega
  | ⟨3, _⟩ => show win0_0.index t (3 : Fin 4) * 512 + 1 * j.val = j.val; omega

theorem lblBlk_apply (c : Dev nD) (t : Fin cfg0.N) (n : Fin 8) (h : Fin 4) (ht : t.val = 4 * n.val + h.val)
    (i : Fin 128) (j r : Fin 512) (hr : r.val = 128 * h.val + i.val) :
    lblBlk m c t (ix3 0 i j) = lblArr m c (ix3 n r j) := by
  obtain ⟨-, ⟨e0, e1, e2⟩, -⟩ := idx_facts t
  show V m c main_arg2 (((cfg0.win 1).blk t).view.emb (ix3 0 i j)) = V m c main_arg2 (ix3 n r j)
  refine congrArg (V m c main_arg2) ?_
  funext a; apply Fin.ext
  have hn := n.isLt; have hh := h.isLt
  match a with
  | ⟨0, _⟩ => show win0_1.index t (0 : Fin 3) * 1 + 1 * (0 : Fin 1).val = n.val; omega
  | ⟨1, _⟩ => show win0_1.index t (1 : Fin 3) * 128 + 1 * i.val = r.val; omega
  | ⟨2, _⟩ => show win0_1.index t (2 : Fin 3) * 512 + 1 * j.val = j.val; omega

theorem edgBlk_apply (c : Dev nD) (t : Fin cfg0.N) (n : Fin 8) (h : Fin 4) (ht : t.val = 4 * n.val + h.val)
    (i : Fin 128) (j r : Fin 512) (hr : r.val = 128 * h.val + i.val) :
    edgBlk m c t (ix4 0 0 i j) = edgArr m c (ix4 n 0 r j) := by
  obtain ⟨-, -, ⟨e0, e1, e2, e3⟩, -⟩ := idx_facts t
  show V m c main_arg1 (((cfg0.win 2).blk t).view.emb (ix4 0 0 i j)) = V m c main_arg1 (ix4 n 0 r j)
  refine congrArg (V m c main_arg1) ?_
  funext a; apply Fin.ext
  have hn := n.isLt; have hh := h.isLt
  match a with
  | ⟨0, _⟩ => show win0_2.index t (0 : Fin 4) * 1 + 1 * (0 : Fin 1).val = n.val; omega
  | ⟨1, _⟩ => show win0_2.index t (1 : Fin 4) * 1 + 1 * (0 : Fin 1).val = (0 : Fin 1).val; omega
  | ⟨2, _⟩ => show win0_2.index t (2 : Fin 4) * 128 + 1 * i.val = r.val; omega
  | ⟨3, _⟩ => show win0_2.index t (3 : Fin 4) * 512 + 1 * j.val = j.val; omega

theorem elbBlk_apply (c : Dev nD) (t : Fin cfg0.N) (n : Fin 8) (h : Fin 4) (ht : t.val = 4 * n.val + h.val)
    (i : Fin 128) (j r : Fin 512) (hr : r.val = 128 * h.val + i.val) :
    elbBlk m c t (ix4 0 0 i j) = elbArr m c (ix4 n 0 r j) := by
  obtain ⟨-, -, -, ⟨e0, e1, e2, e3⟩⟩ := idx_facts t
  show V m c main_arg3 (((cfg0.win 3).blk t).view.emb (ix4 0 0 i j)) = V m c main_arg3 (ix4 n 0 r j)
  refine congrArg (V m c main_arg3) ?_
  funext a; apply Fin.ext
  have hn := n.isLt; have hh := h.isLt
  match a with
  | ⟨0, _⟩ => show win0_3.index t (0 : Fin 4) * 1 + 1 * (0 : Fin 1).val = n.val; omega
  | ⟨1, _⟩ => show win0_3.index t (1 : Fin 4) * 1 + 1 * (0 : Fin 1).val = (0 : Fin 1).val; omega
  | ⟨2, _⟩ => show win0_3.index t (2 : Fin 4) * 128 + 1 * i.val = r.val; omega
  | ⟨3, _⟩ => show win0_3.index t (3 : Fin 4) * 512 + 1 * j.val = j.val; omega

theorem segBlk_row (c : Dev nD) (t : Fin cfg0.N) (cls : Fin 19) (i : Fin 128) (j : Fin 512) :
    segBlk m c t (ix4 0 cls i j) = segArr m c (ix4 (imgOf t) cls (row (tileOf t) i) j) :=
  segBlk_apply m c t (imgOf t) (tileOf t) (point_eq t) cls i j (row (tileOf t) i) rfl

theorem lblBlk_row (c : Dev nD) (t : Fin cfg0.N) (i : Fin 128) (j : Fin 512) :
    lblBlk m c t (ix3 0 i j) = lblArr m c (ix3 (imgOf t) (row (tileOf t) i) j) :=
  lblBlk_apply m c t (imgOf t) (tileOf t) (point_eq t) i j (row (tileOf t) i) rfl

theorem edgBlk_row (c : Dev nD) (t : Fin cfg0.N) (i : Fin 128) (j : Fin 512) :
    edgBlk m c t (ix4 0 0 i j) = edgArr m c (ix4 (imgOf t) 0 (row (tileOf t) i) j) :=
  edgBlk_apply m c t (imgOf t) (tileOf t) (point_eq t) i j (row (tileOf t) i) rfl

theorem elbBlk_row (c : Dev nD) (t : Fin cfg0.N) (i : Fin 128) (j : Fin 512) :
    elbBlk m c t (ix4 0 0 i j) = elbArr m c (ix4 (imgOf t) 0 (row (tileOf t) i) j) :=
  elbBlk_apply m c t (imgOf t) (tileOf t) (point_eq t) i j (row (tileOf t) i) rfl

end Cert.KernelIdeal.KValue

end
-- ==== Proof.KI.RoundSem.lean ====
import proofs.«428925_j42245298323666_3_alg».proof.Proof.KI.Iface
import Idealize.ShloMosaic.Lib.ValueIdx
import Idealize.ShloMosaic.PureOps.Ideal.Laws
import Idealize.ShloMosaic.Lib.Pipeline.Value
import Idealize.ShloMosaic.Lib.Affine

noncomputable section

open scoped BigOperators

namespace Cert.KernelIdeal.KValue

open Cert.KernelIdeal Cert.KernelIdeal.Gen
open Idealize.ShloMosaic Idealize.ShloMosaic.ValueIdx

theorem sum2_apply (v : FVec Ideal S128x512 .f32) :
    sum2 v (ix2 0 0) = ∑ i : Fin 128, ∑ j : Fin 512, v (ix2 i j) := by
  unfold sum2
  rw [shapeCast_apply _ _ (ix2 0 0) (ix1 0) (by rw [Shape.rowMajor_val_one, Shape.rowMajor_val_two]; rfl)]
  refine (Ideal.multiReduction_add_single _ _ _ _ _ _).trans ?_
  refine Finset.sum_congr rfl fun (i : Fin 128) _ => ?_
  refine (shapeCast_apply _ _ _ (ix1 i) (by
    rw [Shape.rowMajor_val_one, Shape.rowMajor_val_two]
    show i.val = i.val * 1 + 0
    omega)).trans ?_
  refine (Ideal.multiReduction_add_single _ _ _ _ _ _).trans ?_
  refine Finset.sum_congr rfl fun (j : Fin 512) _ => ?_
  congr 1
  funext c
  match c with
  | ⟨0, _⟩ => exact Fin.ext rfl
  | ⟨1, _⟩ => exact Fin.ext rfl

theorem rowM_apply (r0 : ℕ) (h0 : r0 < 8) (r : Fin 8) (l : Fin 128) : rowM I0 r0 (ix2 r l) = 1#1 ↔ r.val = r0 := by
  show IntOp.cmpi .eq (I0 (ix2 r l)) (BitVec.ofNat 32 r0) = 1#1 ↔ _
  have hi : I0 (ix2 r l) = BitVec.ofNat 32 r.val := iota_single_apply _ _ _ _ _ _
  rw [IntOp.cmpi_eq, hi]
  have hr := r.isLt
  constructor
  · intro h
    have := congrArg BitVec.toNat h
    simp only [BitVec.toNat_ofNat] at this
    omega
  · intro h; rw [h]

theorem colM_apply (k : ℕ) (hk : k < 128) (r : Fin 8) (l : Fin 128) : colM I1 k (ix2 r l) = 1#1 ↔ l.val = k := by
  show IntOp.cmpi .eq (I1 (ix2 r l)) (BitVec.ofNat 32 k) = 1#1 ↔ _
  have hi : I1 (ix2 r l) = BitVec.ofNat 32 l.val := iota_single_apply _ _ _ _ _ _
  rw [IntOp.cmpi_eq, hi]
  have hl := l.isLt
  constructor
  · intro h
    have := congrArg BitVec.toNat h
    simp only [BitVec.toNat_ofNat] at this
    omega
  · intro h; rw [h]

theorem maskedK_apply (r0 k : ℕ) (h0 : r0 < 8) (hk : k < 128) (s : FVec Ideal S1x1 .f32) (r : Fin 8) (l : Fin 128) :
    maskedK (rowM I0 r0) (colM I1 k) s (ix2 r l) = if r.val = r0 ∧ l.val = k then s (ix2 0 0) else 0 := by
  unfold maskedK
  rw [select_apply]
  have hb : broadcastTo S8x128 (shapeCast S1x1 s shapeCasts_S1x1_S1x1) broadcasts_S1x1_S8x128 (ix2 r l) = s (ix2 0 0) := by
    rw [shapeCast_self]
    exact broadcastTo_apply _ _ _ (ix2 0 0) (fun a => by match a with | ⟨0, _⟩ => rfl | ⟨1, _⟩ => rfl)
  rw [hb, broadcast_apply]
  show Scalar.select (IntOp.andi (rowM I0 r0 (ix2 r l)) (colM I1 k (ix2 r l))) _ _ = _
  by_cases hc : r.val = r0 ∧ l.val = k
  · rw [if_pos hc, IntOp.andi_eq_one.2 ⟨(rowM_apply r0 h0 r l).2 hc.1, (colM_apply k hk r l).2 hc.2⟩, select_one]
  · rw [if_neg hc]
    have hz : IntOp.andi (rowM I0 r0 (ix2 r l)) (colM I1 k (ix2 r l)) = 0#1 :=
      eq_zero_of_ne_one fun h =>
        hc ⟨(rowM_apply r0 h0 r l).1 (IntOp.andi_eq_one.1 h).1, (colM_apply k hk r l).1 (IntOp.andi_eq_one.1 h).2⟩
    rw [hz, select_zero]
    exact Ideal.ofBits_zero_f32

theorem accStep_apply (r0 r1 r2 r3 k : ℕ) (h0 : r0 < 8) (h1 : r1 < 8) (h2 : r2 < 8) (h3 : r3 < 8) (hk : k < 128)
    (acc : Vec Ideal S8x128 .f32) (s0 s1 s2 s3 : FVec Ideal S1x1 .f32) (r : Fin 8) (l : Fin 128) :
    accStep (rowM I0 r0) (rowM I0 r1) (rowM I0 r2) (rowM I0 r3) (colM I1 k) acc s0 s1 s2 s3 (ix2 r l)
      = acc (ix2 r l) + (if r.val = r0 ∧ l.val = k then s0 (ix2 0 0) else 0)
          + (if r.val = r1 ∧ l.val = k then s1 (ix2 0 0) else 0)
          + (if r.val = r2 ∧ l.val = k then s2 (ix2 0 0) else 0)
          + (if r.val = r3 ∧ l.val = k then s3 (ix2 0 0) else 0) := by
  unfold accStep
  rw [shapeCast_self]
  rw [addf_apply, addf_apply, addf_apply, addf_apply, maskedK_apply r0 k h0 hk, maskedK_apply r1 k h1 hk,
    maskedK_apply r2 k h2 hk, maskedK_apply r3 k h3 hk]

theorem clsRounds_apply (v6 : IVec S128x512 32) (v15 : FVec Ideal S128x512 .f32) (v19 : FVec Ideal S19x128x512 .f32)
    (v24 : FVec Ideal S128x512 .f32) (acc : Vec Ideal S8x128 .f32) (r : Fin 8) (l : Fin 128) :
    ∀ (k : ℕ) (hk : k ≤ 19), clsRounds v6 v15 v19 v24 I0 I1 acc k hk (ix2 r l)
      = acc (ix2 r l)
        + (if hl : l.val < 19 then (if l.val < k then clsQ v6 v15 v19 v24 ⟨l.val, hl⟩ r else 0) else 0)
  | 0, _ => by
    show acc (ix2 r l) = _
    have hz : (if hl : l.val < 19 then (if l.val < 0 then clsQ v6 v15 v19 v24 ⟨l.val, hl⟩ r else 0) else 0)
        = (0 : EReal) := by
      split <;> simp
    rw [hz, add_zero]
  | k + 1, hk => by
    have ih := clsRounds_apply v6 v15 v19 v24 acc r l k (by omega)
    show clsStep k (slicesK ⟨k, by omega⟩) v6 v15 v19 v24 I0 I1
        (clsRounds v6 v15 v19 v24 I0 I1 acc k (by omega)) (ix2 r l) = _
    unfold clsStep
    rw [accStep_apply 0 1 2 3 k (by omega) (by omega) (by omega) (by omega) (by omega), ih]
    by_cases hlk : l.val = k
    · have hl : l.val < 19 := by omega
      have h1 : ¬ l.val < k := by omega
      have h2 : l.val < k + 1 := by omega
      rw [dif_pos hl, dif_pos hl, if_neg h1, if_pos h2, add_zero]
      have hc : (⟨l.val, hl⟩ : Fin 19) = ⟨k, by omega⟩ := Fin.ext hlk
      rw [hc]
      unfold clsQ
      simp only [hlk, and_true]
      obtain ⟨rv, hrv⟩ := r
      interval_cases rv <;> simp
    · have h1 : (l.val < k + 1) ↔ (l.val < k) := by omega
      simp only [hlk, and_false, if_false, add_zero, h1]

theorem pointVal_apply (v6 : IVec S128x512 32) (v8 v11 v15 : FVec Ideal S128x512 .f32)
    (v19 : FVec Ideal S19x128x512 .f32) (v24 : FVec Ideal S128x512 .f32) (acc : Vec Ideal S8x128 .f32)
    (r : Fin 8) (l : Fin 128) :
    pointVal v6 v8 v11 v15 v19 v24 I0 I1 acc (ix2 r l)
      = acc (ix2 r l)
        + ((if hl : l.val < 19 then clsQ v6 v15 v19 v24 ⟨l.val, hl⟩ r else 0)
          + (if l.val = 0 then edgeQ v8 v11 r else 0)) := by
  unfold pointVal edgeStep
  rw [accStep_apply 4 5 6 7 0 (by omega) (by omega) (by omega) (by omega) (by omega), clsRounds_apply]
  have hA : (if hl : l.val < 19 then (if l.val < 19 then clsQ v6 v15 v19 v24 ⟨l.val, hl⟩ r else 0) else 0)
      = (if hl : l.val < 19 then clsQ v6 v15 v19 v24 ⟨l.val, hl⟩ r else 0) := by
    by_cases hl : l.val < 19 <;> simp [hl]
  rw [hA]
  generalize (if hl : l.val < 19 then clsQ v6 v15 v19 v24 ⟨l.val, hl⟩ r else 0) = A
  by_cases hl0 : l.val = 0
  · unfold edgeQ
    simp only [hl0, and_true, if_true]
    obtain ⟨rv, hrv⟩ := r
    interval_cases rv <;> simp [add_assoc]
  · simp only [hl0, and_false, if_false, add_zero]

end Cert.KernelIdeal.KValue

end
-- ==== Proof.KI.Pixel.lean ====
import Mathlib.Algebra.BigOperators.Fin
import Mathlib.Logic.Equiv.Fin.Basic
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«428925_j42245298323666_3_alg».proof.Proof.Gen.KernelIdeal.Skeleton
import proofs.«428925_j42245298323666_3_alg».proof.Proof.Spec
import proofs.«428925_j42245298323666_3_alg».proof.Proof.KI.Iface

noncomputable section

open scoped BigOperators

namespace Cert.KernelIdeal.KValue

open Idealize.ShloMosaic Idealize.ShloMosaic.ValueIdx Cert.KernelIdeal Cert.KernelIdeal.Gen

theorem sum_tiles {M : Type*} [AddCommMonoid M] (f : Fin 512 → M) :
    ∑ h : Fin 4, ∑ i : Fin 128, f ⟨128 * h.val + i.val, by omega⟩ = ∑ i : Fin 512, f i := by
  calc ∑ h : Fin 4, ∑ i : Fin 128, f ⟨128 * h.val + i.val, by omega⟩
      = ∑ p : Fin 4 × Fin 128, f ⟨128 * p.1.val + p.2.val, by omega⟩ :=
        (Fintype.sum_prod_type' fun (h : Fin 4) (i : Fin 128) => f ⟨128 * h.val + i.val, by omega⟩).symm
    _ = ∑ i : Fin 512, f i :=
        Fintype.sum_equiv (finProdFinEquiv (m := 4) (n := 128)) _ _ fun p =>
          congrArg f (Fin.ext (by simp only [finProdFinEquiv_apply_val]; omega))

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show (((0 * 1 + 0) * a + i.val) * b + j.val) = i.val * b + j.val
    simp only [Nat.zero_mul, Nat.zero_add])

theorem broadcastTo_1ab_mab_apply {α : Type} {m a b : ℕ} (v : (⟨3, ![1, a, b]⟩ : Shape).Idx → α)
    (h : (⟨3, ![1, a, b]⟩ : Shape).Broadcasts ⟨3, ![m, a, b]⟩) (c : Fin m) (i : Fin a) (j : Fin b) :
    broadcastTo ⟨3, ![m, a, b]⟩ v h (ix3 c i j) = v (ix3 (0 : Fin 1) i j) := by
  refine broadcastTo_apply v h (ix3 c i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

theorem lift_cls (h : S19x128x512.Reduces [0] S128x512) (i : Fin 128) (j : Fin 512) (c : Fin 19) :
    h.lift (ix2 i j) c = ix3 c i j := by
  funext a; apply Fin.ext
  fin_cases a <;> rfl

theorem ofBits_negInf : Ideal.ofBits .f32 0xFF800000#32 = ⊥ := by
  simp [Ideal.ofBits, Ideal.ieee]

theorem fold_max_bot {ι : Type} (s : Finset ι) (f : ι → EReal) : s.fold max ⊥ f = s.sup f := by
  classical
  refine Finset.induction_on s (by simp) ?_
  intro a s ha ih
  rw [Finset.fold_insert ha, Finset.sup_insert, ih]

theorem maxCls_apply (v : FVec Ideal S19x128x512 .f32) (i : Fin 128) (j : Fin 512) :
    multiReduction (F := Ideal) .maximumf [0] S128x512 v 0xFF800000#32 reduces_S19x128x512_S128x512 (.inl rfl) rfl (ix2 i j)
      = Finset.univ.sup fun c : Fin 19 => v (ix3 c i j) := by
  refine (Ideal.multiReduction_maximumf_single v 0xFF800000#32 reduces_S19x128x512_S128x512 (.inl rfl) rfl (ix2 i j)).trans ?_
  have hf : (v ∘ reduces_S19x128x512_S128x512.lift (ix2 i j)) = fun c : Fin 19 => v (ix3 c i j) :=
    funext fun c => congrArg v (lift_cls _ i j c)
  have e : (Finset.univ : Finset (Fin 19)).fold max (Ideal.ofBits .f32 0xFF800000#32) (fun c : Fin 19 => v (ix3 c i j))
      = Finset.univ.sup fun c : Fin 19 => v (ix3 c i j) := by
    rw [ofBits_negInf]; exact fold_max_bot _ _
  refine Eq.trans ?_ e
  exact congrArg (fun f => Finset.fold max (Ideal.ofBits .f32 0xFF800000#32) f (Finset.univ : Finset (Fin 19))) hf

theorem sumCls_apply (v : FVec Ideal S19x128x512 .f32) (i : Fin 128) (j : Fin 512) :
    multiReduction (F := Ideal) .add [0] S128x512 v 0x00000000#32 reduces_S19x128x512_S128x512 (.inl rfl) rfl (ix2 i j)
      = ∑ c : Fin 19, v (ix3 c i j) := by
  refine (Ideal.multiReduction_add_single v 0x00000000#32 reduces_S19x128x512_S128x512 (.inl rfl) rfl (ix2 i j)).trans ?_
  have hf : (fun c : Fin 19 => v (reduces_S19x128x512_S128x512.lift (ix2 i j) c)) = fun c : Fin 19 => v (ix3 c i j) :=
    funext fun c => congrArg v (lift_cls _ i j c)
  exact congrArg (fun f : Fin 19 → EReal => ∑ c : Fin 19, f c) hf

variable {F : FTy → Type} [FloatOps F]

theorem pay4_apply (v5 : Vec F S1x128x512 .i32) (i : Fin 128) (j : Fin 512) :
    k0_pay4 (F := F) v5 (ix2 i j) = v5 (ix3 0 i j) :=
  shapeCast_1ab_ab_apply v5 _ i j

theorem pay5_apply (v7 : FVec Ideal S1x1x128x512 .f32) (i : Fin 128) (j : Fin 512) :
    k0_pay5 (F := Ideal) v7 (ix2 i j) = v7 (ix4 0 0 i j) :=
  shapeCast_11ab_ab_apply v7 _ i j

theorem pay6_apply (v9 : Vec Ideal S1x1x128x512 .i32) (i : Fin 128) (j : Fin 512) :
    k0_pay6 (F := Ideal) v9 (ix2 i j) = (((v9 (ix4 0 0 i j)).toInt : ℝ) : EReal) := by
  show ((((shapeCast S128x512 v9 shapeCasts_S1x1x128x512_S128x512 (ix2 i j) : BitVec 32).toInt : ℝ) : EReal)) = _
  rw [shapeCast_11ab_ab_apply]

theorem bit_toReal (p : Bool) :
    ((((BitVec.ofBool p).setWidth 32).toInt : ℝ) : EReal) = if p = true then 1 else 0 := by
  cases p
  · simp
  · simp

theorem pay7_apply (v7 : FVec Ideal S1x1x128x512 .f32) (i : Fin 128) (j : Fin 512) :
    k0_pay7 (F := Ideal) v7 (ix2 i j) = if Spec.cThr < v7 (ix4 0 0 i j) then 1 else 0 := by
  show ((((BitVec.ofBool (decide (Ideal.ofBits .f32 0x3F4CCCCD#32 < k0_pay5 (F := Ideal) v7 (ix2 i j)))).setWidth 32).toInt : ℝ) : EReal) = _
  rw [bit_toReal, pay5_apply]
  simp only [decide_eq_true_eq]

theorem pay8_apply (b : FVec Ideal S1x19x128x512 .f32) (c : Fin 19) (i : Fin 128) (j : Fin 512) :
    k0_pay8 (F := Ideal) b (ix3 c i j) = b (ix4 0 c i j) - Finset.univ.sup fun c' : Fin 19 => b (ix4 0 c' i j) := by
  have h4 : ∀ c' : Fin 19, shapeCast S19x128x512 b shapeCasts_S1x19x128x512_S19x128x512 (ix3 c' i j) = b (ix4 0 c' i j) :=
    fun c' => shapeCast_1abc_abc_apply b _ c' i j
  show shapeCast S19x128x512 b shapeCasts_S1x19x128x512_S19x128x512 (ix3 c i j)
      - broadcastTo S19x128x512
          (shapeCast S1x128x512
            (multiReduction (F := Ideal) .maximumf [0] S128x512 (shapeCast S19x128x512 b shapeCasts_S1x19x128x512_S19x128x512)
              0xFF800000#32 reduces_S19x128x512_S128x512 (.inl rfl) rfl)
            shapeCasts_S128x512_S1x128x512)
          broadcasts_S1x128x512_S19x128x512 (ix3 c i j) = _
  rw [h4, broadcastTo_1ab_mab_apply, shapeCast_ab_1ab_apply, maxCls_apply]
  simp only [h4]

theorem pay9_apply (b : FVec Ideal S1x19x128x512 .f32) (i : Fin 128) (j : Fin 512) :
    k0_pay9 (F := Ideal) b (ix2 i j)
      = Ideal.log (∑ c : Fin 19, Ideal.exp (b (ix4 0 c i j) - Finset.univ.sup fun c' : Fin 19 => b (ix4 0 c' i j))) := by
  show shapeCast S128x512
      (log (shapeCast S1x128x512
        (multiReduction (F := Ideal) .add [0] S128x512 (exp (k0_pay8 (F := Ideal) b)) 0x00000000#32 reduces_S19x128x512_S128x512 (.inl rfl) rfl)
        shapeCasts_S128x512_S1x128x512))
      shapeCasts_S1x128x512_S128x512 (ix2 i j) = _
  rw [shapeCast_1ab_ab_apply]
  show Ideal.log (shapeCast S1x128x512
        (multiReduction (F := Ideal) .add [0] S128x512 (exp (k0_pay8 (F := Ideal) b)) 0x00000000#32 reduces_S19x128x512_S128x512 (.inl rfl) rfl)
        shapeCasts_S128x512_S1x128x512 (ix3 (0 : Fin 1) i j)) = _
  rw [shapeCast_ab_1ab_apply, sumCls_apply]
  refine congrArg Ideal.log (Finset.sum_congr rfl fun c _ => ?_)
  show Ideal.exp (k0_pay8 (F := Ideal) b (ix3 c i j)) = _
  rw [pay8_apply]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lift_lane (h : S128x512.Reduces [1] S128) (i : Fin 128) (j : Fin 512) : h.lift (ix1 i) j = ix2 i j := by
  funext a; apply Fin.ext
  fin_cases a <;> rfl

theorem lift_row (h : S128x1.Reduces [0] S1) (u : Fin 1) (i : Fin 128) : h.lift (ix1 u) i = ix2 i u := by
  funext a; apply Fin.ext
  fin_cases a <;> rfl

theorem sum2_eq_sum (v : FVec Ideal S128x512 .f32) :
    sum2 v (ix2 0 0) = ∑ i : Fin 128, ∑ j : Fin 512, v (ix2 i j) := by
  unfold sum2
  rw [shapeCast_a_1a_apply]
  refine (Ideal.multiReduction_add_single _ 0x00000000#32 reduces_S128x1_S1 (.inl rfl) rfl (ix1 0)).trans ?_
  have hrow : ∀ i : Fin 128,
      shapeCast S128x1 (multiReduction (F := Ideal) .add [1] S128 v 0x00000000#32 reduces_S128x512_S128 (.inl rfl) rfl)
          shapeCasts_S128_S128x1 (reduces_S128x1_S1.lift (ix1 0) i)
        = ∑ j : Fin 512, v (ix2 i j) := by
    intro i
    rw [lift_row, shapeCast_a_a1_apply]
    refine (Ideal.multiReduction_add_single v 0x00000000#32 reduces_S128x512_S128 (.inl rfl) rfl (ix1 i)).trans ?_
    have hf : (fun j : Fin 512 => v (reduces_S128x512_S128.lift (ix1 i) j)) = fun j : Fin 512 => v (ix2 i j) :=
      funext fun j => congrArg v (lift_lane _ i j)
    exact congrArg (fun f : Fin 512 → EReal => ∑ j : Fin 512, f j) hf
  exact congrArg (fun f : Fin 128 → EReal => ∑ i : Fin 128, f i) (funext hrow)

theorem logpK_apply (k : Fin 19) (hs : S19x128x512.Slices ![k.val, 0, 0] S1x128x512) (v19 : FVec Ideal S19x128x512 .f32)
    (v24 : FVec Ideal S128x512 .f32) (i : Fin 128) (j : Fin 512) :
    logpK k.val hs v19 v24 (ix2 i j) = v19 (ix3 k i j) - v24 (ix2 i j) := by
  show shapeCast S128x512 (extractStridedSlice S1x128x512 ![k.val, 0, 0] v19 hs) shapeCasts_S1x128x512_S128x512 (ix2 i j)
      - v24 (ix2 i j) = _
  rw [shapeCast_1ab_ab_apply]
  refine congrArg (· - v24 (ix2 i j)) ?_
  refine extractStridedSlice_apply _ v19 hs (ix3 (0 : Fin 1) i j) (ix3 k i j) fun a => ?_
  fin_cases a
  · show k.val = k.val + 0; rfl
  · show i.val = 0 + i.val; omega
  · show j.val = 0 + j.val; omega

theorem msegK_apply (k : ℕ) (v6 : IVec S128x512 32) (i : Fin 128) (j : Fin 512) :
    msegK (F := Ideal) k v6 (ix2 i j) = if v6 (ix2 i j) = BitVec.ofNat 32 k then 1 else 0 := by
  show ((((BitVec.ofBool (v6 (ix2 i j) == BitVec.ofNat 32 k)).setWidth 32).toInt : ℝ) : EReal) = _
  rw [bit_toReal]
  simp only [beq_iff_eq]

theorem mattK_apply (k : ℕ) (v6 : IVec S128x512 32) (v15 : FVec Ideal S128x512 .f32) (i : Fin 128) (j : Fin 512) :
    mattK k v6 v15 (ix2 i j) = (if v6 (ix2 i j) = BitVec.ofNat 32 k then 1 else 0) * v15 (ix2 i j) := by
  show msegK (F := Ideal) k v6 (ix2 i j) * v15 (ix2 i j) = _
  rw [msegK_apply]

theorem edgeM_apply (w : BitVec 32) (v11 : FVec Ideal S128x512 .f32) (i : Fin 128) (j : Fin 512) :
    edgeM w v11 (ix2 i j) = if v11 (ix2 i j) = Ideal.ofBits .f32 w then 1 else 0 := by
  show ((((BitVec.ofBool (decide (v11 (ix2 i j) = Ideal.ofBits .f32 w))).setWidth 32).toInt : ℝ) : EReal) = _
  rw [bit_toReal]
  simp only [decide_eq_true_eq]

theorem bceK_apply (v8 v11 : FVec Ideal S128x512 .f32) (i : Fin 128) (j : Fin 512) :
    bceK v8 v11 (ix2 i j)
      = max (v8 (ix2 i j)) Spec.c0 - v8 (ix2 i j) * v11 (ix2 i j)
        + Ideal.log1p (Ideal.exp (-(max (v8 (ix2 i j)) (-(v8 (ix2 i j)))))) := by
  show max (v8 (ix2 i j)) (Ideal.ofBits .f32 0x00000000#32) - v8 (ix2 i j) * v11 (ix2 i j)
      + Ideal.log1p (Ideal.exp (Ideal.ofBits .f32 0x00000000#32 - max (v8 (ix2 i j)) (-(v8 (ix2 i j))))) = _
  rw [show Ideal.ofBits .f32 0x00000000#32 - max (v8 (ix2 i j)) (-(v8 (ix2 i j))) = -(max (v8 (ix2 i j)) (-(v8 (ix2 i j))))
    from by rw [Ideal.ofBits_zero_f32, zero_sub]]

theorem sum_rows {M : Type*} [AddCommMonoid M] (f : Fin 512 → M) :
    ∑ h : Fin 4, ∑ i : Fin 128, f (row h i) = ∑ i : Fin 512, f i :=
  sum_tiles f

section tile

variable (x0 : Vec Ideal S1x19x128x512 .f32) (x1 : Vec Ideal S1x128x512 .i32) (x2 : Vec Ideal S1x1x128x512 .f32)
  (x3 : Vec Ideal S1x1x128x512 .i32) (X : Spec.Scores) (E : Spec.Plane) (S Gl : Spec.Labels) (n : Fin 8) (h : Fin 4)

theorem logp_pixel (h0 : ∀ c i j, x0 (ix4 0 c i j) = X n c (row h i) j) (c : Fin 19) (i : Fin 128) (j : Fin 512) :
    k0_pay8 (F := Ideal) x0 (ix3 c i j) - k0_pay9 (F := Ideal) x0 (ix2 i j) = Spec.logp X n c (row h i) j := by
  rw [pay8_apply, pay9_apply]
  simp only [h0]
  rfl

theorem isCls_pixel (h1 : ∀ i j, x1 (ix3 0 i j) = S n (row h i) j) (c : Fin 19) (i : Fin 128) (j : Fin 512) :
    msegK (F := Ideal) c.val (k0_pay4 (F := Ideal) x1) (ix2 i j) = Spec.isCls S n c (row h i) j := by
  rw [msegK_apply, pay4_apply, h1]
  rfl

theorem strong_pixel (h2 : ∀ i j, x2 (ix4 0 0 i j) = E n (row h i) j) (i : Fin 128) (j : Fin 512) :
    k0_pay7 (F := Ideal) x2 (ix2 i j) = Spec.strong E n (row h i) j := by
  rw [pay7_apply, h2]
  rfl

theorem matt_pixel (h1 : ∀ i j, x1 (ix3 0 i j) = S n (row h i) j) (h2 : ∀ i j, x2 (ix4 0 0 i j) = E n (row h i) j)
    (c : Fin 19) (i : Fin 128) (j : Fin 512) :
    mattK c.val (k0_pay4 (F := Ideal) x1) (k0_pay7 (F := Ideal) x2) (ix2 i j)
      = Spec.isCls S n c (row h i) j * Spec.strong E n (row h i) j := by
  show msegK (F := Ideal) c.val (k0_pay4 (F := Ideal) x1) (ix2 i j) * k0_pay7 (F := Ideal) x2 (ix2 i j) = _
  rw [isCls_pixel x1 S n h h1, strong_pixel x2 E n h h2]

theorem edge_pixel (h2 : ∀ i j, x2 (ix4 0 0 i j) = E n (row h i) j) (i : Fin 128) (j : Fin 512) :
    k0_pay5 (F := Ideal) x2 (ix2 i j) = E n (row h i) j := by
  rw [pay5_apply, h2]

theorem edgeT_pixel (h3 : ∀ i j, x3 (ix4 0 0 i j) = Gl n (row h i) j) (i : Fin 128) (j : Fin 512) :
    k0_pay6 (F := Ideal) x3 (ix2 i j) = Spec.edgeT Gl n (row h i) j := by
  rw [pay6_apply, h3]
  rfl

theorem isPos_pixel (h3 : ∀ i j, x3 (ix4 0 0 i j) = Gl n (row h i) j) (i : Fin 128) (j : Fin 512) :
    edgeM 0x3F800000#32 (k0_pay6 (F := Ideal) x3) (ix2 i j) = Spec.isPos Gl n (row h i) j := by
  rw [edgeM_apply, edgeT_pixel x3 Gl n h h3]
  rfl

theorem isNeg_pixel (h3 : ∀ i j, x3 (ix4 0 0 i j) = Gl n (row h i) j) (i : Fin 128) (j : Fin 512) :
    edgeM 0x00000000#32 (k0_pay6 (F := Ideal) x3) (ix2 i j) = Spec.isNeg Gl n (row h i) j := by
  rw [edgeM_apply, edgeT_pixel x3 Gl n h h3]
  rfl

theorem bce_pixel (h2 : ∀ i j, x2 (ix4 0 0 i j) = E n (row h i) j) (h3 : ∀ i j, x3 (ix4 0 0 i j) = Gl n (row h i) j)
    (i : Fin 128) (j : Fin 512) :
    bceK (k0_pay5 (F := Ideal) x2) (k0_pay6 (F := Ideal) x3) (ix2 i j) = Spec.bce E Gl n (row h i) j := by
  rw [bceK_apply, edge_pixel x2 E n h h2, edgeT_pixel x3 Gl n h h3]
  rfl

theorem clsQ_eq (h0 : ∀ c i j, x0 (ix4 0 c i j) = X n c (row h i) j) (h1 : ∀ i j, x1 (ix3 0 i j) = S n (row h i) j)
    (h2 : ∀ i j, x2 (ix4 0 0 i j) = E n (row h i) j) (k : Fin 19) (r : Fin 8) :
    clsQ (k0_pay4 (F := Ideal) x1) (k0_pay7 (F := Ideal) x2) (k0_pay8 (F := Ideal) x0) (k0_pay9 (F := Ideal) x0) k r
      = ∑ i : Fin 128, ∑ j : Fin 512,
          (if r.val = 0 then Spec.logp X n k (row h i) j * Spec.isCls S n k (row h i) j
           else if r.val = 1 then Spec.isCls S n k (row h i) j
           else if r.val = 2 then Spec.logp X n k (row h i) j * (Spec.isCls S n k (row h i) j * Spec.strong E n (row h i) j)
           else if r.val = 3 then Spec.isCls S n k (row h i) j * Spec.strong E n (row h i) j
           else 0) := by
  unfold clsQ
  by_cases r0 : r.val = 0
  · simp only [if_pos r0]
    rw [sum2_eq_sum]
    refine Finset.sum_congr rfl fun i _ => Finset.sum_congr rfl fun j _ => ?_
    show logpK k.val (slicesK k) (k0_pay8 (F := Ideal) x0) (k0_pay9 (F := Ideal) x0) (ix2 i j)
        * msegK (F := Ideal) k.val (k0_pay4 (F := Ideal) x1) (ix2 i j) = _
    rw [logpK_apply, logp_pixel x0 X n h h0, isCls_pixel x1 S n h h1]
  · simp only [if_neg r0]
    by_cases r1 : r.val = 1
    · simp only [if_pos r1]
      rw [sum2_eq_sum]
      exact Finset.sum_congr rfl fun i _ => Finset.sum_congr rfl fun j _ => isCls_pixel x1 S n h h1 k i j
    · simp only [if_neg r1]
      by_cases r2 : r.val = 2
      · simp only [if_pos r2]
        rw [sum2_eq_sum]
        refine Finset.sum_congr rfl fun i _ => Finset.sum_congr rfl fun j _ => ?_
        show logpK k.val (slicesK k) (k0_pay8 (F := Ideal) x0) (k0_pay9 (F := Ideal) x0) (ix2 i j)
            * mattK k.val (k0_pay4 (F := Ideal) x1) (k0_pay7 (F := Ideal) x2) (ix2 i j) = _
        rw [logpK_apply, logp_pixel x0 X n h h0, matt_pixel x1 x2 E S n h h1 h2]
      · simp only [if_neg r2]
        by_cases r3 : r.val = 3
        · simp only [if_pos r3]
          rw [sum2_eq_sum]
          exact Finset.sum_congr rfl fun i _ => Finset.sum_congr rfl fun j _ => matt_pixel x1 x2 E S n h h1 h2 k i j
        · simp only [if_neg r3, Finset.sum_const_zero]

theorem edgeQ_eq (h2 : ∀ i j, x2 (ix4 0 0 i j) = E n (row h i) j) (h3 : ∀ i j, x3 (ix4 0 0 i j) = Gl n (row h i) j)
    (r : Fin 8) :
    edgeQ (k0_pay5 (F := Ideal) x2) (k0_pay6 (F := Ideal) x3) r
      = ∑ i : Fin 128, ∑ j : Fin 512,
          (if r.val = 4 then Spec.isPos Gl n (row h i) j
           else if r.val = 5 then Spec.isNeg Gl n (row h i) j
           else if r.val = 6 then Spec.bce E Gl n (row h i) j * Spec.isPos Gl n (row h i) j
           else if r.val = 7 then Spec.bce E Gl n (row h i) j * Spec.isNeg Gl n (row h i) j
           else 0) := by
  unfold edgeQ
  by_cases r4 : r.val = 4
  · simp only [if_pos r4]
    rw [sum2_eq_sum]
    exact Finset.sum_congr rfl fun i _ => Finset.sum_congr rfl fun j _ => isPos_pixel x3 Gl n h h3 i j
  · simp only [if_neg r4]
    by_cases r5 : r.val = 5
    · simp only [if_pos r5]
      rw [sum2_eq_sum]
      exact Finset.sum_congr rfl fun i _ => Finset.sum_congr rfl fun j _ => isNeg_pixel x3 Gl n h h3 i j
    · simp only [if_neg r5]
      by_cases r6 : r.val = 6
      · simp only [if_pos r6]
        rw [sum2_eq_sum]
        refine Finset.sum_congr rfl fun i _ => Finset.sum_congr rfl fun j _ => ?_
        show bceK (k0_pay5 (F := Ideal) x2) (k0_pay6 (F := Ideal) x3) (ix2 i j)
            * edgeM 0x3F800000#32 (k0_pay6 (F := Ideal) x3) (ix2 i j) = _
        rw [bce_pixel x2 x3 E Gl n h h2 h3, isPos_pixel x3 Gl n h h3]
      · simp only [if_neg r6]
        by_cases r7 : r.val = 7
        · simp only [if_pos r7]
          rw [sum2_eq_sum]
          refine Finset.sum_congr rfl fun i _ => Finset.sum_congr rfl fun j _ => ?_
          show bceK (k0_pay5 (F := Ideal) x2) (k0_pay6 (F := Ideal) x3) (ix2 i j)
              * edgeM 0x00000000#32 (k0_pay6 (F := Ideal) x3) (ix2 i j) = _
          rw [bce_pixel x2 x3 E Gl n h h2 h3, isNeg_pixel x3 Gl n h h3]
        · simp only [if_neg r7, Finset.sum_const_zero]

theorem tile_eq (h0 : ∀ c i j, x0 (ix4 0 c i j) = X n c (row h i) j) (h1 : ∀ i j, x1 (ix3 0 i j) = S n (row h i) j)
    (h2 : ∀ i j, x2 (ix4 0 0 i j) = E n (row h i) j) (h3 : ∀ i j, x3 (ix4 0 0 i j) = Gl n (row h i) j)
    (r : Fin 8) (l : Fin 128) :
    (if hl : l.val < 19 then
        clsQ (k0_pay4 (F := Ideal) x1) (k0_pay7 (F := Ideal) x2) (k0_pay8 (F := Ideal) x0) (k0_pay9 (F := Ideal) x0) ⟨l.val, hl⟩ r
      else 0)
      + (if l.val = 0 then edgeQ (k0_pay5 (F := Ideal) x2) (k0_pay6 (F := Ideal) x3) r else 0)
      = ∑ i : Fin 128, ∑ j : Fin 512, G X E S Gl n r l (row h i) j := by
  unfold G
  simp only [Finset.sum_add_distrib]
  congr 1
  · by_cases hl : l.val < 19
    · simp only [dif_pos hl]
      exact clsQ_eq x0 x1 x2 X E S n h h0 h1 h2 ⟨l.val, hl⟩ r
    · simp only [dif_neg hl, Finset.sum_const_zero]
  · by_cases hl0 : l.val = 0
    · simp only [if_pos hl0]
      exact edgeQ_eq x2 x3 E Gl n h h2 h3 r
    · simp only [if_neg hl0, Finset.sum_const_zero]

end tile

end Cert.KernelIdeal.KValue

end
-- ==== Proof.KI.Flush.lean ====
import proofs.«428925_j42245298323666_3_alg».proof.Proof.KI.Frame
import Idealize.ShloMosaic.Lib.Pipeline.Value
import Idealize.ShloMosaic.Lib.ValueIdx

noncomputable section

namespace Cert.KernelIdeal.KValue

open Cert.KernelIdeal Cert.KernelIdeal.Gen Cert.KernelIdeal.HFrame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

abbrev arrOf (Z : Fin 8 → Fin 8 → Fin 128 → EReal) : S8x8x128.Idx → EReal :=
  fun i => Z ⟨(i 0).val, (i 0).isLt⟩ ⟨(i 1).val, (i 1).isLt⟩ ⟨(i 2).val, (i 2).isLt⟩

theorem idx_facts4 : ∀ t : Fin cfg0.N, win0_4.index t (0 : Fin 3) = t.val / 4
    ∧ win0_4.index t (1 : Fin 3) = 0 ∧ win0_4.index t (2 : Fin 3) = 0 :=
  (by decide +kernel : ∀ t : Fin grid0.N, win0_4.index t (0 : Fin 3) = t.val / 4
    ∧ win0_4.index t (1 : Fin 3) = 0 ∧ win0_4.index t (2 : Fin 3) = 0)

theorem mem_blk4 (t : Fin cfg0.N) (i : S8x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v0).slice (win0_4.rect t)).set ↔ _
  rw [View.set_slice_whole, Rect.mem_set_unit]
  exact Iff.rfl

theorem cover4 (i : S8x8x128.Idx) :
    ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 128 := (i 2).isLt
  have hlt : 4 * (i 0).val + 3 < cfg0.N := by rw [show cfg0.N = 32 from N_0]; omega
  refine ⟨⟨4 * (i 0).val + 3, hlt⟩, (flush0_4 _).mpr (by show (4 * (i 0).val + 3) % 4 = 3; omega), ?_⟩
  rw [mem_blk4]
  obtain ⟨e0, e1, e2⟩ := idx_facts4 ⟨4 * (i 0).val + 3, hlt⟩
  have e0' : win0_4.index ⟨4 * (i 0).val + 3, hlt⟩ (0 : Fin 3) = (i 0).val := by
    rw [e0]; show (4 * (i 0).val + 3) / 4 = (i 0).val; omega
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 8 ≤ (i 1).val ∧ (i 1).val < win0_4.index _ (1 : Fin 3) * 8 + 8
    rw [e1]; omega
  | ⟨2, _⟩ =>
    show win0_4.index _ (2 : Fin 3) * 128 ≤ (i 2).val ∧ (i 2).val < win0_4.index _ (2 : Fin 3) * 128 + 128
    rw [e2]; omega

theorem flushed4_eq (c : Dev nD) (Z : Fin 8 → Fin 8 → Fin 128 → EReal)
    (hout : ∀ (t : Fin cfg0.N) (h3 : t.val % 4 = 3) (r : Fin 8) (l : Fin 128),
      (HFrame.outsAt0 (F := Ideal) m c t.val t.isLt).1 (ix3 0 r l)
        = Z ⟨t.val / 4, by have := t.isLt; have : cfg0.N = 32 := N_0; omega⟩ r l)
    (t : Fin cfg0.N) (hf : (cfg0.win 4).flush t = true) :
    (HFrame.dats (F := Ideal) m 0 c).flushed 4 t = ((cfg0.win 4).blk t).view.read (Elt Ideal) (arrOf Z) := by
  have h3 : t.val % 4 = 3 := (flush0_4 t).mp hf
  obtain ⟨e0, e1, e2⟩ := idx_facts4 t
  show (cfg0.win 4).cut (grid0.coords t) ((HFrame.dats (F := Ideal) m 0 c).after 4 t) = _
  rw [after0_4]
  funext j
  have hj0 : (j 0).val < 1 := (j 0).isLt
  have hj1 : (j 1).val < 8 := (j 1).isLt
  have hj2 : (j 2).val < 128 := (j 2).isLt
  rw [View.read_apply]
  have hx : (cfg0.win 4).xinj (grid0.coords t) j = ix3 (0 : Fin 1) (⟨(j 1).val, hj1⟩ : Fin 8) (⟨(j 2).val, hj2⟩ : Fin 128) := by
    funext a; apply Fin.ext
    match a with
    | ⟨0, _⟩ => show (j 0).val = 0; omega
    | ⟨1, _⟩ => rfl
    | ⟨2, _⟩ => rfl
  show (HFrame.outsAt0 (F := Ideal) m c t.val t.isLt).1 ((cfg0.win 4).xinj (grid0.coords t) j)
    = arrOf Z (((cfg0.win 4).blk t).view.emb j)
  rw [hx, hout t h3]
  have k0 : ((((cfg0.win 4).blk t).view.emb j) 0).val = t.val / 4 := by
    show win0_4.index t (0 : Fin 3) * 1 + 1 * (j 0).val = t.val / 4
    rw [e0]; omega
  have k1 : ((((cfg0.win 4).blk t).view.emb j) 1).val = (j 1).val := by
    show win0_4.index t (1 : Fin 3) * 8 + 1 * (j 1).val = (j 1).val
    rw [e1]; omega
  have k2 : ((((cfg0.win 4).blk t).view.emb j) 2).val = (j 2).val := by
    show win0_4.index t (2 : Fin 3) * 128 + 1 * (j 2).val = (j 2).val
    rw [e2]; omega
  exact congr (congr (congrArg Z (Fin.ext k0.symm)) (Fin.ext k1.symm)) (Fin.ext k2.symm)

theorem arr_of_flush (c : Dev nD) (Z : Fin 8 → Fin 8 → Fin 128 → EReal)
    (hout : ∀ (t : Fin cfg0.N) (h3 : t.val % 4 = 3) (r : Fin 8) (l : Fin 128),
      (HFrame.outsAt0 (F := Ideal) m c t.val t.isLt).1 (ix3 0 r l)
        = Z ⟨t.val / 4, by have := t.isLt; have : cfg0.N = 32 := N_0; omega⟩ r l) :
    ∀ (n : Fin 8) (r : Fin 8) (l : Fin 128),
      (HFrame.dats (F := Ideal) m 0 c).arrAt 4 cfg0.N (ix3 n r l) = Z n r l := by
  intro n r l
  have h := (HFrame.dats (F := Ideal) m 0 c).arrAt_eq_of_cover 4 (arrOf Z) (flushed4_eq m c Z hout) cover4
  rw [h]

end Cert.KernelIdeal.KValue

end
-- ==== Proof.KI.Holds.lean ====
import proofs.«428925_j42245298323666_3_alg».proof.Proof.KI.Iface

noncomputable section

namespace Cert.KernelIdeal.KValue

open Cert.Spec

theorem G_cls0 (X : Scores) (E : Plane) (S Gl : Labels) (n : Fin 8) (c : Fin 19) :
    G X E S Gl n 0 (lane c) = fun i j => logp X n c i j * isCls S n c i j := by
  funext i j
  have hl : (lane c).val < 19 := c.isLt
  unfold G
  rw [dif_pos hl, if_pos (show (0 : Fin 8).val = 0 from rfl), if_neg (show ¬ (0 : Fin 8).val = 4 by decide),
    if_neg (show ¬ (0 : Fin 8).val = 5 by decide), if_neg (show ¬ (0 : Fin 8).val = 6 by decide),
    if_neg (show ¬ (0 : Fin 8).val = 7 by decide), ite_self, add_zero]
  rfl

theorem G_cls1 (X : Scores) (E : Plane) (S Gl : Labels) (n : Fin 8) (c : Fin 19) :
    G X E S Gl n 1 (lane c) = fun i j => isCls S n c i j := by
  funext i j
  have hl : (lane c).val < 19 := c.isLt
  unfold G
  rw [dif_pos hl, if_neg (show ¬ (1 : Fin 8).val = 0 by decide), if_pos (show (1 : Fin 8).val = 1 from rfl),
    if_neg (show ¬ (1 : Fin 8).val = 4 by decide),
    if_neg (show ¬ (1 : Fin 8).val = 5 by decide), if_neg (show ¬ (1 : Fin 8).val = 6 by decide),
    if_neg (show ¬ (1 : Fin 8).val = 7 by decide), ite_self, add_zero]
  rfl

theorem G_cls2 (X : Scores) (E : Plane) (S Gl : Labels) (n : Fin 8) (c : Fin 19) :
    G X E S Gl n 2 (lane c) = fun i j => logp X n c i j * (isCls S n c i j * strong E n i j) := by
  funext i j
  have hl : (lane c).val < 19 := c.isLt
  unfold G
  rw [dif_pos hl, if_neg (show ¬ (2 : Fin 8).val = 0 by decide), if_neg (show ¬ (2 : Fin 8).val = 1 by decide),
    if_pos (show (2 : Fin 8).val = 2 from rfl),
    if_neg (show ¬ (2 : Fin 8).val = 4 by decide),
    if_neg (show ¬ (2 : Fin 8).val = 5 by decide), if_neg (show ¬ (2 : Fin 8).val = 6 by decide),
    if_neg (show ¬ (2 : Fin 8).val = 7 by decide), ite_self, add_zero]
  rfl

theorem G_cls3 (X : Scores) (E : Plane) (S Gl : Labels) (n : Fin 8) (c : Fin 19) :
    G X E S Gl n 3 (lane c) = fun i j => isCls S n c i j * strong E n i j := by
  funext i j
  have hl : (lane c).val < 19 := c.isLt
  unfold G
  rw [dif_pos hl, if_neg (show ¬ (3 : Fin 8).val = 0 by decide), if_neg (show ¬ (3 : Fin 8).val = 1 by decide),
    if_neg (show ¬ (3 : Fin 8).val = 2 by decide), if_pos (show (3 : Fin 8).val = 3 from rfl),
    if_neg (show ¬ (3 : Fin 8).val = 4 by decide),
    if_neg (show ¬ (3 : Fin 8).val = 5 by decide), if_neg (show ¬ (3 : Fin 8).val = 6 by decide),
    if_neg (show ¬ (3 : Fin 8).val = 7 by decide), ite_self, add_zero]
  rfl

theorem G_edge4 (X : Scores) (E : Plane) (S Gl : Labels) (n : Fin 8) :
    G X E S Gl n 4 0 = fun i j => isPos Gl n i j := by
  funext i j
  unfold G
  rw [dif_pos (show (0 : Fin 128).val < 19 by decide), if_neg (show ¬ (4 : Fin 8).val = 0 by decide),
    if_neg (show ¬ (4 : Fin 8).val = 1 by decide), if_neg (show ¬ (4 : Fin 8).val = 2 by decide),
    if_neg (show ¬ (4 : Fin 8).val = 3 by decide), if_pos (show (0 : Fin 128).val = 0 from rfl),
    if_pos (show (4 : Fin 8).val = 4 from rfl), zero_add]

theorem G_edge5 (X : Scores) (E : Plane) (S Gl : Labels) (n : Fin 8) :
    G X E S Gl n 5 0 = fun i j => isNeg Gl n i j := by
  funext i j
  unfold G
  rw [dif_pos (show (0 : Fin 128).val < 19 by decide), if_neg (show ¬ (5 : Fin 8).val = 0 by decide),
    if_neg (show ¬ (5 : Fin 8).val = 1 by decide), if_neg (show ¬ (5 : Fin 8).val = 2 by decide),
    if_neg (show ¬ (5 : Fin 8).val = 3 by decide), if_pos (show (0 : Fin 128).val = 0 from rfl),
    if_neg (show ¬ (5 : Fin 8).val = 4 by decide), if_pos (show (5 : Fin 8).val = 5 from rfl), zero_add]

theorem G_edge6 (X : Scores) (E : Plane) (S Gl : Labels) (n : Fin 8) :
    G X E S Gl n 6 0 = fun i j => bce E Gl n i j * isPos Gl n i j := by
  funext i j
  unfold G
  rw [dif_pos (show (0 : Fin 128).val < 19 by decide), if_neg (show ¬ (6 : Fin 8).val = 0 by decide),
    if_neg (show ¬ (6 : Fin 8).val = 1 by decide), if_neg (show ¬ (6 : Fin 8).val = 2 by decide),
    if_neg (show ¬ (6 : Fin 8).val = 3 by decide), if_pos (show (0 : Fin 128).val = 0 from rfl),
    if_neg (show ¬ (6 : Fin 8).val = 4 by decide), if_neg (show ¬ (6 : Fin 8).val = 5 by decide),
    if_pos (show (6 : Fin 8).val = 6 from rfl), zero_add]

theorem G_edge7 (X : Scores) (E : Plane) (S Gl : Labels) (n : Fin 8) :
    G X E S Gl n 7 0 = fun i j => bce E Gl n i j * isNeg Gl n i j := by
  funext i j
  unfold G
  rw [dif_pos (show (0 : Fin 128).val < 19 by decide), if_neg (show ¬ (7 : Fin 8).val = 0 by decide),
    if_neg (show ¬ (7 : Fin 8).val = 1 by decide), if_neg (show ¬ (7 : Fin 8).val = 2 by decide),
    if_neg (show ¬ (7 : Fin 8).val = 3 by decide), if_pos (show (0 : Fin 128).val = 0 from rfl),
    if_neg (show ¬ (7 : Fin 8).val = 4 by decide), if_neg (show ¬ (7 : Fin 8).val = 5 by decide),
    if_neg (show ¬ (7 : Fin 8).val = 6 by decide), if_pos (show (7 : Fin 8).val = 7 from rfl), zero_add]

theorem holds_of_arr (X : Scores) (E : Plane) (S Gl : Labels) (o : Sums)
    (h : ∀ (n : Fin 8) (r : Fin 8) (l : Fin 128), o n r l = pixSum (G X E S Gl n r l)) : HoldsSums X E S Gl o where
  r0 := fun n c => by rw [h, G_cls0]; rfl
  r1 := fun n c => by rw [h, G_cls1]; rfl
  r2 := fun n c => by rw [h, G_cls2]; rfl
  r3 := fun n c => by rw [h, G_cls3]; rfl
  r4 := fun n => by rw [h, G_edge4]; rfl
  r5 := fun n => by rw [h, G_edge5]; rfl
  r6 := fun n => by rw [h, G_edge6]; rfl
  r7 := fun n => by rw [h, G_edge7]; rfl

end Cert.KernelIdeal.KValue

end
-- ==== Proof.KI.OutArray.lean ====
import proofs.«428925_j42245298323666_3_alg».proof.Proof.KI.Frame
import proofs.«428925_j42245298323666_3_alg».proof.Proof.KI.Pieces
import proofs.«428925_j42245298323666_3_alg».proof.Proof.KI.Blocks
import proofs.«428925_j42245298323666_3_alg».proof.Proof.KI.RoundSem
import proofs.«428925_j42245298323666_3_alg».proof.Proof.KI.Pixel
import proofs.«428925_j42245298323666_3_alg».proof.Proof.KI.Flush
import proofs.«428925_j42245298323666_3_alg».proof.Proof.KI.Holds
import Idealize.ShloMosaic.Lib.ValueLayout

set_option maxRecDepth 16384

noncomputable section

open scoped BigOperators

namespace Cert.KernelIdeal.KValue

open Cert.KernelIdeal Cert.KernelIdeal.Gen Cert.KernelIdeal.HFrame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

abbrev aX (c : Dev nD) : Cert.Spec.Scores := Cert.Spec.scoresOf (segArr m c)
abbrev aE (c : Dev nD) : Cert.Spec.Plane := Cert.Spec.planeOf (edgArr m c)
abbrev aS (c : Dev nD) : Cert.Spec.Labels := Cert.Spec.labelsOf3 (lblArr m c)
abbrev aG (c : Dev nD) : Cert.Spec.Labels := Cert.Spec.labelsOf4 (elbArr m c)

def tileT (c : Dev nD) (n : Fin 8) (h : Fin 4) (r : Fin 8) (l : Fin 128) : EReal :=
  ∑ i : Fin 128, ∑ j : Fin 512, G (aX m c) (aE m c) (aS m c) (aG m c) n r l (row h i) j

def tileN (c : Dev nD) (n h : ℕ) (r : Fin 8) (l : Fin 128) : EReal :=
  if hn : n < 8 then if hh : h < 4 then tileT m c ⟨n, hn⟩ ⟨h, hh⟩ r l else 0 else 0

def PV (c : Dev nD) (t : Fin cfg0.N) (acc : Vec Ideal S8x128 .f32) : Vec Ideal S8x128 .f32 :=
  pointVal (k0_pay4 (lblBlk m c t)) (k0_pay5 (edgBlk m c t)) (k0_pay6 (elbBlk m c t)) (k0_pay7 (edgBlk m c t))
    (k0_pay8 (segBlk m c t)) (k0_pay9 (segBlk m c t)) I0 I1 acc

theorem tileN_point (c : Dev nD) (t : Fin cfg0.N) (r : Fin 8) (l : Fin 128) :
    tileN m c (t.val / 4) (t.val % 4) r l = tileT m c (imgOf t) (tileOf t) r l := by
  have h8 : t.val / 4 < 8 := (imgOf t).isLt
  have h4 : t.val % 4 < 4 := (tileOf t).isLt
  unfold tileN
  rw [dif_pos h8, dif_pos h4]
  rfl

theorem PV_apply (c : Dev nD) (t : Fin cfg0.N) (acc : Vec Ideal S8x128 .f32) (r : Fin 8) (l : Fin 128) :
    PV m c t acc (ix2 r l) = acc (ix2 r l) + tileN m c (t.val / 4) (t.val % 4) r l := by
  rw [tileN_point]
  unfold PV tileT
  rw [pointVal_apply]
  exact congrArg (fun z => acc (ix2 r l) + z)
    (tile_eq (x0 := segBlk m c t) (x1 := lblBlk m c t) (x2 := edgBlk m c t) (x3 := elbBlk m c t)
      (X := aX m c) (E := aE m c) (S := aS m c) (Gl := aG m c) (n := imgOf t) (h := tileOf t)
      (fun cls i j => segBlk_row m c t cls i j) (fun i j => lblBlk_row m c t i j)
      (fun i j => edgBlk_row m c t i j) (fun i j => elbBlk_row m c t i j) r l)

theorem scr_A (c : Dev nD) (t : Fin cfg0.N) (h0 : t.val % 4 = 0) (h1 : ¬t.val % 4 = 3) :
    (outsAt0 m c t.val t.isLt).2 = PV m c t (k0_pay3 (F := Ideal)) := by
  rw [outsAt0_A m c t h0 h1]; dsimp only
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))]
  exact canonA_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (segBlk m c t) (lblBlk m c t) (edgBlk m c t) (elbBlk m c t)

theorem scr_B (c : Dev nD) (t : Fin cfg0.N) (h0 : ¬t.val % 4 = 0) (h1 : ¬t.val % 4 = 3) :
    (outsAt0 m c t.val t.isLt).2 = PV m c t (outsAt0 m c (t.val - 1) (Nat.lt_of_le_of_lt (Nat.sub_le _ _) t.isLt)).2 := by
  rw [outsAt0_B m c t h0 h1]; dsimp only
  unfold sout0_B_0
  rw [View.read_writes_eq_canon _ _ _ (scover0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2)]
  exact canonB_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (segBlk m c t) (lblBlk m c t) (edgBlk m c t) (elbBlk m c t) (outsAt0 m c (t.val - 1) (Nat.lt_of_le_of_lt (Nat.sub_le _ _) t.isLt)).2

theorem scr_C (c : Dev nD) (t : Fin cfg0.N) (h0 : ¬t.val % 4 = 0) (h1 : t.val % 4 = 3) :
    (outsAt0 m c t.val t.isLt).2 = PV m c t (outsAt0 m c (t.val - 1) (Nat.lt_of_le_of_lt (Nat.sub_le _ _) t.isLt)).2 := by
  rw [outsAt0_C m c t h0 h1]; dsimp only
  unfold sout0_C_0
  rw [View.read_writes_eq_canon _ _ _ (scover0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)]
  exact canonC_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (segBlk m c t) (lblBlk m c t) (edgBlk m c t) (elbBlk m c t) (outsAt0 m c (t.val - 1) (Nat.lt_of_le_of_lt (Nat.sub_le _ _) t.isLt)).2

theorem out_C (c : Dev nD) (t : Fin cfg0.N) (h0 : ¬t.val % 4 = 0) (h1 : t.val % 4 = 3) :
    (outsAt0 m c t.val t.isLt).1 = k0_pay2 (PV m c t (outsAt0 m c (t.val - 1) (Nat.lt_of_le_of_lt (Nat.sub_le _ _) t.isLt)).2) := by
  rw [outsAt0_C m c t h0 h1]; dsimp only
  unfold out0_C_4
  rw [View.read_writes_eq_canon _ _ _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)]
  exact canonC4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (segBlk m c t) (lblBlk m c t) (edgBlk m c t) (elbBlk m c t) (outsAt0 m c (t.val - 1) (Nat.lt_of_le_of_lt (Nat.sub_le _ _) t.isLt)).2

theorem pay3_apply (r : Fin 8) (l : Fin 128) : k0_pay3 (F := Ideal) (ix2 r l) = 0 := by
  unfold k0_pay3
  rw [shapeCast_self]
  exact Ideal.ofBits_zero_f32

theorem scr_inv (c : Dev nD) : ∀ (k : ℕ) (hk : k < cfg0.N) (r : Fin 8) (l : Fin 128),
    (outsAt0 m c k hk).2 (ix2 r l) = ∑ h ∈ Finset.range (k % 4 + 1), tileN m c (k / 4) h r l := by
  intro k
  induction k with
  | zero =>
    intro hk r l
    have h := congrFun (scr_A m c ⟨0, hk⟩ (show (0 : ℕ) % 4 = 0 from rfl) (show ¬(0 : ℕ) % 4 = 3 by decide)) (ix2 r l)
    rw [show (outsAt0 m c 0 hk) = outsAt0 m c (⟨0, hk⟩ : Fin cfg0.N).val (⟨0, hk⟩ : Fin cfg0.N).isLt from rfl, h,
      PV_apply, pay3_apply, zero_add]
    simp
  | succ k ih =>
    intro hk r l
    let t : Fin cfg0.N := ⟨k + 1, hk⟩
    by_cases h0 : (k + 1) % 4 = 0
    · have h1 : ¬(k + 1) % 4 = 3 := by omega
      have h := congrFun (scr_A m c t h0 h1) (ix2 r l)
      rw [show (outsAt0 m c (k + 1) hk) = outsAt0 m c t.val t.isLt from rfl, h, PV_apply, pay3_apply, zero_add]
      show tileN m c ((k + 1) / 4) ((k + 1) % 4) r l = _
      rw [h0]; simp
    · have hprev := ih (Nat.lt_of_succ_lt hk) r l
      have hstep : (outsAt0 m c (k + 1) hk).2 (ix2 r l)
          = (outsAt0 m c k (Nat.lt_of_succ_lt hk)).2 (ix2 r l) + tileN m c ((k + 1) / 4) ((k + 1) % 4) r l := by
        by_cases h1 : (k + 1) % 4 = 3
        · have h := congrFun (scr_C m c t h0 h1) (ix2 r l)
          rw [show (outsAt0 m c (k + 1) hk) = outsAt0 m c t.val t.isLt from rfl, h, PV_apply]
          rfl
        · have h := congrFun (scr_B m c t h0 h1) (ix2 r l)
          rw [show (outsAt0 m c (k + 1) hk) = outsAt0 m c t.val t.isLt from rfl, h, PV_apply]
          rfl
      rw [hstep, hprev]
      have e1 : k / 4 = (k + 1) / 4 := by omega
      have e2 : k % 4 + 1 = (k + 1) % 4 := by omega
      rw [e1, e2, Finset.sum_range_succ]

theorem hout (c : Dev nD) (t : Fin cfg0.N) (h3 : t.val % 4 = 3) (r : Fin 8) (l : Fin 128) :
    (outsAt0 m c t.val t.isLt).1 (ix3 0 r l)
      = (fun n r l => ∑ h : Fin 4, tileT m c n h r l)
          ⟨t.val / 4, by have := t.isLt; have : cfg0.N = 32 := N_0; omega⟩ r l := by
  have h0 : ¬t.val % 4 = 0 := by omega
  rw [out_C m c t h0 h3, ← scr_C m c t h0 h3]
  unfold k0_pay2
  rw [shapeCast_ab_1ab_apply, scr_inv m c t.val t.isLt r l, h3, Finset.sum_range]
  have h8 : t.val / 4 < 8 := by have := t.isLt; have : cfg0.N = 32 := N_0; omega
  refine Finset.sum_congr rfl fun h _ => ?_
  unfold tileN
  rw [dif_pos h8, dif_pos h.isLt]

theorem arr_eq (c : Dev nD) (n : Fin 8) (r : Fin 8) (l : Fin 128) :
    (dats (F := Ideal) m 0 c).arrAt 4 cfg0.N (ix3 n r l)
      = Cert.Spec.pixSum (G (aX m c) (aE m c) (aS m c) (aG m c) n r l) := by
  rw [arr_of_flush m c (fun n r l => ∑ h : Fin 4, tileT m c n h r l) (hout m c) n r l]
  unfold tileT Cert.Spec.pixSum
  exact sum_rows (fun i => ∑ j : Fin 512, G (aX m c) (aE m c) (aS m c) (aG m c) n r l i j)

theorem holds_sums (m : (ℓ : Loc nD τ sig) → Buf (Elt Ideal) ℓ) (c : Dev nD) :
    Cert.Spec.HoldsSums (Cert.Spec.scoresOf (m ((c : Thread nD τ).loc main_arg0)))
      (Cert.Spec.planeOf (m ((c : Thread nD τ).loc main_arg1)))
      (Cert.Spec.labelsOf3 (m ((c : Thread nD τ).loc main_arg2)))
      (Cert.Spec.labelsOf4 (m ((c : Thread nD τ).loc main_arg3)))
      (Cert.Spec.sumsOf ((dats (F := Ideal) m 0 c).arrAt 4 cfg0.N)) :=
  holds_of_arr (aX m c) (aE m c) (aS m c) (aG m c) _ (fun n r l => arr_eq m c n r l)

end Cert.KernelIdeal.KValue

end
-- ==== Proof.RefRunOps.lean ====
import proofs.«428925_j42245298323666_3_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- A literal reference as a typed reference at its own buffer type. -/
abbrev tr (r : Ref sig .tc) (h1 : r.space ≠ .host := by decide) (h2 : r.isScoped = false := by rfl) : TRef sig r.ty :=
  ⟨r, rfl, h1, h2⟩

set_option maxHeartbeats 4000000 in

/-- The reference's 365 host operations in program order, in twelve chunks; a called function's operations stand at its call. -/
abbrev ops_c0 : List (HloOp τ sig (Elt F)) :=
  [ reshape main_arg2 main_v0 rfl shapeCasts_S8x512x512_S8x262144,
    nullary main_c (constantI S_ 32 0#32),
    unary main_c main_v1 (broadcastInDim S8x262144 ![] bcast_S_S8x262144),
    binary main_v0 main_v1 main_v2 (cmpi .sge),
    nullary main_c_0 (constantI S_ 32 19#32),
    unary main_c_0 main_v3 (broadcastInDim S8x262144 ![] bcast_S_S8x262144),
    binary main_v0 main_v3 main_v4 (cmpi .slt),
    binary main_v2 main_v4 main_v5 andi,
    nullary main_c_1 (constantI S_ 32 19#32),
    TRef.unary (tr main_c_1) (tr main_call0_v0) id,
    TRef.unary (tr main_call0_v0) (tr main_call0_v1) (broadcastInDim S8x262144 ![] bcast_S_S8x262144),
    TRef.ternary (tr main_v5) (tr main_v0) (tr main_call0_v1) (tr main_v6) select,
    nullary main_cst (constant S_ .f32 0x00000000#32),
    unary main_cst main_v7 (broadcastInDim S8x20 ![] bcast_S_S8x20),
    nullary main_v8 (iotaInDim S8 32 0),
    unary main_v8 main_v9 (broadcastInDim S8x1 ![0] bcast_S8_S8x1_0),
    nullary main_c_2 (constantI S_ 32 0#32),
    unary main_c_2 main_v10 (broadcastInDim S8x1 ![] bcast_S_S8x1),
    binary main_v9 main_v10 main_v11 (cmpi .slt),
    nullary main_c_3 (constantI S_ 32 8#32),
    unary main_c_3 main_v12 (broadcastInDim S8x1 ![] bcast_S_S8x1),
    binary main_v9 main_v12 main_v13 addi,
    ternary main_v11 main_v13 main_v9 main_v14 select,
    nullary main_c_4 (constantI S_ 32 0#32),
    unary main_c_4 main_v15 (broadcastInDim S8x262144 ![] bcast_S_S8x262144),
    binary main_v6 main_v15 main_v16 (cmpi .slt),
    nullary main_c_5 (constantI S_ 32 20#32),
    unary main_c_5 main_v17 (broadcastInDim S8x262144 ![] bcast_S_S8x262144),
    binary main_v6 main_v17 main_v18 addi,
    ternary main_v16 main_v18 main_v6 main_v19 select,
    unary main_v14 main_v20 (broadcastInDim S8x262144 ![0, 1] bcast_S8x1_S8x262144_0_1),
    unary main_v20 main_v21 (broadcastInDim S8x262144x1 ![0, 1] bcast_S8x262144_S8x262144x1_0_1),
    unary main_v19 main_v22 (broadcastInDim S8x262144x1 ![0, 1] bcast_S8x262144_S8x262144x1_0_1) ]

set_option maxHeartbeats 4000000 in

abbrev ops_c1 : List (HloOp τ sig (Elt F)) :=
  [ binary main_v21 main_v22 main_v23 ((fun a b => concatenate S8x262144x2 2 [⟨S8x262144x1, a⟩, ⟨S8x262144x1, b⟩] concatenates_S8x262144x1_S8x262144x1_S8x262144x2_d2)),
    nullary main_cst_6 (constant S_ .f32 0x3F800000#32),
    unary main_cst_6 main_v24 (broadcastInDim S8x262144 ![] bcast_S_S8x262144),
    ternary main_v7 main_v23 main_v24 main_v25 ((fun x i u => Host.scatterAdd scatter_S8x20_S8x262144x2_S8x262144_n_01_01_2 x i u)),
    unary main_v25 main_v26 ((extractStridedSlice S8x19 ![0, 0] · slices_S8x20_S8x19_0_0)),
    nullary main_cst_7 (constant S_ .f32 0x00000000#32),
    binary main_v26 main_cst_7 main_v27 ((fun x v => Host.reduceAdd x v reducesTo_S8x19_S8_d1 h_S_)),
    unary main_v27 main_v28 (broadcastInDim S8x1 ![0] bcast_S8_S8x1_0),
    nullary main_cst_8 (constant S_ .f32 0x3F800000#32),
    unary main_cst_8 main_v29 (broadcastInDim S8x1 ![] bcast_S_S8x1),
    binary main_v28 main_v29 main_v30 maximumf,
    unary main_v30 main_v31 (broadcastInDim S8x19 ![0, 1] bcast_S8x1_S8x19_0_1),
    binary main_v26 main_v31 main_v32 Host.divf,
    nullary main_cst_9 (constant S_ .f32 0x00000000#32),
    unary main_cst_9 main_v33 (broadcastInDim S8x19 ![] bcast_S_S8x19),
    binary main_v26 main_v33 main_v34 (cmpf (F := F) .ogt),
    unary main_v34 main_v35 (uitofp (F := F) .f32),
    nullary main_cst_10 (constant S_ .f32 0x3F800000#32),
    unary main_cst_10 main_v36 (broadcastInDim S8x19 ![] bcast_S_S8x19),
    binary main_v35 main_v36 main_v37 mulf,
    nullary main_cst_11 (constant S_ .f32 0x3F800000#32),
    unary main_cst_11 main_v38 (broadcastInDim S8x19 ![] bcast_S_S8x19),
    binary main_v38 main_v32 main_v39 subf,
    binary main_v37 main_v39 main_v40 mulf,
    nullary main_cst_12 (constant S_ .f32 0x3F800000#32),
    unary main_cst_12 main_v41 (broadcastInDim S8x19 ![] bcast_S_S8x19),
    binary main_v40 main_v41 main_v42 addf,
    TRef.nullary (tr main_call1_cst) (constant S_ .f32 0xFF800000#32),
    TRef.binary (tr main_arg0) (tr main_call1_cst) (tr main_call1_v0) (fun x v => Host.reduce FloatOps.maximumf x v reducesTo_S8x19x512x512_S8x512x512_d1 h_S_),
    TRef.nullary (tr main_call1_cst_0) (constant S_ .f32 0xFF800000#32),
    TRef.unary (tr main_call1_cst_0) (tr main_call1_v1) (broadcastInDim S8x512x512 ![] bcast_S_S8x512x512),
    TRef.binary (tr main_call1_v1) (tr main_call1_v0) (tr main_call1_v2) maximumf,
    TRef.unary (tr main_call1_v2) (tr main_call1_v3) (broadcastInDim S8x1x512x512 ![0, 2, 3] bcast_S8x512x512_S8x1x512x512_0_2_3),
    TRef.unary (tr main_call1_v3) (tr main_call1_v4) (broadcastInDim S8x19x512x512 ![0, 1, 2, 3] bcast_S8x1x512x512_S8x19x512x512_0_1_2_3),
    TRef.binary (tr main_arg0) (tr main_call1_v4) (tr main_call1_v5) subf,
    TRef.unary (tr main_call1_v5) (tr main_call1_v6) Host.exp,
    TRef.nullary (tr main_call1_cst_1) (constant S_ .f32 0x00000000#32),
    TRef.binary (tr main_call1_v6) (tr main_call1_cst_1) (tr main_call1_v7) (fun x v => Host.reduceAdd x v reducesTo_S8x19x512x512_S8x512x512_d1 h_S_),
    TRef.unary (tr main_call1_v7) (tr main_call1_v8) (broadcastInDim S8x1x512x512 ![0, 2, 3] bcast_S8x512x512_S8x1x512x512_0_2_3),
    TRef.unary (tr main_call1_v8) (tr main_call1_v9) Host.log,
    TRef.unary (tr main_call1_v9) (tr main_call1_v10) (broadcastInDim S8x19x512x512 ![0, 1, 2, 3] bcast_S8x1x512x512_S8x19x512x512_0_1_2_3),
    TRef.binary (tr main_call1_v5) (tr main_call1_v10) (tr main_v43) subf,
    nullary main_c_13 (constantI S_ 32 0#32) ]

set_option maxHeartbeats 4000000 in

abbrev ops_c2 : List (HloOp τ sig (Elt F)) :=
  [ nullary main_c_14 (constantI S_ 32 18#32),
    TRef.unary (tr main_c_13) (tr main_call2_v0) id,
    TRef.unary (tr main_call2_v0) (tr main_call2_v1) (broadcastInDim S8x512x512 ![] bcast_S_S8x512x512),
    TRef.binary (tr main_call2_v1) (tr main_arg2) (tr main_call2_v2) maxsi,
    TRef.unary (tr main_c_14) (tr main_call2_v3) id,
    TRef.unary (tr main_call2_v3) (tr main_call2_v4) (broadcastInDim S8x512x512 ![] bcast_S_S8x512x512),
    TRef.binary (tr main_call2_v4) (tr main_call2_v2) (tr main_v44) minsi,
    unary main_v44 main_v45 (broadcastInDim S8x1x512x512 ![0, 2, 3] bcast_S8x512x512_S8x1x512x512_0_2_3),
    TRef.nullary (tr main_call3_c) (constantI S_ 32 0#32),
    TRef.unary (tr main_call3_c) (tr main_call3_v0) (broadcastInDim S8x1x512x512 ![] bcast_S_S8x1x512x512),
    TRef.binary (tr main_v45) (tr main_call3_v0) (tr main_call3_v1) (cmpi .slt),
    TRef.nullary (tr main_call3_c_0) (constantI S_ 32 19#32),
    TRef.unary (tr main_call3_c_0) (tr main_call3_v2) (broadcastInDim S8x1x512x512 ![] bcast_S_S8x1x512x512),
    TRef.binary (tr main_v45) (tr main_call3_v2) (tr main_call3_v3) addi,
    TRef.ternary (tr main_call3_v1) (tr main_call3_v3) (tr main_v45) (tr main_call3_v4) select,
    TRef.reshape (tr main_call3_v4) (tr main_call3_v5) rfl shapeCasts_S8x1x512x512_S8x1x512x512x1,
    TRef.nullary (tr main_call3_c_1) (constantI S1 32 18#32),
    TRef.nullary (tr main_call3_c_2) (constantI S_ 32 0#32),
    TRef.unary (tr main_call3_c_2) (tr main_call3_v6) (broadcastInDim S8x1x512x512x1 ![] bcast_S_S8x1x512x512x1),
    TRef.binary (tr main_call3_v5) (tr main_call3_v6) (tr main_call3_v7) (cmpi .sge),
    TRef.unary (tr main_call3_c_1) (tr main_call3_v8) (broadcastInDim S1x1x1x1x1 ![4] bcast_S1_S1x1x1x1x1_4),
    TRef.unary (tr main_call3_v8) (tr main_call3_v9) (broadcastInDim S8x1x512x512x1 ![0, 1, 2, 3, 4] bcast_S1x1x1x1x1_S8x1x512x512x1_0_1_2_3_4),
    TRef.binary (tr main_call3_v5) (tr main_call3_v9) (tr main_call3_v10) (cmpi .sle),
    TRef.binary (tr main_call3_v7) (tr main_call3_v10) (tr main_call3_v11) andi,
    TRef.nullary (tr main_call3_c_3) (constantI S_ 1 1#1),
    TRef.binary (tr main_call3_v11) (tr main_call3_c_3) (tr main_call3_v12) (fun x v => Host.reduce IntOp.andi x v reducesTo_S8x1x512x512x1_S8x1x512x512_d4 h_S_),
    TRef.binary (tr main_v43) (tr main_call3_v5) (tr main_call3_v13) (fun x i => Host.gather gather_S8x19x512x512_S8x1x512x512x1_S8x1x512x512_n_1_023_023_1_4_1111 x i),
    TRef.nullary (tr main_call3_cst) (constant S_ .f32 0x7FC00000#32),
    TRef.unary (tr main_call3_cst) (tr main_call3_v14) (broadcastInDim S8x1x512x512 ![] bcast_S_S8x1x512x512),
    TRef.ternary (tr main_call3_v12) (tr main_call3_v13) (tr main_call3_v14) (tr main_v46) select,
    reshape main_v46 main_v47 rfl shapeCasts_S8x1x512x512_S8x512x512,
    reshape main_v44 main_v48 rfl shapeCasts_S8x512x512_S8x262144,
    TRef.nullary (tr main_call4_c) (constantI S_ 32 0#32),
    TRef.unary (tr main_call4_c) (tr main_call4_v0) (broadcastInDim S8x262144 ![] bcast_S_S8x262144),
    TRef.binary (tr main_v48) (tr main_call4_v0) (tr main_call4_v1) (cmpi .slt),
    TRef.nullary (tr main_call4_c_0) (constantI S_ 32 19#32),
    TRef.unary (tr main_call4_c_0) (tr main_call4_v2) (broadcastInDim S8x262144 ![] bcast_S_S8x262144),
    TRef.binary (tr main_v48) (tr main_call4_v2) (tr main_call4_v3) addi ]

set_option maxHeartbeats 4000000 in

abbrev ops_c3 : List (HloOp τ sig (Elt F)) :=
  [ TRef.ternary (tr main_call4_v1) (tr main_call4_v3) (tr main_v48) (tr main_call4_v4) select,
    TRef.reshape (tr main_call4_v4) (tr main_call4_v5) rfl shapeCasts_S8x262144_S8x262144x1,
    TRef.nullary (tr main_call4_c_1) (constantI S1 32 18#32),
    TRef.nullary (tr main_call4_c_2) (constantI S_ 32 0#32),
    TRef.unary (tr main_call4_c_2) (tr main_call4_v6) (broadcastInDim S8x262144x1 ![] bcast_S_S8x262144x1),
    TRef.binary (tr main_call4_v5) (tr main_call4_v6) (tr main_call4_v7) (cmpi .sge),
    TRef.unary (tr main_call4_c_1) (tr main_call4_v8) (broadcastInDim S1x1x1 ![2] bcast_S1_S1x1x1_2),
    TRef.unary (tr main_call4_v8) (tr main_call4_v9) (broadcastInDim S8x262144x1 ![0, 1, 2] bcast_S1x1x1_S8x262144x1_0_1_2),
    TRef.binary (tr main_call4_v5) (tr main_call4_v9) (tr main_call4_v10) (cmpi .sle),
    TRef.binary (tr main_call4_v7) (tr main_call4_v10) (tr main_call4_v11) andi,
    TRef.nullary (tr main_call4_c_3) (constantI S_ 1 1#1),
    TRef.binary (tr main_call4_v11) (tr main_call4_c_3) (tr main_call4_v12) (fun x v => Host.reduce IntOp.andi x v reducesTo_S8x262144x1_S8x262144_d2 h_S_),
    TRef.binary (tr main_v42) (tr main_call4_v5) (tr main_call4_v13) (fun x i => Host.gather gather_S8x19_S8x262144x1_S8x262144_n_1_0_0_1_2_11 x i),
    TRef.nullary (tr main_call4_cst) (constant S_ .f32 0x7FC00000#32),
    TRef.unary (tr main_call4_cst) (tr main_call4_v14) (broadcastInDim S8x262144 ![] bcast_S_S8x262144),
    TRef.ternary (tr main_call4_v12) (tr main_call4_v13) (tr main_call4_v14) (tr main_v49) select,
    reshape main_v49 main_v50 rfl shapeCasts_S8x262144_S8x512x512,
    reshape main_v5 main_v51 rfl shapeCasts_S8x262144_S8x512x512,
    nullary main_cst_15 (constant S_ .f32 0x00000000#32),
    TRef.unary (tr main_cst_15) (tr main_call5_v0) id,
    TRef.unary (tr main_call5_v0) (tr main_call5_v1) (broadcastInDim S8x512x512 ![] bcast_S_S8x512x512),
    TRef.ternary (tr main_v51) (tr main_v50) (tr main_call5_v1) (tr main_v52) select,
    binary main_v52 main_v47 main_v53 mulf,
    nullary main_cst_16 (constant S_ .f32 0x00000000#32),
    binary main_v53 main_cst_16 main_v54 ((fun x v => Host.reduceAdd x v reducesTo_S8x512x512_S8_d1_2 h_S_)),
    unary main_v54 main_v55 Host.negf,
    nullary main_cst_17 (constant S_ .f32 0x00000000#32),
    binary main_v52 main_cst_17 main_v56 ((fun x v => Host.reduceAdd x v reducesTo_S8x512x512_S8_d1_2 h_S_)),
    nullary main_cst_18 (constant S_ .f32 0x2B8CBCCC#32),
    unary main_cst_18 main_v57 (broadcastInDim S8 ![] bcast_S_S8),
    binary main_v56 main_v57 main_v58 maximumf,
    binary main_v55 main_v58 main_v59 Host.divf,
    nullary main_cst_19 (constant S_ .f32 0x00000000#32),
    binary main_v59 main_cst_19 main_v60 ((fun x v => Host.reduceAdd x v reducesTo_S8_S_d0 h_S_)),
    nullary main_cst_20 (constant S_ .f32 0x3F800000#32),
    binary main_cst_20 main_v60 main_v61 mulf,
    reshape main_arg1 main_v62 rfl shapeCasts_S8x1x512x512_S2097152,
    reshape main_arg3 main_v63 rfl shapeCasts_S8x1x512x512_S2097152 ]

set_option maxHeartbeats 4000000 in

abbrev ops_c4 : List (HloOp τ sig (Elt F)) :=
  [ unary main_v63 main_v64 (sitofp (F := F) .f32),
    nullary main_cst_21 (constant S_ .f32 0x3F800000#32),
    unary main_cst_21 main_v65 (broadcastInDim S2097152 ![] bcast_S_S2097152),
    binary main_v64 main_v65 main_v66 (cmpf (F := F) .oeq),
    nullary main_cst_22 (constant S_ .f32 0x00000000#32),
    unary main_cst_22 main_v67 (broadcastInDim S2097152 ![] bcast_S_S2097152),
    binary main_v64 main_v67 main_v68 (cmpf (F := F) .oeq),
    unary main_v66 main_v69 ((extui 32 · natLt_1_32)),
    nullary main_c_23 (constantI S_ 32 0#32),
    binary main_v69 main_c_23 main_v70 ((fun x v => Host.reduce IntOp.addi x v reducesTo_S2097152_S_d0 h_S_)),
    unary main_v70 main_v71 (sitofp (F := F) .f32),
    unary main_v68 main_v72 ((extui 32 · natLt_1_32)),
    nullary main_c_24 (constantI S_ 32 0#32),
    binary main_v72 main_c_24 main_v73 ((fun x v => Host.reduce IntOp.addi x v reducesTo_S2097152_S_d0 h_S_)),
    unary main_v73 main_v74 (sitofp (F := F) .f32),
    binary main_v71 main_v74 main_v75 addf,
    nullary main_cst_25 (constant S_ .f32 0x3F800000#32),
    binary main_v75 main_cst_25 main_v76 maximumf,
    binary main_v74 main_v76 main_v77 Host.divf,
    nullary main_cst_26 (constant S_ .f32 0x00000000#32),
    TRef.unary (tr main_cst_26) (tr main_call6_v0) id,
    TRef.unary (tr main_v77) (tr main_call6_v1) (broadcastInDim S2097152 ![] bcast_S_S2097152),
    TRef.unary (tr main_call6_v0) (tr main_call6_v2) (broadcastInDim S2097152 ![] bcast_S_S2097152),
    TRef.ternary (tr main_v66) (tr main_call6_v1) (tr main_call6_v2) (tr main_v78) select,
    binary main_v71 main_v76 main_v79 Host.divf,
    nullary main_cst_27 (constant S_ .f32 0x00000000#32),
    TRef.unary (tr main_cst_27) (tr main_call7_v0) id,
    TRef.unary (tr main_v79) (tr main_call7_v1) (broadcastInDim S2097152 ![] bcast_S_S2097152),
    TRef.unary (tr main_call7_v0) (tr main_call7_v2) (broadcastInDim S2097152 ![] bcast_S_S2097152),
    TRef.ternary (tr main_v68) (tr main_call7_v1) (tr main_call7_v2) (tr main_v80) select,
    binary main_v78 main_v80 main_v81 addf,
    nullary main_cst_28 (constant S_ .f32 0x00000000#32),
    unary main_cst_28 main_v82 (broadcastInDim S2097152 ![] bcast_S_S2097152),
    binary main_v62 main_v82 main_v83 maximumf,
    binary main_v62 main_v64 main_v84 mulf,
    binary main_v83 main_v84 main_v85 subf,
    unary main_v62 main_v86 Host.absf,
    unary main_v86 main_v87 Host.negf,
    unary main_v87 main_v88 Host.exp ]

set_option maxHeartbeats 4000000 in

abbrev ops_c5 : List (HloOp τ sig (Elt F)) :=
  [ unary main_v88 main_v89 Host.log1p,
    binary main_v85 main_v89 main_v90 addf,
    binary main_v81 main_v90 main_v91 mulf,
    nullary main_cst_29 (constant S_ .f32 0x00000000#32),
    binary main_v91 main_cst_29 main_v92 ((fun x v => Host.reduceAdd x v reducesTo_S2097152_S_d0 h_S_)),
    nullary main_cst_30 (constant S_ .f32 0x4A000000#32),
    binary main_v92 main_cst_30 main_v93 Host.divf,
    nullary main_cst_31 (constant S_ .f32 0x41A00000#32),
    binary main_cst_31 main_v93 main_v94 mulf,
    nullary main_cst_32 (constant S_ .f32 0xFF800000#32),
    binary main_arg1 main_cst_32 main_v95 ((fun x v => Host.reduce FloatOps.maximumf x v reducesTo_S8x1x512x512_S8x512x512_d1 h_S_)),
    nullary main_cst_33 (constant S_ .f32 0x3F4CCCCD#32),
    unary main_cst_33 main_v96 (broadcastInDim S8x512x512 ![] bcast_S_S8x512x512),
    binary main_v95 main_v96 main_v97 (cmpf (F := F) .ogt),
    nullary main_c_34 (constantI S_ 32 255#32),
    TRef.unary (tr main_c_34) (tr main_call8_v0) id,
    TRef.unary (tr main_call8_v0) (tr main_call8_v1) (broadcastInDim S8x512x512 ![] bcast_S_S8x512x512),
    TRef.ternary (tr main_v97) (tr main_arg2) (tr main_call8_v1) (tr main_v98) select,
    reshape main_v98 main_v99 rfl shapeCasts_S8x512x512_S8x262144,
    nullary main_c_35 (constantI S_ 32 0#32),
    unary main_c_35 main_v100 (broadcastInDim S8x262144 ![] bcast_S_S8x262144),
    binary main_v99 main_v100 main_v101 (cmpi .sge),
    nullary main_c_36 (constantI S_ 32 19#32),
    unary main_c_36 main_v102 (broadcastInDim S8x262144 ![] bcast_S_S8x262144),
    binary main_v99 main_v102 main_v103 (cmpi .slt) ]

set_option maxHeartbeats 4000000 in

abbrev ops_c6 : List (HloOp τ sig (Elt F)) :=
  [ binary main_v101 main_v103 main_v104 andi,
    nullary main_c_37 (constantI S_ 32 19#32),
    TRef.unary (tr main_c_37) (tr main_call9_v0) id,
    TRef.unary (tr main_call9_v0) (tr main_call9_v1) (broadcastInDim S8x262144 ![] bcast_S_S8x262144),
    TRef.ternary (tr main_v104) (tr main_v99) (tr main_call9_v1) (tr main_v105) select,
    nullary main_cst_38 (constant S_ .f32 0x00000000#32),
    unary main_cst_38 main_v106 (broadcastInDim S8x20 ![] bcast_S_S8x20),
    nullary main_v107 (iotaInDim S8 32 0),
    unary main_v107 main_v108 (broadcastInDim S8x1 ![0] bcast_S8_S8x1_0),
    nullary main_c_39 (constantI S_ 32 0#32),
    unary main_c_39 main_v109 (broadcastInDim S8x1 ![] bcast_S_S8x1),
    binary main_v108 main_v109 main_v110 (cmpi .slt),
    nullary main_c_40 (constantI S_ 32 8#32),
    unary main_c_40 main_v111 (broadcastInDim S8x1 ![] bcast_S_S8x1),
    binary main_v108 main_v111 main_v112 addi,
    ternary main_v110 main_v112 main_v108 main_v113 select,
    nullary main_c_41 (constantI S_ 32 0#32),
    unary main_c_41 main_v114 (broadcastInDim S8x262144 ![] bcast_S_S8x262144),
    binary main_v105 main_v114 main_v115 (cmpi .slt),
    nullary main_c_42 (constantI S_ 32 20#32),
    unary main_c_42 main_v116 (broadcastInDim S8x262144 ![] bcast_S_S8x262144),
    binary main_v105 main_v116 main_v117 addi,
    ternary main_v115 main_v117 main_v105 main_v118 select,
    unary main_v113 main_v119 (broadcastInDim S8x262144 ![0, 1] bcast_S8x1_S8x262144_0_1),
    unary main_v119 main_v120 (broadcastInDim S8x262144x1 ![0, 1] bcast_S8x262144_S8x262144x1_0_1),
    unary main_v118 main_v121 (broadcastInDim S8x262144x1 ![0, 1] bcast_S8x262144_S8x262144x1_0_1) ]

set_option maxHeartbeats 4000000 in

abbrev ops_c7 : List (HloOp τ sig (Elt F)) :=
  [ binary main_v120 main_v121 main_v122 ((fun a b => concatenate S8x262144x2 2 [⟨S8x262144x1, a⟩, ⟨S8x262144x1, b⟩] concatenates_S8x262144x1_S8x262144x1_S8x262144x2_d2)),
    nullary main_cst_43 (constant S_ .f32 0x3F800000#32),
    unary main_cst_43 main_v123 (broadcastInDim S8x262144 ![] bcast_S_S8x262144),
    ternary main_v106 main_v122 main_v123 main_v124 ((fun x i u => Host.scatterAdd scatter_S8x20_S8x262144x2_S8x262144_n_01_01_2 x i u)),
    unary main_v124 main_v125 ((extractStridedSlice S8x19 ![0, 0] · slices_S8x20_S8x19_0_0)),
    nullary main_cst_44 (constant S_ .f32 0x00000000#32),
    binary main_v125 main_cst_44 main_v126 ((fun x v => Host.reduceAdd x v reducesTo_S8x19_S8_d1 h_S_)),
    unary main_v126 main_v127 (broadcastInDim S8x1 ![0] bcast_S8_S8x1_0),
    nullary main_cst_45 (constant S_ .f32 0x3F800000#32),
    unary main_cst_45 main_v128 (broadcastInDim S8x1 ![] bcast_S_S8x1),
    binary main_v127 main_v128 main_v129 maximumf,
    unary main_v129 main_v130 (broadcastInDim S8x19 ![0, 1] bcast_S8x1_S8x19_0_1),
    binary main_v125 main_v130 main_v131 Host.divf ]

set_option maxHeartbeats 4000000 in

abbrev ops_c8 : List (HloOp τ sig (Elt F)) :=
  [ nullary main_cst_46 (constant S_ .f32 0x00000000#32),
    unary main_cst_46 main_v132 (broadcastInDim S8x19 ![] bcast_S_S8x19),
    binary main_v125 main_v132 main_v133 (cmpf (F := F) .ogt),
    unary main_v133 main_v134 (uitofp (F := F) .f32),
    nullary main_cst_47 (constant S_ .f32 0x3F800000#32),
    unary main_cst_47 main_v135 (broadcastInDim S8x19 ![] bcast_S_S8x19),
    binary main_v134 main_v135 main_v136 mulf,
    nullary main_cst_48 (constant S_ .f32 0x3F800000#32),
    unary main_cst_48 main_v137 (broadcastInDim S8x19 ![] bcast_S_S8x19),
    binary main_v137 main_v131 main_v138 subf,
    binary main_v136 main_v138 main_v139 mulf,
    nullary main_cst_49 (constant S_ .f32 0x3F800000#32),
    unary main_cst_49 main_v140 (broadcastInDim S8x19 ![] bcast_S_S8x19),
    binary main_v139 main_v140 main_v141 addf,
    TRef.nullary (tr main_call10_cst) (constant S_ .f32 0xFF800000#32),
    TRef.binary (tr main_arg0) (tr main_call10_cst) (tr main_call10_v0) (fun x v => Host.reduce FloatOps.maximumf x v reducesTo_S8x19x512x512_S8x512x512_d1 h_S_),
    TRef.nullary (tr main_call10_cst_0) (constant S_ .f32 0xFF800000#32),
    TRef.unary (tr main_call10_cst_0) (tr main_call10_v1) (broadcastInDim S8x512x512 ![] bcast_S_S8x512x512),
    TRef.binary (tr main_call10_v1) (tr main_call10_v0) (tr main_call10_v2) maximumf,
    TRef.unary (tr main_call10_v2) (tr main_call10_v3) (broadcastInDim S8x1x512x512 ![0, 2, 3] bcast_S8x512x512_S8x1x512x512_0_2_3),
    TRef.unary (tr main_call10_v3) (tr main_call10_v4) (broadcastInDim S8x19x512x512 ![0, 1, 2, 3] bcast_S8x1x512x512_S8x19x512x512_0_1_2_3),
    TRef.binary (tr main_arg0) (tr main_call10_v4) (tr main_call10_v5) subf,
    TRef.unary (tr main_call10_v5) (tr main_call10_v6) Host.exp,
    TRef.nullary (tr main_call10_cst_1) (constant S_ .f32 0x00000000#32),
    TRef.binary (tr main_call10_v6) (tr main_call10_cst_1) (tr main_call10_v7) (fun x v => Host.reduceAdd x v reducesTo_S8x19x512x512_S8x512x512_d1 h_S_),
    TRef.unary (tr main_call10_v7) (tr main_call10_v8) (broadcastInDim S8x1x512x512 ![0, 2, 3] bcast_S8x512x512_S8x1x512x512_0_2_3),
    TRef.unary (tr main_call10_v8) (tr main_call10_v9) Host.log,
    TRef.unary (tr main_call10_v9) (tr main_call10_v10) (broadcastInDim S8x19x512x512 ![0, 1, 2, 3] bcast_S8x1x512x512_S8x19x512x512_0_1_2_3),
    TRef.binary (tr main_call10_v5) (tr main_call10_v10) (tr main_v142) subf,
    nullary main_c_50 (constantI S_ 32 0#32),
    nullary main_c_51 (constantI S_ 32 18#32),
    TRef.unary (tr main_c_50) (tr main_call11_v0) id,
    TRef.unary (tr main_call11_v0) (tr main_call11_v1) (broadcastInDim S8x512x512 ![] bcast_S_S8x512x512),
    TRef.binary (tr main_call11_v1) (tr main_v98) (tr main_call11_v2) maxsi,
    TRef.unary (tr main_c_51) (tr main_call11_v3) id,
    TRef.unary (tr main_call11_v3) (tr main_call11_v4) (broadcastInDim S8x512x512 ![] bcast_S_S8x512x512) ]

set_option maxHeartbeats 4000000 in

abbrev ops_c9 : List (HloOp τ sig (Elt F)) :=
  [ TRef.binary (tr main_call11_v4) (tr main_call11_v2) (tr main_v143) minsi,
    unary main_v143 main_v144 (broadcastInDim S8x1x512x512 ![0, 2, 3] bcast_S8x512x512_S8x1x512x512_0_2_3),
    TRef.nullary (tr main_call12_c) (constantI S_ 32 0#32),
    TRef.unary (tr main_call12_c) (tr main_call12_v0) (broadcastInDim S8x1x512x512 ![] bcast_S_S8x1x512x512),
    TRef.binary (tr main_v144) (tr main_call12_v0) (tr main_call12_v1) (cmpi .slt),
    TRef.nullary (tr main_call12_c_0) (constantI S_ 32 19#32),
    TRef.unary (tr main_call12_c_0) (tr main_call12_v2) (broadcastInDim S8x1x512x512 ![] bcast_S_S8x1x512x512),
    TRef.binary (tr main_v144) (tr main_call12_v2) (tr main_call12_v3) addi,
    TRef.ternary (tr main_call12_v1) (tr main_call12_v3) (tr main_v144) (tr main_call12_v4) select,
    TRef.reshape (tr main_call12_v4) (tr main_call12_v5) rfl shapeCasts_S8x1x512x512_S8x1x512x512x1,
    TRef.nullary (tr main_call12_c_1) (constantI S1 32 18#32),
    TRef.nullary (tr main_call12_c_2) (constantI S_ 32 0#32),
    TRef.unary (tr main_call12_c_2) (tr main_call12_v6) (broadcastInDim S8x1x512x512x1 ![] bcast_S_S8x1x512x512x1),
    TRef.binary (tr main_call12_v5) (tr main_call12_v6) (tr main_call12_v7) (cmpi .sge),
    TRef.unary (tr main_call12_c_1) (tr main_call12_v8) (broadcastInDim S1x1x1x1x1 ![4] bcast_S1_S1x1x1x1x1_4),
    TRef.unary (tr main_call12_v8) (tr main_call12_v9) (broadcastInDim S8x1x512x512x1 ![0, 1, 2, 3, 4] bcast_S1x1x1x1x1_S8x1x512x512x1_0_1_2_3_4),
    TRef.binary (tr main_call12_v5) (tr main_call12_v9) (tr main_call12_v10) (cmpi .sle),
    TRef.binary (tr main_call12_v7) (tr main_call12_v10) (tr main_call12_v11) andi,
    TRef.nullary (tr main_call12_c_3) (constantI S_ 1 1#1),
    TRef.binary (tr main_call12_v11) (tr main_call12_c_3) (tr main_call12_v12) (fun x v => Host.reduce IntOp.andi x v reducesTo_S8x1x512x512x1_S8x1x512x512_d4 h_S_),
    TRef.binary (tr main_v142) (tr main_call12_v5) (tr main_call12_v13) (fun x i => Host.gather gather_S8x19x512x512_S8x1x512x512x1_S8x1x512x512_n_1_023_023_1_4_1111 x i),
    TRef.nullary (tr main_call12_cst) (constant S_ .f32 0x7FC00000#32),
    TRef.unary (tr main_call12_cst) (tr main_call12_v14) (broadcastInDim S8x1x512x512 ![] bcast_S_S8x1x512x512),
    TRef.ternary (tr main_call12_v12) (tr main_call12_v13) (tr main_call12_v14) (tr main_v145) select,
    reshape main_v145 main_v146 rfl shapeCasts_S8x1x512x512_S8x512x512,
    reshape main_v143 main_v147 rfl shapeCasts_S8x512x512_S8x262144,
    TRef.nullary (tr main_call13_c) (constantI S_ 32 0#32),
    TRef.unary (tr main_call13_c) (tr main_call13_v0) (broadcastInDim S8x262144 ![] bcast_S_S8x262144),
    TRef.binary (tr main_v147) (tr main_call13_v0) (tr main_call13_v1) (cmpi .slt),
    TRef.nullary (tr main_call13_c_0) (constantI S_ 32 19#32),
    TRef.unary (tr main_call13_c_0) (tr main_call13_v2) (broadcastInDim S8x262144 ![] bcast_S_S8x262144),
    TRef.binary (tr main_v147) (tr main_call13_v2) (tr main_call13_v3) addi,
    TRef.ternary (tr main_call13_v1) (tr main_call13_v3) (tr main_v147) (tr main_call13_v4) select,
    TRef.reshape (tr main_call13_v4) (tr main_call13_v5) rfl shapeCasts_S8x262144_S8x262144x1,
    TRef.nullary (tr main_call13_c_1) (constantI S1 32 18#32),
    TRef.nullary (tr main_call13_c_2) (constantI S_ 32 0#32) ]

set_option maxHeartbeats 4000000 in

abbrev ops_c10 : List (HloOp τ sig (Elt F)) :=
  [ TRef.unary (tr main_call13_c_2) (tr main_call13_v6) (broadcastInDim S8x262144x1 ![] bcast_S_S8x262144x1),
    TRef.binary (tr main_call13_v5) (tr main_call13_v6) (tr main_call13_v7) (cmpi .sge),
    TRef.unary (tr main_call13_c_1) (tr main_call13_v8) (broadcastInDim S1x1x1 ![2] bcast_S1_S1x1x1_2),
    TRef.unary (tr main_call13_v8) (tr main_call13_v9) (broadcastInDim S8x262144x1 ![0, 1, 2] bcast_S1x1x1_S8x262144x1_0_1_2),
    TRef.binary (tr main_call13_v5) (tr main_call13_v9) (tr main_call13_v10) (cmpi .sle),
    TRef.binary (tr main_call13_v7) (tr main_call13_v10) (tr main_call13_v11) andi,
    TRef.nullary (tr main_call13_c_3) (constantI S_ 1 1#1),
    TRef.binary (tr main_call13_v11) (tr main_call13_c_3) (tr main_call13_v12) (fun x v => Host.reduce IntOp.andi x v reducesTo_S8x262144x1_S8x262144_d2 h_S_),
    TRef.binary (tr main_v141) (tr main_call13_v5) (tr main_call13_v13) (fun x i => Host.gather gather_S8x19_S8x262144x1_S8x262144_n_1_0_0_1_2_11 x i),
    TRef.nullary (tr main_call13_cst) (constant S_ .f32 0x7FC00000#32),
    TRef.unary (tr main_call13_cst) (tr main_call13_v14) (broadcastInDim S8x262144 ![] bcast_S_S8x262144),
    TRef.ternary (tr main_call13_v12) (tr main_call13_v13) (tr main_call13_v14) (tr main_v148) select,
    reshape main_v148 main_v149 rfl shapeCasts_S8x262144_S8x512x512,
    reshape main_v104 main_v150 rfl shapeCasts_S8x262144_S8x512x512,
    nullary main_cst_52 (constant S_ .f32 0x00000000#32),
    TRef.unary (tr main_cst_52) (tr main_call14_v0) id,
    TRef.unary (tr main_call14_v0) (tr main_call14_v1) (broadcastInDim S8x512x512 ![] bcast_S_S8x512x512),
    TRef.ternary (tr main_v150) (tr main_v149) (tr main_call14_v1) (tr main_v151) select,
    binary main_v151 main_v146 main_v152 mulf,
    nullary main_cst_53 (constant S_ .f32 0x00000000#32),
    binary main_v152 main_cst_53 main_v153 ((fun x v => Host.reduceAdd x v reducesTo_S8x512x512_S8_d1_2 h_S_)),
    unary main_v153 main_v154 Host.negf,
    nullary main_cst_54 (constant S_ .f32 0x00000000#32),
    binary main_v151 main_cst_54 main_v155 ((fun x v => Host.reduceAdd x v reducesTo_S8x512x512_S8_d1_2 h_S_)),
    nullary main_cst_55 (constant S_ .f32 0x2B8CBCCC#32),
    unary main_cst_55 main_v156 (broadcastInDim S8 ![] bcast_S_S8),
    binary main_v155 main_v156 main_v157 maximumf,
    binary main_v154 main_v157 main_v158 Host.divf,
    nullary main_cst_56 (constant S_ .f32 0x00000000#32),
    binary main_v158 main_cst_56 main_v159 ((fun x v => Host.reduceAdd x v reducesTo_S8_S_d0 h_S_)),
    nullary main_cst_57 (constant S_ .f32 0x3F800000#32),
    binary main_cst_57 main_v159 main_v160 mulf,
    nullary main_cst_58 (constant S_ .f32 0x00000000#32),
    unary main_v61 main_v161 (broadcastInDim S1 ![] bcast_S_S1),
    unary main_v94 main_v162 (broadcastInDim S1 ![] bcast_S_S1),
    unary main_v160 main_v163 (broadcastInDim S1 ![] bcast_S_S1),
    unary main_cst_58 main_v164 (broadcastInDim S1 ![] bcast_S_S1) ]

set_option maxHeartbeats 4000000 in

abbrev ops_c11 : List (HloOp τ sig (Elt F)) :=
  [ nary ![main_v161, main_v162, main_v163, main_v164] main_v165 (fun u => concatenate S4 0 [⟨S1, u 0⟩, ⟨S1, u 1⟩, ⟨S1, u 2⟩, ⟨S1, u 3⟩] concatenates_S1_S1_S1_S1_S4_d0) ]

abbrev ops : List (HloOp τ sig (Elt F)) :=
  ops_c0 ++ (ops_c1 ++ (ops_c2 ++ (ops_c3 ++ (ops_c4 ++ (ops_c5 ++ (ops_c6 ++ (ops_c7 ++ (ops_c8 ++ (ops_c9 ++ (ops_c10 ++ (ops_c11)))))))))))

set_option maxRecDepth 16384 in
set_option maxHeartbeats 4000000 in
theorem main_part0_eq (c : Dev nD) : main_part0 (F := F) c = seq (ops_c0 ++ (ops_c1)) := rfl
set_option maxRecDepth 16384 in
set_option maxHeartbeats 4000000 in
theorem main_part1_eq (c : Dev nD) : main_part1 (F := F) c = seq (ops_c2 ++ (ops_c3 ++ (ops_c4))) := rfl
set_option maxRecDepth 16384 in
set_option maxHeartbeats 4000000 in
theorem main_part2_eq (c : Dev nD) : main_part2 (F := F) c = seq (ops_c5 ++ (ops_c6 ++ (ops_c7))) := rfl
set_option maxRecDepth 16384 in
set_option maxHeartbeats 4000000 in
theorem main_part3_eq (c : Dev nD) : main_part3 (F := F) c = seq (ops_c8 ++ (ops_c9 ++ (ops_c10 ++ (ops_c11)))) := rfl
/-- The program is its operation list run in order. -/
theorem main_eq (c : Dev nD) : main (F := F) c = seq ops := by
  have e : main (F := F) c = (main_part0 c >>= fun _ => main_part1 c >>= fun _ => main_part2 c >>= fun _ => main_part3 c) := rfl
  rw [e, main_part0_eq, main_part1_eq, main_part2_eq, main_part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_c0_sub : (ops_c0 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 16384 in
theorem ops_c1_sub : (ops_c1 : List (HloOp τ sig (Elt F))).Forall fun op => op.bufs ⊆ tcRefs τ sig :=
  ⟨binary_bufs_sub .., nullary_bufs_sub .., unary_bufs_sub .., ternary_bufs_sub .., unary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub ..⟩
set_option maxRecDepth 16384 in
theorem ops_c2_sub : (ops_c2 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., nullary_bufs_sub .., unary_bufs_sub .., binary_bufs_sub .., nullary_bufs_sub .., unary_bufs_sub .., binary_bufs_sub ..⟩
set_option maxRecDepth 16384 in
theorem ops_c3_sub : (ops_c3 : List (HloOp τ sig (Elt F))).Forall fun op => op.bufs ⊆ tcRefs τ sig :=
  ⟨ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., nullary_bufs_sub .., unary_bufs_sub .., unary_bufs_sub .., ternary_bufs_sub .., binary_bufs_sub .., nullary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., binary_bufs_sub .., reshape_bufs_sub .., reshape_bufs_sub ..⟩
set_option maxRecDepth 16384 in
theorem ops_c4_sub : (ops_c4 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., nullary_bufs_sub .., binary_bufs_sub .., unary_bufs_sub .., unary_bufs_sub .., nullary_bufs_sub .., binary_bufs_sub .., unary_bufs_sub .., binary_bufs_sub .., nullary_bufs_sub .., binary_bufs_sub .., binary_bufs_sub .., nullary_bufs_sub .., unary_bufs_sub .., unary_bufs_sub .., unary_bufs_sub .., ternary_bufs_sub .., binary_bufs_sub .., nullary_bufs_sub .., unary_bufs_sub .., unary_bufs_sub .., unary_bufs_sub .., ternary_bufs_sub .., binary_bufs_sub .., nullary_bufs_sub .., unary_bufs_sub .., binary_bufs_sub .., binary_bufs_sub .., binary_bufs_sub .., unary_bufs_sub .., unary_bufs_sub .., unary_bufs_sub ..⟩
set_option maxRecDepth 16384 in
theorem ops_c5_sub : (ops_c5 : List (HloOp τ sig (Elt F))).Forall fun op => op.bufs ⊆ tcRefs τ sig :=
  ⟨unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., nullary_bufs_sub .., unary_bufs_sub .., unary_bufs_sub .., ternary_bufs_sub .., reshape_bufs_sub .., nullary_bufs_sub .., unary_bufs_sub .., binary_bufs_sub .., nullary_bufs_sub .., unary_bufs_sub .., binary_bufs_sub ..⟩
set_option maxRecDepth 16384 in
theorem ops_c6_sub : (ops_c6 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 16384 in
theorem ops_c7_sub : (ops_c7 : List (HloOp τ sig (Elt F))).Forall fun op => op.bufs ⊆ tcRefs τ sig :=
  ⟨binary_bufs_sub .., nullary_bufs_sub .., unary_bufs_sub .., ternary_bufs_sub .., unary_bufs_sub .., nullary_bufs_sub .., binary_bufs_sub .., unary_bufs_sub .., nullary_bufs_sub .., unary_bufs_sub .., binary_bufs_sub .., unary_bufs_sub .., binary_bufs_sub ..⟩
set_option maxRecDepth 16384 in
theorem ops_c8_sub : (ops_c8 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub ..⟩
set_option maxRecDepth 16384 in
theorem ops_c9_sub : (ops_c9 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub ..⟩
set_option maxRecDepth 16384 in
theorem ops_c10_sub : (ops_c10 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., nullary_bufs_sub .., unary_bufs_sub .., unary_bufs_sub .., ternary_bufs_sub .., binary_bufs_sub .., nullary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., unary_bufs_sub .., unary_bufs_sub .., unary_bufs_sub ..⟩
set_option maxRecDepth 16384 in
theorem ops_c11_sub : (ops_c11 : List (HloOp τ sig (Elt F))).Forall fun op => op.bufs ⊆ tcRefs τ sig :=
  nary_bufs_sub ..
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp ops_c0_sub op h, List.forall_iff_forall_mem.mp ops_c1_sub op h, List.forall_iff_forall_mem.mp ops_c2_sub op h, List.forall_iff_forall_mem.mp ops_c3_sub op h, List.forall_iff_forall_mem.mp ops_c4_sub op h, List.forall_iff_forall_mem.mp ops_c5_sub op h, List.forall_iff_forall_mem.mp ops_c6_sub op h, List.forall_iff_forall_mem.mp ops_c7_sub op h, List.forall_iff_forall_mem.mp ops_c8_sub op h, List.forall_iff_forall_mem.mp ops_c9_sub op h, List.forall_iff_forall_mem.mp ops_c10_sub op h, List.forall_iff_forall_mem.mp ops_c11_sub op h]

set_option maxRecDepth 16384 in
theorem ops_c0_fresh : ∀ op ∈ (ops_c0 : List (HloOp τ sig (Elt F))), op.fresh = ∅ :=
  List.forall_iff_forall_mem.mp (by
    repeat' apply And.intro
    all_goals rfl)
set_option maxRecDepth 16384 in
theorem ops_c1_fresh : ∀ op ∈ (ops_c1 : List (HloOp τ sig (Elt F))), op.fresh = ∅ :=
  List.forall_iff_forall_mem.mp (by
    repeat' apply And.intro
    all_goals rfl)
set_option maxRecDepth 16384 in
theorem ops_c2_fresh : ∀ op ∈ (ops_c2 : List (HloOp τ sig (Elt F))), op.fresh = ∅ :=
  List.forall_iff_forall_mem.mp (by
    repeat' apply And.intro
    all_goals rfl)
set_option maxRecDepth 16384 in
theorem ops_c3_fresh : ∀ op ∈ (ops_c3 : List (HloOp τ sig (Elt F))), op.fresh = ∅ :=
  List.forall_iff_forall_mem.mp (by
    repeat' apply And.intro
    all_goals rfl)
set_option maxRecDepth 16384 in
theorem ops_c4_fresh : ∀ op ∈ (ops_c4 : List (HloOp τ sig (Elt F))), op.fresh = ∅ :=
  List.forall_iff_forall_mem.mp (by
    repeat' apply And.intro
    all_goals rfl)
set_option maxRecDepth 16384 in
theorem ops_c5_fresh : ∀ op ∈ (ops_c5 : List (HloOp τ sig (Elt F))), op.fresh = ∅ :=
  List.forall_iff_forall_mem.mp (by
    repeat' apply And.intro
    all_goals rfl)
set_option maxRecDepth 16384 in
theorem ops_c6_fresh : ∀ op ∈ (ops_c6 : List (HloOp τ sig (Elt F))), op.fresh = ∅ :=
  List.forall_iff_forall_mem.mp (by
    repeat' apply And.intro
    all_goals rfl)
set_option maxRecDepth 16384 in
theorem ops_c7_fresh : ∀ op ∈ (ops_c7 : List (HloOp τ sig (Elt F))), op.fresh = ∅ :=
  List.forall_iff_forall_mem.mp (by
    repeat' apply And.intro
    all_goals rfl)
set_option maxRecDepth 16384 in
theorem ops_c8_fresh : ∀ op ∈ (ops_c8 : List (HloOp τ sig (Elt F))), op.fresh = ∅ :=
  List.forall_iff_forall_mem.mp (by
    repeat' apply And.intro
    all_goals rfl)
set_option maxRecDepth 16384 in
theorem ops_c9_fresh : ∀ op ∈ (ops_c9 : List (HloOp τ sig (Elt F))), op.fresh = ∅ :=
  List.forall_iff_forall_mem.mp (by
    repeat' apply And.intro
    all_goals rfl)
set_option maxRecDepth 16384 in
theorem ops_c10_fresh : ∀ op ∈ (ops_c10 : List (HloOp τ sig (Elt F))), op.fresh = ∅ :=
  List.forall_iff_forall_mem.mp (by
    repeat' apply And.intro
    all_goals rfl)
set_option maxRecDepth 16384 in
theorem ops_c11_fresh : ∀ op ∈ (ops_c11 : List (HloOp τ sig (Elt F))), op.fresh = ∅ :=
  List.forall_iff_forall_mem.mp (by
    repeat' apply And.intro
    all_goals rfl)
theorem ops_fresh : ∀ op ∈ (ops : List (HloOp τ sig (Elt F))), op.fresh = ∅ := fun op h => by
  simp only [ops, List.mem_append] at h
  rcases h with h | h | h | h | h | h | h | h | h | h | h | h
  exacts [ops_c0_fresh op h, ops_c1_fresh op h, ops_c2_fresh op h, ops_c3_fresh op h, ops_c4_fresh op h, ops_c5_fresh op h, ops_c6_fresh op h, ops_c7_fresh op h, ops_c8_fresh op h, ops_c9_fresh op h, ops_c10_fresh op h, ops_c11_fresh op h]

/-- A buffer on a list is, as a singleton write set, inside that list's set of device buffers. -/
theorem writes_in {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- `ops_cK_W` lists the buffers chunk `K` writes, so a buffer outside it keeps its contents through the chunk. -/
abbrev ops_c0_W : List (Ref sig .tc) := [main_v0, main_c, main_v1, main_v2, main_c_0, main_v3, main_v4, main_v5, main_c_1, main_call0_v0, main_call0_v1, main_v6, main_cst, main_v7, main_v8, main_v9, main_c_2, main_v10, main_v11, main_c_3, main_v12, main_v13, main_v14, main_c_4, main_v15, main_v16, main_c_5, main_v17, main_v18, main_v19, main_v20, main_v21, main_v22]
set_option maxRecDepth 16384 in
theorem ops_c0_writes : (ops_c0 : List (HloOp τ sig (Elt F))).Forall fun op => op.writes ⊆ (ops_c0_W.map (Proc.devRef (τ := τ) .tc)).toFinset := by
  repeat' apply And.intro
  all_goals exact writes_in (by decide)

abbrev ops_c1_W : List (Ref sig .tc) := [main_v23, main_cst_6, main_v24, main_v25, main_v26, main_cst_7, main_v27, main_v28, main_cst_8, main_v29, main_v30, main_v31, main_v32, main_cst_9, main_v33, main_v34, main_v35, main_cst_10, main_v36, main_v37, main_cst_11, main_v38, main_v39, main_v40, main_cst_12, main_v41, main_v42, main_call1_cst, main_call1_v0, main_call1_cst_0, main_call1_v1, main_call1_v2, main_call1_v3, main_call1_v4, main_call1_v5, main_call1_v6, main_call1_cst_1, main_call1_v7, main_call1_v8, main_call1_v9, main_call1_v10, main_v43, main_c_13]
set_option maxRecDepth 16384 in
theorem ops_c1_writes : (ops_c1 : List (HloOp τ sig (Elt F))).Forall fun op => op.writes ⊆ (ops_c1_W.map (Proc.devRef (τ := τ) .tc)).toFinset := by
  repeat' apply And.intro
  all_goals exact writes_in (by decide)

abbrev ops_c2_W : List (Ref sig .tc) := [main_c_14, main_call2_v0, main_call2_v1, main_call2_v2, main_call2_v3, main_call2_v4, main_v44, main_v45, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v46, main_v47, main_v48, main_call4_c, main_call4_v0, main_call4_v1, main_call4_c_0, main_call4_v2, main_call4_v3]
set_option maxRecDepth 16384 in
theorem ops_c2_writes : (ops_c2 : List (HloOp τ sig (Elt F))).Forall fun op => op.writes ⊆ (ops_c2_W.map (Proc.devRef (τ := τ) .tc)).toFinset := by
  repeat' apply And.intro
  all_goals exact writes_in (by decide)

abbrev ops_c3_W : List (Ref sig .tc) := [main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v49, main_v50, main_v51, main_cst_15, main_call5_v0, main_call5_v1, main_v52, main_v53, main_cst_16, main_v54, main_v55, main_cst_17, main_v56, main_cst_18, main_v57, main_v58, main_v59, main_cst_19, main_v60, main_cst_20, main_v61, main_v62, main_v63]
set_option maxRecDepth 16384 in
theorem ops_c3_writes : (ops_c3 : List (HloOp τ sig (Elt F))).Forall fun op => op.writes ⊆ (ops_c3_W.map (Proc.devRef (τ := τ) .tc)).toFinset := by
  repeat' apply And.intro
  all_goals exact writes_in (by decide)

abbrev ops_c4_W : List (Ref sig .tc) := [main_v64, main_cst_21, main_v65, main_v66, main_cst_22, main_v67, main_v68, main_v69, main_c_23, main_v70, main_v71, main_v72, main_c_24, main_v73, main_v74, main_v75, main_cst_25, main_v76, main_v77, main_cst_26, main_call6_v0, main_call6_v1, main_call6_v2, main_v78, main_v79, main_cst_27, main_call7_v0, main_call7_v1, main_call7_v2, main_v80, main_v81, main_cst_28, main_v82, main_v83, main_v84, main_v85, main_v86, main_v87, main_v88]
set_option maxRecDepth 16384 in
theorem ops_c4_writes : (ops_c4 : List (HloOp τ sig (Elt F))).Forall fun op => op.writes ⊆ (ops_c4_W.map (Proc.devRef (τ := τ) .tc)).toFinset := by
  repeat' apply And.intro
  all_goals exact writes_in (by decide)

abbrev ops_c5_W : List (Ref sig .tc) := [main_v89, main_v90, main_v91, main_cst_29, main_v92, main_cst_30, main_v93, main_cst_31, main_v94, main_cst_32, main_v95, main_cst_33, main_v96, main_v97, main_c_34, main_call8_v0, main_call8_v1, main_v98, main_v99, main_c_35, main_v100, main_v101, main_c_36, main_v102, main_v103]
set_option maxRecDepth 16384 in
theorem ops_c5_writes : (ops_c5 : List (HloOp τ sig (Elt F))).Forall fun op => op.writes ⊆ (ops_c5_W.map (Proc.devRef (τ := τ) .tc)).toFinset := by
  repeat' apply And.intro
  all_goals exact writes_in (by decide)

abbrev ops_c6_W : List (Ref sig .tc) := [main_v104, main_c_37, main_call9_v0, main_call9_v1, main_v105, main_cst_38, main_v106, main_v107, main_v108, main_c_39, main_v109, main_v110, main_c_40, main_v111, main_v112, main_v113, main_c_41, main_v114, main_v115, main_c_42, main_v116, main_v117, main_v118, main_v119, main_v120, main_v121]
set_option maxRecDepth 16384 in
theorem ops_c6_writes : (ops_c6 : List (HloOp τ sig (Elt F))).Forall fun op => op.writes ⊆ (ops_c6_W.map (Proc.devRef (τ := τ) .tc)).toFinset := by
  repeat' apply And.intro
  all_goals exact writes_in (by decide)

abbrev ops_c7_W : List (Ref sig .tc) := [main_v122, main_cst_43, main_v123, main_v124, main_v125, main_cst_44, main_v126, main_v127, main_cst_45, main_v128, main_v129, main_v130, main_v131]
set_option maxRecDepth 16384 in
theorem ops_c7_writes : (ops_c7 : List (HloOp τ sig (Elt F))).Forall fun op => op.writes ⊆ (ops_c7_W.map (Proc.devRef (τ := τ) .tc)).toFinset := by
  repeat' apply And.intro
  all_goals exact writes_in (by decide)

abbrev ops_c8_W : List (Ref sig .tc) := [main_cst_46, main_v132, main_v133, main_v134, main_cst_47, main_v135, main_v136, main_cst_48, main_v137, main_v138, main_v139, main_cst_49, main_v140, main_v141, main_call10_cst, main_call10_v0, main_call10_cst_0, main_call10_v1, main_call10_v2, main_call10_v3, main_call10_v4, main_call10_v5, main_call10_v6, main_call10_cst_1, main_call10_v7, main_call10_v8, main_call10_v9, main_call10_v10, main_v142, main_c_50, main_c_51, main_call11_v0, main_call11_v1, main_call11_v2, main_call11_v3, main_call11_v4]
set_option maxRecDepth 16384 in
theorem ops_c8_writes : (ops_c8 : List (HloOp τ sig (Elt F))).Forall fun op => op.writes ⊆ (ops_c8_W.map (Proc.devRef (τ := τ) .tc)).toFinset := by
  repeat' apply And.intro
  all_goals exact writes_in (by decide)

abbrev ops_c9_W : List (Ref sig .tc) := [main_v143, main_v144, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_cst, main_call12_v14, main_v145, main_v146, main_v147, main_call13_c, main_call13_v0, main_call13_v1, main_call13_c_0, main_call13_v2, main_call13_v3, main_call13_v4, main_call13_v5, main_call13_c_1, main_call13_c_2]
set_option maxRecDepth 16384 in
theorem ops_c9_writes : (ops_c9 : List (HloOp τ sig (Elt F))).Forall fun op => op.writes ⊆ (ops_c9_W.map (Proc.devRef (τ := τ) .tc)).toFinset := by
  repeat' apply And.intro
  all_goals exact writes_in (by decide)

abbrev ops_c10_W : List (Ref sig .tc) := [main_call13_v6, main_call13_v7, main_call13_v8, main_call13_v9, main_call13_v10, main_call13_v11, main_call13_c_3, main_call13_v12, main_call13_v13, main_call13_cst, main_call13_v14, main_v148, main_v149, main_v150, main_cst_52, main_call14_v0, main_call14_v1, main_v151, main_v152, main_cst_53, main_v153, main_v154, main_cst_54, main_v155, main_cst_55, main_v156, main_v157, main_v158, main_cst_56, main_v159, main_cst_57, main_v160, main_cst_58, main_v161, main_v162, main_v163, main_v164]
set_option maxRecDepth 16384 in
theorem ops_c10_writes : (ops_c10 : List (HloOp τ sig (Elt F))).Forall fun op => op.writes ⊆ (ops_c10_W.map (Proc.devRef (τ := τ) .tc)).toFinset := by
  repeat' apply And.intro
  all_goals exact writes_in (by decide)

abbrev ops_c11_W : List (Ref sig .tc) := [main_v165]
set_option maxRecDepth 16384 in
theorem ops_c11_writes : (ops_c11 : List (HloOp τ sig (Elt F))).Forall fun op => op.writes ⊆ (ops_c11_W.map (Proc.devRef (τ := τ) .tc)).toFinset := by
  repeat' apply And.intro
  all_goals exact writes_in (by decide)

end Cert.ReferenceIdeal.Value

end
-- ==== Proof.RefReadCore.lean ====
import proofs.«428925_j42245298323666_3_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- `val_<buffer>` is the value the operation writing `<buffer>` computes from the arguments; `val_<buffer>_apply` reads it at an index. -/
def val_main_v0 (x2 : Vec F S8x512x512 .i32) : Vec F S8x262144 .i32 :=
  shapeCast _ (x2) shapeCasts_S8x512x512_S8x262144

abbrev idx_main_v0 (i : S8x262144.Idx) : S8x512x512.Idx := fun a => match a with
  | ⟨0, _⟩ => ⟨((i 0).val * 262144 + (i 1).val) / 262144, by have h0 : (i 0).val < 8 := (i 0).isLt; have h1 : (i 1).val < 262144 := (i 1).isLt; show ((i 0).val * 262144 + (i 1).val) / 262144 < 8; omega⟩
  | ⟨1, _⟩ => ⟨((i 0).val * 262144 + (i 1).val) / 512 % 512, by have h0 : (i 0).val < 8 := (i 0).isLt; have h1 : (i 1).val < 262144 := (i 1).isLt; show ((i 0).val * 262144 + (i 1).val) / 512 % 512 < 512; omega⟩
  | ⟨2, _⟩ => ⟨((i 0).val * 262144 + (i 1).val) % 512, by have h0 : (i 0).val < 8 := (i 0).isLt; have h1 : (i 1).val < 262144 := (i 1).isLt; show ((i 0).val * 262144 + (i 1).val) % 512 < 512; omega⟩

theorem val_main_v0_apply (x2 : Vec F S8x512x512 .i32) (i : S8x262144.Idx) :
    val_main_v0 (F := F) x2 i = x2 (idx_main_v0 i) := by
  unfold val_main_v0
  exact shapeCast_apply x2 shapeCasts_S8x512x512_S8x262144 i (idx_main_v0 i)
    (by rewrite [Shape.rowMajor_val_three, Shape.rowMajor_val_two]; have h0 : (i 0).val < 8 := (i 0).isLt; have h1 : (i 1).val < 262144 := (i 1).isLt; show (((i 0).val * 262144 + (i 1).val) / 262144 * 512 + ((i 0).val * 262144 + (i 1).val) / 512 % 512) * 512 + ((i 0).val * 262144 + (i 1).val) % 512 = (i 0).val * 262144 + (i 1).val; omega)

def val_main_c : Vec F S_ .i32 :=
  constantI S_ 32 0#32

theorem val_main_c_apply (i : S_.Idx) :
    val_main_c (F := F) i = 0#32 := rfl

def val_main_v1 : Vec F S8x262144 .i32 :=
  broadcastInDim S8x262144 ![] bcast_S_S8x262144 (val_main_c (F := F))

abbrev idx_main_v1 (i : S8x262144.Idx) : S_.Idx := fun a => a.elim0

theorem val_main_v1_apply (i : S8x262144.Idx) :
    val_main_v1 (F := F) i = val_main_c (F := F) (idx_main_v1 i) := by
  unfold val_main_v1
  generalize val_main_c (F := F) = y
  exact broadcastInDim_apply _ bcast_S_S8x262144 y i (idx_main_v1 i) (fun a => a.elim0)

def val_main_v2 (x2 : Vec F S8x512x512 .i32) : Vec F S8x262144 .i1 :=
  cmpi .sge (val_main_v0 (F := F) x2) (val_main_v1 (F := F))

theorem val_main_v2_apply (x2 : Vec F S8x512x512 .i32) (i : S8x262144.Idx) :
    val_main_v2 (F := F) x2 i = IntOp.cmpi .sge (val_main_v0 (F := F) x2 i) (val_main_v1 (F := F) i) := rfl

def val_main_c_0 : Vec F S_ .i32 :=
  constantI S_ 32 19#32

theorem val_main_c_0_apply (i : S_.Idx) :
    val_main_c_0 (F := F) i = 19#32 := rfl

def val_main_v3 : Vec F S8x262144 .i32 :=
  broadcastInDim S8x262144 ![] bcast_S_S8x262144 (val_main_c_0 (F := F))

abbrev idx_main_v3 (i : S8x262144.Idx) : S_.Idx := fun a => a.elim0

theorem val_main_v3_apply (i : S8x262144.Idx) :
    val_main_v3 (F := F) i = val_main_c_0 (F := F) (idx_main_v3 i) := by
  unfold val_main_v3
  generalize val_main_c_0 (F := F) = y
  exact broadcastInDim_apply _ bcast_S_S8x262144 y i (idx_main_v3 i) (fun a => a.elim0)

def val_main_v4 (x2 : Vec F S8x512x512 .i32) : Vec F S8x262144 .i1 :=
  cmpi .slt (val_main_v0 (F := F) x2) (val_main_v3 (F := F))

theorem val_main_v4_apply (x2 : Vec F S8x512x512 .i32) (i : S8x262144.Idx) :
    val_main_v4 (F := F) x2 i = IntOp.cmpi .slt (val_main_v0 (F := F) x2 i) (val_main_v3 (F := F) i) := rfl

def val_main_v5 (x2 : Vec F S8x512x512 .i32) : Vec F S8x262144 .i1 :=
  andi (val_main_v2 (F := F) x2) (val_main_v4 (F := F) x2)

theorem val_main_v5_apply (x2 : Vec F S8x512x512 .i32) (i : S8x262144.Idx) :
    val_main_v5 (F := F) x2 i = IntOp.andi (val_main_v2 (F := F) x2 i) (val_main_v4 (F := F) x2 i) := rfl

def val_main_c_1 : Vec F S_ .i32 :=
  constantI S_ 32 19#32

def val_main_call0_v0 : Vec F S_ .i32 :=
  id (val_main_c_1 (F := F))

def val_main_call0_v1 : Vec F S8x262144 .i32 :=
  broadcastInDim S8x262144 ![] bcast_S_S8x262144 (val_main_call0_v0 (F := F))

abbrev idx_main_call0_v1 (i : S8x262144.Idx) : S_.Idx := fun a => a.elim0

theorem val_main_call0_v1_apply (i : S8x262144.Idx) :
    val_main_call0_v1 (F := F) i = val_main_call0_v0 (F := F) (idx_main_call0_v1 i) := by
  unfold val_main_call0_v1
  generalize val_main_call0_v0 (F := F) = y
  exact broadcastInDim_apply _ bcast_S_S8x262144 y i (idx_main_call0_v1 i) (fun a => a.elim0)

def val_main_v6 (x2 : Vec F S8x512x512 .i32) : Vec F S8x262144 .i32 :=
  select (val_main_v5 (F := F) x2) (val_main_v0 (F := F) x2) (val_main_call0_v1 (F := F))

theorem val_main_v6_apply (x2 : Vec F S8x512x512 .i32) (i : S8x262144.Idx) :
    val_main_v6 (F := F) x2 i = Scalar.select (val_main_v5 (F := F) x2 i) (val_main_v0 (F := F) x2 i) (val_main_call0_v1 (F := F) i) := rfl

def val_main_cst : Vec F S_ .f32 :=
  constant S_ .f32 0x00000000#32

theorem val_main_cst_apply (i : S_.Idx) :
    val_main_cst (F := F) i = FloatOps.ofBits .f32 0x00000000#32 := rfl

def val_main_v7 : Vec F S8x20 .f32 :=
  broadcastInDim S8x20 ![] bcast_S_S8x20 (val_main_cst (F := F))

abbrev idx_main_v7 (i : S8x20.Idx) : S_.Idx := fun a => a.elim0

theorem val_main_v7_apply (i : S8x20.Idx) :
    val_main_v7 (F := F) i = val_main_cst (F := F) (idx_main_v7 i) := by
  unfold val_main_v7
  generalize val_main_cst (F := F) = y
  exact broadcastInDim_apply _ bcast_S_S8x20 y i (idx_main_v7 i) (fun a => a.elim0)

def val_main_v8 : Vec F S8 .i32 :=
  iotaInDim S8 32 0

theorem val_main_v8_apply (i : S8.Idx) :
    val_main_v8 (F := F) i = BitVec.ofNat 32 (i 0).val := rfl

def val_main_v9 : Vec F S8x1 .i32 :=
  broadcastInDim S8x1 ![0] bcast_S8_S8x1_0 (val_main_v8 (F := F))

abbrev idx_main_v9 (i : S8x1.Idx) : S8.Idx := fun a => match a with
  | ⟨0, _⟩ => ⟨(i 0).val, (i 0).isLt⟩

theorem val_main_v9_apply (i : S8x1.Idx) :
    val_main_v9 (F := F) i = val_main_v8 (F := F) (idx_main_v9 i) := by
  unfold val_main_v9
  generalize val_main_v8 (F := F) = y
  exact broadcastInDim_apply _ bcast_S8_S8x1_0 y i (idx_main_v9 i) (fun a => match a with
    | ⟨0, _⟩ => by show (i 0).val = if (8 : Nat) = 1 then 0 else (i 0).val; rw [if_neg (by decide)])

def val_main_c_2 : Vec F S_ .i32 :=
  constantI S_ 32 0#32

def val_main_v10 : Vec F S8x1 .i32 :=
  broadcastInDim S8x1 ![] bcast_S_S8x1 (val_main_c_2 (F := F))

abbrev idx_main_v10 (i : S8x1.Idx) : S_.Idx := fun a => a.elim0

theorem val_main_v10_apply (i : S8x1.Idx) :
    val_main_v10 (F := F) i = val_main_c_2 (F := F) (idx_main_v10 i) := by
  unfold val_main_v10
  generalize val_main_c_2 (F := F) = y
  exact broadcastInDim_apply _ bcast_S_S8x1 y i (idx_main_v10 i) (fun a => a.elim0)

def val_main_v11 : Vec F S8x1 .i1 :=
  cmpi .slt (val_main_v9 (F := F)) (val_main_v10 (F := F))

theorem val_main_v11_apply (i : S8x1.Idx) :
    val_main_v11 (F := F) i = IntOp.cmpi .slt (val_main_v9 (F := F) i) (val_main_v10 (F := F) i) := rfl

def val_main_c_3 : Vec F S_ .i32 :=
  constantI S_ 32 8#32

def val_main_v12 : Vec F S8x1 .i32 :=
  broadcastInDim S8x1 ![] bcast_S_S8x1 (val_main_c_3 (F := F))

abbrev idx_main_v12 (i : S8x1.Idx) : S_.Idx := fun a => a.elim0

theorem val_main_v12_apply (i : S8x1.Idx) :
    val_main_v12 (F := F) i = val_main_c_3 (F := F) (idx_main_v12 i) := by
  unfold val_main_v12
  generalize val_main_c_3 (F := F) = y
  exact broadcastInDim_apply _ bcast_S_S8x1 y i (idx_main_v12 i) (fun a => a.elim0)

def val_main_v13 : Vec F S8x1 .i32 :=
  addi (val_main_v9 (F := F)) (val_main_v12 (F := F))

theorem val_main_v13_apply (i : S8x1.Idx) :
    val_main_v13 (F := F) i = IntOp.addi (val_main_v9 (F := F) i) (val_main_v12 (F := F) i) := rfl

def val_main_v14 : Vec F S8x1 .i32 :=
  select (val_main_v11 (F := F)) (val_main_v13 (F := F)) (val_main_v9 (F := F))

theorem val_main_v14_apply (i : S8x1.Idx) :
    val_main_v14 (F := F) i = Scalar.select (val_main_v11 (F := F) i) (val_main_v13 (F := F) i) (val_main_v9 (F := F) i) := rfl

def val_main_c_4 : Vec F S_ .i32 :=
  constantI S_ 32 0#32

def val_main_v15 : Vec F S8x262144 .i32 :=
  broadcastInDim S8x262144 ![] bcast_S_S8x262144 (val_main_c_4 (F := F))

abbrev idx_main_v15 (i : S8x262144.Idx) : S_.Idx := fun a => a.elim0

theorem val_main_v15_apply (i : S8x262144.Idx) :
    val_main_v15 (F := F) i = val_main_c_4 (F := F) (idx_main_v15 i) := by
  unfold val_main_v15
  generalize val_main_c_4 (F := F) = y
  exact broadcastInDim_apply _ bcast_S_S8x262144 y i (idx_main_v15 i) (fun a => a.elim0)

def val_main_v16 (x2 : Vec F S8x512x512 .i32) : Vec F S8x262144 .i1 :=
  cmpi .slt (val_main_v6 (F := F) x2) (val_main_v15 (F := F))

theorem val_main_v16_apply (x2 : Vec F S8x512x512 .i32) (i : S8x262144.Idx) :
    val_main_v16 (F := F) x2 i = IntOp.cmpi .slt (val_main_v6 (F := F) x2 i) (val_main_v15 (F := F) i) := rfl

def val_main_c_5 : Vec F S_ .i32 :=
  constantI S_ 32 20#32

def val_main_v17 : Vec F S8x262144 .i32 :=
  broadcastInDim S8x262144 ![] bcast_S_S8x262144 (val_main_c_5 (F := F))

abbrev idx_main_v17 (i : S8x262144.Idx) : S_.Idx := fun a => a.elim0

theorem val_main_v17_apply (i : S8x262144.Idx) :
    val_main_v17 (F := F) i = val_main_c_5 (F := F) (idx_main_v17 i) := by
  unfold val_main_v17
  generalize val_main_c_5 (F := F) = y
  exact broadcastInDim_apply _ bcast_S_S8x262144 y i (idx_main_v17 i) (fun a => a.elim0)

def val_main_v18 (x2 : Vec F S8x512x512 .i32) : Vec F S8x262144 .i32 :=
  addi (val_main_v6 (F := F) x2) (val_main_v17 (F := F))

theorem val_main_v18_apply (x2 : Vec F S8x512x512 .i32) (i : S8x262144.Idx) :
    val_main_v18 (F := F) x2 i = IntOp.addi (val_main_v6 (F := F) x2 i) (val_main_v17 (F := F) i) := rfl

def val_main_v19 (x2 : Vec F S8x512x512 .i32) : Vec F S8x262144 .i32 :=
  select (val_main_v16 (F := F) x2) (val_main_v18 (F := F) x2) (val_main_v6 (F := F) x2)

theorem val_main_v19_apply (x2 : Vec F S8x512x512 .i32) (i : S8x262144.Idx) :
    val_main_v19 (F := F) x2 i = Scalar.select (val_main_v16 (F := F) x2 i) (val_main_v18 (F := F) x2 i) (val_main_v6 (F := F) x2 i) := rfl

def val_main_v20 : Vec F S8x262144 .i32 :=
  broadcastInDim S8x262144 ![0, 1] bcast_S8x1_S8x262144_0_1 (val_main_v14 (F := F))

abbrev idx_main_v20 (i : S8x262144.Idx) : S8x1.Idx := fun a => match a with
  | ⟨0, _⟩ => ⟨(i 0).val, (i 0).isLt⟩
  | ⟨1, _⟩ => ⟨0, Nat.one_pos⟩

theorem val_main_v20_apply (i : S8x262144.Idx) :
    val_main_v20 (F := F) i = val_main_v14 (F := F) (idx_main_v20 i) := by
  unfold val_main_v20
  generalize val_main_v14 (F := F) = y
  exact broadcastInDim_apply _ bcast_S8x1_S8x262144_0_1 y i (idx_main_v20 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl])

def val_main_v21 : Vec F S8x262144x1 .i32 :=
  broadcastInDim S8x262144x1 ![0, 1] bcast_S8x262144_S8x262144x1_0_1 (val_main_v20 (F := F))

abbrev idx_main_v21 (i : S8x262144x1.Idx) : S8x262144.Idx := fun a => match a with
  | ⟨0, _⟩ => ⟨(i 0).val, (i 0).isLt⟩
  | ⟨1, _⟩ => ⟨(i 1).val, (i 1).isLt⟩

theorem val_main_v21_apply (i : S8x262144x1.Idx) :
    val_main_v21 (F := F) i = val_main_v20 (F := F) (idx_main_v21 i) := by
  unfold val_main_v21
  generalize val_main_v20 (F := F) = y
  exact broadcastInDim_apply _ bcast_S8x262144_S8x262144x1_0_1 y i (idx_main_v21 i) (fun a => match a with
    | ⟨0, _⟩ => by show (i 0).val = if (8 : Nat) = 1 then 0 else (i 0).val; rw [if_neg (by decide)]
    | ⟨1, _⟩ => by show (i 1).val = if (262144 : Nat) = 1 then 0 else (i 1).val; rw [if_neg (by decide)])

def val_main_v22 (x2 : Vec F S8x512x512 .i32) : Vec F S8x262144x1 .i32 :=
  broadcastInDim S8x262144x1 ![0, 1] bcast_S8x262144_S8x262144x1_0_1 (val_main_v19 (F := F) x2)

abbrev idx_main_v22 (i : S8x262144x1.Idx) : S8x262144.Idx := fun a => match a with
  | ⟨0, _⟩ => ⟨(i 0).val, (i 0).isLt⟩
  | ⟨1, _⟩ => ⟨(i 1).val, (i 1).isLt⟩

theorem val_main_v22_apply (x2 : Vec F S8x512x512 .i32) (i : S8x262144x1.Idx) :
    val_main_v22 (F := F) x2 i = val_main_v19 (F := F) x2 (idx_main_v22 i) := by
  unfold val_main_v22
  generalize val_main_v19 (F := F) x2 = y
  exact broadcastInDim_apply _ bcast_S8x262144_S8x262144x1_0_1 y i (idx_main_v22 i) (fun a => match a with
    | ⟨0, _⟩ => by show (i 0).val = if (8 : Nat) = 1 then 0 else (i 0).val; rw [if_neg (by decide)]
    | ⟨1, _⟩ => by show (i 1).val = if (262144 : Nat) = 1 then 0 else (i 1).val; rw [if_neg (by decide)])

def val_main_v23 (x2 : Vec F S8x512x512 .i32) : Vec F S8x262144x2 .i32 :=
  concatenate S8x262144x2 2 [⟨S8x262144x1, (val_main_v21 (F := F))⟩, ⟨S8x262144x1, (val_main_v22 (F := F) x2)⟩] concatenates_S8x262144x1_S8x262144x1_S8x262144x2_d2

def val_main_cst_6 : Vec F S_ .f32 :=
  constant S_ .f32 0x3F800000#32

theorem val_main_cst_6_apply (i : S_.Idx) :
    val_main_cst_6 (F := F) i = FloatOps.ofBits .f32 0x3F800000#32 := rfl

def val_main_v24 : Vec F S8x262144 .f32 :=
  broadcastInDim S8x262144 ![] bcast_S_S8x262144 (val_main_cst_6 (F := F))

abbrev idx_main_v24 (i : S8x262144.Idx) : S_.Idx := fun a => a.elim0

theorem val_main_v24_apply (i : S8x262144.Idx) :
    val_main_v24 (F := F) i = val_main_cst_6 (F := F) (idx_main_v24 i) := by
  unfold val_main_v24
  generalize val_main_cst_6 (F := F) = y
  exact broadcastInDim_apply _ bcast_S_S8x262144 y i (idx_main_v24 i) (fun a => a.elim0)

def val_main_v25 (x2 : Vec F S8x512x512 .i32) : Vec F S8x20 .f32 :=
  Host.scatterAdd scatter_S8x20_S8x262144x2_S8x262144_n_01_01_2 (val_main_v7 (F := F)) (val_main_v23 (F := F) x2) (val_main_v24 (F := F))

def val_main_v26 (x2 : Vec F S8x512x512 .i32) : Vec F S8x19 .f32 :=
  extractStridedSlice S8x19 ![0, 0] (val_main_v25 (F := F) x2) slices_S8x20_S8x19_0_0

abbrev idx_main_v26 (i : S8x19.Idx) : S8x20.Idx := fun a => match a with
  | ⟨0, _⟩ => ⟨(i 0).val, (i 0).isLt⟩
  | ⟨1, _⟩ => ⟨(i 1).val, by have h1 : (i 1).val < 19 := (i 1).isLt; show (i 1).val < 20; omega⟩

theorem val_main_v26_apply (x2 : Vec F S8x512x512 .i32) (i : S8x19.Idx) :
    val_main_v26 (F := F) x2 i = val_main_v25 (F := F) x2 (idx_main_v26 i) := by
  unfold val_main_v26
  generalize val_main_v25 (F := F) x2 = y
  exact extractStridedSlice_apply ![0, 0] y slices_S8x20_S8x19_0_0 i (idx_main_v26 i) (fun a => match a with
    | ⟨0, _⟩ => by show (i 0).val = 0 + (i 0).val; omega
    | ⟨1, _⟩ => by show (i 1).val = 0 + (i 1).val; omega)

def val_main_cst_7 : Vec F S_ .f32 :=
  constant S_ .f32 0x00000000#32

theorem val_main_cst_7_apply (i : S_.Idx) :
    val_main_cst_7 (F := F) i = FloatOps.ofBits .f32 0x00000000#32 := rfl

def val_main_v27 (x2 : Vec F S8x512x512 .i32) : Vec F S8 .f32 :=
  Host.reduceAdd (val_main_v26 (F := F) x2) (val_main_cst_7 (F := F)) reducesTo_S8x19_S8_d1 h_S_

abbrev idx_main_v27 (i : S8.Idx) (k : Fin 19) : S8x19.Idx := fun a => match a with
  | ⟨0, _⟩ => ⟨(i 0).val, (i 0).isLt⟩
  | ⟨1, _⟩ => ⟨k.val, k.isLt⟩

theorem val_main_v27_apply (x2 : (⟨S8x512x512, .i32⟩ : BufTy).Contents (Elt Ideal)) (i : S8.Idx) :
    val_main_v27 (F := Ideal) x2 i = (val_main_cst_7 (F := Ideal)) (Shape.Idx.first h_S_) + ∑ k : Fin 19, (val_main_v26 (F := Ideal) x2) (idx_main_v27 i k) := by
  unfold val_main_v27
  generalize val_main_v26 (F := Ideal) x2 = y0
  simp only [Host.reduceAdd, Ideal.hostReduceAdd_def]
  rw [Ideal.hostReduceAdd_single reducesTo_S8x19_S8_d1 (by decide)]
  refine congrArg (_ + ·) (Finset.sum_congr rfl fun k _ => ?_)
  exact congrArg y0 (funext fun a => Fin.ext (by match a with | ⟨0, _⟩ => rfl | ⟨1, _⟩ => rfl))

def val_main_v28 (x2 : Vec F S8x512x512 .i32) : Vec F S8x1 .f32 :=
  broadcastInDim S8x1 ![0] bcast_S8_S8x1_0 (val_main_v27 (F := F) x2)

abbrev idx_main_v28 (i : S8x1.Idx) : S8.Idx := fun a => match a with
  | ⟨0, _⟩ => ⟨(i 0).val, (i 0).isLt⟩

theorem val_main_v28_apply (x2 : Vec F S8x512x512 .i32) (i : S8x1.Idx) :
    val_main_v28 (F := F) x2 i = val_main_v27 (F := F) x2 (idx_main_v28 i) := by
  unfold val_main_v28
  generalize val_main_v27 (F := F) x2 = y
  exact broadcastInDim_apply _ bcast_S8_S8x1_0 y i (idx_main_v28 i) (fun a => match a with
    | ⟨0, _⟩ => by show (i 0).val = if (8 : Nat) = 1 then 0 else (i 0).val; rw [if_neg (by decide)])

def val_main_cst_8 : Vec F S_ .f32 :=
  constant S_ .f32 0x3F800000#32

theorem val_main_cst_8_apply (i : S_.Idx) :
    val_main_cst_8 (F := F) i = FloatOps.ofBits .f32 0x3F800000#32 := rfl

def val_main_v29 : Vec F S8x1 .f32 :=
  broadcastInDim S8x1 ![] bcast_S_S8x1 (val_main_cst_8 (F := F))

abbrev idx_main_v29 (i : S8x1.Idx) : S_.Idx := fun a => a.elim0

theorem val_main_v29_apply (i : S8x1.Idx) :
    val_main_v29 (F := F) i = val_main_cst_8 (F := F) (idx_main_v29 i) := by
  unfold val_main_v29
  generalize val_main_cst_8 (F := F) = y
  exact broadcastInDim_apply _ bcast_S_S8x1 y i (idx_main_v29 i) (fun a => a.elim0)

def val_main_v30 (x2 : Vec F S8x512x512 .i32) : Vec F S8x1 .f32 :=
  maximumf (val_main_v28 (F := F) x2) (val_main_v29 (F := F))

theorem val_main_v30_apply (x2 : Vec F S8x512x512 .i32) (i : S8x1.Idx) :
    val_main_v30 (F := F) x2 i = FloatOps.maximumf (val_main_v28 (F := F) x2 i) (val_main_v29 (F := F) i) := rfl

def val_main_v31 (x2 : Vec F S8x512x512 .i32) : Vec F S8x19 .f32 :=
  broadcastInDim S8x19 ![0, 1] bcast_S8x1_S8x19_0_1 (val_main_v30 (F := F) x2)

abbrev idx_main_v31 (i : S8x19.Idx) : S8x1.Idx := fun a => match a with
  | ⟨0, _⟩ => ⟨(i 0).val, (i 0).isLt⟩
  | ⟨1, _⟩ => ⟨0, Nat.one_pos⟩

theorem val_main_v31_apply (x2 : Vec F S8x512x512 .i32) (i : S8x19.Idx) :
    val_main_v31 (F := F) x2 i = val_main_v30 (F := F) x2 (idx_main_v31 i) := by
  unfold val_main_v31
  generalize val_main_v30 (F := F) x2 = y
  exact broadcastInDim_apply _ bcast_S8x1_S8x19_0_1 y i (idx_main_v31 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl])

def val_main_v32 (x2 : Vec F S8x512x512 .i32) : Vec F S8x19 .f32 :=
  Host.divf (val_main_v26 (F := F) x2) (val_main_v31 (F := F) x2)

theorem val_main_v32_apply (x2 : Vec F S8x512x512 .i32) (i : S8x19.Idx) :
    val_main_v32 (F := F) x2 i = FloatOps.hostDivf (val_main_v26 (F := F) x2 i) (val_main_v31 (F := F) x2 i) := rfl

def val_main_cst_9 : Vec F S_ .f32 :=
  constant S_ .f32 0x00000000#32

theorem val_main_cst_9_apply (i : S_.Idx) :
    val_main_cst_9 (F := F) i = FloatOps.ofBits .f32 0x00000000#32 := rfl

def val_main_v33 : Vec F S8x19 .f32 :=
  broadcastInDim S8x19 ![] bcast_S_S8x19 (val_main_cst_9 (F := F))

abbrev idx_main_v33 (i : S8x19.Idx) : S_.Idx := fun a => a.elim0

theorem val_main_v33_apply (i : S8x19.Idx) :
    val_main_v33 (F := F) i = val_main_cst_9 (F := F) (idx_main_v33 i) := by
  unfold val_main_v33
  generalize val_main_cst_9 (F := F) = y
  exact broadcastInDim_apply _ bcast_S_S8x19 y i (idx_main_v33 i) (fun a => a.elim0)

def val_main_v34 (x2 : Vec F S8x512x512 .i32) : Vec F S8x19 .i1 :=
  cmpf (F := F) .ogt (val_main_v26 (F := F) x2) (val_main_v33 (F := F))

theorem val_main_v34_apply (x2 : Vec F S8x512x512 .i32) (i : S8x19.Idx) :
    val_main_v34 (F := F) x2 i = FloatOps.cmpf (F := F) .ogt (val_main_v26 (F := F) x2 i) (val_main_v33 (F := F) i) := rfl

def val_main_v35 (x2 : Vec F S8x512x512 .i32) : Vec F S8x19 .f32 :=
  uitofp (F := F) .f32 (val_main_v34 (F := F) x2)

theorem val_main_v35_apply (x2 : Vec F S8x512x512 .i32) (i : S8x19.Idx) :
    val_main_v35 (F := F) x2 i = FloatOps.uitofp (F := F) .f32 (val_main_v34 (F := F) x2 i) := rfl

def val_main_cst_10 : Vec F S_ .f32 :=
  constant S_ .f32 0x3F800000#32

theorem val_main_cst_10_apply (i : S_.Idx) :
    val_main_cst_10 (F := F) i = FloatOps.ofBits .f32 0x3F800000#32 := rfl

def val_main_v36 : Vec F S8x19 .f32 :=
  broadcastInDim S8x19 ![] bcast_S_S8x19 (val_main_cst_10 (F := F))

abbrev idx_main_v36 (i : S8x19.Idx) : S_.Idx := fun a => a.elim0

theorem val_main_v36_apply (i : S8x19.Idx) :
    val_main_v36 (F := F) i = val_main_cst_10 (F := F) (idx_main_v36 i) := by
  unfold val_main_v36
  generalize val_main_cst_10 (F := F) = y
  exact broadcastInDim_apply _ bcast_S_S8x19 y i (idx_main_v36 i) (fun a => a.elim0)

def val_main_v37 (x2 : Vec F S8x512x512 .i32) : Vec F S8x19 .f32 :=
  mulf (val_main_v35 (F := F) x2) (val_main_v36 (F := F))

theorem val_main_v37_apply (x2 : Vec F S8x512x512 .i32) (i : S8x19.Idx) :
    val_main_v37 (F := F) x2 i = FloatOps.mulf (val_main_v35 (F := F) x2 i) (val_main_v36 (F := F) i) := rfl

def val_main_cst_11 : Vec F S_ .f32 :=
  constant S_ .f32 0x3F800000#32

theorem val_main_cst_11_apply (i : S_.Idx) :
    val_main_cst_11 (F := F) i = FloatOps.ofBits .f32 0x3F800000#32 := rfl

def val_main_v38 : Vec F S8x19 .f32 :=
  broadcastInDim S8x19 ![] bcast_S_S8x19 (val_main_cst_11 (F := F))

abbrev idx_main_v38 (i : S8x19.Idx) : S_.Idx := fun a => a.elim0

theorem val_main_v38_apply (i : S8x19.Idx) :
    val_main_v38 (F := F) i = val_main_cst_11 (F := F) (idx_main_v38 i) := by
  unfold val_main_v38
  generalize val_main_cst_11 (F := F) = y
  exact broadcastInDim_apply _ bcast_S_S8x19 y i (idx_main_v38 i) (fun a => a.elim0)

def val_main_v39 (x2 : Vec F S8x512x512 .i32) : Vec F S8x19 .f32 :=
  subf (val_main_v38 (F := F)) (val_main_v32 (F := F) x2)

theorem val_main_v39_apply (x2 : Vec F S8x512x512 .i32) (i : S8x19.Idx) :
    val_main_v39 (F := F) x2 i = FloatOps.subf (val_main_v38 (F := F) i) (val_main_v32 (F := F) x2 i) := rfl

def val_main_v40 (x2 : Vec F S8x512x512 .i32) : Vec F S8x19 .f32 :=
  mulf (val_main_v37 (F := F) x2) (val_main_v39 (F := F) x2)

theorem val_main_v40_apply (x2 : Vec F S8x512x512 .i32) (i : S8x19.Idx) :
    val_main_v40 (F := F) x2 i = FloatOps.mulf (val_main_v37 (F := F) x2 i) (val_main_v39 (F := F) x2 i) := rfl

def val_main_cst_12 : Vec F S_ .f32 :=
  constant S_ .f32 0x3F800000#32

theorem val_main_cst_12_apply (i : S_.Idx) :
    val_main_cst_12 (F := F) i = FloatOps.ofBits .f32 0x3F800000#32 := rfl

def val_main_v41 : Vec F S8x19 .f32 :=
  broadcastInDim S8x19 ![] bcast_S_S8x19 (val_main_cst_12 (F := F))

abbrev idx_main_v41 (i : S8x19.Idx) : S_.Idx := fun a => a.elim0

theorem val_main_v41_apply (i : S8x19.Idx) :
    val_main_v41 (F := F) i = val_main_cst_12 (F := F) (idx_main_v41 i) := by
  unfold val_main_v41
  generalize val_main_cst_12 (F := F) = y
  exact broadcastInDim_apply _ bcast_S_S8x19 y i (idx_main_v41 i) (fun a => a.elim0)

def val_main_v42 (x2 : Vec F S8x512x512 .i32) : Vec F S8x19 .f32 :=
  addf (val_main_v40 (F := F) x2) (val_main_v41 (F := F))

theorem val_main_v42_apply (x2 : Vec F S8x512x512 .i32) (i : S8x19.Idx) :
    val_main_v42 (F := F) x2 i = FloatOps.addf (val_main_v40 (F := F) x2 i) (val_main_v41 (F := F) i) := rfl

def val_main_call1_cst : Vec F S_ .f32 :=
  constant S_ .f32 0xFF800000#32

def val_main_call1_v0 (x0 : Vec F S8x19x512x512 .f32) : Vec F S8x512x512 .f32 :=
  Host.reduce FloatOps.maximumf (x0) (val_main_call1_cst (F := F)) reducesTo_S8x19x512x512_S8x512x512_d1 h_S_

def val_main_call1_cst_0 : Vec F S_ .f32 :=
  constant S_ .f32 0xFF800000#32

theorem val_main_call1_cst_0_apply (i : S_.Idx) :
    val_main_call1_cst_0 (F := F) i = FloatOps.ofBits .f32 0xFF800000#32 := rfl

def val_main_call1_v1 : Vec F S8x512x512 .f32 :=
  broadcastInDim S8x512x512 ![] bcast_S_S8x512x512 (val_main_call1_cst_0 (F := F))

abbrev idx_main_call1_v1 (i : S8x512x512.Idx) : S_.Idx := fun a => a.elim0

theorem val_main_call1_v1_apply (i : S8x512x512.Idx) :
    val_main_call1_v1 (F := F) i = val_main_call1_cst_0 (F := F) (idx_main_call1_v1 i) := by
  unfold val_main_call1_v1
  generalize val_main_call1_cst_0 (F := F) = y
  exact broadcastInDim_apply _ bcast_S_S8x512x512 y i (idx_main_call1_v1 i) (fun a => a.elim0)

def val_main_call1_v2 (x0 : Vec F S8x19x512x512 .f32) : Vec F S8x512x512 .f32 :=
  maximumf (val_main_call1_v1 (F := F)) (val_main_call1_v0 (F := F) x0)

theorem val_main_call1_v2_apply (x0 : Vec F S8x19x512x512 .f32) (i : S8x512x512.Idx) :
    val_main_call1_v2 (F := F) x0 i = FloatOps.maximumf (val_main_call1_v1 (F := F) i) (val_main_call1_v0 (F := F) x0 i) := rfl

def val_main_call1_v3 (x0 : Vec F S8x19x512x512 .f32) : Vec F S8x1x512x512 .f32 :=
  broadcastInDim S8x1x512x512 ![0, 2, 3] bcast_S8x512x512_S8x1x512x512_0_2_3 (val_main_call1_v2 (F := F) x0)

abbrev idx_main_call1_v3 (i : S8x1x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩

theorem val_main_call1_v3_apply (x0 : Vec F S8x19x512x512 .f32) (i : S8x1x512x512.Idx) :
    val_main_call1_v3 (F := F) x0 i = val_main_call1_v2 (F := F) x0 (idx_main_call1_v3 i) := by
  unfold val_main_call1_v3
  generalize val_main_call1_v2 (F := F) x0 = y
  exact broadcastInDim_apply _ bcast_S8x512x512_S8x1x512x512_0_2_3 y i (idx_main_call1_v3 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])

def val_main_call1_v4 (x0 : Vec F S8x19x512x512 .f32) : Vec F S8x19x512x512 .f32 :=
  broadcastInDim S8x19x512x512 ![0, 1, 2, 3] bcast_S8x1x512x512_S8x19x512x512_0_1_2_3 (val_main_call1_v3 (F := F) x0)

abbrev idx_main_call1_v4 (i : S8x19x512x512.Idx) : S8x1x512x512.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩

theorem val_main_call1_v4_apply (x0 : Vec F S8x19x512x512 .f32) (i : S8x19x512x512.Idx) :
    val_main_call1_v4 (F := F) x0 i = val_main_call1_v3 (F := F) x0 (idx_main_call1_v4 i) := by
  unfold val_main_call1_v4
  generalize val_main_call1_v3 (F := F) x0 = y
  exact broadcastInDim_apply _ bcast_S8x1x512x512_S8x19x512x512_0_1_2_3 y i (idx_main_call1_v4 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (512 : Nat) = 1 then 0 else (i 3).val; rw [if_neg (by decide)])

def val_main_call1_v5 (x0 : Vec F S8x19x512x512 .f32) : Vec F S8x19x512x512 .f32 :=
  subf (x0) (val_main_call1_v4 (F := F) x0)

theorem val_main_call1_v5_apply (x0 : Vec F S8x19x512x512 .f32) (i : S8x19x512x512.Idx) :
    val_main_call1_v5 (F := F) x0 i = FloatOps.subf (x0 i) (val_main_call1_v4 (F := F) x0 i) := rfl

def val_main_call1_v6 (x0 : Vec F S8x19x512x512 .f32) : Vec F S8x19x512x512 .f32 :=
  Host.exp (val_main_call1_v5 (F := F) x0)

theorem val_main_call1_v6_apply (x0 : Vec F S8x19x512x512 .f32) (i : S8x19x512x512.Idx) :
    val_main_call1_v6 (F := F) x0 i = FloatOps.hostUnary .exp (val_main_call1_v5 (F := F) x0 i) := rfl

def val_main_call1_cst_1 : Vec F S_ .f32 :=
  constant S_ .f32 0x00000000#32

theorem val_main_call1_cst_1_apply (i : S_.Idx) :
    val_main_call1_cst_1 (F := F) i = FloatOps.ofBits .f32 0x00000000#32 := rfl

def val_main_call1_v7 (x0 : Vec F S8x19x512x512 .f32) : Vec F S8x512x512 .f32 :=
  Host.reduceAdd (val_main_call1_v6 (F := F) x0) (val_main_call1_cst_1 (F := F)) reducesTo_S8x19x512x512_S8x512x512_d1 h_S_

abbrev idx_main_call1_v7 (i : S8x512x512.Idx) (k : Fin 19) : S8x19x512x512.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩

theorem val_main_call1_v7_apply (x0 : (⟨S8x19x512x512, .f32⟩ : BufTy).Contents (Elt Ideal)) (i : S8x512x512.Idx) :
    val_main_call1_v7 (F := Ideal) x0 i = (val_main_call1_cst_1 (F := Ideal)) (Shape.Idx.first h_S_) + ∑ k : Fin 19, (val_main_call1_v6 (F := Ideal) x0) (idx_main_call1_v7 i k) := by
  unfold val_main_call1_v7
  generalize val_main_call1_v6 (F := Ideal) x0 = y0
  simp only [Host.reduceAdd, Ideal.hostReduceAdd_def]
  rw [Ideal.hostReduceAdd_single reducesTo_S8x19x512x512_S8x512x512_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_call1_v8 (x0 : Vec F S8x19x512x512 .f32) : Vec F S8x1x512x512 .f32 :=
  broadcastInDim S8x1x512x512 ![0, 2, 3] bcast_S8x512x512_S8x1x512x512_0_2_3 (val_main_call1_v7 (F := F) x0)

abbrev idx_main_call1_v8 (i : S8x1x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩

theorem val_main_call1_v8_apply (x0 : Vec F S8x19x512x512 .f32) (i : S8x1x512x512.Idx) :
    val_main_call1_v8 (F := F) x0 i = val_main_call1_v7 (F := F) x0 (idx_main_call1_v8 i) := by
  unfold val_main_call1_v8
  generalize val_main_call1_v7 (F := F) x0 = y
  exact broadcastInDim_apply _ bcast_S8x512x512_S8x1x512x512_0_2_3 y i (idx_main_call1_v8 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])

def val_main_call1_v9 (x0 : Vec F S8x19x512x512 .f32) : Vec F S8x1x512x512 .f32 :=
  Host.log (val_main_call1_v8 (F := F) x0)

theorem val_main_call1_v9_apply (x0 : Vec F S8x19x512x512 .f32) (i : S8x1x512x512.Idx) :
    val_main_call1_v9 (F := F) x0 i = FloatOps.hostUnary .log (val_main_call1_v8 (F := F) x0 i) := rfl

def val_main_call1_v10 (x0 : Vec F S8x19x512x512 .f32) : Vec F S8x19x512x512 .f32 :=
  broadcastInDim S8x19x512x512 ![0, 1, 2, 3] bcast_S8x1x512x512_S8x19x512x512_0_1_2_3 (val_main_call1_v9 (F := F) x0)

abbrev idx_main_call1_v10 (i : S8x19x512x512.Idx) : S8x1x512x512.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩

theorem val_main_call1_v10_apply (x0 : Vec F S8x19x512x512 .f32) (i : S8x19x512x512.Idx) :
    val_main_call1_v10 (F := F) x0 i = val_main_call1_v9 (F := F) x0 (idx_main_call1_v10 i) := by
  unfold val_main_call1_v10
  generalize val_main_call1_v9 (F := F) x0 = y
  exact broadcastInDim_apply _ bcast_S8x1x512x512_S8x19x512x512_0_1_2_3 y i (idx_main_call1_v10 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (512 : Nat) = 1 then 0 else (i 3).val; rw [if_neg (by decide)])

def val_main_v43 (x0 : Vec F S8x19x512x512 .f32) : Vec F S8x19x512x512 .f32 :=
  subf (val_main_call1_v5 (F := F) x0) (val_main_call1_v10 (F := F) x0)

theorem val_main_v43_apply (x0 : Vec F S8x19x512x512 .f32) (i : S8x19x512x512.Idx) :
    val_main_v43 (F := F) x0 i = FloatOps.subf (val_main_call1_v5 (F := F) x0 i) (val_main_call1_v10 (F := F) x0 i) := rfl

def val_main_c_13 : Vec F S_ .i32 :=
  constantI S_ 32 0#32

theorem val_main_c_13_apply (i : S_.Idx) :
    val_main_c_13 (F := F) i = 0#32 := rfl

def val_main_c_14 : Vec F S_ .i32 :=
  constantI S_ 32 18#32

theorem val_main_c_14_apply (i : S_.Idx) :
    val_main_c_14 (F := F) i = 18#32 := rfl

def val_main_call2_v0 : Vec F S_ .i32 :=
  id (val_main_c_13 (F := F))

theorem val_main_call2_v0_apply (i : S_.Idx) :
    val_main_call2_v0 (F := F) i = (val_main_c_13 (F := F) i) := rfl

def val_main_call2_v1 : Vec F S8x512x512 .i32 :=
  broadcastInDim S8x512x512 ![] bcast_S_S8x512x512 (val_main_call2_v0 (F := F))

abbrev idx_main_call2_v1 (i : S8x512x512.Idx) : S_.Idx := fun a => a.elim0

theorem val_main_call2_v1_apply (i : S8x512x512.Idx) :
    val_main_call2_v1 (F := F) i = val_main_call2_v0 (F := F) (idx_main_call2_v1 i) := by
  unfold val_main_call2_v1
  generalize val_main_call2_v0 (F := F) = y
  exact broadcastInDim_apply _ bcast_S_S8x512x512 y i (idx_main_call2_v1 i) (fun a => a.elim0)

def val_main_call2_v2 (x2 : Vec F S8x512x512 .i32) : Vec F S8x512x512 .i32 :=
  maxsi (val_main_call2_v1 (F := F)) (x2)

theorem val_main_call2_v2_apply (x2 : Vec F S8x512x512 .i32) (i : S8x512x512.Idx) :
    val_main_call2_v2 (F := F) x2 i = IntOp.maxsi (val_main_call2_v1 (F := F) i) (x2 i) := rfl

def val_main_call2_v3 : Vec F S_ .i32 :=
  id (val_main_c_14 (F := F))

theorem val_main_call2_v3_apply (i : S_.Idx) :
    val_main_call2_v3 (F := F) i = (val_main_c_14 (F := F) i) := rfl

def val_main_call2_v4 : Vec F S8x512x512 .i32 :=
  broadcastInDim S8x512x512 ![] bcast_S_S8x512x512 (val_main_call2_v3 (F := F))

abbrev idx_main_call2_v4 (i : S8x512x512.Idx) : S_.Idx := fun a => a.elim0

theorem val_main_call2_v4_apply (i : S8x512x512.Idx) :
    val_main_call2_v4 (F := F) i = val_main_call2_v3 (F := F) (idx_main_call2_v4 i) := by
  unfold val_main_call2_v4
  generalize val_main_call2_v3 (F := F) = y
  exact broadcastInDim_apply _ bcast_S_S8x512x512 y i (idx_main_call2_v4 i) (fun a => a.elim0)

def val_main_v44 (x2 : Vec F S8x512x512 .i32) : Vec F S8x512x512 .i32 :=
  minsi (val_main_call2_v4 (F := F)) (val_main_call2_v2 (F := F) x2)

theorem val_main_v44_apply (x2 : Vec F S8x512x512 .i32) (i : S8x512x512.Idx) :
    val_main_v44 (F := F) x2 i = IntOp.minsi (val_main_call2_v4 (F := F) i) (val_main_call2_v2 (F := F) x2 i) := rfl

def val_main_v45 (x2 : Vec F S8x512x512 .i32) : Vec F S8x1x512x512 .i32 :=
  broadcastInDim S8x1x512x512 ![0, 2, 3] bcast_S8x512x512_S8x1x512x512_0_2_3 (val_main_v44 (F := F) x2)

abbrev idx_main_v45 (i : S8x1x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩

theorem val_main_v45_apply (x2 : Vec F S8x512x512 .i32) (i : S8x1x512x512.Idx) :
    val_main_v45 (F := F) x2 i = val_main_v44 (F := F) x2 (idx_main_v45 i) := by
  unfold val_main_v45
  generalize val_main_v44 (F := F) x2 = y
  exact broadcastInDim_apply _ bcast_S8x512x512_S8x1x512x512_0_2_3 y i (idx_main_v45 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])

def val_main_call3_c : Vec F S_ .i32 :=
  constantI S_ 32 0#32

theorem val_main_call3_c_apply (i : S_.Idx) :
    val_main_call3_c (F := F) i = 0#32 := rfl

def val_main_call3_v0 : Vec F S8x1x512x512 .i32 :=
  broadcastInDim S8x1x512x512 ![] bcast_S_S8x1x512x512 (val_main_call3_c (F := F))

abbrev idx_main_call3_v0 (i : S8x1x512x512.Idx) : S_.Idx := fun a => a.elim0

theorem val_main_call3_v0_apply (i : S8x1x512x512.Idx) :
    val_main_call3_v0 (F := F) i = val_main_call3_c (F := F) (idx_main_call3_v0 i) := by
  unfold val_main_call3_v0
  generalize val_main_call3_c (F := F) = y
  exact broadcastInDim_apply _ bcast_S_S8x1x512x512 y i (idx_main_call3_v0 i) (fun a => a.elim0)

def val_main_call3_v1 (x2 : Vec F S8x512x512 .i32) : Vec F S8x1x512x512 .i1 :=
  cmpi .slt (val_main_v45 (F := F) x2) (val_main_call3_v0 (F := F))

theorem val_main_call3_v1_apply (x2 : Vec F S8x512x512 .i32) (i : S8x1x512x512.Idx) :
    val_main_call3_v1 (F := F) x2 i = IntOp.cmpi .slt (val_main_v45 (F := F) x2 i) (val_main_call3_v0 (F := F) i) := rfl

def val_main_call3_c_0 : Vec F S_ .i32 :=
  constantI S_ 32 19#32

def val_main_call3_v2 : Vec F S8x1x512x512 .i32 :=
  broadcastInDim S8x1x512x512 ![] bcast_S_S8x1x512x512 (val_main_call3_c_0 (F := F))

def val_main_call3_v3 (x2 : Vec F S8x512x512 .i32) : Vec F S8x1x512x512 .i32 :=
  addi (val_main_v45 (F := F) x2) (val_main_call3_v2 (F := F))

def val_main_call3_v4 (x2 : Vec F S8x512x512 .i32) : Vec F S8x1x512x512 .i32 :=
  select (val_main_call3_v1 (F := F) x2) (val_main_call3_v3 (F := F) x2) (val_main_v45 (F := F) x2)

theorem val_main_call3_v4_apply (x2 : Vec F S8x512x512 .i32) (i : S8x1x512x512.Idx) :
    val_main_call3_v4 (F := F) x2 i = Scalar.select (val_main_call3_v1 (F := F) x2 i) (val_main_call3_v3 (F := F) x2 i) (val_main_v45 (F := F) x2 i) := rfl

def val_main_call3_v5 (x2 : Vec F S8x512x512 .i32) : Vec F S8x1x512x512x1 .i32 :=
  shapeCast _ (val_main_call3_v4 (F := F) x2) shapeCasts_S8x1x512x512_S8x1x512x512x1

abbrev idx_main_call3_v5 (i : S8x1x512x512x1.Idx) : S8x1x512x512.Idx := fun a => match a with
  | ⟨0, _⟩ => ⟨(((((i 0).val * 1 + (i 1).val) * 512 + (i 2).val) * 512 + (i 3).val) * 1 + (i 4).val) / 262144, by have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((i 0).val * 1 + (i 1).val) * 512 + (i 2).val) * 512 + (i 3).val) * 1 + (i 4).val) / 262144 < 8; omega⟩
  | ⟨1, _⟩ => ⟨0, Nat.one_pos⟩
  | ⟨2, _⟩ => ⟨(((((i 0).val * 1 + (i 1).val) * 512 + (i 2).val) * 512 + (i 3).val) * 1 + (i 4).val) / 512 % 512, by have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((i 0).val * 1 + (i 1).val) * 512 + (i 2).val) * 512 + (i 3).val) * 1 + (i 4).val) / 512 % 512 < 512; omega⟩
  | ⟨3, _⟩ => ⟨(((((i 0).val * 1 + (i 1).val) * 512 + (i 2).val) * 512 + (i 3).val) * 1 + (i 4).val) % 512, by have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((i 0).val * 1 + (i 1).val) * 512 + (i 2).val) * 512 + (i 3).val) * 1 + (i 4).val) % 512 < 512; omega⟩

theorem val_main_call3_v5_apply (x2 : Vec F S8x512x512 .i32) (i : S8x1x512x512x1.Idx) :
    val_main_call3_v5 (F := F) x2 i = val_main_call3_v4 (F := F) x2 (idx_main_call3_v5 i) := by
  unfold val_main_call3_v5
  generalize val_main_call3_v4 (F := F) x2 = y
  exact shapeCast_apply y shapeCasts_S8x1x512x512_S8x1x512x512x1 i (idx_main_call3_v5 i)
    (by rewrite [Shape.rowMajor_val_four, Shape.rowMajor_val_five]; have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((((i 0).val * 1 + (i 1).val) * 512 + (i 2).val) * 512 + (i 3).val) * 1 + (i 4).val) / 262144 * 1 + 0) * 512 + (((((i 0).val * 1 + (i 1).val) * 512 + (i 2).val) * 512 + (i 3).val) * 1 + (i 4).val) / 512 % 512) * 512 + (((((i 0).val * 1 + (i 1).val) * 512 + (i 2).val) * 512 + (i 3).val) * 1 + (i 4).val) % 512 = ((((i 0).val * 1 + (i 1).val) * 512 + (i 2).val) * 512 + (i 3).val) * 1 + (i 4).val; omega)

def val_main_call3_c_1 : Vec F S1 .i32 :=
  constantI S1 32 18#32

theorem val_main_call3_c_1_apply (i : S1.Idx) :
    val_main_call3_c_1 (F := F) i = 18#32 := rfl

def val_main_call3_c_2 : Vec F S_ .i32 :=
  constantI S_ 32 0#32

theorem val_main_call3_c_2_apply (i : S_.Idx) :
    val_main_call3_c_2 (F := F) i = 0#32 := rfl

def val_main_call3_v6 : Vec F S8x1x512x512x1 .i32 :=
  broadcastInDim S8x1x512x512x1 ![] bcast_S_S8x1x512x512x1 (val_main_call3_c_2 (F := F))

abbrev idx_main_call3_v6 (i : S8x1x512x512x1.Idx) : S_.Idx := fun a => a.elim0

theorem val_main_call3_v6_apply (i : S8x1x512x512x1.Idx) :
    val_main_call3_v6 (F := F) i = val_main_call3_c_2 (F := F) (idx_main_call3_v6 i) := by
  unfold val_main_call3_v6
  generalize val_main_call3_c_2 (F := F) = y
  exact broadcastInDim_apply _ bcast_S_S8x1x512x512x1 y i (idx_main_call3_v6 i) (fun a => a.elim0)

def val_main_call3_v7 (x2 : Vec F S8x512x512 .i32) : Vec F S8x1x512x512x1 .i1 :=
  cmpi .sge (val_main_call3_v5 (F := F) x2) (val_main_call3_v6 (F := F))

theorem val_main_call3_v7_apply (x2 : Vec F S8x512x512 .i32) (i : S8x1x512x512x1.Idx) :
    val_main_call3_v7 (F := F) x2 i = IntOp.cmpi .sge (val_main_call3_v5 (F := F) x2 i) (val_main_call3_v6 (F := F) i) := rfl

def val_main_call3_v8 : Vec F S1x1x1x1x1 .i32 :=
  broadcastInDim S1x1x1x1x1 ![4] bcast_S1_S1x1x1x1x1_4 (val_main_call3_c_1 (F := F))

abbrev idx_main_call3_v8 (i : S1x1x1x1x1.Idx) : S1.Idx := fun a => match a with
  | ⟨0, _⟩ => ⟨0, Nat.one_pos⟩

theorem val_main_call3_v8_apply (i : S1x1x1x1x1.Idx) :
    val_main_call3_v8 (F := F) i = val_main_call3_c_1 (F := F) (idx_main_call3_v8 i) := by
  unfold val_main_call3_v8
  generalize val_main_call3_c_1 (F := F) = y
  exact broadcastInDim_apply _ bcast_S1_S1x1x1x1x1_4 y i (idx_main_call3_v8 i) (fun a => match a with
    | ⟨0, _⟩ => by show 0 = if (1 : Nat) = 1 then 0 else (i 4).val; rw [if_pos rfl])

def val_main_call3_v9 : Vec F S8x1x512x512x1 .i32 :=
  broadcastInDim S8x1x512x512x1 ![0, 1, 2, 3, 4] bcast_S1x1x1x1x1_S8x1x512x512x1_0_1_2_3_4 (val_main_call3_v8 (F := F))

abbrev idx_main_call3_v9 (i : S8x1x512x512x1.Idx) : S1x1x1x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨0, Nat.one_pos⟩

theorem val_main_call3_v9_apply (i : S8x1x512x512x1.Idx) :
    val_main_call3_v9 (F := F) i = val_main_call3_v8 (F := F) (idx_main_call3_v9 i) := by
  unfold val_main_call3_v9
  generalize val_main_call3_v8 (F := F) = y
  exact broadcastInDim_apply _ bcast_S1x1x1x1x1_S8x1x512x512x1_0_1_2_3_4 y i (idx_main_call3_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show 0 = if (1 : Nat) = 1 then 0 else (i 4).val; rw [if_pos rfl])

def val_main_call3_v10 (x2 : Vec F S8x512x512 .i32) : Vec F S8x1x512x512x1 .i1 :=
  cmpi .sle (val_main_call3_v5 (F := F) x2) (val_main_call3_v9 (F := F))

theorem val_main_call3_v10_apply (x2 : Vec F S8x512x512 .i32) (i : S8x1x512x512x1.Idx) :
    val_main_call3_v10 (F := F) x2 i = IntOp.cmpi .sle (val_main_call3_v5 (F := F) x2 i) (val_main_call3_v9 (F := F) i) := rfl

def val_main_call3_v11 (x2 : Vec F S8x512x512 .i32) : Vec F S8x1x512x512x1 .i1 :=
  andi (val_main_call3_v7 (F := F) x2) (val_main_call3_v10 (F := F) x2)

theorem val_main_call3_v11_apply (x2 : Vec F S8x512x512 .i32) (i : S8x1x512x512x1.Idx) :
    val_main_call3_v11 (F := F) x2 i = IntOp.andi (val_main_call3_v7 (F := F) x2 i) (val_main_call3_v10 (F := F) x2 i) := rfl

def val_main_call3_c_3 : Vec F S_ .i1 :=
  constantI S_ 1 1#1

def val_main_call3_v12 (x2 : Vec F S8x512x512 .i32) : Vec F S8x1x512x512 .i1 :=
  Host.reduce IntOp.andi (val_main_call3_v11 (F := F) x2) (val_main_call3_c_3 (F := F)) reducesTo_S8x1x512x512x1_S8x1x512x512_d4 h_S_

def val_main_call3_v13 (x0 : Vec F S8x19x512x512 .f32) (x2 : Vec F S8x512x512 .i32) : Vec F S8x1x512x512 .f32 :=
  Host.gather gather_S8x19x512x512_S8x1x512x512x1_S8x1x512x512_n_1_023_023_1_4_1111 (val_main_v43 (F := F) x0) (val_main_call3_v5 (F := F) x2)

def val_main_call3_cst : Vec F S_ .f32 :=
  constant S_ .f32 0x7FC00000#32

def val_main_call3_v14 : Vec F S8x1x512x512 .f32 :=
  broadcastInDim S8x1x512x512 ![] bcast_S_S8x1x512x512 (val_main_call3_cst (F := F))

def val_main_v46 (x0 : Vec F S8x19x512x512 .f32) (x2 : Vec F S8x512x512 .i32) : Vec F S8x1x512x512 .f32 :=
  select (val_main_call3_v12 (F := F) x2) (val_main_call3_v13 (F := F) x0 x2) (val_main_call3_v14 (F := F))

theorem val_main_v46_apply (x0 : Vec F S8x19x512x512 .f32) (x2 : Vec F S8x512x512 .i32) (i : S8x1x512x512.Idx) :
    val_main_v46 (F := F) x0 x2 i = Scalar.select (val_main_call3_v12 (F := F) x2 i) (val_main_call3_v13 (F := F) x0 x2 i) (val_main_call3_v14 (F := F) i) := rfl

def val_main_v47 (x0 : Vec F S8x19x512x512 .f32) (x2 : Vec F S8x512x512 .i32) : Vec F S8x512x512 .f32 :=
  shapeCast _ (val_main_v46 (F := F) x0 x2) shapeCasts_S8x1x512x512_S8x512x512

abbrev idx_main_v47 (i : S8x512x512.Idx) : S8x1x512x512.Idx := fun a => match a with
  | ⟨0, _⟩ => ⟨(((i 0).val * 512 + (i 1).val) * 512 + (i 2).val) / 262144, by have h0 : (i 0).val < 8 := (i 0).isLt; have h1 : (i 1).val < 512 := (i 1).isLt; have h2 : (i 2).val < 512 := (i 2).isLt; show (((i 0).val * 512 + (i 1).val) * 512 + (i 2).val) / 262144 < 8; omega⟩
  | ⟨1, _⟩ => ⟨0, Nat.one_pos⟩
  | ⟨2, _⟩ => ⟨(((i 0).val * 512 + (i 1).val) * 512 + (i 2).val) / 512 % 512, by have h0 : (i 0).val < 8 := (i 0).isLt; have h1 : (i 1).val < 512 := (i 1).isLt; have h2 : (i 2).val < 512 := (i 2).isLt; show (((i 0).val * 512 + (i 1).val) * 512 + (i 2).val) / 512 % 512 < 512; omega⟩
  | ⟨3, _⟩ => ⟨(((i 0).val * 512 + (i 1).val) * 512 + (i 2).val) % 512, by have h0 : (i 0).val < 8 := (i 0).isLt; have h1 : (i 1).val < 512 := (i 1).isLt; have h2 : (i 2).val < 512 := (i 2).isLt; show (((i 0).val * 512 + (i 1).val) * 512 + (i 2).val) % 512 < 512; omega⟩

theorem val_main_v47_apply (x0 : Vec F S8x19x512x512 .f32) (x2 : Vec F S8x512x512 .i32) (i : S8x512x512.Idx) :
    val_main_v47 (F := F) x0 x2 i = val_main_v46 (F := F) x0 x2 (idx_main_v47 i) := by
  unfold val_main_v47
  generalize val_main_v46 (F := F) x0 x2 = y
  exact shapeCast_apply y shapeCasts_S8x1x512x512_S8x512x512 i (idx_main_v47 i)
    (by rewrite [Shape.rowMajor_val_four, Shape.rowMajor_val_three]; have h0 : (i 0).val < 8 := (i 0).isLt; have h1 : (i 1).val < 512 := (i 1).isLt; have h2 : (i 2).val < 512 := (i 2).isLt; show (((((i 0).val * 512 + (i 1).val) * 512 + (i 2).val) / 262144 * 1 + 0) * 512 + (((i 0).val * 512 + (i 1).val) * 512 + (i 2).val) / 512 % 512) * 512 + (((i 0).val * 512 + (i 1).val) * 512 + (i 2).val) % 512 = ((i 0).val * 512 + (i 1).val) * 512 + (i 2).val; omega)

def val_main_v48 (x2 : Vec F S8x512x512 .i32) : Vec F S8x262144 .i32 :=
  shapeCast _ (val_main_v44 (F := F) x2) shapeCasts_S8x512x512_S8x262144

abbrev idx_main_v48 (i : S8x262144.Idx) : S8x512x512.Idx := fun a => match a with
  | ⟨0, _⟩ => ⟨((i 0).val * 262144 + (i 1).val) / 262144, by have h0 : (i 0).val < 8 := (i 0).isLt; have h1 : (i 1).val < 262144 := (i 1).isLt; show ((i 0).val * 262144 + (i 1).val) / 262144 < 8; omega⟩
  | ⟨1, _⟩ => ⟨((i 0).val * 262144 + (i 1).val) / 512 % 512, by have h0 : (i 0).val < 8 := (i 0).isLt; have h1 : (i 1).val < 262144 := (i 1).isLt; show ((i 0).val * 262144 + (i 1).val) / 512 % 512 < 512; omega⟩
  | ⟨2, _⟩ => ⟨((i 0).val * 262144 + (i 1).val) % 512, by have h0 : (i 0).val < 8 := (i 0).isLt; have h1 : (i 1).val < 262144 := (i 1).isLt; show ((i 0).val * 262144 + (i 1).val) % 512 < 512; omega⟩

theorem val_main_v48_apply (x2 : Vec F S8x512x512 .i32) (i : S8x262144.Idx) :
    val_main_v48 (F := F) x2 i = val_main_v44 (F := F) x2 (idx_main_v48 i) := by
  unfold val_main_v48
  generalize val_main_v44 (F := F) x2 = y
  exact shapeCast_apply y shapeCasts_S8x512x512_S8x262144 i (idx_main_v48 i)
    (by rewrite [Shape.rowMajor_val_three, Shape.rowMajor_val_two]; have h0 : (i 0).val < 8 := (i 0).isLt; have h1 : (i 1).val < 262144 := (i 1).isLt; show (((i 0).val * 262144 + (i 1).val) / 262144 * 512 + ((i 0).val * 262144 + (i 1).val) / 512 % 512) * 512 + ((i 0).val * 262144 + (i 1).val) % 512 = (i 0).val * 262144 + (i 1).val; omega)

def val_main_call4_c : Vec F S_ .i32 :=
  constantI S_ 32 0#32

theorem val_main_call4_c_apply (i : S_.Idx) :
    val_main_call4_c (F := F) i = 0#32 := rfl

def val_main_call4_v0 : Vec F S8x262144 .i32 :=
  broadcastInDim S8x262144 ![] bcast_S_S8x262144 (val_main_call4_c (F := F))

abbrev idx_main_call4_v0 (i : S8x262144.Idx) : S_.Idx := fun a => a.elim0

theorem val_main_call4_v0_apply (i : S8x262144.Idx) :
    val_main_call4_v0 (F := F) i = val_main_call4_c (F := F) (idx_main_call4_v0 i) := by
  unfold val_main_call4_v0
  generalize val_main_call4_c (F := F) = y
  exact broadcastInDim_apply _ bcast_S_S8x262144 y i (idx_main_call4_v0 i) (fun a => a.elim0)

def val_main_call4_v1 (x2 : Vec F S8x512x512 .i32) : Vec F S8x262144 .i1 :=
  cmpi .slt (val_main_v48 (F := F) x2) (val_main_call4_v0 (F := F))

theorem val_main_call4_v1_apply (x2 : Vec F S8x512x512 .i32) (i : S8x262144.Idx) :
    val_main_call4_v1 (F := F) x2 i = IntOp.cmpi .slt (val_main_v48 (F := F) x2 i) (val_main_call4_v0 (F := F) i) := rfl

def val_main_call4_c_0 : Vec F S_ .i32 :=
  constantI S_ 32 19#32

def val_main_call4_v2 : Vec F S8x262144 .i32 :=
  broadcastInDim S8x262144 ![] bcast_S_S8x262144 (val_main_call4_c_0 (F := F))

def val_main_call4_v3 (x2 : Vec F S8x512x512 .i32) : Vec F S8x262144 .i32 :=
  addi (val_main_v48 (F := F) x2) (val_main_call4_v2 (F := F))

def val_main_call4_v4 (x2 : Vec F S8x512x512 .i32) : Vec F S8x262144 .i32 :=
  select (val_main_call4_v1 (F := F) x2) (val_main_call4_v3 (F := F) x2) (val_main_v48 (F := F) x2)

theorem val_main_call4_v4_apply (x2 : Vec F S8x512x512 .i32) (i : S8x262144.Idx) :
    val_main_call4_v4 (F := F) x2 i = Scalar.select (val_main_call4_v1 (F := F) x2 i) (val_main_call4_v3 (F := F) x2 i) (val_main_v48 (F := F) x2 i) := rfl

def val_main_call4_v5 (x2 : Vec F S8x512x512 .i32) : Vec F S8x262144x1 .i32 :=
  shapeCast _ (val_main_call4_v4 (F := F) x2) shapeCasts_S8x262144_S8x262144x1

abbrev idx_main_call4_v5 (i : S8x262144x1.Idx) : S8x262144.Idx := fun a => match a with
  | ⟨0, _⟩ => ⟨(((i 0).val * 262144 + (i 1).val) * 1 + (i 2).val) / 262144, by have h0 : (i 0).val < 8 := (i 0).isLt; have h1 : (i 1).val < 262144 := (i 1).isLt; have h2 : (i 2).val < 1 := (i 2).isLt; show (((i 0).val * 262144 + (i 1).val) * 1 + (i 2).val) / 262144 < 8; omega⟩
  | ⟨1, _⟩ => ⟨(((i 0).val * 262144 + (i 1).val) * 1 + (i 2).val) % 262144, by have h0 : (i 0).val < 8 := (i 0).isLt; have h1 : (i 1).val < 262144 := (i 1).isLt; have h2 : (i 2).val < 1 := (i 2).isLt; show (((i 0).val * 262144 + (i 1).val) * 1 + (i 2).val) % 262144 < 262144; omega⟩

theorem val_main_call4_v5_apply (x2 : Vec F S8x512x512 .i32) (i : S8x262144x1.Idx) :
    val_main_call4_v5 (F := F) x2 i = val_main_call4_v4 (F := F) x2 (idx_main_call4_v5 i) := by
  unfold val_main_call4_v5
  generalize val_main_call4_v4 (F := F) x2 = y
  exact shapeCast_apply y shapeCasts_S8x262144_S8x262144x1 i (idx_main_call4_v5 i)
    (by rewrite [Shape.rowMajor_val_two, Shape.rowMajor_val_three]; have h0 : (i 0).val < 8 := (i 0).isLt; have h1 : (i 1).val < 262144 := (i 1).isLt; have h2 : (i 2).val < 1 := (i 2).isLt; show (((i 0).val * 262144 + (i 1).val) * 1 + (i 2).val) / 262144 * 262144 + (((i 0).val * 262144 + (i 1).val) * 1 + (i 2).val) % 262144 = ((i 0).val * 262144 + (i 1).val) * 1 + (i 2).val; omega)

def val_main_call4_c_1 : Vec F S1 .i32 :=
  constantI S1 32 18#32

theorem val_main_call4_c_1_apply (i : S1.Idx) :
    val_main_call4_c_1 (F := F) i = 18#32 := rfl

def val_main_call4_c_2 : Vec F S_ .i32 :=
  constantI S_ 32 0#32

theorem val_main_call4_c_2_apply (i : S_.Idx) :
    val_main_call4_c_2 (F := F) i = 0#32 := rfl

def val_main_call4_v6 : Vec F S8x262144x1 .i32 :=
  broadcastInDim S8x262144x1 ![] bcast_S_S8x262144x1 (val_main_call4_c_2 (F := F))

abbrev idx_main_call4_v6 (i : S8x262144x1.Idx) : S_.Idx := fun a => a.elim0

theorem val_main_call4_v6_apply (i : S8x262144x1.Idx) :
    val_main_call4_v6 (F := F) i = val_main_call4_c_2 (F := F) (idx_main_call4_v6 i) := by
  unfold val_main_call4_v6
  generalize val_main_call4_c_2 (F := F) = y
  exact broadcastInDim_apply _ bcast_S_S8x262144x1 y i (idx_main_call4_v6 i) (fun a => a.elim0)

def val_main_call4_v7 (x2 : Vec F S8x512x512 .i32) : Vec F S8x262144x1 .i1 :=
  cmpi .sge (val_main_call4_v5 (F := F) x2) (val_main_call4_v6 (F := F))

theorem val_main_call4_v7_apply (x2 : Vec F S8x512x512 .i32) (i : S8x262144x1.Idx) :
    val_main_call4_v7 (F := F) x2 i = IntOp.cmpi .sge (val_main_call4_v5 (F := F) x2 i) (val_main_call4_v6 (F := F) i) := rfl

def val_main_call4_v8 : Vec F S1x1x1 .i32 :=
  broadcastInDim S1x1x1 ![2] bcast_S1_S1x1x1_2 (val_main_call4_c_1 (F := F))

abbrev idx_main_call4_v8 (i : S1x1x1.Idx) : S1.Idx := fun a => match a with
  | ⟨0, _⟩ => ⟨0, Nat.one_pos⟩

theorem val_main_call4_v8_apply (i : S1x1x1.Idx) :
    val_main_call4_v8 (F := F) i = val_main_call4_c_1 (F := F) (idx_main_call4_v8 i) := by
  unfold val_main_call4_v8
  generalize val_main_call4_c_1 (F := F) = y
  exact broadcastInDim_apply _ bcast_S1_S1x1x1_2 y i (idx_main_call4_v8 i) (fun a => match a with
    | ⟨0, _⟩ => by show 0 = if (1 : Nat) = 1 then 0 else (i 2).val; rw [if_pos rfl])

def val_main_call4_v9 : Vec F S8x262144x1 .i32 :=
  broadcastInDim S8x262144x1 ![0, 1, 2] bcast_S1x1x1_S8x262144x1_0_1_2 (val_main_call4_v8 (F := F))

abbrev idx_main_call4_v9 (i : S8x262144x1.Idx) : S1x1x1.Idx := fun a => match a with
  | ⟨0, _⟩ => ⟨0, Nat.one_pos⟩
  | ⟨1, _⟩ => ⟨0, Nat.one_pos⟩
  | ⟨2, _⟩ => ⟨0, Nat.one_pos⟩

theorem val_main_call4_v9_apply (i : S8x262144x1.Idx) :
    val_main_call4_v9 (F := F) i = val_main_call4_v8 (F := F) (idx_main_call4_v9 i) := by
  unfold val_main_call4_v9
  generalize val_main_call4_v8 (F := F) = y
  exact broadcastInDim_apply _ bcast_S1x1x1_S8x262144x1_0_1_2 y i (idx_main_call4_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

def val_main_call4_v10 (x2 : Vec F S8x512x512 .i32) : Vec F S8x262144x1 .i1 :=
  cmpi .sle (val_main_call4_v5 (F := F) x2) (val_main_call4_v9 (F := F))

theorem val_main_call4_v10_apply (x2 : Vec F S8x512x512 .i32) (i : S8x262144x1.Idx) :
    val_main_call4_v10 (F := F) x2 i = IntOp.cmpi .sle (val_main_call4_v5 (F := F) x2 i) (val_main_call4_v9 (F := F) i) := rfl

def val_main_call4_v11 (x2 : Vec F S8x512x512 .i32) : Vec F S8x262144x1 .i1 :=
  andi (val_main_call4_v7 (F := F) x2) (val_main_call4_v10 (F := F) x2)

theorem val_main_call4_v11_apply (x2 : Vec F S8x512x512 .i32) (i : S8x262144x1.Idx) :
    val_main_call4_v11 (F := F) x2 i = IntOp.andi (val_main_call4_v7 (F := F) x2 i) (val_main_call4_v10 (F := F) x2 i) := rfl

def val_main_call4_c_3 : Vec F S_ .i1 :=
  constantI S_ 1 1#1

def val_main_call4_v12 (x2 : Vec F S8x512x512 .i32) : Vec F S8x262144 .i1 :=
  Host.reduce IntOp.andi (val_main_call4_v11 (F := F) x2) (val_main_call4_c_3 (F := F)) reducesTo_S8x262144x1_S8x262144_d2 h_S_

def val_main_call4_v13 (x2 : Vec F S8x512x512 .i32) : Vec F S8x262144 .f32 :=
  Host.gather gather_S8x19_S8x262144x1_S8x262144_n_1_0_0_1_2_11 (val_main_v42 (F := F) x2) (val_main_call4_v5 (F := F) x2)

def val_main_call4_cst : Vec F S_ .f32 :=
  constant S_ .f32 0x7FC00000#32

def val_main_call4_v14 : Vec F S8x262144 .f32 :=
  broadcastInDim S8x262144 ![] bcast_S_S8x262144 (val_main_call4_cst (F := F))

def val_main_v49 (x2 : Vec F S8x512x512 .i32) : Vec F S8x262144 .f32 :=
  select (val_main_call4_v12 (F := F) x2) (val_main_call4_v13 (F := F) x2) (val_main_call4_v14 (F := F))

theorem val_main_v49_apply (x2 : Vec F S8x512x512 .i32) (i : S8x262144.Idx) :
    val_main_v49 (F := F) x2 i = Scalar.select (val_main_call4_v12 (F := F) x2 i) (val_main_call4_v13 (F := F) x2 i) (val_main_call4_v14 (F := F) i) := rfl

def val_main_v50 (x2 : Vec F S8x512x512 .i32) : Vec F S8x512x512 .f32 :=
  shapeCast _ (val_main_v49 (F := F) x2) shapeCasts_S8x262144_S8x512x512

abbrev idx_main_v50 (i : S8x512x512.Idx) : S8x262144.Idx := fun a => match a with
  | ⟨0, _⟩ => ⟨(((i 0).val * 512 + (i 1).val) * 512 + (i 2).val) / 262144, by have h0 : (i 0).val < 8 := (i 0).isLt; have h1 : (i 1).val < 512 := (i 1).isLt; have h2 : (i 2).val < 512 := (i 2).isLt; show (((i 0).val * 512 + (i 1).val) * 512 + (i 2).val) / 262144 < 8; omega⟩
  | ⟨1, _⟩ => ⟨(((i 0).val * 512 + (i 1).val) * 512 + (i 2).val) % 262144, by have h0 : (i 0).val < 8 := (i 0).isLt; have h1 : (i 1).val < 512 := (i 1).isLt; have h2 : (i 2).val < 512 := (i 2).isLt; show (((i 0).val * 512 + (i 1).val) * 512 + (i 2).val) % 262144 < 262144; omega⟩

theorem val_main_v50_apply (x2 : Vec F S8x512x512 .i32) (i : S8x512x512.Idx) :
    val_main_v50 (F := F) x2 i = val_main_v49 (F := F) x2 (idx_main_v50 i) := by
  unfold val_main_v50
  generalize val_main_v49 (F := F) x2 = y
  exact shapeCast_apply y shapeCasts_S8x262144_S8x512x512 i (idx_main_v50 i)
    (by rewrite [Shape.rowMajor_val_two, Shape.rowMajor_val_three]; have h0 : (i 0).val < 8 := (i 0).isLt; have h1 : (i 1).val < 512 := (i 1).isLt; have h2 : (i 2).val < 512 := (i 2).isLt; show (((i 0).val * 512 + (i 1).val) * 512 + (i 2).val) / 262144 * 262144 + (((i 0).val * 512 + (i 1).val) * 512 + (i 2).val) % 262144 = ((i 0).val * 512 + (i 1).val) * 512 + (i 2).val; omega)

def val_main_v51 (x2 : Vec F S8x512x512 .i32) : Vec F S8x512x512 .i1 :=
  shapeCast _ (val_main_v5 (F := F) x2) shapeCasts_S8x262144_S8x512x512

abbrev idx_main_v51 (i : S8x512x512.Idx) : S8x262144.Idx := fun a => match a with
  | ⟨0, _⟩ => ⟨(((i 0).val * 512 + (i 1).val) * 512 + (i 2).val) / 262144, by have h0 : (i 0).val < 8 := (i 0).isLt; have h1 : (i 1).val < 512 := (i 1).isLt; have h2 : (i 2).val < 512 := (i 2).isLt; show (((i 0).val * 512 + (i 1).val) * 512 + (i 2).val) / 262144 < 8; omega⟩
  | ⟨1, _⟩ => ⟨(((i 0).val * 512 + (i 1).val) * 512 + (i 2).val) % 262144, by have h0 : (i 0).val < 8 := (i 0).isLt; have h1 : (i 1).val < 512 := (i 1).isLt; have h2 : (i 2).val < 512 := (i 2).isLt; show (((i 0).val * 512 + (i 1).val) * 512 + (i 2).val) % 262144 < 262144; omega⟩

theorem val_main_v51_apply (x2 : Vec F S8x512x512 .i32) (i : S8x512x512.Idx) :
    val_main_v51 (F := F) x2 i = val_main_v5 (F := F) x2 (idx_main_v51 i) := by
  unfold val_main_v51
  generalize val_main_v5 (F := F) x2 = y
  exact shapeCast_apply y shapeCasts_S8x262144_S8x512x512 i (idx_main_v51 i)
    (by rewrite [Shape.rowMajor_val_two, Shape.rowMajor_val_three]; have h0 : (i 0).val < 8 := (i 0).isLt; have h1 : (i 1).val < 512 := (i 1).isLt; have h2 : (i 2).val < 512 := (i 2).isLt; show (((i 0).val * 512 + (i 1).val) * 512 + (i 2).val) / 262144 * 262144 + (((i 0).val * 512 + (i 1).val) * 512 + (i 2).val) % 262144 = ((i 0).val * 512 + (i 1).val) * 512 + (i 2).val; omega)

def val_main_cst_15 : Vec F S_ .f32 :=
  constant S_ .f32 0x00000000#32

theorem val_main_cst_15_apply (i : S_.Idx) :
    val_main_cst_15 (F := F) i = FloatOps.ofBits .f32 0x00000000#32 := rfl

def val_main_call5_v0 : Vec F S_ .f32 :=
  id (val_main_cst_15 (F := F))

theorem val_main_call5_v0_apply (i : S_.Idx) :
    val_main_call5_v0 (F := F) i = (val_main_cst_15 (F := F) i) := rfl

def val_main_call5_v1 : Vec F S8x512x512 .f32 :=
  broadcastInDim S8x512x512 ![] bcast_S_S8x512x512 (val_main_call5_v0 (F := F))

abbrev idx_main_call5_v1 (i : S8x512x512.Idx) : S_.Idx := fun a => a.elim0

theorem val_main_call5_v1_apply (i : S8x512x512.Idx) :
    val_main_call5_v1 (F := F) i = val_main_call5_v0 (F := F) (idx_main_call5_v1 i) := by
  unfold val_main_call5_v1
  generalize val_main_call5_v0 (F := F) = y
  exact broadcastInDim_apply _ bcast_S_S8x512x512 y i (idx_main_call5_v1 i) (fun a => a.elim0)

def val_main_v52 (x2 : Vec F S8x512x512 .i32) : Vec F S8x512x512 .f32 :=
  select (val_main_v51 (F := F) x2) (val_main_v50 (F := F) x2) (val_main_call5_v1 (F := F))

theorem val_main_v52_apply (x2 : Vec F S8x512x512 .i32) (i : S8x512x512.Idx) :
    val_main_v52 (F := F) x2 i = Scalar.select (val_main_v51 (F := F) x2 i) (val_main_v50 (F := F) x2 i) (val_main_call5_v1 (F := F) i) := rfl

def val_main_v53 (x0 : Vec F S8x19x512x512 .f32) (x2 : Vec F S8x512x512 .i32) : Vec F S8x512x512 .f32 :=
  mulf (val_main_v52 (F := F) x2) (val_main_v47 (F := F) x0 x2)

def val_main_cst_16 : Vec F S_ .f32 :=
  constant S_ .f32 0x00000000#32

def val_main_v54 (x0 : Vec F S8x19x512x512 .f32) (x2 : Vec F S8x512x512 .i32) : Vec F S8 .f32 :=
  Host.reduceAdd (val_main_v53 (F := F) x0 x2) (val_main_cst_16 (F := F)) reducesTo_S8x512x512_S8_d1_2 h_S_

def val_main_v55 (x0 : Vec F S8x19x512x512 .f32) (x2 : Vec F S8x512x512 .i32) : Vec F S8 .f32 :=
  Host.negf (val_main_v54 (F := F) x0 x2)

theorem val_main_v55_apply (x0 : Vec F S8x19x512x512 .f32) (x2 : Vec F S8x512x512 .i32) (i : S8.Idx) :
    val_main_v55 (F := F) x0 x2 i = FloatOps.hostNegf (val_main_v54 (F := F) x0 x2 i) := rfl

def val_main_cst_17 : Vec F S_ .f32 :=
  constant S_ .f32 0x00000000#32

def val_main_v56 (x2 : Vec F S8x512x512 .i32) : Vec F S8 .f32 :=
  Host.reduceAdd (val_main_v52 (F := F) x2) (val_main_cst_17 (F := F)) reducesTo_S8x512x512_S8_d1_2 h_S_

def val_main_cst_18 : Vec F S_ .f32 :=
  constant S_ .f32 0x2B8CBCCC#32

theorem val_main_cst_18_apply (i : S_.Idx) :
    val_main_cst_18 (F := F) i = FloatOps.ofBits .f32 0x2B8CBCCC#32 := rfl

def val_main_v57 : Vec F S8 .f32 :=
  broadcastInDim S8 ![] bcast_S_S8 (val_main_cst_18 (F := F))

abbrev idx_main_v57 (i : S8.Idx) : S_.Idx := fun a => a.elim0

theorem val_main_v57_apply (i : S8.Idx) :
    val_main_v57 (F := F) i = val_main_cst_18 (F := F) (idx_main_v57 i) := by
  unfold val_main_v57
  generalize val_main_cst_18 (F := F) = y
  exact broadcastInDim_apply _ bcast_S_S8 y i (idx_main_v57 i) (fun a => a.elim0)

def val_main_v58 (x2 : Vec F S8x512x512 .i32) : Vec F S8 .f32 :=
  maximumf (val_main_v56 (F := F) x2) (val_main_v57 (F := F))

theorem val_main_v58_apply (x2 : Vec F S8x512x512 .i32) (i : S8.Idx) :
    val_main_v58 (F := F) x2 i = FloatOps.maximumf (val_main_v56 (F := F) x2 i) (val_main_v57 (F := F) i) := rfl

def val_main_v59 (x0 : Vec F S8x19x512x512 .f32) (x2 : Vec F S8x512x512 .i32) : Vec F S8 .f32 :=
  Host.divf (val_main_v55 (F := F) x0 x2) (val_main_v58 (F := F) x2)

theorem val_main_v59_apply (x0 : Vec F S8x19x512x512 .f32) (x2 : Vec F S8x512x512 .i32) (i : S8.Idx) :
    val_main_v59 (F := F) x0 x2 i = FloatOps.hostDivf (val_main_v55 (F := F) x0 x2 i) (val_main_v58 (F := F) x2 i) := rfl

def val_main_cst_19 : Vec F S_ .f32 :=
  constant S_ .f32 0x00000000#32

def val_main_v60 (x0 : Vec F S8x19x512x512 .f32) (x2 : Vec F S8x512x512 .i32) : Vec F S_ .f32 :=
  Host.reduceAdd (val_main_v59 (F := F) x0 x2) (val_main_cst_19 (F := F)) reducesTo_S8_S_d0 h_S_

theorem val_main_v60_apply (x0 : (⟨S8x19x512x512, .f32⟩ : BufTy).Contents (Elt Ideal)) (x2 : (⟨S8x512x512, .i32⟩ : BufTy).Contents (Elt Ideal)) (i : S_.Idx) :
    val_main_v60 (F := Ideal) x0 x2 i = (val_main_cst_19 (F := Ideal)) (Shape.Idx.first h_S_) + ∑ j : S8.Idx, (val_main_v59 (F := Ideal) x0 x2) j := by
  unfold val_main_v60
  generalize val_main_v59 (F := Ideal) x0 x2 = y0
  simp only [Host.reduceAdd, Ideal.hostReduceAdd_def]
  exact Ideal.hostReduceAdd_total reducesTo_S8_S_d0 (fun b => b.elim0) y0 _ i

def val_main_cst_20 : Vec F S_ .f32 :=
  constant S_ .f32 0x3F800000#32

theorem val_main_cst_20_apply (i : S_.Idx) :
    val_main_cst_20 (F := F) i = FloatOps.ofBits .f32 0x3F800000#32 := rfl

def val_main_v61 (x0 : Vec F S8x19x512x512 .f32) (x2 : Vec F S8x512x512 .i32) : Vec F S_ .f32 :=
  mulf (val_main_cst_20 (F := F)) (val_main_v60 (F := F) x0 x2)

theorem val_main_v61_apply (x0 : Vec F S8x19x512x512 .f32) (x2 : Vec F S8x512x512 .i32) (i : S_.Idx) :
    val_main_v61 (F := F) x0 x2 i = FloatOps.mulf (val_main_cst_20 (F := F) i) (val_main_v60 (F := F) x0 x2 i) := rfl

def val_main_v62 (x1 : Vec F S8x1x512x512 .f32) : Vec F S2097152 .f32 :=
  shapeCast _ (x1) shapeCasts_S8x1x512x512_S2097152

abbrev idx_main_v62 (i : S2097152.Idx) : S8x1x512x512.Idx := fun a => match a with
  | ⟨0, _⟩ => ⟨((i 0).val) / 262144, by have h0 : (i 0).val < 2097152 := (i 0).isLt; show ((i 0).val) / 262144 < 8; omega⟩
  | ⟨1, _⟩ => ⟨0, Nat.one_pos⟩
  | ⟨2, _⟩ => ⟨((i 0).val) / 512 % 512, by have h0 : (i 0).val < 2097152 := (i 0).isLt; show ((i 0).val) / 512 % 512 < 512; omega⟩
  | ⟨3, _⟩ => ⟨((i 0).val) % 512, by have h0 : (i 0).val < 2097152 := (i 0).isLt; show ((i 0).val) % 512 < 512; omega⟩

theorem val_main_v62_apply (x1 : Vec F S8x1x512x512 .f32) (i : S2097152.Idx) :
    val_main_v62 (F := F) x1 i = x1 (idx_main_v62 i) := by
  unfold val_main_v62
  exact shapeCast_apply x1 shapeCasts_S8x1x512x512_S2097152 i (idx_main_v62 i)
    (by rewrite [Shape.rowMajor_val_four, Shape.rowMajor_val_one]; have h0 : (i 0).val < 2097152 := (i 0).isLt; show ((((i 0).val) / 262144 * 1 + 0) * 512 + ((i 0).val) / 512 % 512) * 512 + ((i 0).val) % 512 = (i 0).val; omega)

def val_main_v63 (x3 : Vec F S8x1x512x512 .i32) : Vec F S2097152 .i32 :=
  shapeCast _ (x3) shapeCasts_S8x1x512x512_S2097152

abbrev idx_main_v63 (i : S2097152.Idx) : S8x1x512x512.Idx := fun a => match a with
  | ⟨0, _⟩ => ⟨((i 0).val) / 262144, by have h0 : (i 0).val < 2097152 := (i 0).isLt; show ((i 0).val) / 262144 < 8; omega⟩
  | ⟨1, _⟩ => ⟨0, Nat.one_pos⟩
  | ⟨2, _⟩ => ⟨((i 0).val) / 512 % 512, by have h0 : (i 0).val < 2097152 := (i 0).isLt; show ((i 0).val) / 512 % 512 < 512; omega⟩
  | ⟨3, _⟩ => ⟨((i 0).val) % 512, by have h0 : (i 0).val < 2097152 := (i 0).isLt; show ((i 0).val) % 512 < 512; omega⟩

theorem val_main_v63_apply (x3 : Vec F S8x1x512x512 .i32) (i : S2097152.Idx) :
    val_main_v63 (F := F) x3 i = x3 (idx_main_v63 i) := by
  unfold val_main_v63
  exact shapeCast_apply x3 shapeCasts_S8x1x512x512_S2097152 i (idx_main_v63 i)
    (by rewrite [Shape.rowMajor_val_four, Shape.rowMajor_val_one]; have h0 : (i 0).val < 2097152 := (i 0).isLt; show ((((i 0).val) / 262144 * 1 + 0) * 512 + ((i 0).val) / 512 % 512) * 512 + ((i 0).val) % 512 = (i 0).val; omega)

def val_main_v64 (x3 : Vec F S8x1x512x512 .i32) : Vec F S2097152 .f32 :=
  sitofp (F := F) .f32 (val_main_v63 (F := F) x3)

theorem val_main_v64_apply (x3 : Vec F S8x1x512x512 .i32) (i : S2097152.Idx) :
    val_main_v64 (F := F) x3 i = FloatOps.sitofp (F := F) .f32 (val_main_v63 (F := F) x3 i) := rfl

def val_main_cst_21 : Vec F S_ .f32 :=
  constant S_ .f32 0x3F800000#32

theorem val_main_cst_21_apply (i : S_.Idx) :
    val_main_cst_21 (F := F) i = FloatOps.ofBits .f32 0x3F800000#32 := rfl

def val_main_v65 : Vec F S2097152 .f32 :=
  broadcastInDim S2097152 ![] bcast_S_S2097152 (val_main_cst_21 (F := F))

abbrev idx_main_v65 (i : S2097152.Idx) : S_.Idx := fun a => a.elim0

theorem val_main_v65_apply (i : S2097152.Idx) :
    val_main_v65 (F := F) i = val_main_cst_21 (F := F) (idx_main_v65 i) := by
  unfold val_main_v65
  generalize val_main_cst_21 (F := F) = y
  exact broadcastInDim_apply _ bcast_S_S2097152 y i (idx_main_v65 i) (fun a => a.elim0)

def val_main_v66 (x3 : Vec F S8x1x512x512 .i32) : Vec F S2097152 .i1 :=
  cmpf (F := F) .oeq (val_main_v64 (F := F) x3) (val_main_v65 (F := F))

theorem val_main_v66_apply (x3 : Vec F S8x1x512x512 .i32) (i : S2097152.Idx) :
    val_main_v66 (F := F) x3 i = FloatOps.cmpf (F := F) .oeq (val_main_v64 (F := F) x3 i) (val_main_v65 (F := F) i) := rfl

def val_main_cst_22 : Vec F S_ .f32 :=
  constant S_ .f32 0x00000000#32

theorem val_main_cst_22_apply (i : S_.Idx) :
    val_main_cst_22 (F := F) i = FloatOps.ofBits .f32 0x00000000#32 := rfl

def val_main_v67 : Vec F S2097152 .f32 :=
  broadcastInDim S2097152 ![] bcast_S_S2097152 (val_main_cst_22 (F := F))

abbrev idx_main_v67 (i : S2097152.Idx) : S_.Idx := fun a => a.elim0

theorem val_main_v67_apply (i : S2097152.Idx) :
    val_main_v67 (F := F) i = val_main_cst_22 (F := F) (idx_main_v67 i) := by
  unfold val_main_v67
  generalize val_main_cst_22 (F := F) = y
  exact broadcastInDim_apply _ bcast_S_S2097152 y i (idx_main_v67 i) (fun a => a.elim0)

def val_main_v68 (x3 : Vec F S8x1x512x512 .i32) : Vec F S2097152 .i1 :=
  cmpf (F := F) .oeq (val_main_v64 (F := F) x3) (val_main_v67 (F := F))

theorem val_main_v68_apply (x3 : Vec F S8x1x512x512 .i32) (i : S2097152.Idx) :
    val_main_v68 (F := F) x3 i = FloatOps.cmpf (F := F) .oeq (val_main_v64 (F := F) x3 i) (val_main_v67 (F := F) i) := rfl

def val_main_v69 (x3 : Vec F S8x1x512x512 .i32) : Vec F S2097152 .i32 :=
  extui 32 (val_main_v66 (F := F) x3) natLt_1_32

def val_main_c_23 : Vec F S_ .i32 :=
  constantI S_ 32 0#32

def val_main_v70 (x3 : Vec F S8x1x512x512 .i32) : Vec F S_ .i32 :=
  Host.reduce IntOp.addi (val_main_v69 (F := F) x3) (val_main_c_23 (F := F)) reducesTo_S2097152_S_d0 h_S_

def val_main_v71 (x3 : Vec F S8x1x512x512 .i32) : Vec F S_ .f32 :=
  sitofp (F := F) .f32 (val_main_v70 (F := F) x3)

theorem val_main_v71_apply (x3 : Vec F S8x1x512x512 .i32) (i : S_.Idx) :
    val_main_v71 (F := F) x3 i = FloatOps.sitofp (F := F) .f32 (val_main_v70 (F := F) x3 i) := rfl

def val_main_v72 (x3 : Vec F S8x1x512x512 .i32) : Vec F S2097152 .i32 :=
  extui 32 (val_main_v68 (F := F) x3) natLt_1_32

def val_main_c_24 : Vec F S_ .i32 :=
  constantI S_ 32 0#32

def val_main_v73 (x3 : Vec F S8x1x512x512 .i32) : Vec F S_ .i32 :=
  Host.reduce IntOp.addi (val_main_v72 (F := F) x3) (val_main_c_24 (F := F)) reducesTo_S2097152_S_d0 h_S_

def val_main_v74 (x3 : Vec F S8x1x512x512 .i32) : Vec F S_ .f32 :=
  sitofp (F := F) .f32 (val_main_v73 (F := F) x3)

theorem val_main_v74_apply (x3 : Vec F S8x1x512x512 .i32) (i : S_.Idx) :
    val_main_v74 (F := F) x3 i = FloatOps.sitofp (F := F) .f32 (val_main_v73 (F := F) x3 i) := rfl

def val_main_v75 (x3 : Vec F S8x1x512x512 .i32) : Vec F S_ .f32 :=
  addf (val_main_v71 (F := F) x3) (val_main_v74 (F := F) x3)

theorem val_main_v75_apply (x3 : Vec F S8x1x512x512 .i32) (i : S_.Idx) :
    val_main_v75 (F := F) x3 i = FloatOps.addf (val_main_v71 (F := F) x3 i) (val_main_v74 (F := F) x3 i) := rfl

def val_main_cst_25 : Vec F S_ .f32 :=
  constant S_ .f32 0x3F800000#32

theorem val_main_cst_25_apply (i : S_.Idx) :
    val_main_cst_25 (F := F) i = FloatOps.ofBits .f32 0x3F800000#32 := rfl

def val_main_v76 (x3 : Vec F S8x1x512x512 .i32) : Vec F S_ .f32 :=
  maximumf (val_main_v75 (F := F) x3) (val_main_cst_25 (F := F))

theorem val_main_v76_apply (x3 : Vec F S8x1x512x512 .i32) (i : S_.Idx) :
    val_main_v76 (F := F) x3 i = FloatOps.maximumf (val_main_v75 (F := F) x3 i) (val_main_cst_25 (F := F) i) := rfl

def val_main_v77 (x3 : Vec F S8x1x512x512 .i32) : Vec F S_ .f32 :=
  Host.divf (val_main_v74 (F := F) x3) (val_main_v76 (F := F) x3)

theorem val_main_v77_apply (x3 : Vec F S8x1x512x512 .i32) (i : S_.Idx) :
    val_main_v77 (F := F) x3 i = FloatOps.hostDivf (val_main_v74 (F := F) x3 i) (val_main_v76 (F := F) x3 i) := rfl

def val_main_cst_26 : Vec F S_ .f32 :=
  constant S_ .f32 0x00000000#32

theorem val_main_cst_26_apply (i : S_.Idx) :
    val_main_cst_26 (F := F) i = FloatOps.ofBits .f32 0x00000000#32 := rfl

def val_main_call6_v0 : Vec F S_ .f32 :=
  id (val_main_cst_26 (F := F))

theorem val_main_call6_v0_apply (i : S_.Idx) :
    val_main_call6_v0 (F := F) i = (val_main_cst_26 (F := F) i) := rfl

def val_main_call6_v1 (x3 : Vec F S8x1x512x512 .i32) : Vec F S2097152 .f32 :=
  broadcastInDim S2097152 ![] bcast_S_S2097152 (val_main_v77 (F := F) x3)

abbrev idx_main_call6_v1 (i : S2097152.Idx) : S_.Idx := fun a => a.elim0

theorem val_main_call6_v1_apply (x3 : Vec F S8x1x512x512 .i32) (i : S2097152.Idx) :
    val_main_call6_v1 (F := F) x3 i = val_main_v77 (F := F) x3 (idx_main_call6_v1 i) := by
  unfold val_main_call6_v1
  generalize val_main_v77 (F := F) x3 = y
  exact broadcastInDim_apply _ bcast_S_S2097152 y i (idx_main_call6_v1 i) (fun a => a.elim0)

def val_main_call6_v2 : Vec F S2097152 .f32 :=
  broadcastInDim S2097152 ![] bcast_S_S2097152 (val_main_call6_v0 (F := F))

abbrev idx_main_call6_v2 (i : S2097152.Idx) : S_.Idx := fun a => a.elim0

theorem val_main_call6_v2_apply (i : S2097152.Idx) :
    val_main_call6_v2 (F := F) i = val_main_call6_v0 (F := F) (idx_main_call6_v2 i) := by
  unfold val_main_call6_v2
  generalize val_main_call6_v0 (F := F) = y
  exact broadcastInDim_apply _ bcast_S_S2097152 y i (idx_main_call6_v2 i) (fun a => a.elim0)

def val_main_v78 (x3 : Vec F S8x1x512x512 .i32) : Vec F S2097152 .f32 :=
  select (val_main_v66 (F := F) x3) (val_main_call6_v1 (F := F) x3) (val_main_call6_v2 (F := F))

theorem val_main_v78_apply (x3 : Vec F S8x1x512x512 .i32) (i : S2097152.Idx) :
    val_main_v78 (F := F) x3 i = Scalar.select (val_main_v66 (F := F) x3 i) (val_main_call6_v1 (F := F) x3 i) (val_main_call6_v2 (F := F) i) := rfl

def val_main_v79 (x3 : Vec F S8x1x512x512 .i32) : Vec F S_ .f32 :=
  Host.divf (val_main_v71 (F := F) x3) (val_main_v76 (F := F) x3)

theorem val_main_v79_apply (x3 : Vec F S8x1x512x512 .i32) (i : S_.Idx) :
    val_main_v79 (F := F) x3 i = FloatOps.hostDivf (val_main_v71 (F := F) x3 i) (val_main_v76 (F := F) x3 i) := rfl

def val_main_cst_27 : Vec F S_ .f32 :=
  constant S_ .f32 0x00000000#32

theorem val_main_cst_27_apply (i : S_.Idx) :
    val_main_cst_27 (F := F) i = FloatOps.ofBits .f32 0x00000000#32 := rfl

def val_main_call7_v0 : Vec F S_ .f32 :=
  id (val_main_cst_27 (F := F))

theorem val_main_call7_v0_apply (i : S_.Idx) :
    val_main_call7_v0 (F := F) i = (val_main_cst_27 (F := F) i) := rfl

def val_main_call7_v1 (x3 : Vec F S8x1x512x512 .i32) : Vec F S2097152 .f32 :=
  broadcastInDim S2097152 ![] bcast_S_S2097152 (val_main_v79 (F := F) x3)

abbrev idx_main_call7_v1 (i : S2097152.Idx) : S_.Idx := fun a => a.elim0

theorem val_main_call7_v1_apply (x3 : Vec F S8x1x512x512 .i32) (i : S2097152.Idx) :
    val_main_call7_v1 (F := F) x3 i = val_main_v79 (F := F) x3 (idx_main_call7_v1 i) := by
  unfold val_main_call7_v1
  generalize val_main_v79 (F := F) x3 = y
  exact broadcastInDim_apply _ bcast_S_S2097152 y i (idx_main_call7_v1 i) (fun a => a.elim0)

def val_main_call7_v2 : Vec F S2097152 .f32 :=
  broadcastInDim S2097152 ![] bcast_S_S2097152 (val_main_call7_v0 (F := F))

abbrev idx_main_call7_v2 (i : S2097152.Idx) : S_.Idx := fun a => a.elim0

theorem val_main_call7_v2_apply (i : S2097152.Idx) :
    val_main_call7_v2 (F := F) i = val_main_call7_v0 (F := F) (idx_main_call7_v2 i) := by
  unfold val_main_call7_v2
  generalize val_main_call7_v0 (F := F) = y
  exact broadcastInDim_apply _ bcast_S_S2097152 y i (idx_main_call7_v2 i) (fun a => a.elim0)

def val_main_v80 (x3 : Vec F S8x1x512x512 .i32) : Vec F S2097152 .f32 :=
  select (val_main_v68 (F := F) x3) (val_main_call7_v1 (F := F) x3) (val_main_call7_v2 (F := F))

theorem val_main_v80_apply (x3 : Vec F S8x1x512x512 .i32) (i : S2097152.Idx) :
    val_main_v80 (F := F) x3 i = Scalar.select (val_main_v68 (F := F) x3 i) (val_main_call7_v1 (F := F) x3 i) (val_main_call7_v2 (F := F) i) := rfl

def val_main_v81 (x3 : Vec F S8x1x512x512 .i32) : Vec F S2097152 .f32 :=
  addf (val_main_v78 (F := F) x3) (val_main_v80 (F := F) x3)

theorem val_main_v81_apply (x3 : Vec F S8x1x512x512 .i32) (i : S2097152.Idx) :
    val_main_v81 (F := F) x3 i = FloatOps.addf (val_main_v78 (F := F) x3 i) (val_main_v80 (F := F) x3 i) := rfl

def val_main_cst_28 : Vec F S_ .f32 :=
  constant S_ .f32 0x00000000#32

theorem val_main_cst_28_apply (i : S_.Idx) :
    val_main_cst_28 (F := F) i = FloatOps.ofBits .f32 0x00000000#32 := rfl

def val_main_v82 : Vec F S2097152 .f32 :=
  broadcastInDim S2097152 ![] bcast_S_S2097152 (val_main_cst_28 (F := F))

abbrev idx_main_v82 (i : S2097152.Idx) : S_.Idx := fun a => a.elim0

theorem val_main_v82_apply (i : S2097152.Idx) :
    val_main_v82 (F := F) i = val_main_cst_28 (F := F) (idx_main_v82 i) := by
  unfold val_main_v82
  generalize val_main_cst_28 (F := F) = y
  exact broadcastInDim_apply _ bcast_S_S2097152 y i (idx_main_v82 i) (fun a => a.elim0)

def val_main_v83 (x1 : Vec F S8x1x512x512 .f32) : Vec F S2097152 .f32 :=
  maximumf (val_main_v62 (F := F) x1) (val_main_v82 (F := F))

theorem val_main_v83_apply (x1 : Vec F S8x1x512x512 .f32) (i : S2097152.Idx) :
    val_main_v83 (F := F) x1 i = FloatOps.maximumf (val_main_v62 (F := F) x1 i) (val_main_v82 (F := F) i) := rfl

def val_main_v84 (x1 : Vec F S8x1x512x512 .f32) (x3 : Vec F S8x1x512x512 .i32) : Vec F S2097152 .f32 :=
  mulf (val_main_v62 (F := F) x1) (val_main_v64 (F := F) x3)

theorem val_main_v84_apply (x1 : Vec F S8x1x512x512 .f32) (x3 : Vec F S8x1x512x512 .i32) (i : S2097152.Idx) :
    val_main_v84 (F := F) x1 x3 i = FloatOps.mulf (val_main_v62 (F := F) x1 i) (val_main_v64 (F := F) x3 i) := rfl

def val_main_v85 (x1 : Vec F S8x1x512x512 .f32) (x3 : Vec F S8x1x512x512 .i32) : Vec F S2097152 .f32 :=
  subf (val_main_v83 (F := F) x1) (val_main_v84 (F := F) x1 x3)

theorem val_main_v85_apply (x1 : Vec F S8x1x512x512 .f32) (x3 : Vec F S8x1x512x512 .i32) (i : S2097152.Idx) :
    val_main_v85 (F := F) x1 x3 i = FloatOps.subf (val_main_v83 (F := F) x1 i) (val_main_v84 (F := F) x1 x3 i) := rfl

def val_main_v86 (x1 : Vec F S8x1x512x512 .f32) : Vec F S2097152 .f32 :=
  Host.absf (val_main_v62 (F := F) x1)

theorem val_main_v86_apply (x1 : Vec F S8x1x512x512 .f32) (i : S2097152.Idx) :
    val_main_v86 (F := F) x1 i = FloatOps.hostAbsf (val_main_v62 (F := F) x1 i) := rfl

def val_main_v87 (x1 : Vec F S8x1x512x512 .f32) : Vec F S2097152 .f32 :=
  Host.negf (val_main_v86 (F := F) x1)

theorem val_main_v87_apply (x1 : Vec F S8x1x512x512 .f32) (i : S2097152.Idx) :
    val_main_v87 (F := F) x1 i = FloatOps.hostNegf (val_main_v86 (F := F) x1 i) := rfl

def val_main_v88 (x1 : Vec F S8x1x512x512 .f32) : Vec F S2097152 .f32 :=
  Host.exp (val_main_v87 (F := F) x1)

theorem val_main_v88_apply (x1 : Vec F S8x1x512x512 .f32) (i : S2097152.Idx) :
    val_main_v88 (F := F) x1 i = FloatOps.hostUnary .exp (val_main_v87 (F := F) x1 i) := rfl

def val_main_v89 (x1 : Vec F S8x1x512x512 .f32) : Vec F S2097152 .f32 :=
  Host.log1p (val_main_v88 (F := F) x1)

theorem val_main_v89_apply (x1 : Vec F S8x1x512x512 .f32) (i : S2097152.Idx) :
    val_main_v89 (F := F) x1 i = FloatOps.hostUnary .log1p (val_main_v88 (F := F) x1 i) := rfl

def val_main_v90 (x1 : Vec F S8x1x512x512 .f32) (x3 : Vec F S8x1x512x512 .i32) : Vec F S2097152 .f32 :=
  addf (val_main_v85 (F := F) x1 x3) (val_main_v89 (F := F) x1)

theorem val_main_v90_apply (x1 : Vec F S8x1x512x512 .f32) (x3 : Vec F S8x1x512x512 .i32) (i : S2097152.Idx) :
    val_main_v90 (F := F) x1 x3 i = FloatOps.addf (val_main_v85 (F := F) x1 x3 i) (val_main_v89 (F := F) x1 i) := rfl

def val_main_v91 (x1 : Vec F S8x1x512x512 .f32) (x3 : Vec F S8x1x512x512 .i32) : Vec F S2097152 .f32 :=
  mulf (val_main_v81 (F := F) x3) (val_main_v90 (F := F) x1 x3)

theorem val_main_v91_apply (x1 : Vec F S8x1x512x512 .f32) (x3 : Vec F S8x1x512x512 .i32) (i : S2097152.Idx) :
    val_main_v91 (F := F) x1 x3 i = FloatOps.mulf (val_main_v81 (F := F) x3 i) (val_main_v90 (F := F) x1 x3 i) := rfl

def val_main_cst_29 : Vec F S_ .f32 :=
  constant S_ .f32 0x00000000#32

theorem val_main_cst_29_apply (i : S_.Idx) :
    val_main_cst_29 (F := F) i = FloatOps.ofBits .f32 0x00000000#32 := rfl

def val_main_v92 (x1 : Vec F S8x1x512x512 .f32) (x3 : Vec F S8x1x512x512 .i32) : Vec F S_ .f32 :=
  Host.reduceAdd (val_main_v91 (F := F) x1 x3) (val_main_cst_29 (F := F)) reducesTo_S2097152_S_d0 h_S_

theorem val_main_v92_apply (x1 : (⟨S8x1x512x512, .f32⟩ : BufTy).Contents (Elt Ideal)) (x3 : (⟨S8x1x512x512, .i32⟩ : BufTy).Contents (Elt Ideal)) (i : S_.Idx) :
    val_main_v92 (F := Ideal) x1 x3 i = (val_main_cst_29 (F := Ideal)) (Shape.Idx.first h_S_) + ∑ j : S2097152.Idx, (val_main_v91 (F := Ideal) x1 x3) j := by
  unfold val_main_v92
  generalize val_main_v91 (F := Ideal) x1 x3 = y0
  simp only [Host.reduceAdd, Ideal.hostReduceAdd_def]
  exact Ideal.hostReduceAdd_total reducesTo_S2097152_S_d0 (fun b => b.elim0) y0 _ i

def val_main_cst_30 : Vec F S_ .f32 :=
  constant S_ .f32 0x4A000000#32

theorem val_main_cst_30_apply (i : S_.Idx) :
    val_main_cst_30 (F := F) i = FloatOps.ofBits .f32 0x4A000000#32 := rfl

def val_main_v93 (x1 : Vec F S8x1x512x512 .f32) (x3 : Vec F S8x1x512x512 .i32) : Vec F S_ .f32 :=
  Host.divf (val_main_v92 (F := F) x1 x3) (val_main_cst_30 (F := F))

theorem val_main_v93_apply (x1 : Vec F S8x1x512x512 .f32) (x3 : Vec F S8x1x512x512 .i32) (i : S_.Idx) :
    val_main_v93 (F := F) x1 x3 i = FloatOps.hostDivf (val_main_v92 (F := F) x1 x3 i) (val_main_cst_30 (F := F) i) := rfl

def val_main_cst_31 : Vec F S_ .f32 :=
  constant S_ .f32 0x41A00000#32

theorem val_main_cst_31_apply (i : S_.Idx) :
    val_main_cst_31 (F := F) i = FloatOps.ofBits .f32 0x41A00000#32 := rfl

def val_main_v94 (x1 : Vec F S8x1x512x512 .f32) (x3 : Vec F S8x1x512x512 .i32) : Vec F S_ .f32 :=
  mulf (val_main_cst_31 (F := F)) (val_main_v93 (F := F) x1 x3)

theorem val_main_v94_apply (x1 : Vec F S8x1x512x512 .f32) (x3 : Vec F S8x1x512x512 .i32) (i : S_.Idx) :
    val_main_v94 (F := F) x1 x3 i = FloatOps.mulf (val_main_cst_31 (F := F) i) (val_main_v93 (F := F) x1 x3 i) := rfl

def val_main_cst_32 : Vec F S_ .f32 :=
  constant S_ .f32 0xFF800000#32

def val_main_v95 (x1 : Vec F S8x1x512x512 .f32) : Vec F S8x512x512 .f32 :=
  Host.reduce FloatOps.maximumf (x1) (val_main_cst_32 (F := F)) reducesTo_S8x1x512x512_S8x512x512_d1 h_S_

def val_main_cst_33 : Vec F S_ .f32 :=
  constant S_ .f32 0x3F4CCCCD#32

theorem val_main_cst_33_apply (i : S_.Idx) :
    val_main_cst_33 (F := F) i = FloatOps.ofBits .f32 0x3F4CCCCD#32 := rfl

def val_main_v96 : Vec F S8x512x512 .f32 :=
  broadcastInDim S8x512x512 ![] bcast_S_S8x512x512 (val_main_cst_33 (F := F))

abbrev idx_main_v96 (i : S8x512x512.Idx) : S_.Idx := fun a => a.elim0

theorem val_main_v96_apply (i : S8x512x512.Idx) :
    val_main_v96 (F := F) i = val_main_cst_33 (F := F) (idx_main_v96 i) := by
  unfold val_main_v96
  generalize val_main_cst_33 (F := F) = y
  exact broadcastInDim_apply _ bcast_S_S8x512x512 y i (idx_main_v96 i) (fun a => a.elim0)

def val_main_v97 (x1 : Vec F S8x1x512x512 .f32) : Vec F S8x512x512 .i1 :=
  cmpf (F := F) .ogt (val_main_v95 (F := F) x1) (val_main_v96 (F := F))

theorem val_main_v97_apply (x1 : Vec F S8x1x512x512 .f32) (i : S8x512x512.Idx) :
    val_main_v97 (F := F) x1 i = FloatOps.cmpf (F := F) .ogt (val_main_v95 (F := F) x1 i) (val_main_v96 (F := F) i) := rfl

def val_main_c_34 : Vec F S_ .i32 :=
  constantI S_ 32 255#32

theorem val_main_c_34_apply (i : S_.Idx) :
    val_main_c_34 (F := F) i = 255#32 := rfl

def val_main_call8_v0 : Vec F S_ .i32 :=
  id (val_main_c_34 (F := F))

theorem val_main_call8_v0_apply (i : S_.Idx) :
    val_main_call8_v0 (F := F) i = (val_main_c_34 (F := F) i) := rfl

def val_main_call8_v1 : Vec F S8x512x512 .i32 :=
  broadcastInDim S8x512x512 ![] bcast_S_S8x512x512 (val_main_call8_v0 (F := F))

abbrev idx_main_call8_v1 (i : S8x512x512.Idx) : S_.Idx := fun a => a.elim0

theorem val_main_call8_v1_apply (i : S8x512x512.Idx) :
    val_main_call8_v1 (F := F) i = val_main_call8_v0 (F := F) (idx_main_call8_v1 i) := by
  unfold val_main_call8_v1
  generalize val_main_call8_v0 (F := F) = y
  exact broadcastInDim_apply _ bcast_S_S8x512x512 y i (idx_main_call8_v1 i) (fun a => a.elim0)

def val_main_v98 (x1 : Vec F S8x1x512x512 .f32) (x2 : Vec F S8x512x512 .i32) : Vec F S8x512x512 .i32 :=
  select (val_main_v97 (F := F) x1) (x2) (val_main_call8_v1 (F := F))

theorem val_main_v98_apply (x1 : Vec F S8x1x512x512 .f32) (x2 : Vec F S8x512x512 .i32) (i : S8x512x512.Idx) :
    val_main_v98 (F := F) x1 x2 i = Scalar.select (val_main_v97 (F := F) x1 i) (x2 i) (val_main_call8_v1 (F := F) i) := rfl

def val_main_v99 (x1 : Vec F S8x1x512x512 .f32) (x2 : Vec F S8x512x512 .i32) : Vec F S8x262144 .i32 :=
  shapeCast _ (val_main_v98 (F := F) x1 x2) shapeCasts_S8x512x512_S8x262144

def val_main_c_35 : Vec F S_ .i32 :=
  constantI S_ 32 0#32

def val_main_v100 : Vec F S8x262144 .i32 :=
  broadcastInDim S8x262144 ![] bcast_S_S8x262144 (val_main_c_35 (F := F))

def val_main_v101 (x1 : Vec F S8x1x512x512 .f32) (x2 : Vec F S8x512x512 .i32) : Vec F S8x262144 .i1 :=
  cmpi .sge (val_main_v99 (F := F) x1 x2) (val_main_v100 (F := F))

def val_main_c_36 : Vec F S_ .i32 :=
  constantI S_ 32 19#32

def val_main_v102 : Vec F S8x262144 .i32 :=
  broadcastInDim S8x262144 ![] bcast_S_S8x262144 (val_main_c_36 (F := F))

def val_main_v103 (x1 : Vec F S8x1x512x512 .f32) (x2 : Vec F S8x512x512 .i32) : Vec F S8x262144 .i1 :=
  cmpi .slt (val_main_v99 (F := F) x1 x2) (val_main_v102 (F := F))

def val_main_v104 (x1 : Vec F S8x1x512x512 .f32) (x2 : Vec F S8x512x512 .i32) : Vec F S8x262144 .i1 :=
  andi (val_main_v101 (F := F) x1 x2) (val_main_v103 (F := F) x1 x2)

def val_main_c_37 : Vec F S_ .i32 :=
  constantI S_ 32 19#32

def val_main_call9_v0 : Vec F S_ .i32 :=
  id (val_main_c_37 (F := F))

def val_main_call9_v1 : Vec F S8x262144 .i32 :=
  broadcastInDim S8x262144 ![] bcast_S_S8x262144 (val_main_call9_v0 (F := F))

def val_main_v105 (x1 : Vec F S8x1x512x512 .f32) (x2 : Vec F S8x512x512 .i32) : Vec F S8x262144 .i32 :=
  select (val_main_v104 (F := F) x1 x2) (val_main_v99 (F := F) x1 x2) (val_main_call9_v1 (F := F))

def val_main_cst_38 : Vec F S_ .f32 :=
  constant S_ .f32 0x00000000#32

def val_main_v106 : Vec F S8x20 .f32 :=
  broadcastInDim S8x20 ![] bcast_S_S8x20 (val_main_cst_38 (F := F))

def val_main_v107 : Vec F S8 .i32 :=
  iotaInDim S8 32 0

def val_main_v108 : Vec F S8x1 .i32 :=
  broadcastInDim S8x1 ![0] bcast_S8_S8x1_0 (val_main_v107 (F := F))

def val_main_c_39 : Vec F S_ .i32 :=
  constantI S_ 32 0#32

def val_main_v109 : Vec F S8x1 .i32 :=
  broadcastInDim S8x1 ![] bcast_S_S8x1 (val_main_c_39 (F := F))

def val_main_v110 : Vec F S8x1 .i1 :=
  cmpi .slt (val_main_v108 (F := F)) (val_main_v109 (F := F))

def val_main_c_40 : Vec F S_ .i32 :=
  constantI S_ 32 8#32

def val_main_v111 : Vec F S8x1 .i32 :=
  broadcastInDim S8x1 ![] bcast_S_S8x1 (val_main_c_40 (F := F))

def val_main_v112 : Vec F S8x1 .i32 :=
  addi (val_main_v108 (F := F)) (val_main_v111 (F := F))

def val_main_v113 : Vec F S8x1 .i32 :=
  select (val_main_v110 (F := F)) (val_main_v112 (F := F)) (val_main_v108 (F := F))

def val_main_c_41 : Vec F S_ .i32 :=
  constantI S_ 32 0#32

def val_main_v114 : Vec F S8x262144 .i32 :=
  broadcastInDim S8x262144 ![] bcast_S_S8x262144 (val_main_c_41 (F := F))

def val_main_v115 (x1 : Vec F S8x1x512x512 .f32) (x2 : Vec F S8x512x512 .i32) : Vec F S8x262144 .i1 :=
  cmpi .slt (val_main_v105 (F := F) x1 x2) (val_main_v114 (F := F))

def val_main_c_42 : Vec F S_ .i32 :=
  constantI S_ 32 20#32

def val_main_v116 : Vec F S8x262144 .i32 :=
  broadcastInDim S8x262144 ![] bcast_S_S8x262144 (val_main_c_42 (F := F))

def val_main_v117 (x1 : Vec F S8x1x512x512 .f32) (x2 : Vec F S8x512x512 .i32) : Vec F S8x262144 .i32 :=
  addi (val_main_v105 (F := F) x1 x2) (val_main_v116 (F := F))

def val_main_v118 (x1 : Vec F S8x1x512x512 .f32) (x2 : Vec F S8x512x512 .i32) : Vec F S8x262144 .i32 :=
  select (val_main_v115 (F := F) x1 x2) (val_main_v117 (F := F) x1 x2) (val_main_v105 (F := F) x1 x2)

def val_main_v119 : Vec F S8x262144 .i32 :=
  broadcastInDim S8x262144 ![0, 1] bcast_S8x1_S8x262144_0_1 (val_main_v113 (F := F))

def val_main_v120 : Vec F S8x262144x1 .i32 :=
  broadcastInDim S8x262144x1 ![0, 1] bcast_S8x262144_S8x262144x1_0_1 (val_main_v119 (F := F))

def val_main_v121 (x1 : Vec F S8x1x512x512 .f32) (x2 : Vec F S8x512x512 .i32) : Vec F S8x262144x1 .i32 :=
  broadcastInDim S8x262144x1 ![0, 1] bcast_S8x262144_S8x262144x1_0_1 (val_main_v118 (F := F) x1 x2)

def val_main_v122 (x1 : Vec F S8x1x512x512 .f32) (x2 : Vec F S8x512x512 .i32) : Vec F S8x262144x2 .i32 :=
  concatenate S8x262144x2 2 [⟨S8x262144x1, (val_main_v120 (F := F))⟩, ⟨S8x262144x1, (val_main_v121 (F := F) x1 x2)⟩] concatenates_S8x262144x1_S8x262144x1_S8x262144x2_d2

def val_main_cst_43 : Vec F S_ .f32 :=
  constant S_ .f32 0x3F800000#32

def val_main_v123 : Vec F S8x262144 .f32 :=
  broadcastInDim S8x262144 ![] bcast_S_S8x262144 (val_main_cst_43 (F := F))

def val_main_v124 (x1 : Vec F S8x1x512x512 .f32) (x2 : Vec F S8x512x512 .i32) : Vec F S8x20 .f32 :=
  Host.scatterAdd scatter_S8x20_S8x262144x2_S8x262144_n_01_01_2 (val_main_v106 (F := F)) (val_main_v122 (F := F) x1 x2) (val_main_v123 (F := F))

def val_main_v125 (x1 : Vec F S8x1x512x512 .f32) (x2 : Vec F S8x512x512 .i32) : Vec F S8x19 .f32 :=
  extractStridedSlice S8x19 ![0, 0] (val_main_v124 (F := F) x1 x2) slices_S8x20_S8x19_0_0

def val_main_cst_44 : Vec F S_ .f32 :=
  constant S_ .f32 0x00000000#32

def val_main_v126 (x1 : Vec F S8x1x512x512 .f32) (x2 : Vec F S8x512x512 .i32) : Vec F S8 .f32 :=
  Host.reduceAdd (val_main_v125 (F := F) x1 x2) (val_main_cst_44 (F := F)) reducesTo_S8x19_S8_d1 h_S_

def val_main_v127 (x1 : Vec F S8x1x512x512 .f32) (x2 : Vec F S8x512x512 .i32) : Vec F S8x1 .f32 :=
  broadcastInDim S8x1 ![0] bcast_S8_S8x1_0 (val_main_v126 (F := F) x1 x2)

def val_main_cst_45 : Vec F S_ .f32 :=
  constant S_ .f32 0x3F800000#32

def val_main_v128 : Vec F S8x1 .f32 :=
  broadcastInDim S8x1 ![] bcast_S_S8x1 (val_main_cst_45 (F := F))

def val_main_v129 (x1 : Vec F S8x1x512x512 .f32) (x2 : Vec F S8x512x512 .i32) : Vec F S8x1 .f32 :=
  maximumf (val_main_v127 (F := F) x1 x2) (val_main_v128 (F := F))

def val_main_v130 (x1 : Vec F S8x1x512x512 .f32) (x2 : Vec F S8x512x512 .i32) : Vec F S8x19 .f32 :=
  broadcastInDim S8x19 ![0, 1] bcast_S8x1_S8x19_0_1 (val_main_v129 (F := F) x1 x2)

def val_main_v131 (x1 : Vec F S8x1x512x512 .f32) (x2 : Vec F S8x512x512 .i32) : Vec F S8x19 .f32 :=
  Host.divf (val_main_v125 (F := F) x1 x2) (val_main_v130 (F := F) x1 x2)

def val_main_cst_46 : Vec F S_ .f32 :=
  constant S_ .f32 0x00000000#32

def val_main_v132 : Vec F S8x19 .f32 :=
  broadcastInDim S8x19 ![] bcast_S_S8x19 (val_main_cst_46 (F := F))

def val_main_v133 (x1 : Vec F S8x1x512x512 .f32) (x2 : Vec F S8x512x512 .i32) : Vec F S8x19 .i1 :=
  cmpf (F := F) .ogt (val_main_v125 (F := F) x1 x2) (val_main_v132 (F := F))

def val_main_v134 (x1 : Vec F S8x1x512x512 .f32) (x2 : Vec F S8x512x512 .i32) : Vec F S8x19 .f32 :=
  uitofp (F := F) .f32 (val_main_v133 (F := F) x1 x2)

def val_main_cst_47 : Vec F S_ .f32 :=
  constant S_ .f32 0x3F800000#32

def val_main_v135 : Vec F S8x19 .f32 :=
  broadcastInDim S8x19 ![] bcast_S_S8x19 (val_main_cst_47 (F := F))

def val_main_v136 (x1 : Vec F S8x1x512x512 .f32) (x2 : Vec F S8x512x512 .i32) : Vec F S8x19 .f32 :=
  mulf (val_main_v134 (F := F) x1 x2) (val_main_v135 (F := F))

def val_main_cst_48 : Vec F S_ .f32 :=
  constant S_ .f32 0x3F800000#32

def val_main_v137 : Vec F S8x19 .f32 :=
  broadcastInDim S8x19 ![] bcast_S_S8x19 (val_main_cst_48 (F := F))

def val_main_v138 (x1 : Vec F S8x1x512x512 .f32) (x2 : Vec F S8x512x512 .i32) : Vec F S8x19 .f32 :=
  subf (val_main_v137 (F := F)) (val_main_v131 (F := F) x1 x2)

def val_main_v139 (x1 : Vec F S8x1x512x512 .f32) (x2 : Vec F S8x512x512 .i32) : Vec F S8x19 .f32 :=
  mulf (val_main_v136 (F := F) x1 x2) (val_main_v138 (F := F) x1 x2)

def val_main_cst_49 : Vec F S_ .f32 :=
  constant S_ .f32 0x3F800000#32

def val_main_v140 : Vec F S8x19 .f32 :=
  broadcastInDim S8x19 ![] bcast_S_S8x19 (val_main_cst_49 (F := F))

def val_main_v141 (x1 : Vec F S8x1x512x512 .f32) (x2 : Vec F S8x512x512 .i32) : Vec F S8x19 .f32 :=
  addf (val_main_v139 (F := F) x1 x2) (val_main_v140 (F := F))

def val_main_call10_cst : Vec F S_ .f32 :=
  constant S_ .f32 0xFF800000#32

def val_main_call10_v0 (x0 : Vec F S8x19x512x512 .f32) : Vec F S8x512x512 .f32 :=
  Host.reduce FloatOps.maximumf (x0) (val_main_call10_cst (F := F)) reducesTo_S8x19x512x512_S8x512x512_d1 h_S_

def val_main_call10_cst_0 : Vec F S_ .f32 :=
  constant S_ .f32 0xFF800000#32

def val_main_call10_v1 : Vec F S8x512x512 .f32 :=
  broadcastInDim S8x512x512 ![] bcast_S_S8x512x512 (val_main_call10_cst_0 (F := F))

def val_main_call10_v2 (x0 : Vec F S8x19x512x512 .f32) : Vec F S8x512x512 .f32 :=
  maximumf (val_main_call10_v1 (F := F)) (val_main_call10_v0 (F := F) x0)

def val_main_call10_v3 (x0 : Vec F S8x19x512x512 .f32) : Vec F S8x1x512x512 .f32 :=
  broadcastInDim S8x1x512x512 ![0, 2, 3] bcast_S8x512x512_S8x1x512x512_0_2_3 (val_main_call10_v2 (F := F) x0)

def val_main_call10_v4 (x0 : Vec F S8x19x512x512 .f32) : Vec F S8x19x512x512 .f32 :=
  broadcastInDim S8x19x512x512 ![0, 1, 2, 3] bcast_S8x1x512x512_S8x19x512x512_0_1_2_3 (val_main_call10_v3 (F := F) x0)

def val_main_call10_v5 (x0 : Vec F S8x19x512x512 .f32) : Vec F S8x19x512x512 .f32 :=
  subf (x0) (val_main_call10_v4 (F := F) x0)

def val_main_call10_v6 (x0 : Vec F S8x19x512x512 .f32) : Vec F S8x19x512x512 .f32 :=
  Host.exp (val_main_call10_v5 (F := F) x0)

def val_main_call10_cst_1 : Vec F S_ .f32 :=
  constant S_ .f32 0x00000000#32

def val_main_call10_v7 (x0 : Vec F S8x19x512x512 .f32) : Vec F S8x512x512 .f32 :=
  Host.reduceAdd (val_main_call10_v6 (F := F) x0) (val_main_call10_cst_1 (F := F)) reducesTo_S8x19x512x512_S8x512x512_d1 h_S_

def val_main_call10_v8 (x0 : Vec F S8x19x512x512 .f32) : Vec F S8x1x512x512 .f32 :=
  broadcastInDim S8x1x512x512 ![0, 2, 3] bcast_S8x512x512_S8x1x512x512_0_2_3 (val_main_call10_v7 (F := F) x0)

def val_main_call10_v9 (x0 : Vec F S8x19x512x512 .f32) : Vec F S8x1x512x512 .f32 :=
  Host.log (val_main_call10_v8 (F := F) x0)

def val_main_call10_v10 (x0 : Vec F S8x19x512x512 .f32) : Vec F S8x19x512x512 .f32 :=
  broadcastInDim S8x19x512x512 ![0, 1, 2, 3] bcast_S8x1x512x512_S8x19x512x512_0_1_2_3 (val_main_call10_v9 (F := F) x0)

def val_main_v142 (x0 : Vec F S8x19x512x512 .f32) : Vec F S8x19x512x512 .f32 :=
  subf (val_main_call10_v5 (F := F) x0) (val_main_call10_v10 (F := F) x0)

def val_main_c_50 : Vec F S_ .i32 :=
  constantI S_ 32 0#32

def val_main_c_51 : Vec F S_ .i32 :=
  constantI S_ 32 18#32

def val_main_call11_v0 : Vec F S_ .i32 :=
  id (val_main_c_50 (F := F))

def val_main_call11_v1 : Vec F S8x512x512 .i32 :=
  broadcastInDim S8x512x512 ![] bcast_S_S8x512x512 (val_main_call11_v0 (F := F))

def val_main_call11_v2 (x1 : Vec F S8x1x512x512 .f32) (x2 : Vec F S8x512x512 .i32) : Vec F S8x512x512 .i32 :=
  maxsi (val_main_call11_v1 (F := F)) (val_main_v98 (F := F) x1 x2)

def val_main_call11_v3 : Vec F S_ .i32 :=
  id (val_main_c_51 (F := F))

def val_main_call11_v4 : Vec F S8x512x512 .i32 :=
  broadcastInDim S8x512x512 ![] bcast_S_S8x512x512 (val_main_call11_v3 (F := F))

def val_main_v143 (x1 : Vec F S8x1x512x512 .f32) (x2 : Vec F S8x512x512 .i32) : Vec F S8x512x512 .i32 :=
  minsi (val_main_call11_v4 (F := F)) (val_main_call11_v2 (F := F) x1 x2)

def val_main_v144 (x1 : Vec F S8x1x512x512 .f32) (x2 : Vec F S8x512x512 .i32) : Vec F S8x1x512x512 .i32 :=
  broadcastInDim S8x1x512x512 ![0, 2, 3] bcast_S8x512x512_S8x1x512x512_0_2_3 (val_main_v143 (F := F) x1 x2)

def val_main_call12_c : Vec F S_ .i32 :=
  constantI S_ 32 0#32

def val_main_call12_v0 : Vec F S8x1x512x512 .i32 :=
  broadcastInDim S8x1x512x512 ![] bcast_S_S8x1x512x512 (val_main_call12_c (F := F))

def val_main_call12_v1 (x1 : Vec F S8x1x512x512 .f32) (x2 : Vec F S8x512x512 .i32) : Vec F S8x1x512x512 .i1 :=
  cmpi .slt (val_main_v144 (F := F) x1 x2) (val_main_call12_v0 (F := F))

def val_main_call12_c_0 : Vec F S_ .i32 :=
  constantI S_ 32 19#32

def val_main_call12_v2 : Vec F S8x1x512x512 .i32 :=
  broadcastInDim S8x1x512x512 ![] bcast_S_S8x1x512x512 (val_main_call12_c_0 (F := F))

def val_main_call12_v3 (x1 : Vec F S8x1x512x512 .f32) (x2 : Vec F S8x512x512 .i32) : Vec F S8x1x512x512 .i32 :=
  addi (val_main_v144 (F := F) x1 x2) (val_main_call12_v2 (F := F))

def val_main_call12_v4 (x1 : Vec F S8x1x512x512 .f32) (x2 : Vec F S8x512x512 .i32) : Vec F S8x1x512x512 .i32 :=
  select (val_main_call12_v1 (F := F) x1 x2) (val_main_call12_v3 (F := F) x1 x2) (val_main_v144 (F := F) x1 x2)

def val_main_call12_v5 (x1 : Vec F S8x1x512x512 .f32) (x2 : Vec F S8x512x512 .i32) : Vec F S8x1x512x512x1 .i32 :=
  shapeCast _ (val_main_call12_v4 (F := F) x1 x2) shapeCasts_S8x1x512x512_S8x1x512x512x1

def val_main_call12_c_1 : Vec F S1 .i32 :=
  constantI S1 32 18#32

def val_main_call12_c_2 : Vec F S_ .i32 :=
  constantI S_ 32 0#32

def val_main_call12_v6 : Vec F S8x1x512x512x1 .i32 :=
  broadcastInDim S8x1x512x512x1 ![] bcast_S_S8x1x512x512x1 (val_main_call12_c_2 (F := F))

def val_main_call12_v7 (x1 : Vec F S8x1x512x512 .f32) (x2 : Vec F S8x512x512 .i32) : Vec F S8x1x512x512x1 .i1 :=
  cmpi .sge (val_main_call12_v5 (F := F) x1 x2) (val_main_call12_v6 (F := F))

def val_main_call12_v8 : Vec F S1x1x1x1x1 .i32 :=
  broadcastInDim S1x1x1x1x1 ![4] bcast_S1_S1x1x1x1x1_4 (val_main_call12_c_1 (F := F))

def val_main_call12_v9 : Vec F S8x1x512x512x1 .i32 :=
  broadcastInDim S8x1x512x512x1 ![0, 1, 2, 3, 4] bcast_S1x1x1x1x1_S8x1x512x512x1_0_1_2_3_4 (val_main_call12_v8 (F := F))

def val_main_call12_v10 (x1 : Vec F S8x1x512x512 .f32) (x2 : Vec F S8x512x512 .i32) : Vec F S8x1x512x512x1 .i1 :=
  cmpi .sle (val_main_call12_v5 (F := F) x1 x2) (val_main_call12_v9 (F := F))

def val_main_call12_v11 (x1 : Vec F S8x1x512x512 .f32) (x2 : Vec F S8x512x512 .i32) : Vec F S8x1x512x512x1 .i1 :=
  andi (val_main_call12_v7 (F := F) x1 x2) (val_main_call12_v10 (F := F) x1 x2)

def val_main_call12_c_3 : Vec F S_ .i1 :=
  constantI S_ 1 1#1

def val_main_call12_v12 (x1 : Vec F S8x1x512x512 .f32) (x2 : Vec F S8x512x512 .i32) : Vec F S8x1x512x512 .i1 :=
  Host.reduce IntOp.andi (val_main_call12_v11 (F := F) x1 x2) (val_main_call12_c_3 (F := F)) reducesTo_S8x1x512x512x1_S8x1x512x512_d4 h_S_

def val_main_call12_v13 (x0 : Vec F S8x19x512x512 .f32) (x1 : Vec F S8x1x512x512 .f32) (x2 : Vec F S8x512x512 .i32) : Vec F S8x1x512x512 .f32 :=
  Host.gather gather_S8x19x512x512_S8x1x512x512x1_S8x1x512x512_n_1_023_023_1_4_1111 (val_main_v142 (F := F) x0) (val_main_call12_v5 (F := F) x1 x2)

def val_main_call12_cst : Vec F S_ .f32 :=
  constant S_ .f32 0x7FC00000#32

def val_main_call12_v14 : Vec F S8x1x512x512 .f32 :=
  broadcastInDim S8x1x512x512 ![] bcast_S_S8x1x512x512 (val_main_call12_cst (F := F))

def val_main_v145 (x0 : Vec F S8x19x512x512 .f32) (x1 : Vec F S8x1x512x512 .f32) (x2 : Vec F S8x512x512 .i32) : Vec F S8x1x512x512 .f32 :=
  select (val_main_call12_v12 (F := F) x1 x2) (val_main_call12_v13 (F := F) x0 x1 x2) (val_main_call12_v14 (F := F))

def val_main_v146 (x0 : Vec F S8x19x512x512 .f32) (x1 : Vec F S8x1x512x512 .f32) (x2 : Vec F S8x512x512 .i32) : Vec F S8x512x512 .f32 :=
  shapeCast _ (val_main_v145 (F := F) x0 x1 x2) shapeCasts_S8x1x512x512_S8x512x512

def val_main_v147 (x1 : Vec F S8x1x512x512 .f32) (x2 : Vec F S8x512x512 .i32) : Vec F S8x262144 .i32 :=
  shapeCast _ (val_main_v143 (F := F) x1 x2) shapeCasts_S8x512x512_S8x262144

def val_main_call13_c : Vec F S_ .i32 :=
  constantI S_ 32 0#32

def val_main_call13_v0 : Vec F S8x262144 .i32 :=
  broadcastInDim S8x262144 ![] bcast_S_S8x262144 (val_main_call13_c (F := F))

def val_main_call13_v1 (x1 : Vec F S8x1x512x512 .f32) (x2 : Vec F S8x512x512 .i32) : Vec F S8x262144 .i1 :=
  cmpi .slt (val_main_v147 (F := F) x1 x2) (val_main_call13_v0 (F := F))

def val_main_call13_c_0 : Vec F S_ .i32 :=
  constantI S_ 32 19#32

def val_main_call13_v2 : Vec F S8x262144 .i32 :=
  broadcastInDim S8x262144 ![] bcast_S_S8x262144 (val_main_call13_c_0 (F := F))

def val_main_call13_v3 (x1 : Vec F S8x1x512x512 .f32) (x2 : Vec F S8x512x512 .i32) : Vec F S8x262144 .i32 :=
  addi (val_main_v147 (F := F) x1 x2) (val_main_call13_v2 (F := F))

def val_main_call13_v4 (x1 : Vec F S8x1x512x512 .f32) (x2 : Vec F S8x512x512 .i32) : Vec F S8x262144 .i32 :=
  select (val_main_call13_v1 (F := F) x1 x2) (val_main_call13_v3 (F := F) x1 x2) (val_main_v147 (F := F) x1 x2)

def val_main_call13_v5 (x1 : Vec F S8x1x512x512 .f32) (x2 : Vec F S8x512x512 .i32) : Vec F S8x262144x1 .i32 :=
  shapeCast _ (val_main_call13_v4 (F := F) x1 x2) shapeCasts_S8x262144_S8x262144x1

def val_main_call13_c_1 : Vec F S1 .i32 :=
  constantI S1 32 18#32

def val_main_call13_c_2 : Vec F S_ .i32 :=
  constantI S_ 32 0#32

def val_main_call13_v6 : Vec F S8x262144x1 .i32 :=
  broadcastInDim S8x262144x1 ![] bcast_S_S8x262144x1 (val_main_call13_c_2 (F := F))

def val_main_call13_v7 (x1 : Vec F S8x1x512x512 .f32) (x2 : Vec F S8x512x512 .i32) : Vec F S8x262144x1 .i1 :=
  cmpi .sge (val_main_call13_v5 (F := F) x1 x2) (val_main_call13_v6 (F := F))

def val_main_call13_v8 : Vec F S1x1x1 .i32 :=
  broadcastInDim S1x1x1 ![2] bcast_S1_S1x1x1_2 (val_main_call13_c_1 (F := F))

def val_main_call13_v9 : Vec F S8x262144x1 .i32 :=
  broadcastInDim S8x262144x1 ![0, 1, 2] bcast_S1x1x1_S8x262144x1_0_1_2 (val_main_call13_v8 (F := F))

def val_main_call13_v10 (x1 : Vec F S8x1x512x512 .f32) (x2 : Vec F S8x512x512 .i32) : Vec F S8x262144x1 .i1 :=
  cmpi .sle (val_main_call13_v5 (F := F) x1 x2) (val_main_call13_v9 (F := F))

def val_main_call13_v11 (x1 : Vec F S8x1x512x512 .f32) (x2 : Vec F S8x512x512 .i32) : Vec F S8x262144x1 .i1 :=
  andi (val_main_call13_v7 (F := F) x1 x2) (val_main_call13_v10 (F := F) x1 x2)

def val_main_call13_c_3 : Vec F S_ .i1 :=
  constantI S_ 1 1#1

def val_main_call13_v12 (x1 : Vec F S8x1x512x512 .f32) (x2 : Vec F S8x512x512 .i32) : Vec F S8x262144 .i1 :=
  Host.reduce IntOp.andi (val_main_call13_v11 (F := F) x1 x2) (val_main_call13_c_3 (F := F)) reducesTo_S8x262144x1_S8x262144_d2 h_S_

def val_main_call13_v13 (x1 : Vec F S8x1x512x512 .f32) (x2 : Vec F S8x512x512 .i32) : Vec F S8x262144 .f32 :=
  Host.gather gather_S8x19_S8x262144x1_S8x262144_n_1_0_0_1_2_11 (val_main_v141 (F := F) x1 x2) (val_main_call13_v5 (F := F) x1 x2)

def val_main_call13_cst : Vec F S_ .f32 :=
  constant S_ .f32 0x7FC00000#32

def val_main_call13_v14 : Vec F S8x262144 .f32 :=
  broadcastInDim S8x262144 ![] bcast_S_S8x262144 (val_main_call13_cst (F := F))

def val_main_v148 (x1 : Vec F S8x1x512x512 .f32) (x2 : Vec F S8x512x512 .i32) : Vec F S8x262144 .f32 :=
  select (val_main_call13_v12 (F := F) x1 x2) (val_main_call13_v13 (F := F) x1 x2) (val_main_call13_v14 (F := F))

def val_main_v149 (x1 : Vec F S8x1x512x512 .f32) (x2 : Vec F S8x512x512 .i32) : Vec F S8x512x512 .f32 :=
  shapeCast _ (val_main_v148 (F := F) x1 x2) shapeCasts_S8x262144_S8x512x512

def val_main_v150 (x1 : Vec F S8x1x512x512 .f32) (x2 : Vec F S8x512x512 .i32) : Vec F S8x512x512 .i1 :=
  shapeCast _ (val_main_v104 (F := F) x1 x2) shapeCasts_S8x262144_S8x512x512

def val_main_cst_52 : Vec F S_ .f32 :=
  constant S_ .f32 0x00000000#32

def val_main_call14_v0 : Vec F S_ .f32 :=
  id (val_main_cst_52 (F := F))

def val_main_call14_v1 : Vec F S8x512x512 .f32 :=
  broadcastInDim S8x512x512 ![] bcast_S_S8x512x512 (val_main_call14_v0 (F := F))

def val_main_v151 (x1 : Vec F S8x1x512x512 .f32) (x2 : Vec F S8x512x512 .i32) : Vec F S8x512x512 .f32 :=
  select (val_main_v150 (F := F) x1 x2) (val_main_v149 (F := F) x1 x2) (val_main_call14_v1 (F := F))

def val_main_v152 (x0 : Vec F S8x19x512x512 .f32) (x1 : Vec F S8x1x512x512 .f32) (x2 : Vec F S8x512x512 .i32) : Vec F S8x512x512 .f32 :=
  mulf (val_main_v151 (F := F) x1 x2) (val_main_v146 (F := F) x0 x1 x2)

def val_main_cst_53 : Vec F S_ .f32 :=
  constant S_ .f32 0x00000000#32

def val_main_v153 (x0 : Vec F S8x19x512x512 .f32) (x1 : Vec F S8x1x512x512 .f32) (x2 : Vec F S8x512x512 .i32) : Vec F S8 .f32 :=
  Host.reduceAdd (val_main_v152 (F := F) x0 x1 x2) (val_main_cst_53 (F := F)) reducesTo_S8x512x512_S8_d1_2 h_S_

def val_main_v154 (x0 : Vec F S8x19x512x512 .f32) (x1 : Vec F S8x1x512x512 .f32) (x2 : Vec F S8x512x512 .i32) : Vec F S8 .f32 :=
  Host.negf (val_main_v153 (F := F) x0 x1 x2)

def val_main_cst_54 : Vec F S_ .f32 :=
  constant S_ .f32 0x00000000#32

def val_main_v155 (x1 : Vec F S8x1x512x512 .f32) (x2 : Vec F S8x512x512 .i32) : Vec F S8 .f32 :=
  Host.reduceAdd (val_main_v151 (F := F) x1 x2) (val_main_cst_54 (F := F)) reducesTo_S8x512x512_S8_d1_2 h_S_

def val_main_cst_55 : Vec F S_ .f32 :=
  constant S_ .f32 0x2B8CBCCC#32

def val_main_v156 : Vec F S8 .f32 :=
  broadcastInDim S8 ![] bcast_S_S8 (val_main_cst_55 (F := F))

def val_main_v157 (x1 : Vec F S8x1x512x512 .f32) (x2 : Vec F S8x512x512 .i32) : Vec F S8 .f32 :=
  maximumf (val_main_v155 (F := F) x1 x2) (val_main_v156 (F := F))

def val_main_v158 (x0 : Vec F S8x19x512x512 .f32) (x1 : Vec F S8x1x512x512 .f32) (x2 : Vec F S8x512x512 .i32) : Vec F S8 .f32 :=
  Host.divf (val_main_v154 (F := F) x0 x1 x2) (val_main_v157 (F := F) x1 x2)

def val_main_cst_56 : Vec F S_ .f32 :=
  constant S_ .f32 0x00000000#32

def val_main_v159 (x0 : Vec F S8x19x512x512 .f32) (x1 : Vec F S8x1x512x512 .f32) (x2 : Vec F S8x512x512 .i32) : Vec F S_ .f32 :=
  Host.reduceAdd (val_main_v158 (F := F) x0 x1 x2) (val_main_cst_56 (F := F)) reducesTo_S8_S_d0 h_S_

def val_main_cst_57 : Vec F S_ .f32 :=
  constant S_ .f32 0x3F800000#32

def val_main_v160 (x0 : Vec F S8x19x512x512 .f32) (x1 : Vec F S8x1x512x512 .f32) (x2 : Vec F S8x512x512 .i32) : Vec F S_ .f32 :=
  mulf (val_main_cst_57 (F := F)) (val_main_v159 (F := F) x0 x1 x2)

def val_main_cst_58 : Vec F S_ .f32 :=
  constant S_ .f32 0x00000000#32

theorem val_main_cst_58_apply (i : S_.Idx) :
    val_main_cst_58 (F := F) i = FloatOps.ofBits .f32 0x00000000#32 := rfl

def val_main_v161 (x0 : Vec F S8x19x512x512 .f32) (x2 : Vec F S8x512x512 .i32) : Vec F S1 .f32 :=
  broadcastInDim S1 ![] bcast_S_S1 (val_main_v61 (F := F) x0 x2)

abbrev idx_main_v161 (i : S1.Idx) : S_.Idx := fun a => a.elim0

theorem val_main_v161_apply (x0 : Vec F S8x19x512x512 .f32) (x2 : Vec F S8x512x512 .i32) (i : S1.Idx) :
    val_main_v161 (F := F) x0 x2 i = val_main_v61 (F := F) x0 x2 (idx_main_v161 i) := by
  unfold val_main_v161
  generalize val_main_v61 (F := F) x0 x2 = y
  exact broadcastInDim_apply _ bcast_S_S1 y i (idx_main_v161 i) (fun a => a.elim0)

def val_main_v162 (x1 : Vec F S8x1x512x512 .f32) (x3 : Vec F S8x1x512x512 .i32) : Vec F S1 .f32 :=
  broadcastInDim S1 ![] bcast_S_S1 (val_main_v94 (F := F) x1 x3)

abbrev idx_main_v162 (i : S1.Idx) : S_.Idx := fun a => a.elim0

theorem val_main_v162_apply (x1 : Vec F S8x1x512x512 .f32) (x3 : Vec F S8x1x512x512 .i32) (i : S1.Idx) :
    val_main_v162 (F := F) x1 x3 i = val_main_v94 (F := F) x1 x3 (idx_main_v162 i) := by
  unfold val_main_v162
  generalize val_main_v94 (F := F) x1 x3 = y
  exact broadcastInDim_apply _ bcast_S_S1 y i (idx_main_v162 i) (fun a => a.elim0)

def val_main_v163 (x0 : Vec F S8x19x512x512 .f32) (x1 : Vec F S8x1x512x512 .f32) (x2 : Vec F S8x512x512 .i32) : Vec F S1 .f32 :=
  broadcastInDim S1 ![] bcast_S_S1 (val_main_v160 (F := F) x0 x1 x2)

abbrev idx_main_v163 (i : S1.Idx) : S_.Idx := fun a => a.elim0

theorem val_main_v163_apply (x0 : Vec F S8x19x512x512 .f32) (x1 : Vec F S8x1x512x512 .f32) (x2 : Vec F S8x512x512 .i32) (i : S1.Idx) :
    val_main_v163 (F := F) x0 x1 x2 i = val_main_v160 (F := F) x0 x1 x2 (idx_main_v163 i) := by
  unfold val_main_v163
  generalize val_main_v160 (F := F) x0 x1 x2 = y
  exact broadcastInDim_apply _ bcast_S_S1 y i (idx_main_v163 i) (fun a => a.elim0)

def val_main_v164 : Vec F S1 .f32 :=
  broadcastInDim S1 ![] bcast_S_S1 (val_main_cst_58 (F := F))

abbrev idx_main_v164 (i : S1.Idx) : S_.Idx := fun a => a.elim0

theorem val_main_v164_apply (i : S1.Idx) :
    val_main_v164 (F := F) i = val_main_cst_58 (F := F) (idx_main_v164 i) := by
  unfold val_main_v164
  generalize val_main_cst_58 (F := F) = y
  exact broadcastInDim_apply _ bcast_S_S1 y i (idx_main_v164 i) (fun a => a.elim0)

def val_main_v165 (x0 : Vec F S8x19x512x512 .f32) (x1 : Vec F S8x1x512x512 .f32) (x2 : Vec F S8x512x512 .i32) (x3 : Vec F S8x1x512x512 .i32) : Vec F S4 .f32 :=
  concatenate S4 0 [⟨S1, (val_main_v161 (F := F) x0 x2)⟩, ⟨S1, (val_main_v162 (F := F) x1 x3)⟩, ⟨S1, (val_main_v163 (F := F) x0 x1 x2)⟩, ⟨S1, (val_main_v164 (F := F))⟩] concatenates_S1_S1_S1_S1_S4_d0

end Cert.ReferenceIdeal.Read

end
-- ==== Proof.RefRunStages.lean ====
import proofs.«428925_j42245298323666_3_alg».proof.Proof.RefRunOps
import proofs.«428925_j42245298323666_3_alg».proof.Proof.RefReadCore
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- At a reference typed at its own buffer type, moving contents to the buffer's type and back is the identity. -/
theorem toBuf_tr {Val : EltTy → Type} (r : Ref sig .tc) (h : r.ty = r.ty) (h1 h2) (v : r.ty.Contents Val) :
    (TRef.mk r h h1 h2 : TRef sig r.ty).toBuf v = v := rfl
theorem ofBuf_tr {Val : EltTy → Type} (r : Ref sig .tc) (h : r.ty = r.ty) (h1 h2) (v : r.ty.Contents Val) :
    (TRef.mk r h h1 h2 : TRef sig r.ty).ofBuf v = v := rfl

def st0 : Valuation τ sig (Elt F) := V0
theorem st0_main_arg0 : st0 V0 (no_index (Proc.devRef .tc main_arg0)) = V0 (Proc.devRef .tc main_arg0) := rfl
theorem st0_main_arg1 : st0 V0 (no_index (Proc.devRef .tc main_arg1)) = V0 (Proc.devRef .tc main_arg1) := rfl
theorem st0_main_arg2 : st0 V0 (no_index (Proc.devRef .tc main_arg2)) = V0 (Proc.devRef .tc main_arg2) := rfl
theorem st0_main_arg3 : st0 V0 (no_index (Proc.devRef .tc main_arg3)) = V0 (Proc.devRef .tc main_arg3) := rfl

/-- `stK` is the memory after the first `K` chunks; `stK_<buffer>` reads a buffer still live there as its stage value of the arguments. -/
def st1 : Valuation τ sig (Elt F) := after ops_c0 (st0 V0)

theorem st1_keep (r : Ref sig .tc) (h : r ∉ ops_c0_W) :
    st1 V0 (Proc.devRef .tc r) = st0 V0 (Proc.devRef .tc r) :=
  after_of_writes_sub ops_c0 _ ops_c0_writes h
theorem st1_main_arg0 : st1 V0 (no_index (Proc.devRef .tc main_arg0)) = V0 (Proc.devRef .tc main_arg0) :=
  (st1_keep V0 main_arg0 (by decide)).trans (st0_main_arg0 V0)
theorem st1_main_arg1 : st1 V0 (no_index (Proc.devRef .tc main_arg1)) = V0 (Proc.devRef .tc main_arg1) :=
  (st1_keep V0 main_arg1 (by decide)).trans (st0_main_arg1 V0)
theorem st1_main_arg2 : st1 V0 (no_index (Proc.devRef .tc main_arg2)) = V0 (Proc.devRef .tc main_arg2) :=
  (st1_keep V0 main_arg2 (by decide)).trans (st0_main_arg2 V0)
theorem st1_main_arg3 : st1 V0 (no_index (Proc.devRef .tc main_arg3)) = V0 (Proc.devRef .tc main_arg3) :=
  (st1_keep V0 main_arg3 (by decide)).trans (st0_main_arg3 V0)
set_option maxRecDepth 16384 in
set_option maxHeartbeats 4000000 in
theorem st1_main_v5 : st1 V0 (no_index (Proc.devRef .tc main_v5)) = Read.val_main_v5 (F := F) (V0 (Proc.devRef .tc main_arg2)) := by
  unfold st1
  simp only [ops_c0]
  after_results_simp
  simp only [st0_main_arg2]
  all_goals rfl
set_option maxRecDepth 16384 in
set_option maxHeartbeats 4000000 in
theorem st1_main_v7 : st1 V0 (no_index (Proc.devRef .tc main_v7)) = Read.val_main_v7 (F := F) := by
  unfold st1
  simp only [ops_c0]
  after_results_simp
  all_goals rfl
set_option maxRecDepth 16384 in
set_option maxHeartbeats 4000000 in
theorem st1_main_v21 : st1 V0 (no_index (Proc.devRef .tc main_v21)) = Read.val_main_v21 (F := F) := by
  unfold st1
  simp only [ops_c0]
  after_results_simp
  all_goals rfl
set_option maxRecDepth 16384 in
set_option maxHeartbeats 4000000 in
theorem st1_main_v22 : st1 V0 (no_index (Proc.devRef .tc main_v22)) = Read.val_main_v22 (F := F) (V0 (Proc.devRef .tc main_arg2)) := by
  unfold st1
  simp only [ops_c0]
  after_results_simp
  simp only [st0_main_arg2, toBuf_tr, ofBuf_tr]
  all_goals rfl

def st2 : Valuation τ sig (Elt F) := after ops_c1 (st1 V0)

theorem st2_keep (r : Ref sig .tc) (h : r ∉ ops_c1_W) :
    st2 V0 (Proc.devRef .tc r) = st1 V0 (Proc.devRef .tc r) :=
  after_of_writes_sub ops_c1 _ ops_c1_writes h
theorem st2_main_arg0 : st2 V0 (no_index (Proc.devRef .tc main_arg0)) = V0 (Proc.devRef .tc main_arg0) :=
  (st2_keep V0 main_arg0 (by decide)).trans (st1_main_arg0 V0)
theorem st2_main_arg1 : st2 V0 (no_index (Proc.devRef .tc main_arg1)) = V0 (Proc.devRef .tc main_arg1) :=
  (st2_keep V0 main_arg1 (by decide)).trans (st1_main_arg1 V0)
theorem st2_main_arg2 : st2 V0 (no_index (Proc.devRef .tc main_arg2)) = V0 (Proc.devRef .tc main_arg2) :=
  (st2_keep V0 main_arg2 (by decide)).trans (st1_main_arg2 V0)
theorem st2_main_arg3 : st2 V0 (no_index (Proc.devRef .tc main_arg3)) = V0 (Proc.devRef .tc main_arg3) :=
  (st2_keep V0 main_arg3 (by decide)).trans (st1_main_arg3 V0)
theorem st2_main_v5 : st2 V0 (no_index (Proc.devRef .tc main_v5)) = Read.val_main_v5 (F := F) (V0 (Proc.devRef .tc main_arg2)) :=
  (st2_keep V0 main_v5 (by decide)).trans (st1_main_v5 V0)
set_option maxRecDepth 16384 in
set_option maxHeartbeats 4000000 in
theorem st2_main_v42 : st2 V0 (no_index (Proc.devRef .tc main_v42)) = Read.val_main_v42 (F := F) (V0 (Proc.devRef .tc main_arg2)) := by
  unfold st2
  simp only [ops_c1]
  after_results_simp
  simp only [st1_main_v22, st1_main_v21, st1_main_v7]
  all_goals rfl
set_option maxRecDepth 16384 in
set_option maxHeartbeats 4000000 in
theorem st2_main_v43 : st2 V0 (no_index (Proc.devRef .tc main_v43)) = Read.val_main_v43 (F := F) (V0 (Proc.devRef .tc main_arg0)) := by
  unfold st2
  simp only [ops_c1]
  after_results_simp
  simp only [st1_main_arg0, toBuf_tr, ofBuf_tr]
  all_goals rfl
set_option maxRecDepth 16384 in
set_option maxHeartbeats 4000000 in
theorem st2_main_c_13 : st2 V0 (no_index (Proc.devRef .tc main_c_13)) = Read.val_main_c_13 (F := F) := by
  unfold st2
  simp only [ops_c1]
  after_results_simp
  all_goals rfl

def st3 : Valuation τ sig (Elt F) := after ops_c2 (st2 V0)

theorem st3_keep (r : Ref sig .tc) (h : r ∉ ops_c2_W) :
    st3 V0 (Proc.devRef .tc r) = st2 V0 (Proc.devRef .tc r) :=
  after_of_writes_sub ops_c2 _ ops_c2_writes h
theorem st3_main_arg0 : st3 V0 (no_index (Proc.devRef .tc main_arg0)) = V0 (Proc.devRef .tc main_arg0) :=
  (st3_keep V0 main_arg0 (by decide)).trans (st2_main_arg0 V0)
theorem st3_main_arg1 : st3 V0 (no_index (Proc.devRef .tc main_arg1)) = V0 (Proc.devRef .tc main_arg1) :=
  (st3_keep V0 main_arg1 (by decide)).trans (st2_main_arg1 V0)
theorem st3_main_arg2 : st3 V0 (no_index (Proc.devRef .tc main_arg2)) = V0 (Proc.devRef .tc main_arg2) :=
  (st3_keep V0 main_arg2 (by decide)).trans (st2_main_arg2 V0)
theorem st3_main_arg3 : st3 V0 (no_index (Proc.devRef .tc main_arg3)) = V0 (Proc.devRef .tc main_arg3) :=
  (st3_keep V0 main_arg3 (by decide)).trans (st2_main_arg3 V0)
theorem st3_main_v5 : st3 V0 (no_index (Proc.devRef .tc main_v5)) = Read.val_main_v5 (F := F) (V0 (Proc.devRef .tc main_arg2)) :=
  (st3_keep V0 main_v5 (by decide)).trans (st2_main_v5 V0)
theorem st3_main_v42 : st3 V0 (no_index (Proc.devRef .tc main_v42)) = Read.val_main_v42 (F := F) (V0 (Proc.devRef .tc main_arg2)) :=
  (st3_keep V0 main_v42 (by decide)).trans (st2_main_v42 V0)
set_option maxRecDepth 16384 in
set_option maxHeartbeats 4000000 in
theorem st3_main_v47 : st3 V0 (no_index (Proc.devRef .tc main_v47)) = Read.val_main_v47 (F := F) (V0 (Proc.devRef .tc main_arg0)) (V0 (Proc.devRef .tc main_arg2)) := by
  unfold st3
  simp only [ops_c2]
  after_results_simp
  simp only [st2_main_arg2, st2_main_c_13, st2_main_v43, toBuf_tr, ofBuf_tr]
  all_goals rfl
set_option maxRecDepth 16384 in
set_option maxHeartbeats 4000000 in
theorem st3_main_v48 : st3 V0 (no_index (Proc.devRef .tc main_v48)) = Read.val_main_v48 (F := F) (V0 (Proc.devRef .tc main_arg2)) := by
  unfold st3
  simp only [ops_c2]
  after_results_simp
  simp only [st2_main_arg2, st2_main_c_13, toBuf_tr, ofBuf_tr]
  all_goals rfl
set_option maxRecDepth 16384 in
set_option maxHeartbeats 4000000 in
theorem st3_main_call4_v1 : st3 V0 (no_index (Proc.devRef .tc main_call4_v1)) = Read.val_main_call4_v1 (F := F) (V0 (Proc.devRef .tc main_arg2)) := by
  unfold st3
  simp only [ops_c2]
  after_results_simp
  simp only [st2_main_arg2, st2_main_c_13, toBuf_tr, ofBuf_tr]
  all_goals rfl
set_option maxRecDepth 16384 in
set_option maxHeartbeats 4000000 in
theorem st3_main_call4_v3 : st3 V0 (no_index (Proc.devRef .tc main_call4_v3)) = Read.val_main_call4_v3 (F := F) (V0 (Proc.devRef .tc main_arg2)) := by
  unfold st3
  simp only [ops_c2]
  after_results_simp
  simp only [st2_main_arg2, st2_main_c_13, toBuf_tr, ofBuf_tr]
  all_goals rfl

def st4 : Valuation τ sig (Elt F) := after ops_c3 (st3 V0)

theorem st4_keep (r : Ref sig .tc) (h : r ∉ ops_c3_W) :
    st4 V0 (Proc.devRef .tc r) = st3 V0 (Proc.devRef .tc r) :=
  after_of_writes_sub ops_c3 _ ops_c3_writes h
theorem st4_main_arg0 : st4 V0 (no_index (Proc.devRef .tc main_arg0)) = V0 (Proc.devRef .tc main_arg0) :=
  (st4_keep V0 main_arg0 (by decide)).trans (st3_main_arg0 V0)
theorem st4_main_arg1 : st4 V0 (no_index (Proc.devRef .tc main_arg1)) = V0 (Proc.devRef .tc main_arg1) :=
  (st4_keep V0 main_arg1 (by decide)).trans (st3_main_arg1 V0)
theorem st4_main_arg2 : st4 V0 (no_index (Proc.devRef .tc main_arg2)) = V0 (Proc.devRef .tc main_arg2) :=
  (st4_keep V0 main_arg2 (by decide)).trans (st3_main_arg2 V0)
theorem st4_main_arg3 : st4 V0 (no_index (Proc.devRef .tc main_arg3)) = V0 (Proc.devRef .tc main_arg3) :=
  (st4_keep V0 main_arg3 (by decide)).trans (st3_main_arg3 V0)
set_option maxRecDepth 16384 in
set_option maxHeartbeats 4000000 in
theorem st4_main_v61 : st4 V0 (no_index (Proc.devRef .tc main_v61)) = Read.val_main_v61 (F := F) (V0 (Proc.devRef .tc main_arg0)) (V0 (Proc.devRef .tc main_arg2)) := by
  unfold st4
  simp only [ops_c3]
  after_results_simp
  simp only [st3_main_v48, st3_main_call4_v3, st3_main_call4_v1, st3_main_v42, st3_main_v5, st3_main_v47, toBuf_tr, ofBuf_tr]
  all_goals rfl
set_option maxRecDepth 16384 in
set_option maxHeartbeats 4000000 in
theorem st4_main_v62 : st4 V0 (no_index (Proc.devRef .tc main_v62)) = Read.val_main_v62 (F := F) (V0 (Proc.devRef .tc main_arg1)) := by
  unfold st4
  simp only [ops_c3]
  after_results_simp
  simp only [st3_main_arg1]
  all_goals rfl
set_option maxRecDepth 16384 in
set_option maxHeartbeats 4000000 in
theorem st4_main_v63 : st4 V0 (no_index (Proc.devRef .tc main_v63)) = Read.val_main_v63 (F := F) (V0 (Proc.devRef .tc main_arg3)) := by
  unfold st4
  simp only [ops_c3]
  after_results_simp
  simp only [st3_main_arg3]
  all_goals rfl

def st5 : Valuation τ sig (Elt F) := after ops_c4 (st4 V0)

theorem st5_keep (r : Ref sig .tc) (h : r ∉ ops_c4_W) :
    st5 V0 (Proc.devRef .tc r) = st4 V0 (Proc.devRef .tc r) :=
  after_of_writes_sub ops_c4 _ ops_c4_writes h
theorem st5_main_arg0 : st5 V0 (no_index (Proc.devRef .tc main_arg0)) = V0 (Proc.devRef .tc main_arg0) :=
  (st5_keep V0 main_arg0 (by decide)).trans (st4_main_arg0 V0)
theorem st5_main_arg1 : st5 V0 (no_index (Proc.devRef .tc main_arg1)) = V0 (Proc.devRef .tc main_arg1) :=
  (st5_keep V0 main_arg1 (by decide)).trans (st4_main_arg1 V0)
theorem st5_main_arg2 : st5 V0 (no_index (Proc.devRef .tc main_arg2)) = V0 (Proc.devRef .tc main_arg2) :=
  (st5_keep V0 main_arg2 (by decide)).trans (st4_main_arg2 V0)
theorem st5_main_arg3 : st5 V0 (no_index (Proc.devRef .tc main_arg3)) = V0 (Proc.devRef .tc main_arg3) :=
  (st5_keep V0 main_arg3 (by decide)).trans (st4_main_arg3 V0)
theorem st5_main_v61 : st5 V0 (no_index (Proc.devRef .tc main_v61)) = Read.val_main_v61 (F := F) (V0 (Proc.devRef .tc main_arg0)) (V0 (Proc.devRef .tc main_arg2)) :=
  (st5_keep V0 main_v61 (by decide)).trans (st4_main_v61 V0)
set_option maxRecDepth 16384 in
set_option maxHeartbeats 4000000 in
theorem st5_main_v81 : st5 V0 (no_index (Proc.devRef .tc main_v81)) = Read.val_main_v81 (F := F) (V0 (Proc.devRef .tc main_arg3)) := by
  unfold st5
  simp only [ops_c4]
  after_results_simp
  simp only [st4_main_v63, toBuf_tr, ofBuf_tr]
  all_goals rfl
set_option maxRecDepth 16384 in
set_option maxHeartbeats 4000000 in
theorem st5_main_v85 : st5 V0 (no_index (Proc.devRef .tc main_v85)) = Read.val_main_v85 (F := F) (V0 (Proc.devRef .tc main_arg1)) (V0 (Proc.devRef .tc main_arg3)) := by
  unfold st5
  simp only [ops_c4]
  after_results_simp
  simp only [st4_main_v63, st4_main_v62]
  all_goals rfl
set_option maxRecDepth 16384 in
set_option maxHeartbeats 4000000 in
theorem st5_main_v88 : st5 V0 (no_index (Proc.devRef .tc main_v88)) = Read.val_main_v88 (F := F) (V0 (Proc.devRef .tc main_arg1)) := by
  unfold st5
  simp only [ops_c4]
  after_results_simp
  simp only [st4_main_v62]
  all_goals rfl

def st6 : Valuation τ sig (Elt F) := after ops_c5 (st5 V0)

theorem st6_keep (r : Ref sig .tc) (h : r ∉ ops_c5_W) :
    st6 V0 (Proc.devRef .tc r) = st5 V0 (Proc.devRef .tc r) :=
  after_of_writes_sub ops_c5 _ ops_c5_writes h
theorem st6_main_arg0 : st6 V0 (no_index (Proc.devRef .tc main_arg0)) = V0 (Proc.devRef .tc main_arg0) :=
  (st6_keep V0 main_arg0 (by decide)).trans (st5_main_arg0 V0)
theorem st6_main_arg1 : st6 V0 (no_index (Proc.devRef .tc main_arg1)) = V0 (Proc.devRef .tc main_arg1) :=
  (st6_keep V0 main_arg1 (by decide)).trans (st5_main_arg1 V0)
theorem st6_main_arg2 : st6 V0 (no_index (Proc.devRef .tc main_arg2)) = V0 (Proc.devRef .tc main_arg2) :=
  (st6_keep V0 main_arg2 (by decide)).trans (st5_main_arg2 V0)
theorem st6_main_arg3 : st6 V0 (no_index (Proc.devRef .tc main_arg3)) = V0 (Proc.devRef .tc main_arg3) :=
  (st6_keep V0 main_arg3 (by decide)).trans (st5_main_arg3 V0)
theorem st6_main_v61 : st6 V0 (no_index (Proc.devRef .tc main_v61)) = Read.val_main_v61 (F := F) (V0 (Proc.devRef .tc main_arg0)) (V0 (Proc.devRef .tc main_arg2)) :=
  (st6_keep V0 main_v61 (by decide)).trans (st5_main_v61 V0)
set_option maxRecDepth 16384 in
set_option maxHeartbeats 4000000 in
theorem st6_main_v94 : st6 V0 (no_index (Proc.devRef .tc main_v94)) = Read.val_main_v94 (F := F) (V0 (Proc.devRef .tc main_arg1)) (V0 (Proc.devRef .tc main_arg3)) := by
  unfold st6
  simp only [ops_c5]
  after_results_simp
  simp only [st5_main_v88, st5_main_v85, st5_main_v81]
  all_goals rfl
set_option maxRecDepth 16384 in
set_option maxHeartbeats 4000000 in
theorem st6_main_v98 : st6 V0 (no_index (Proc.devRef .tc main_v98)) = Read.val_main_v98 (F := F) (V0 (Proc.devRef .tc main_arg1)) (V0 (Proc.devRef .tc main_arg2)) := by
  unfold st6
  simp only [ops_c5]
  after_results_simp
  simp only [st5_main_arg2, st5_main_arg1, toBuf_tr, ofBuf_tr]
  all_goals rfl
set_option maxRecDepth 16384 in
set_option maxHeartbeats 4000000 in
theorem st6_main_v99 : st6 V0 (no_index (Proc.devRef .tc main_v99)) = Read.val_main_v99 (F := F) (V0 (Proc.devRef .tc main_arg1)) (V0 (Proc.devRef .tc main_arg2)) := by
  unfold st6
  simp only [ops_c5]
  after_results_simp
  simp only [st5_main_arg2, st5_main_arg1, toBuf_tr, ofBuf_tr]
  all_goals rfl
set_option maxRecDepth 16384 in
set_option maxHeartbeats 4000000 in
theorem st6_main_v101 : st6 V0 (no_index (Proc.devRef .tc main_v101)) = Read.val_main_v101 (F := F) (V0 (Proc.devRef .tc main_arg1)) (V0 (Proc.devRef .tc main_arg2)) := by
  unfold st6
  simp only [ops_c5]
  after_results_simp
  simp only [st5_main_arg2, st5_main_arg1, toBuf_tr, ofBuf_tr]
  all_goals rfl
set_option maxRecDepth 16384 in
set_option maxHeartbeats 4000000 in
theorem st6_main_v103 : st6 V0 (no_index (Proc.devRef .tc main_v103)) = Read.val_main_v103 (F := F) (V0 (Proc.devRef .tc main_arg1)) (V0 (Proc.devRef .tc main_arg2)) := by
  unfold st6
  simp only [ops_c5]
  after_results_simp
  simp only [st5_main_arg2, st5_main_arg1, toBuf_tr, ofBuf_tr]
  all_goals rfl

def st7 : Valuation τ sig (Elt F) := after ops_c6 (st6 V0)

theorem st7_keep (r : Ref sig .tc) (h : r ∉ ops_c6_W) :
    st7 V0 (Proc.devRef .tc r) = st6 V0 (Proc.devRef .tc r) :=
  after_of_writes_sub ops_c6 _ ops_c6_writes h
theorem st7_main_arg0 : st7 V0 (no_index (Proc.devRef .tc main_arg0)) = V0 (Proc.devRef .tc main_arg0) :=
  (st7_keep V0 main_arg0 (by decide)).trans (st6_main_arg0 V0)
theorem st7_main_arg1 : st7 V0 (no_index (Proc.devRef .tc main_arg1)) = V0 (Proc.devRef .tc main_arg1) :=
  (st7_keep V0 main_arg1 (by decide)).trans (st6_main_arg1 V0)
theorem st7_main_arg2 : st7 V0 (no_index (Proc.devRef .tc main_arg2)) = V0 (Proc.devRef .tc main_arg2) :=
  (st7_keep V0 main_arg2 (by decide)).trans (st6_main_arg2 V0)
theorem st7_main_arg3 : st7 V0 (no_index (Proc.devRef .tc main_arg3)) = V0 (Proc.devRef .tc main_arg3) :=
  (st7_keep V0 main_arg3 (by decide)).trans (st6_main_arg3 V0)
theorem st7_main_v61 : st7 V0 (no_index (Proc.devRef .tc main_v61)) = Read.val_main_v61 (F := F) (V0 (Proc.devRef .tc main_arg0)) (V0 (Proc.devRef .tc main_arg2)) :=
  (st7_keep V0 main_v61 (by decide)).trans (st6_main_v61 V0)
theorem st7_main_v94 : st7 V0 (no_index (Proc.devRef .tc main_v94)) = Read.val_main_v94 (F := F) (V0 (Proc.devRef .tc main_arg1)) (V0 (Proc.devRef .tc main_arg3)) :=
  (st7_keep V0 main_v94 (by decide)).trans (st6_main_v94 V0)
theorem st7_main_v98 : st7 V0 (no_index (Proc.devRef .tc main_v98)) = Read.val_main_v98 (F := F) (V0 (Proc.devRef .tc main_arg1)) (V0 (Proc.devRef .tc main_arg2)) :=
  (st7_keep V0 main_v98 (by decide)).trans (st6_main_v98 V0)
set_option maxRecDepth 16384 in
set_option maxHeartbeats 4000000 in
theorem st7_main_v104 : st7 V0 (no_index (Proc.devRef .tc main_v104)) = Read.val_main_v104 (F := F) (V0 (Proc.devRef .tc main_arg1)) (V0 (Proc.devRef .tc main_arg2)) := by
  unfold st7
  simp only [ops_c6]
  after_results_simp
  simp only [st6_main_v103, st6_main_v101]
  all_goals rfl
set_option maxRecDepth 16384 in
set_option maxHeartbeats 4000000 in
theorem st7_main_v106 : st7 V0 (no_index (Proc.devRef .tc main_v106)) = Read.val_main_v106 (F := F) := by
  unfold st7
  simp only [ops_c6]
  after_results_simp
  all_goals rfl
set_option maxRecDepth 16384 in
set_option maxHeartbeats 4000000 in
theorem st7_main_v120 : st7 V0 (no_index (Proc.devRef .tc main_v120)) = Read.val_main_v120 (F := F) := by
  unfold st7
  simp only [ops_c6]
  after_results_simp
  all_goals rfl
set_option maxRecDepth 16384 in
set_option maxHeartbeats 4000000 in
theorem st7_main_v121 : st7 V0 (no_index (Proc.devRef .tc main_v121)) = Read.val_main_v121 (F := F) (V0 (Proc.devRef .tc main_arg1)) (V0 (Proc.devRef .tc main_arg2)) := by
  unfold st7
  simp only [ops_c6]
  after_results_simp
  simp only [st6_main_v99, st6_main_v103, st6_main_v101, toBuf_tr, ofBuf_tr]
  all_goals rfl

def st8 : Valuation τ sig (Elt F) := after ops_c7 (st7 V0)

theorem st8_keep (r : Ref sig .tc) (h : r ∉ ops_c7_W) :
    st8 V0 (Proc.devRef .tc r) = st7 V0 (Proc.devRef .tc r) :=
  after_of_writes_sub ops_c7 _ ops_c7_writes h
theorem st8_main_arg0 : st8 V0 (no_index (Proc.devRef .tc main_arg0)) = V0 (Proc.devRef .tc main_arg0) :=
  (st8_keep V0 main_arg0 (by decide)).trans (st7_main_arg0 V0)
theorem st8_main_arg1 : st8 V0 (no_index (Proc.devRef .tc main_arg1)) = V0 (Proc.devRef .tc main_arg1) :=
  (st8_keep V0 main_arg1 (by decide)).trans (st7_main_arg1 V0)
theorem st8_main_arg2 : st8 V0 (no_index (Proc.devRef .tc main_arg2)) = V0 (Proc.devRef .tc main_arg2) :=
  (st8_keep V0 main_arg2 (by decide)).trans (st7_main_arg2 V0)
theorem st8_main_arg3 : st8 V0 (no_index (Proc.devRef .tc main_arg3)) = V0 (Proc.devRef .tc main_arg3) :=
  (st8_keep V0 main_arg3 (by decide)).trans (st7_main_arg3 V0)
theorem st8_main_v61 : st8 V0 (no_index (Proc.devRef .tc main_v61)) = Read.val_main_v61 (F := F) (V0 (Proc.devRef .tc main_arg0)) (V0 (Proc.devRef .tc main_arg2)) :=
  (st8_keep V0 main_v61 (by decide)).trans (st7_main_v61 V0)
theorem st8_main_v94 : st8 V0 (no_index (Proc.devRef .tc main_v94)) = Read.val_main_v94 (F := F) (V0 (Proc.devRef .tc main_arg1)) (V0 (Proc.devRef .tc main_arg3)) :=
  (st8_keep V0 main_v94 (by decide)).trans (st7_main_v94 V0)
theorem st8_main_v98 : st8 V0 (no_index (Proc.devRef .tc main_v98)) = Read.val_main_v98 (F := F) (V0 (Proc.devRef .tc main_arg1)) (V0 (Proc.devRef .tc main_arg2)) :=
  (st8_keep V0 main_v98 (by decide)).trans (st7_main_v98 V0)
theorem st8_main_v104 : st8 V0 (no_index (Proc.devRef .tc main_v104)) = Read.val_main_v104 (F := F) (V0 (Proc.devRef .tc main_arg1)) (V0 (Proc.devRef .tc main_arg2)) :=
  (st8_keep V0 main_v104 (by decide)).trans (st7_main_v104 V0)
set_option maxRecDepth 16384 in
set_option maxHeartbeats 4000000 in
theorem st8_main_v125 : st8 V0 (no_index (Proc.devRef .tc main_v125)) = Read.val_main_v125 (F := F) (V0 (Proc.devRef .tc main_arg1)) (V0 (Proc.devRef .tc main_arg2)) := by
  unfold st8
  simp only [ops_c7]
  after_results_simp
  simp only [st7_main_v106]
  rw [st7_main_v121, st7_main_v120]
  all_goals rfl
set_option maxRecDepth 16384 in
set_option maxHeartbeats 4000000 in
theorem st8_main_v131 : st8 V0 (no_index (Proc.devRef .tc main_v131)) = Read.val_main_v131 (F := F) (V0 (Proc.devRef .tc main_arg1)) (V0 (Proc.devRef .tc main_arg2)) := by
  unfold st8
  simp only [ops_c7]
  after_results_simp
  simp only [st7_main_v106]
  rw [st7_main_v121, st7_main_v120]
  all_goals rfl

def st9 : Valuation τ sig (Elt F) := after ops_c8 (st8 V0)

theorem st9_keep (r : Ref sig .tc) (h : r ∉ ops_c8_W) :
    st9 V0 (Proc.devRef .tc r) = st8 V0 (Proc.devRef .tc r) :=
  after_of_writes_sub ops_c8 _ ops_c8_writes h
theorem st9_main_arg0 : st9 V0 (no_index (Proc.devRef .tc main_arg0)) = V0 (Proc.devRef .tc main_arg0) :=
  (st9_keep V0 main_arg0 (by decide)).trans (st8_main_arg0 V0)
theorem st9_main_arg1 : st9 V0 (no_index (Proc.devRef .tc main_arg1)) = V0 (Proc.devRef .tc main_arg1) :=
  (st9_keep V0 main_arg1 (by decide)).trans (st8_main_arg1 V0)
theorem st9_main_arg2 : st9 V0 (no_index (Proc.devRef .tc main_arg2)) = V0 (Proc.devRef .tc main_arg2) :=
  (st9_keep V0 main_arg2 (by decide)).trans (st8_main_arg2 V0)
theorem st9_main_arg3 : st9 V0 (no_index (Proc.devRef .tc main_arg3)) = V0 (Proc.devRef .tc main_arg3) :=
  (st9_keep V0 main_arg3 (by decide)).trans (st8_main_arg3 V0)
theorem st9_main_v61 : st9 V0 (no_index (Proc.devRef .tc main_v61)) = Read.val_main_v61 (F := F) (V0 (Proc.devRef .tc main_arg0)) (V0 (Proc.devRef .tc main_arg2)) :=
  (st9_keep V0 main_v61 (by decide)).trans (st8_main_v61 V0)
theorem st9_main_v94 : st9 V0 (no_index (Proc.devRef .tc main_v94)) = Read.val_main_v94 (F := F) (V0 (Proc.devRef .tc main_arg1)) (V0 (Proc.devRef .tc main_arg3)) :=
  (st9_keep V0 main_v94 (by decide)).trans (st8_main_v94 V0)
theorem st9_main_v104 : st9 V0 (no_index (Proc.devRef .tc main_v104)) = Read.val_main_v104 (F := F) (V0 (Proc.devRef .tc main_arg1)) (V0 (Proc.devRef .tc main_arg2)) :=
  (st9_keep V0 main_v104 (by decide)).trans (st8_main_v104 V0)
set_option maxRecDepth 16384 in
set_option maxHeartbeats 4000000 in
theorem st9_main_v141 : st9 V0 (no_index (Proc.devRef .tc main_v141)) = Read.val_main_v141 (F := F) (V0 (Proc.devRef .tc main_arg1)) (V0 (Proc.devRef .tc main_arg2)) := by
  unfold st9
  simp only [ops_c8]
  after_results_simp
  simp only [st8_main_v131, st8_main_v125]
  all_goals rfl
set_option maxRecDepth 16384 in
set_option maxHeartbeats 4000000 in
theorem st9_main_v142 : st9 V0 (no_index (Proc.devRef .tc main_v142)) = Read.val_main_v142 (F := F) (V0 (Proc.devRef .tc main_arg0)) := by
  unfold st9
  simp only [ops_c8]
  after_results_simp
  simp only [st8_main_arg0, toBuf_tr, ofBuf_tr]
  all_goals rfl
set_option maxRecDepth 16384 in
set_option maxHeartbeats 4000000 in
theorem st9_main_call11_v2 : st9 V0 (no_index (Proc.devRef .tc main_call11_v2)) = Read.val_main_call11_v2 (F := F) (V0 (Proc.devRef .tc main_arg1)) (V0 (Proc.devRef .tc main_arg2)) := by
  unfold st9
  simp only [ops_c8]
  after_results_simp
  simp only [st8_main_v98, toBuf_tr, ofBuf_tr]
  all_goals rfl
set_option maxRecDepth 16384 in
set_option maxHeartbeats 4000000 in
theorem st9_main_call11_v4 : st9 V0 (no_index (Proc.devRef .tc main_call11_v4)) = Read.val_main_call11_v4 (F := F) := by
  unfold st9
  simp only [ops_c8]
  after_results_simp
  simp only [toBuf_tr, ofBuf_tr]
  all_goals rfl

def st10 : Valuation τ sig (Elt F) := after ops_c9 (st9 V0)

theorem st10_keep (r : Ref sig .tc) (h : r ∉ ops_c9_W) :
    st10 V0 (Proc.devRef .tc r) = st9 V0 (Proc.devRef .tc r) :=
  after_of_writes_sub ops_c9 _ ops_c9_writes h
theorem st10_main_arg0 : st10 V0 (no_index (Proc.devRef .tc main_arg0)) = V0 (Proc.devRef .tc main_arg0) :=
  (st10_keep V0 main_arg0 (by decide)).trans (st9_main_arg0 V0)
theorem st10_main_arg1 : st10 V0 (no_index (Proc.devRef .tc main_arg1)) = V0 (Proc.devRef .tc main_arg1) :=
  (st10_keep V0 main_arg1 (by decide)).trans (st9_main_arg1 V0)
theorem st10_main_arg2 : st10 V0 (no_index (Proc.devRef .tc main_arg2)) = V0 (Proc.devRef .tc main_arg2) :=
  (st10_keep V0 main_arg2 (by decide)).trans (st9_main_arg2 V0)
theorem st10_main_arg3 : st10 V0 (no_index (Proc.devRef .tc main_arg3)) = V0 (Proc.devRef .tc main_arg3) :=
  (st10_keep V0 main_arg3 (by decide)).trans (st9_main_arg3 V0)
theorem st10_main_v61 : st10 V0 (no_index (Proc.devRef .tc main_v61)) = Read.val_main_v61 (F := F) (V0 (Proc.devRef .tc main_arg0)) (V0 (Proc.devRef .tc main_arg2)) :=
  (st10_keep V0 main_v61 (by decide)).trans (st9_main_v61 V0)
theorem st10_main_v94 : st10 V0 (no_index (Proc.devRef .tc main_v94)) = Read.val_main_v94 (F := F) (V0 (Proc.devRef .tc main_arg1)) (V0 (Proc.devRef .tc main_arg3)) :=
  (st10_keep V0 main_v94 (by decide)).trans (st9_main_v94 V0)
theorem st10_main_v104 : st10 V0 (no_index (Proc.devRef .tc main_v104)) = Read.val_main_v104 (F := F) (V0 (Proc.devRef .tc main_arg1)) (V0 (Proc.devRef .tc main_arg2)) :=
  (st10_keep V0 main_v104 (by decide)).trans (st9_main_v104 V0)
theorem st10_main_v141 : st10 V0 (no_index (Proc.devRef .tc main_v141)) = Read.val_main_v141 (F := F) (V0 (Proc.devRef .tc main_arg1)) (V0 (Proc.devRef .tc main_arg2)) :=
  (st10_keep V0 main_v141 (by decide)).trans (st9_main_v141 V0)
set_option maxRecDepth 16384 in
set_option maxHeartbeats 4000000 in
theorem st10_main_v146 : st10 V0 (no_index (Proc.devRef .tc main_v146)) = Read.val_main_v146 (F := F) (V0 (Proc.devRef .tc main_arg0)) (V0 (Proc.devRef .tc main_arg1)) (V0 (Proc.devRef .tc main_arg2)) := by
  unfold st10
  simp only [ops_c9]
  after_results_simp
  simp only [st9_main_call11_v2, st9_main_call11_v4, st9_main_v142, toBuf_tr, ofBuf_tr]
  all_goals rfl
set_option maxRecDepth 16384 in
set_option maxHeartbeats 4000000 in
theorem st10_main_call13_v5 : st10 V0 (no_index (Proc.devRef .tc main_call13_v5)) = Read.val_main_call13_v5 (F := F) (V0 (Proc.devRef .tc main_arg1)) (V0 (Proc.devRef .tc main_arg2)) := by
  unfold st10
  simp only [ops_c9]
  after_results_simp
  simp only [st9_main_call11_v2, st9_main_call11_v4, toBuf_tr, ofBuf_tr]
  all_goals rfl
set_option maxRecDepth 16384 in
set_option maxHeartbeats 4000000 in
theorem st10_main_call13_c_1 : st10 V0 (no_index (Proc.devRef .tc main_call13_c_1)) = Read.val_main_call13_c_1 (F := F) := by
  unfold st10
  simp only [ops_c9]
  after_results_simp
  simp only [toBuf_tr, ofBuf_tr]
  all_goals rfl
set_option maxRecDepth 16384 in
set_option maxHeartbeats 4000000 in
theorem st10_main_call13_c_2 : st10 V0 (no_index (Proc.devRef .tc main_call13_c_2)) = Read.val_main_call13_c_2 (F := F) := by
  unfold st10
  simp only [ops_c9]
  after_results_simp
  simp only [toBuf_tr, ofBuf_tr]
  all_goals rfl

def st11 : Valuation τ sig (Elt F) := after ops_c10 (st10 V0)

theorem st11_keep (r : Ref sig .tc) (h : r ∉ ops_c10_W) :
    st11 V0 (Proc.devRef .tc r) = st10 V0 (Proc.devRef .tc r) :=
  after_of_writes_sub ops_c10 _ ops_c10_writes h
theorem st11_main_arg0 : st11 V0 (no_index (Proc.devRef .tc main_arg0)) = V0 (Proc.devRef .tc main_arg0) :=
  (st11_keep V0 main_arg0 (by decide)).trans (st10_main_arg0 V0)
theorem st11_main_arg1 : st11 V0 (no_index (Proc.devRef .tc main_arg1)) = V0 (Proc.devRef .tc main_arg1) :=
  (st11_keep V0 main_arg1 (by decide)).trans (st10_main_arg1 V0)
theorem st11_main_arg2 : st11 V0 (no_index (Proc.devRef .tc main_arg2)) = V0 (Proc.devRef .tc main_arg2) :=
  (st11_keep V0 main_arg2 (by decide)).trans (st10_main_arg2 V0)
theorem st11_main_arg3 : st11 V0 (no_index (Proc.devRef .tc main_arg3)) = V0 (Proc.devRef .tc main_arg3) :=
  (st11_keep V0 main_arg3 (by decide)).trans (st10_main_arg3 V0)
set_option maxRecDepth 16384 in
set_option maxHeartbeats 4000000 in
theorem st11_main_v161 : st11 V0 (no_index (Proc.devRef .tc main_v161)) = Read.val_main_v161 (F := F) (V0 (Proc.devRef .tc main_arg0)) (V0 (Proc.devRef .tc main_arg2)) := by
  unfold st11
  simp only [ops_c10]
  after_results_simp
  simp only [st10_main_v61]
  all_goals rfl
set_option maxRecDepth 16384 in
set_option maxHeartbeats 4000000 in
theorem st11_main_v162 : st11 V0 (no_index (Proc.devRef .tc main_v162)) = Read.val_main_v162 (F := F) (V0 (Proc.devRef .tc main_arg1)) (V0 (Proc.devRef .tc main_arg3)) := by
  unfold st11
  simp only [ops_c10]
  after_results_simp
  simp only [st10_main_v94]
  all_goals rfl
set_option maxRecDepth 16384 in
set_option maxHeartbeats 4000000 in
theorem st11_main_v163 : st11 V0 (no_index (Proc.devRef .tc main_v163)) = Read.val_main_v163 (F := F) (V0 (Proc.devRef .tc main_arg0)) (V0 (Proc.devRef .tc main_arg1)) (V0 (Proc.devRef .tc main_arg2)) := by
  unfold st11
  simp only [ops_c10]
  after_results_simp
  simp only [st10_main_call13_v5, st10_main_v141, st10_main_call13_c_1, st10_main_call13_c_2, st10_main_v104, st10_main_v146, toBuf_tr, ofBuf_tr]
  all_goals rfl
set_option maxRecDepth 16384 in
set_option maxHeartbeats 4000000 in
theorem st11_main_v164 : st11 V0 (no_index (Proc.devRef .tc main_v164)) = Read.val_main_v164 (F := F) := by
  unfold st11
  simp only [ops_c10]
  after_results_simp
  all_goals rfl

def st12 : Valuation τ sig (Elt F) := after ops_c11 (st11 V0)

theorem st12_keep (r : Ref sig .tc) (h : r ∉ ops_c11_W) :
    st12 V0 (Proc.devRef .tc r) = st11 V0 (Proc.devRef .tc r) :=
  after_of_writes_sub ops_c11 _ ops_c11_writes h
theorem st12_main_arg0 : st12 V0 (no_index (Proc.devRef .tc main_arg0)) = V0 (Proc.devRef .tc main_arg0) :=
  (st12_keep V0 main_arg0 (by decide)).trans (st11_main_arg0 V0)
theorem st12_main_arg1 : st12 V0 (no_index (Proc.devRef .tc main_arg1)) = V0 (Proc.devRef .tc main_arg1) :=
  (st12_keep V0 main_arg1 (by decide)).trans (st11_main_arg1 V0)
theorem st12_main_arg2 : st12 V0 (no_index (Proc.devRef .tc main_arg2)) = V0 (Proc.devRef .tc main_arg2) :=
  (st12_keep V0 main_arg2 (by decide)).trans (st11_main_arg2 V0)
theorem st12_main_arg3 : st12 V0 (no_index (Proc.devRef .tc main_arg3)) = V0 (Proc.devRef .tc main_arg3) :=
  (st12_keep V0 main_arg3 (by decide)).trans (st11_main_arg3 V0)
set_option maxRecDepth 16384 in
set_option maxHeartbeats 4000000 in
theorem st12_main_v165 : st12 V0 (no_index (Proc.devRef .tc main_v165)) = Read.val_main_v165 (F := F) (V0 (Proc.devRef .tc main_arg0)) (V0 (Proc.devRef .tc main_arg1)) (V0 (Proc.devRef .tc main_arg2)) (V0 (Proc.devRef .tc main_arg3)) := by
  unfold st12
  simp only [ops_c11, after_cons, after_nil]
  rw [nary_result]
  show concatenate S4 0 [⟨S1, st11 V0 (Proc.devRef .tc main_v161)⟩, ⟨S1, st11 V0 (Proc.devRef .tc main_v162)⟩, ⟨S1, st11 V0 (Proc.devRef .tc main_v163)⟩, ⟨S1, st11 V0 (Proc.devRef .tc main_v164)⟩] concatenates_S1_S1_S1_S1_S4_d0 = _
  rw [st11_main_v164, st11_main_v163, st11_main_v162, st11_main_v161]
  rfl

theorem after_ops : after ops V0 = st12 V0 := by
  simp only [ops, StableHlo.after_append]
  rfl

end Cert.ReferenceIdeal.Value

end
-- ==== Proof.RefRun.lean ====
import proofs.«428925_j42245298323666_3_alg».proof.Proof.RefRunStages

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference's run: the result buffer ends at the last stage value of the arguments, which are kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v165) = Read.val_main_v165 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v165).trans ((congrFun (after_ops (launchContents m c)) _).trans (st12_main_v165 (launchContents m c))),
      (h c main_arg0).trans ((congrFun (after_ops (launchContents m c)) _).trans (st12_main_arg0 (launchContents m c))),
      (h c main_arg1).trans ((congrFun (after_ops (launchContents m c)) _).trans (st12_main_arg1 (launchContents m c))),
      (h c main_arg2).trans ((congrFun (after_ops (launchContents m c)) _).trans (st12_main_arg2 (launchContents m c))),
      (h c main_arg3).trans ((congrFun (after_ops (launchContents m c)) _).trans (st12_main_arg3 (launchContents m c)))⟩)
    (run_seq scopedRefs_eq scopedSems_eq defs main (fun _ => ops) main_eq (fun _ => ops_sub) m ρ (fun _ => ops_fresh))

end Cert.ReferenceIdeal.Value

end
-- ==== Proof.RefBce.lean ====
import proofs.«428925_j42245298323666_3_alg».proof.Proof.RefReadCore
import proofs.«428925_j42245298323666_3_alg».proof.Proof.Spec
import Idealize.ShloMosaic.Lib.StableHlo.Predicate
import Idealize.ShloMosaic.Lib.ValueIdx

noncomputable section

open scoped BigOperators

namespace Cert.RefValue

open Cert.ReferenceIdeal Cert.ReferenceIdeal.Gen Idealize.ShloMosaic Idealize.ShloMosaic.ValueIdx
  Idealize.ShloMosaic.StableHlo

def pixOf (p : S2097152.Idx) : Fin 8 × Fin 512 × Fin 512 :=
  (⟨(p 0).val / 262144, by have h0 : (p 0).val < 2097152 := (p 0).isLt; omega⟩,
   ⟨(p 0).val / 512 % 512, by omega⟩,
   ⟨(p 0).val % 512, by omega⟩)

def flatEquiv : S2097152.Idx ≃ Fin 8 × Fin 512 × Fin 512 where
  toFun := pixOf
  invFun x := ix1 ⟨(x.1.val * 512 + x.2.1.val) * 512 + x.2.2.val, by
    have h0 := x.1.isLt; have h1 := x.2.1.isLt; have h2 := x.2.2.isLt; omega⟩
  left_inv p := by
    funext a
    match a with
    | ⟨0, _⟩ =>
      apply Fin.ext
      have h0 : (p 0).val < 2097152 := (p 0).isLt
      show ((p 0).val / 262144 * 512 + (p 0).val / 512 % 512) * 512 + (p 0).val % 512 = (p 0).val
      omega
  right_inv x := by
    obtain ⟨n, i, j⟩ := x
    have h0 := n.isLt; have h1 := i.isLt; have h2 := j.isLt
    refine Prod.ext (Fin.ext ?_) (Prod.ext (Fin.ext ?_) (Fin.ext ?_))
    · show ((n.val * 512 + i.val) * 512 + j.val) / 262144 = n.val
      omega
    · show ((n.val * 512 + i.val) * 512 + j.val) / 512 % 512 = i.val
      omega
    · show ((n.val * 512 + i.val) * 512 + j.val) % 512 = j.val
      omega

theorem sum_flat {M : Type*} [AddCommMonoid M] (f : Fin 8 → Fin 512 → Fin 512 → M) :
    ∑ p : S2097152.Idx, f (pixOf p).1 (pixOf p).2.1 (pixOf p).2.2 = ∑ n, ∑ i, ∑ j, f n i j := by
  rw [Fintype.sum_equiv flatEquiv (fun p => f (pixOf p).1 (pixOf p).2.1 (pixOf p).2.2)
    (fun x : Fin 8 × Fin 512 × Fin 512 => f x.1 x.2.1 x.2.2) (fun _ => rfl), Fintype.sum_prod_type]
  refine Finset.sum_congr rfl fun n _ => ?_
  rw [Fintype.sum_prod_type]

theorem card_flat : Fintype.card S2097152.Idx = 2097152 := by
  rw [Fintype.card_congr flatEquiv]; simp

theorem idx_v62_eq (p : S2097152.Idx) :
    Read.idx_main_v62 p = ix4 (pixOf p).1 (0 : Fin 1) (pixOf p).2.1 (pixOf p).2.2 := by
  funext a
  match a with
  | ⟨0, _⟩ => rfl
  | ⟨1, _⟩ => rfl
  | ⟨2, _⟩ => rfl
  | ⟨3, _⟩ => rfl

theorem idx_v63_eq (p : S2097152.Idx) :
    Read.idx_main_v63 p = ix4 (pixOf p).1 (0 : Fin 1) (pixOf p).2.1 (pixOf p).2.2 := by
  funext a
  match a with
  | ⟨0, _⟩ => rfl
  | ⟨1, _⟩ => rfl
  | ⟨2, _⟩ => rfl
  | ⟨3, _⟩ => rfl

theorem count_flat (mask : IVec S2097152 1) (j : S_.Idx) :
    (((Host.reduce IntOp.addi (extui 32 mask natLt_1_32) (constantI S_ 32 0#32) reducesTo_S2097152_S_d0 h_S_ j).toInt : ℝ) : EReal)
      = ∑ p : S2097152.Idx, (if mask p = 1#1 then (1 : EReal) else 0) := by
  classical
  have hfilter : (Finset.univ.filter fun i : S2097152.Idx => reducesTo_S2097152_S_d0.drop i = j) = Finset.univ :=
    Finset.filter_true_of_mem fun i _ => funext fun a => a.elim0
  have hval : ∀ i, (extui 32 mask natLt_1_32 i).toNat = if mask i = 1#1 then 1 else 0 :=
    fun i => Predicate.toNat_setWidth_bit (mask i)
  have hsum : ∑ i : S2097152.Idx, (extui 32 mask natLt_1_32 i).toNat ≤ 2097152 := by
    calc ∑ i : S2097152.Idx, (extui 32 mask natLt_1_32 i).toNat ≤ ∑ _i : S2097152.Idx, 1 :=
          Finset.sum_le_sum fun i _ => by rw [hval]; split <;> omega
      _ = 2097152 := by rw [Finset.sum_const, Finset.card_univ, card_flat]; rfl
  have hnat : (Host.reduce IntOp.addi (extui 32 mask natLt_1_32) (constantI S_ 32 0#32) reducesTo_S2097152_S_d0 h_S_ j).toNat
      = ∑ i : S2097152.Idx, (extui 32 mask natLt_1_32 i).toNat := by
    rw [Host.reduce_eq_fold, hfilter]
    exact Predicate.toNat_fold_addi _ _ (by omega)
  rw [Predicate.toInt_eq_toNat_of_lt (by rw [hnat]; omega), hnat, Int.cast_natCast, EReal.coe_coe_eq_natCast, Nat.cast_sum]
  refine Finset.sum_congr rfl fun i _ => ?_
  rw [hval]; split <;> simp

section
variable (E : FVec Ideal S8x1x512x512 .f32) (G : IVec S8x1x512x512 32)

theorem v62_at (p : S2097152.Idx) :
    Read.val_main_v62 (F := Ideal) E p = Cert.Spec.planeOf E (pixOf p).1 (pixOf p).2.1 (pixOf p).2.2 := by
  rw [Read.val_main_v62_apply, idx_v62_eq]; rfl

theorem v64_at (p : S2097152.Idx) :
    Read.val_main_v64 (F := Ideal) G p
      = Cert.Spec.edgeT (Cert.Spec.labelsOf4 G) (pixOf p).1 (pixOf p).2.1 (pixOf p).2.2 := by
  rw [Read.val_main_v64_apply, Read.val_main_v63_apply, idx_v63_eq]; rfl

theorem v66_at (p : S2097152.Idx) :
    Read.val_main_v66 (F := Ideal) G p = 1#1
      ↔ Cert.Spec.edgeT (Cert.Spec.labelsOf4 G) (pixOf p).1 (pixOf p).2.1 (pixOf p).2.2 = Cert.Spec.c1 := by
  rw [Read.val_main_v66_apply, v64_at, Read.val_main_v65_apply, Read.val_main_cst_21_apply]
  show BitVec.ofBool (decide _) = 1#1 ↔ _
  rw [Predicate.ofBool_eq_one_iff, decide_eq_true_iff]; rfl

theorem v68_at (p : S2097152.Idx) :
    Read.val_main_v68 (F := Ideal) G p = 1#1
      ↔ Cert.Spec.edgeT (Cert.Spec.labelsOf4 G) (pixOf p).1 (pixOf p).2.1 (pixOf p).2.2 = Cert.Spec.c0 := by
  rw [Read.val_main_v68_apply, v64_at, Read.val_main_v67_apply, Read.val_main_cst_22_apply]
  show BitVec.ofBool (decide _) = 1#1 ↔ _
  rw [Predicate.ofBool_eq_one_iff, decide_eq_true_iff]; rfl

theorem v71_value (j : S_.Idx) :
    Read.val_main_v71 (F := Ideal) G j = ∑ n, Cert.Spec.nPos (Cert.Spec.labelsOf4 G) n := by
  rw [Read.val_main_v71_apply]
  unfold Read.val_main_v70 Read.val_main_v69 Read.val_main_c_23
  refine (count_flat (Read.val_main_v66 (F := Ideal) G) j).trans ?_
  refine Eq.trans ?_ ((sum_flat fun n i j => Cert.Spec.isPos (Cert.Spec.labelsOf4 G) n i j).trans ?_)
  · refine Finset.sum_congr rfl fun p _ => ?_
    unfold Cert.Spec.isPos
    exact if_congr (v66_at G p) rfl rfl
  · simp only [Cert.Spec.nPos, Cert.Spec.pixSum]

theorem v74_value (j : S_.Idx) :
    Read.val_main_v74 (F := Ideal) G j = ∑ n, Cert.Spec.nNeg (Cert.Spec.labelsOf4 G) n := by
  rw [Read.val_main_v74_apply]
  unfold Read.val_main_v73 Read.val_main_v72 Read.val_main_c_24
  refine (count_flat (Read.val_main_v68 (F := Ideal) G) j).trans ?_
  refine Eq.trans ?_ ((sum_flat fun n i j => Cert.Spec.isNeg (Cert.Spec.labelsOf4 G) n i j).trans ?_)
  · refine Finset.sum_congr rfl fun p _ => ?_
    unfold Cert.Spec.isNeg
    exact if_congr (v68_at G p) rfl rfl
  · simp only [Cert.Spec.nNeg, Cert.Spec.pixSum]

end

section
variable (E : FVec Ideal S8x1x512x512 .f32) (G : IVec S8x1x512x512 32)

theorem v76_value (j : S_.Idx) :
    Read.val_main_v76 (F := Ideal) G j
      = max (∑ n, Cert.Spec.nPos (Cert.Spec.labelsOf4 G) n + ∑ n, Cert.Spec.nNeg (Cert.Spec.labelsOf4 G) n) Cert.Spec.c1 := by
  rw [Read.val_main_v76_apply, Read.val_main_v75_apply, v71_value, v74_value, Read.val_main_cst_25_apply]
  rfl

theorem v81_at (p : S2097152.Idx) :
    Read.val_main_v81 (F := Ideal) G p
      = (if Cert.Spec.edgeT (Cert.Spec.labelsOf4 G) (pixOf p).1 (pixOf p).2.1 (pixOf p).2.2 = Cert.Spec.c1
          then Ideal.div (∑ n, Cert.Spec.nNeg (Cert.Spec.labelsOf4 G) n)
            (max (∑ n, Cert.Spec.nPos (Cert.Spec.labelsOf4 G) n + ∑ n, Cert.Spec.nNeg (Cert.Spec.labelsOf4 G) n) Cert.Spec.c1)
          else Cert.Spec.c0)
        + (if Cert.Spec.edgeT (Cert.Spec.labelsOf4 G) (pixOf p).1 (pixOf p).2.1 (pixOf p).2.2 = Cert.Spec.c0
          then Ideal.div (∑ n, Cert.Spec.nPos (Cert.Spec.labelsOf4 G) n)
            (max (∑ n, Cert.Spec.nPos (Cert.Spec.labelsOf4 G) n + ∑ n, Cert.Spec.nNeg (Cert.Spec.labelsOf4 G) n) Cert.Spec.c1)
          else Cert.Spec.c0) := by
  rw [Read.val_main_v81_apply, Read.val_main_v78_apply, Read.val_main_v80_apply,
    Read.val_main_call6_v1_apply, Read.val_main_call6_v2_apply, Read.val_main_call6_v0_apply, Read.val_main_cst_26_apply,
    Read.val_main_call7_v1_apply, Read.val_main_call7_v2_apply, Read.val_main_call7_v0_apply, Read.val_main_cst_27_apply,
    Read.val_main_v77_apply, Read.val_main_v79_apply, v71_value, v74_value, v76_value]
  show (if _ = 1#1 then _ else _) + (if _ = 1#1 then _ else _) = _
  rw [if_congr (v66_at G p) rfl rfl, if_congr (v68_at G p) rfl rfl]
  rfl

theorem v90_at (p : S2097152.Idx) :
    Read.val_main_v90 (F := Ideal) E G p
      = Cert.Spec.bce (Cert.Spec.planeOf E) (Cert.Spec.labelsOf4 G) (pixOf p).1 (pixOf p).2.1 (pixOf p).2.2 := by
  rw [Read.val_main_v90_apply, Read.val_main_v85_apply, Read.val_main_v83_apply, Read.val_main_v84_apply,
    Read.val_main_v89_apply, Read.val_main_v88_apply, Read.val_main_v87_apply, Read.val_main_v86_apply,
    Read.val_main_v82_apply, Read.val_main_cst_28_apply, v62_at, v64_at]
  rfl

theorem bce_value :
    Read.val_main_v94 (F := Ideal) E G ValueIdx.ix0
      = Cert.Spec.c20 * Cert.Spec.bceRef (Cert.Spec.planeOf E) (Cert.Spec.labelsOf4 G) := by
  rw [Read.val_main_v94_apply, Read.val_main_v93_apply, Read.val_main_v92_apply, Read.val_main_cst_31_apply,
    Read.val_main_cst_30_apply, Read.val_main_cst_29_apply]
  have hsum : ∑ p : S2097152.Idx, Read.val_main_v91 (F := Ideal) E G p
      = ∑ n, Cert.Spec.pixSum fun i j =>
          ((if Cert.Spec.edgeT (Cert.Spec.labelsOf4 G) n i j = Cert.Spec.c1
              then Ideal.div (∑ n, Cert.Spec.nNeg (Cert.Spec.labelsOf4 G) n)
                (max (∑ n, Cert.Spec.nPos (Cert.Spec.labelsOf4 G) n + ∑ n, Cert.Spec.nNeg (Cert.Spec.labelsOf4 G) n) Cert.Spec.c1)
              else Cert.Spec.c0)
            + (if Cert.Spec.edgeT (Cert.Spec.labelsOf4 G) n i j = Cert.Spec.c0
              then Ideal.div (∑ n, Cert.Spec.nPos (Cert.Spec.labelsOf4 G) n)
                (max (∑ n, Cert.Spec.nPos (Cert.Spec.labelsOf4 G) n + ∑ n, Cert.Spec.nNeg (Cert.Spec.labelsOf4 G) n) Cert.Spec.c1)
              else Cert.Spec.c0))
          * Cert.Spec.bce (Cert.Spec.planeOf E) (Cert.Spec.labelsOf4 G) n i j := by
    refine Eq.trans (Finset.sum_congr rfl fun p _ => ?_) (sum_flat _)
    rw [Read.val_main_v91_apply, v81_at, v90_at]
    rfl
  rw [hsum]
  show Cert.Spec.c20 * Ideal.div (Ideal.ofBits .f32 0x00000000#32 + _) Cert.Spec.cNpix = _
  rw [Ideal.ofBits_zero_f32, zero_add]
  rfl

end

end Cert.RefValue

end
-- ==== Proof.RefLoss.lean ====
import proofs.«428925_j42245298323666_3_alg».proof.Proof.RefBce
import Idealize.ShloMosaic.Lib.Pipeline.Value

noncomputable section

open scoped BigOperators

namespace Cert.RefValue

open Cert.ReferenceIdeal Cert.ReferenceIdeal.Gen Idealize.ShloMosaic Idealize.ShloMosaic.ValueIdx
  Idealize.ShloMosaic.StableHlo

section
variable (X : FVec Ideal S8x19x512x512 .f32) (E : FVec Ideal S8x1x512x512 .f32) (T : IVec S8x512x512 32)
  (G : IVec S8x1x512x512 32)

theorem v165_at0 : Read.val_main_v165 (F := Ideal) X E T G (ix1 (0 : Fin 4)) = Read.val_main_v61 (F := Ideal) X T ix0 := by
  unfold Read.val_main_v165
  refine (concatenate_apply_piece (t := S4) 0
    [⟨S1, Read.val_main_v161 (F := Ideal) X T⟩, ⟨S1, Read.val_main_v162 (F := Ideal) E G⟩,
      ⟨S1, Read.val_main_v163 (F := Ideal) X E T⟩, ⟨S1, Read.val_main_v164 (F := Ideal)⟩]
    concatenates_S1_S1_S1_S1_S4_d0 (ix1 (0 : Fin 4)) 0 (by show (0 : Nat) < 4; omega) S1 (Read.val_main_v161 (F := Ideal) X T) rfl rfl 0 rfl
    (ix1 (0 : Fin 1)) (fun b hb => absurd (Subsingleton.elim _ _) hb) rfl).trans ?_
  rw [Read.val_main_v161_apply, eq_ix0 (Read.idx_main_v161 _)]

theorem v165_at1 : Read.val_main_v165 (F := Ideal) X E T G (ix1 (1 : Fin 4)) = Read.val_main_v94 (F := Ideal) E G ix0 := by
  unfold Read.val_main_v165
  refine (concatenate_apply_piece (t := S4) 0
    [⟨S1, Read.val_main_v161 (F := Ideal) X T⟩, ⟨S1, Read.val_main_v162 (F := Ideal) E G⟩,
      ⟨S1, Read.val_main_v163 (F := Ideal) X E T⟩, ⟨S1, Read.val_main_v164 (F := Ideal)⟩]
    concatenates_S1_S1_S1_S1_S4_d0 (ix1 (1 : Fin 4)) 1 (by show (1 : Nat) < 4; omega) S1 (Read.val_main_v162 (F := Ideal) E G) rfl rfl 1 rfl
    (ix1 (0 : Fin 1)) (fun b hb => absurd (Subsingleton.elim _ _) hb) rfl).trans ?_
  rw [Read.val_main_v162_apply, eq_ix0 (Read.idx_main_v162 _)]

theorem v165_at2 : Read.val_main_v165 (F := Ideal) X E T G (ix1 (2 : Fin 4)) = Read.val_main_v160 (F := Ideal) X E T ix0 := by
  unfold Read.val_main_v165
  refine (concatenate_apply_piece (t := S4) 0
    [⟨S1, Read.val_main_v161 (F := Ideal) X T⟩, ⟨S1, Read.val_main_v162 (F := Ideal) E G⟩,
      ⟨S1, Read.val_main_v163 (F := Ideal) X E T⟩, ⟨S1, Read.val_main_v164 (F := Ideal)⟩]
    concatenates_S1_S1_S1_S1_S4_d0 (ix1 (2 : Fin 4)) 2 (by show (2 : Nat) < 4; omega) S1 (Read.val_main_v163 (F := Ideal) X E T) rfl rfl 2 rfl
    (ix1 (0 : Fin 1)) (fun b hb => absurd (Subsingleton.elim _ _) hb) rfl).trans ?_
  rw [Read.val_main_v163_apply, eq_ix0 (Read.idx_main_v163 _)]

theorem v165_at3 : Read.val_main_v165 (F := Ideal) X E T G (ix1 (3 : Fin 4)) = Cert.Spec.c0 := by
  unfold Read.val_main_v165
  refine (concatenate_apply_piece (t := S4) 0
    [⟨S1, Read.val_main_v161 (F := Ideal) X T⟩, ⟨S1, Read.val_main_v162 (F := Ideal) E G⟩,
      ⟨S1, Read.val_main_v163 (F := Ideal) X E T⟩, ⟨S1, Read.val_main_v164 (F := Ideal)⟩]
    concatenates_S1_S1_S1_S1_S4_d0 (ix1 (3 : Fin 4)) 3 (by show (3 : Nat) < 4; omega) S1 (Read.val_main_v164 (F := Ideal)) rfl rfl 3 rfl
    (ix1 (0 : Fin 1)) (fun b hb => absurd (Subsingleton.elim _ _) hb) rfl).trans ?_
  rw [Read.val_main_v164_apply, Read.val_main_cst_58_apply]
  rfl

end

theorem loss_value_of
    (nll_seg_value : ∀ (X : FVec Ideal S8x19x512x512 .f32) (T : IVec S8x512x512 32),
      Read.val_main_v61 (F := Ideal) X T ValueIdx.ix0
        = Cert.Spec.c1 * Cert.Spec.nllRef (Cert.Spec.scoresOf X) (Cert.Spec.labelsOf3 T))
    (nll_att_value : ∀ (X : FVec Ideal S8x19x512x512 .f32) (E : FVec Ideal S8x1x512x512 .f32) (T : IVec S8x512x512 32),
      Read.val_main_v160 (F := Ideal) X E T ValueIdx.ix0
        = Cert.Spec.c1 * Cert.Spec.nllRef (Cert.Spec.scoresOf X) (Cert.Spec.attL (Cert.Spec.planeOf E) (Cert.Spec.labelsOf3 T)))
    (X : FVec Ideal S8x19x512x512 .f32) (E : FVec Ideal S8x1x512x512 .f32) (T : IVec S8x512x512 32)
    (G : IVec S8x1x512x512 32) :
    Read.val_main_v165 (F := Ideal) X E T G
      = Cert.Spec.vec4 (Cert.Spec.lossR (Cert.Spec.scoresOf X) (Cert.Spec.planeOf E) (Cert.Spec.labelsOf3 T) (Cert.Spec.labelsOf4 G)) := by
  funext k
  obtain ⟨k0, rfl⟩ : ∃ k0 : Fin 4, k = ix1 k0 := ⟨k 0, eq_ix1 k⟩
  match k0 with
  | 0 => exact (v165_at0 X E T G).trans (nll_seg_value X T)
  | 1 => exact (v165_at1 X E T G).trans (bce_value E G)
  | 2 => exact (v165_at2 X E T G).trans (nll_att_value X E T)
  | 3 => exact v165_at3 X E T G

end Cert.RefValue

end
-- ==== Proof.RefNll.lean ====
import proofs.«428925_j42245298323666_3_alg».proof.Proof.RefReadCore
import proofs.«428925_j42245298323666_3_alg».proof.Proof.Spec
import Idealize.ShloMosaic.Lib.ValueIdx
import Idealize.ShloMosaic.Lib.IdealHost
import Idealize.ShloMosaic.PureOps.Ideal.Laws
import Idealize.ShloMosaic.PureOps.Reduce

noncomputable section

open scoped BigOperators

namespace Cert.RefValue

open Cert.ReferenceIdeal Cert.ReferenceIdeal.Gen Cert.ReferenceIdeal.Read Idealize.ShloMosaic Idealize.ShloMosaic.ValueIdx

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem hostReduceAdd_pix (h' : S8x512x512.ReducesTo [1, 2] S8) (x : S8x512x512.Idx → EReal) (init : EReal) (n : Fin 8) :
    Ideal.hostReduceAdd h' x init (ix1 n) = init + Cert.Spec.pixSum fun i j => x (ix3 n i j) := by
  unfold Ideal.hostReduceAdd Cert.Spec.pixSum
  congr 1
  rw [← Finset.sum_product' Finset.univ Finset.univ (fun i j => x (ix3 n i j))]
  refine Finset.sum_nbij' (fun i => (i 1, i 2)) (fun p => ix3 n p.1 p.2) ?_ ?_ ?_ ?_ ?_
  · intro i _; exact Finset.mem_product.2 ⟨Finset.mem_univ _, Finset.mem_univ _⟩
  · intro p _; exact Finset.mem_filter.2 ⟨Finset.mem_univ _, by
      funext b; match b with | ⟨0, _⟩ => rfl⟩
  · intro i hi
    have hj := (Finset.mem_filter.1 hi).2
    have h0 : i 0 = n := congrFun hj 0
    subst h0
    exact (eq_ix3 i).symm
  · intro p _; rfl
  · intro i hi
    have hj := (Finset.mem_filter.1 hi).2
    have h0 : i 0 = n := congrFun hj 0
    subst h0
    exact congrArg x (eq_ix3 i)

theorem reduceAdd_pix (y : FVec Ideal S8x512x512 .f32) (init : FVec Ideal S_ .f32) (n : Fin 8) :
    Host.reduceAdd y init reducesTo_S8x512x512_S8_d1_2 h_S_ (ix1 n)
      = init (Shape.Idx.first h_S_) + Cert.Spec.pixSum fun i j => y (ix3 n i j) := by
  rw [hostReduceAdd_apply]
  exact hostReduceAdd_pix _ _ _ _

def WpSpec : Prop := ∀ (T : IVec S8x512x512 32) (n : Fin 8) (i j : Fin 512),
  val_main_v52 (F := Ideal) T (ix3 n i j)
    = if Cert.Spec.validL (T (ix3 n i j)) then
        Cert.Spec.clsW (fun c : Fin 19 => Cert.Spec.pixSum fun i' j' =>
          if Cert.Spec.labelsOf3 T n i' j' = BitVec.ofNat 32 c.val then 1 else 0) (Cert.Spec.clipL (T (ix3 n i j)))
      else Cert.Spec.c0

def LpSpec : Prop := ∀ (X : FVec Ideal S8x19x512x512 .f32) (T : IVec S8x512x512 32) (n : Fin 8) (i j : Fin 512),
  val_main_v47 (F := Ideal) X T (ix3 n i j)
    = Cert.Spec.logp (Cert.Spec.scoresOf X) n (Cert.Spec.clipL (T (ix3 n i j))) i j

theorem val_main_v54_apply (X : FVec Ideal S8x19x512x512 .f32) (T : IVec S8x512x512 32) (n : Fin 8) :
    val_main_v54 (F := Ideal) X T (ix1 n)
      = Cert.Spec.pixSum fun i j => val_main_v52 (F := Ideal) T (ix3 n i j) * val_main_v47 (F := Ideal) X T (ix3 n i j) := by
  unfold val_main_v54
  rw [reduceAdd_pix]
  have h0 : val_main_cst_16 (F := Ideal) (Shape.Idx.first h_S_) = 0 := Ideal.ofBits_zero_f32
  rw [h0, zero_add]
  rfl

theorem val_main_v56_apply (T : IVec S8x512x512 32) (n : Fin 8) :
    val_main_v56 (F := Ideal) T (ix1 n) = Cert.Spec.pixSum fun i j => val_main_v52 (F := Ideal) T (ix3 n i j) := by
  unfold val_main_v56
  rw [reduceAdd_pix]
  have h0 : val_main_cst_17 (F := Ideal) (Shape.Idx.first h_S_) = 0 := Ideal.ofBits_zero_f32
  rw [h0, zero_add]

theorem val_main_v59_apply' (hwp : WpSpec) (hlp : LpSpec) (X : FVec Ideal S8x19x512x512 .f32) (T : IVec S8x512x512 32)
    (n : Fin 8) :
    val_main_v59 (F := Ideal) X T (ix1 n) = Cert.Spec.nllRefImg (Cert.Spec.scoresOf X) (Cert.Spec.labelsOf3 T) n := by
  rw [val_main_v59_apply, val_main_v55_apply, val_main_v58_apply, val_main_v54_apply, val_main_v56_apply,
    val_main_v57_apply, val_main_cst_18_apply]
  simp only [hwp T n, hlp X T n]
  rfl

theorem nll_seg_value_of (hwp : WpSpec) (hlp : LpSpec) (X : FVec Ideal S8x19x512x512 .f32) (T : IVec S8x512x512 32) :
    val_main_v61 (F := Ideal) X T ix0
      = Cert.Spec.c1 * Cert.Spec.nllRef (Cert.Spec.scoresOf X) (Cert.Spec.labelsOf3 T) := by
  rw [val_main_v61_apply, val_main_v60_apply, sum_idx1, val_main_cst_20_apply]
  have h0 : val_main_cst_19 (F := Ideal) (Shape.Idx.first h_S_) = 0 := Ideal.ofBits_zero_f32
  rw [h0, zero_add]
  simp only [val_main_v59_apply' hwp hlp]
  rfl

theorem fold_univ_of_eq_one {α : Type} (op : α → α → α) [Std.Commutative op] [Std.Associative op] {k : Nat} (hk : k = 1)
    (b : α) (f : Fin k → α) : (Finset.univ : Finset (Fin k)).fold op b f = op (f ⟨0, by omega⟩) b := by
  subst hk
  rw [Finset.univ_unique, Finset.fold_singleton]
  rfl

theorem val_main_v95_apply (E : FVec Ideal S8x1x512x512 .f32) (n : Fin 8) (i j : Fin 512) :
    val_main_v95 (F := Ideal) E (ix3 n i j) = E (ix4 n 0 i j) := by
  unfold val_main_v95
  have hr : S8x1x512x512.Reduces [1] S8x512x512 := by decide
  rw [Host.reduce_eq_fold_single FloatOps.maximumf E _ reducesTo_S8x1x512x512_S8x512x512_d1 hr h_S_,
    fold_univ_of_eq_one FloatOps.maximumf (rfl : S8x1x512x512.size 1 = 1)]
  have hb : val_main_cst_32 (F := Ideal) (Shape.Idx.first h_S_) = ⊥ := by
    show Ideal.ofBits .f32 0xFF800000#32 = ⊥
    simp [Ideal.ofBits, Ideal.ieee]
  rw [hb]
  show max (E (hr.lift (ix3 n i j) ⟨0, by decide⟩)) ⊥ = E (ix4 n 0 i j)
  rw [max_eq_left bot_le]
  congr 1
  funext a
  match a with
  | ⟨0, _⟩ => rfl
  | ⟨1, _⟩ => rfl
  | ⟨2, _⟩ => rfl
  | ⟨3, _⟩ => rfl

theorem att_labels_apply (E : FVec Ideal S8x1x512x512 .f32) (T : IVec S8x512x512 32) (n : Fin 8) (i j : Fin 512) :
    val_main_v98 (F := Ideal) E T (ix3 n i j)
      = Cert.Spec.attL (Cert.Spec.planeOf E) (Cert.Spec.labelsOf3 T) n i j := by
  rw [val_main_v98_apply, val_main_v97_apply, val_main_v95_apply, val_main_v96_apply, val_main_cst_33_apply,
    val_main_call8_v1_apply, val_main_call8_v0_apply, val_main_c_34_apply]
  show Scalar.select (Ideal.cmp .ogt (E (ix4 n 0 i j)) Cert.Spec.cThr) (T (ix3 n i j)) 255#32
    = if Cert.Spec.cThr < E (ix4 n 0 i j) then T (ix3 n i j) else 255#32
  unfold Scalar.select Ideal.cmp
  by_cases h : Cert.Spec.cThr < E (ix4 n 0 i j)
  · rw [if_pos h, decide_eq_true h]; rfl
  · rw [if_neg h, decide_eq_false h]; rfl

set_option maxRecDepth 100000 in
set_option maxHeartbeats 4000000 in

theorem nll_att_bridge_gen {F : FTy → Type} [FloatOps F] (X : (⟨S8x19x512x512, .f32⟩ : BufTy).Contents (Elt F))
    (E : (⟨S8x1x512x512, .f32⟩ : BufTy).Contents (Elt F)) (T : (⟨S8x512x512, .i32⟩ : BufTy).Contents (Elt F)) :
    val_main_v160 (F := F) X E T = val_main_v61 (F := F) X (val_main_v98 (F := F) E T) := rfl

theorem nll_att_bridge (X : FVec Ideal S8x19x512x512 .f32) (E : FVec Ideal S8x1x512x512 .f32) (T : IVec S8x512x512 32) :
    val_main_v160 (F := Ideal) X E T = val_main_v61 (F := Ideal) X (val_main_v98 (F := Ideal) E T) :=
  nll_att_bridge_gen (F := Ideal) X E T

theorem labelsOf3_att (E : FVec Ideal S8x1x512x512 .f32) (T : IVec S8x512x512 32) :
    Cert.Spec.labelsOf3 (val_main_v98 (F := Ideal) E T) = Cert.Spec.attL (Cert.Spec.planeOf E) (Cert.Spec.labelsOf3 T) := by
  funext n i j
  exact att_labels_apply E T n i j

theorem nll_att_value_of (hwp : WpSpec) (hlp : LpSpec) (X : FVec Ideal S8x19x512x512 .f32)
    (E : FVec Ideal S8x1x512x512 .f32) (T : IVec S8x512x512 32) :
    val_main_v160 (F := Ideal) X E T ix0
      = Cert.Spec.c1 * Cert.Spec.nllRef (Cert.Spec.scoresOf X) (Cert.Spec.attL (Cert.Spec.planeOf E) (Cert.Spec.labelsOf3 T)) := by
  rw [nll_att_bridge, nll_seg_value_of hwp hlp, labelsOf3_att]

end Cert.RefValue

end
-- ==== Proof.RefWeights.lean ====
import proofs.«428925_j42245298323666_3_alg».proof.Proof.RefReadCore
import proofs.«428925_j42245298323666_3_alg».proof.Proof.Spec
import Idealize.ShloMosaic.Lib.StableHlo.Predicate

noncomputable section

open scoped BigOperators

namespace Cert.RefValue

open Cert.ReferenceIdeal Cert.ReferenceIdeal.Gen Cert.ReferenceIdeal.Read Idealize.ShloMosaic Idealize.ShloMosaic.ValueIdx
open Idealize.ShloMosaic.StableHlo.Predicate

def cntOf (t : Cert.Spec.Labels) (n : Fin 8) (c : Fin 19) : EReal :=
  Cert.Spec.pixSum fun i j => if t n i j = BitVec.ofNat 32 c.val then 1 else 0

namespace Wt

abbrev SD : ScatterDims S8x20 S8x262144x2 S8x262144 := scatter_S8x20_S8x262144x2_S8x262144_n_01_01_2

theorem sd_start0 (n : Fin 8) (p : Fin 262144) (idx : IVec S8x262144x2 32) :
    SD.start (ix2 n p) idx 0 = (idx (ix3 n p 0)).toInt := by
  unfold ScatterDims.start
  rw [dif_pos (show (0 : Fin 2) ∈ SD.scatterDimsToOperandDims from List.mem_cons_self)]
  refine congrArg (fun q => (idx q).toInt) ?_
  funext b; refine Fin.ext ?_
  match b with
  | ⟨0, _⟩ => rfl
  | ⟨1, _⟩ => rfl
  | ⟨2, _⟩ => rfl

theorem sd_start1 (n : Fin 8) (p : Fin 262144) (idx : IVec S8x262144x2 32) :
    SD.start (ix2 n p) idx 1 = (idx (ix3 n p 1)).toInt := by
  unfold ScatterDims.start
  rw [dif_pos (show (1 : Fin 2) ∈ SD.scatterDimsToOperandDims from List.mem_cons_of_mem _ List.mem_cons_self)]
  refine congrArg (fun q => (idx q).toInt) ?_
  funext b; refine Fin.ext ?_
  match b with
  | ⟨0, _⟩ => rfl
  | ⟨1, _⟩ => rfl
  | ⟨2, _⟩ => rfl

theorem sd_window (j : S8x262144.Idx) (a : Fin 2) : SD.window j a = 0 := by
  unfold ScatterDims.window
  rw [dif_neg]
  show a ∉ S8x20.kept [0, 1]
  revert a; decide

theorem sd_resultIdx_eq_some_iff (n : Fin 8) (p : Fin 262144) (idx : IVec S8x262144x2 32) (m : Fin 8) (c : Fin 20) :
    SD.resultIdx? (ix2 n p) idx = some (ix2 m c) ↔
      (idx (ix3 n p 0)).toInt = (m.val : Int) ∧ (idx (ix3 n p 1)).toInt = (c.val : Int) := by
  have hm : (m.val : Int) < 8 := by have := m.isLt; omega
  have hc : (c.val : Int) < 20 := by have := c.isLt; omega
  unfold ScatterDims.resultIdx?
  split
  · rename_i h
    rw [Option.some.injEq]
    constructor
    · intro e
      have e0 := congrArg (fun f => (f 0).val) e
      have e1 := congrArg (fun f => (f 1).val) e
      have h0 := (h 0).1
      have h1 := (h 1).1
      simp only [sd_start0, sd_start1, sd_window] at e0 e1 h0 h1
      constructor
      · show (idx (ix3 n p 0)).toInt = (m.val : Int)
        have : ((idx (ix3 n p 0)).toInt + ((0 : Nat) : Int)).toNat = m.val := e0
        omega
      · show (idx (ix3 n p 1)).toInt = (c.val : Int)
        have : ((idx (ix3 n p 1)).toInt + ((0 : Nat) : Int)).toNat = c.val := e1
        omega
    · rintro ⟨e0, e1⟩
      funext a; refine Fin.ext ?_
      match a with
      | ⟨0, _⟩ =>
        show (SD.start (ix2 n p) idx 0 + (SD.window (ix2 n p) 0 : Int)).toNat = m.val
        rw [sd_start0, sd_window, e0]; simp
      | ⟨1, _⟩ =>
        show (SD.start (ix2 n p) idx 1 + (SD.window (ix2 n p) 1 : Int)).toNat = c.val
        rw [sd_start1, sd_window, e1]; simp
  · rename_i h
    constructor
    · intro e; exact absurd e (by simp)
    · rintro ⟨e0, e1⟩
      exfalso; apply h
      intro a
      match a with
      | ⟨0, _⟩ =>
        show 0 ≤ SD.start (ix2 n p) idx 0 + (SD.window (ix2 n p) 0 : Int) ∧ SD.start (ix2 n p) idx 0 + (SD.window (ix2 n p) 0 : Int) < ((8 : Nat) : Int)
        rw [sd_start0, sd_window, e0]; omega
      | ⟨1, _⟩ =>
        show 0 ≤ SD.start (ix2 n p) idx 1 + (SD.window (ix2 n p) 1 : Int) ∧ SD.start (ix2 n p) idx 1 + (SD.window (ix2 n p) 1 : Int) < ((20 : Nat) : Int)
        rw [sd_start1, sd_window, e1]; omega

theorem toInt_0 : (0#32 : BitVec 32).toInt = 0 := by decide
theorem toInt_19 : (19#32 : BitVec 32).toInt = 19 := by decide

theorem validBit (t : BitVec 32) :
    IntOp.andi (IntOp.cmpi .sge t 0#32) (IntOp.cmpi .slt t 19#32) = if Cert.Spec.validL t then 1#1 else 0#1 := by
  unfold IntOp.andi IntOp.cmpi Cert.Spec.validL
  simp only [BitVec.sle, BitVec.slt, toInt_0, toInt_19]
  by_cases a : 0 ≤ t.toInt <;> by_cases b : t.toInt < 19 <;> simp [a, b]

def scatL (t : BitVec 32) : BitVec 32 :=
  Scalar.select (IntOp.cmpi .slt (Scalar.select (IntOp.andi (IntOp.cmpi .sge t 0#32) (IntOp.cmpi .slt t 19#32)) t 19#32) 0#32)
    (IntOp.addi (Scalar.select (IntOp.andi (IntOp.cmpi .sge t 0#32) (IntOp.cmpi .slt t 19#32)) t 19#32) 20#32)
    (Scalar.select (IntOp.andi (IntOp.cmpi .sge t 0#32) (IntOp.cmpi .slt t 19#32)) t 19#32)

theorem scatL_eq (t : BitVec 32) : scatL t = if Cert.Spec.validL t then t else 19#32 := by
  unfold scatL
  rw [validBit]
  by_cases h : Cert.Spec.validL t
  · simp only [if_pos h, select_one]
    have : IntOp.cmpi .slt t 0#32 = 0#1 := by
      unfold IntOp.cmpi
      simp only [BitVec.slt, toInt_0]
      have := h.1
      simp [show ¬ t.toInt < 0 by omega]
    rw [this, select_zero]
  · simp only [if_neg h, select_zero]
    decide

theorem scatL_toInt_eq_iff (t : BitVec 32) (c : Nat) (hc : c < 19) :
    (scatL t).toInt = (c : Int) ↔ t = BitVec.ofNat 32 c := by
  rw [scatL_eq]
  have hcs : (BitVec.ofNat 32 c).toInt = c := toInt_ofNat_small c (by omega)
  by_cases h : Cert.Spec.validL t
  · rw [if_pos h]
    constructor
    · intro e; exact BitVec.eq_of_toInt_eq (by rw [e, hcs])
    · intro e; rw [e, hcs]
  · rw [if_neg h, toInt_19]
    constructor
    · intro e; omega
    · intro e; exfalso; apply h; unfold Cert.Spec.validL; rw [e, hcs]; omega

def pixEquiv : Fin 512 × Fin 512 ≃ Fin 262144 where
  toFun x := ⟨x.1.val * 512 + x.2.val, by have := x.1.isLt; have := x.2.isLt; omega⟩
  invFun p := (⟨p.val / 512, by have := p.isLt; omega⟩, ⟨p.val % 512, by omega⟩)
  left_inv := by
    rintro ⟨⟨i, hi⟩, ⟨j, hj⟩⟩
    refine Prod.ext (Fin.ext ?_) (Fin.ext ?_)
    · show (i * 512 + j) / 512 = i; omega
    · show (i * 512 + j) % 512 = j; omega
  right_inv := by
    rintro ⟨p, hp⟩
    refine Fin.ext ?_
    show p / 512 * 512 + p % 512 = p; omega

theorem sum_pix {M : Type*} [AddCommMonoid M] (f : Fin 262144 → M) :
    ∑ p, f p = ∑ i : Fin 512, ∑ j : Fin 512, f (pixEquiv (i, j)) := by
  rw [← Equiv.sum_comp pixEquiv f, Fintype.sum_prod_type]

def pix (n : Fin 8) (p : Fin 262144) : S8x512x512.Idx :=
  ix3 n ⟨p.val / 512, by have := p.isLt; omega⟩ ⟨p.val % 512, by omega⟩

theorem pix_pixEquiv (n : Fin 8) (i j : Fin 512) : pix n (pixEquiv (i, j)) = ix3 n i j := by
  funext a; refine Fin.ext ?_
  match a with
  | ⟨0, _⟩ => rfl
  | ⟨1, _⟩ => show (i.val * 512 + j.val) / 512 = i.val; have := j.isLt; omega
  | ⟨2, _⟩ => show (i.val * 512 + j.val) % 512 = j.val; have := j.isLt; omega

theorem idx_v0 (n : Fin 8) (p : Fin 262144) : idx_main_v0 (ix2 n p) = pix n p := by
  funext a; refine Fin.ext ?_
  have := p.isLt
  match a with
  | ⟨0, _⟩ => show (n.val * 262144 + p.val) / 262144 = n.val; omega
  | ⟨1, _⟩ => show (n.val * 262144 + p.val) / 512 % 512 = p.val / 512; omega
  | ⟨2, _⟩ => show (n.val * 262144 + p.val) % 512 = p.val % 512; omega

variable {F : FTy → Type} [FloatOps F]

theorem v19_at (T : IVec S8x512x512 32) (n : Fin 8) (p : Fin 262144) :
    val_main_v19 (F := F) T (ix2 n p) = scatL (T (pix n p)) := by
  rw [val_main_v19_apply, val_main_v16_apply, val_main_v18_apply, val_main_v6_apply, val_main_v5_apply, val_main_v2_apply,
    val_main_v4_apply, val_main_v0_apply, val_main_v1_apply, val_main_v3_apply, val_main_v15_apply, val_main_v17_apply,
    val_main_call0_v1_apply, idx_v0]
  rfl

theorem v21_at (n : Fin 8) (p : Fin 262144) (k : Fin 1) :
    val_main_v21 (F := F) (ix3 n p k) = BitVec.ofNat 32 n.val := by
  rw [val_main_v21_apply, val_main_v20_apply, val_main_v14_apply, val_main_v11_apply, val_main_v13_apply, val_main_v9_apply,
    val_main_v10_apply, val_main_v12_apply, val_main_v8_apply]
  show Scalar.select (IntOp.cmpi .slt (BitVec.ofNat 32 n.val) 0#32) (IntOp.addi (BitVec.ofNat 32 n.val) 8#32) (BitVec.ofNat 32 n.val) = _
  revert n; decide

theorem v22_at (T : IVec S8x512x512 32) (n : Fin 8) (p : Fin 262144) (k : Fin 1) :
    val_main_v22 (F := F) T (ix3 n p k) = scatL (T (pix n p)) := by
  rw [val_main_v22_apply, show idx_main_v22 (ix3 n p k) = ix2 n p from
    funext fun a => by match a with | ⟨0, _⟩ => rfl | ⟨1, _⟩ => rfl]
  exact v19_at T n p

theorem v23_at0 (T : IVec S8x512x512 32) (n : Fin 8) (p : Fin 262144) :
    val_main_v23 (F := F) T (ix3 n p (0 : Fin 2)) = BitVec.ofNat 32 n.val := by
  unfold val_main_v23
  refine (concatenate_pair_apply_left (t := S8x262144x2) (s₁ := S8x262144x1) (s₂ := S8x262144x1) (2 : Fin 3) _ _ _ (ix3 n p (0 : Fin 2)) rfl (ix3 n p (0 : Fin 1))
    (fun b => by match b with | ⟨0, _⟩ => rfl | ⟨1, _⟩ => rfl | ⟨2, _⟩ => rfl)).trans ?_
  exact v21_at n p 0

theorem v23_at1 (T : IVec S8x512x512 32) (n : Fin 8) (p : Fin 262144) :
    val_main_v23 (F := F) T (ix3 n p (1 : Fin 2)) = scatL (T (pix n p)) := by
  unfold val_main_v23
  refine (concatenate_pair_apply_right (t := S8x262144x2) (s₁ := S8x262144x1) (s₂ := S8x262144x1) (2 : Fin 3) _ _ _ (ix3 n p (1 : Fin 2)) rfl rfl (ix3 n p (0 : Fin 1))
    (fun b hb => by match b with | ⟨0, _⟩ => rfl | ⟨1, _⟩ => rfl | ⟨2, _⟩ => exact absurd rfl hb) rfl).trans ?_
  exact v22_at T n p 0

theorem ofBits_one : Ideal.ofBits .f32 0x3F800000#32 = 1 := by
  simp [Ideal.ofBits, Ideal.ieee, -EReal.coe_mul]; norm_num
theorem ofBits_zero : Ideal.ofBits .f32 0x00000000#32 = 0 := by simp [Ideal.ofBits, Ideal.ieee]

theorem v25_at (T : IVec S8x512x512 32) (n : Fin 8) (c : Fin 19) :
    val_main_v25 (F := Ideal) T (ix2 n (⟨c.val, by have := c.isLt; omega⟩ : Fin 20)) = cntOf (Cert.Spec.labelsOf3 T) n c := by
  unfold val_main_v25 Host.scatterAdd
  rw [Ideal.hostScatterAdd_def]
  unfold Ideal.hostScatterAdd
  rw [val_main_v7_apply, val_main_cst_apply, Ideal.ofBits_def, ofBits_zero, zero_add, Finset.sum_filter, sum_idx2]
  have key : ∀ (a : Fin 8) (b : Fin 262144),
      (if SD.resultIdx? (ix2 a b) (val_main_v23 (F := Ideal) T) = some (ix2 n (⟨c.val, by have := c.isLt; omega⟩ : Fin 20))
        then val_main_v24 (F := Ideal) (ix2 a b) else 0)
        = if a = n then (if T (pix a b) = BitVec.ofNat 32 c.val then (1 : EReal) else 0) else 0 := by
    intro a b
    rw [val_main_v24_apply, val_main_cst_6_apply, Ideal.ofBits_def, ofBits_one, ← ite_and]
    refine if_congr ?_ rfl rfl
    rw [sd_resultIdx_eq_some_iff, v23_at0, v23_at1, scatL_toInt_eq_iff _ _ c.isLt,
      toInt_ofNat_small _ (by have := a.isLt; omega)]
    refine and_congr ?_ Iff.rfl
    rw [Fin.ext_iff]; omega
  rw [Finset.sum_congr rfl fun a _ => Finset.sum_congr rfl fun b _ => key a b]
  rw [Finset.sum_eq_single n (fun a _ hne => Finset.sum_eq_zero fun b _ => if_neg hne)
    (fun h => absurd (Finset.mem_univ n) h)]
  simp only [if_true]
  rw [sum_pix]
  unfold cntOf Cert.Spec.pixSum Cert.Spec.labelsOf3
  refine Finset.sum_congr rfl fun i _ => Finset.sum_congr rfl fun j _ => ?_
  rw [pix_pixEquiv]

theorem v26_at (T : IVec S8x512x512 32) (n : Fin 8) (c : Fin 19) :
    val_main_v26 (F := Ideal) T (ix2 n c) = cntOf (Cert.Spec.labelsOf3 T) n c := by
  rw [val_main_v26_apply, show idx_main_v26 (ix2 n c) = ix2 n (⟨c.val, by have := c.isLt; omega⟩ : Fin 20) from
    funext fun a => by match a with | ⟨0, _⟩ => rfl | ⟨1, _⟩ => rfl]
  exact v25_at T n c

theorem uitofp_cmp_gt (x y : EReal) :
    FloatOps.uitofp (F := Ideal) .f32 (FloatOps.cmpf (F := Ideal) (φ := .f32) .ogt x y) = if y < x then (1 : EReal) else 0 := by
  show (((Ideal.cmp .ogt x y).toNat : ℝ) : EReal) = _
  unfold Ideal.cmp
  by_cases h : y < x <;> simp [h]

theorem weights_apply (T : IVec S8x512x512 32) (n : Fin 8) (c : Fin 19) :
    val_main_v42 (F := Ideal) T (ix2 n c) = Cert.Spec.clsW (cntOf (Cert.Spec.labelsOf3 T) n) c := by
  rw [val_main_v42_apply, val_main_v40_apply, val_main_v37_apply, val_main_v35_apply, val_main_v34_apply, val_main_v39_apply,
    val_main_v32_apply, val_main_v31_apply, val_main_v30_apply, val_main_v28_apply, val_main_v27_apply,
    val_main_v33_apply, val_main_v36_apply, val_main_v38_apply, val_main_v41_apply, val_main_v29_apply,
    val_main_cst_7_apply, val_main_cst_8_apply, val_main_cst_9_apply, val_main_cst_10_apply, val_main_cst_11_apply,
    val_main_cst_12_apply, v26_at, uitofp_cmp_gt]
  have hs : ∀ k : Fin 19, val_main_v26 (F := Ideal) T (idx_main_v27 (idx_main_v28 (idx_main_v31 (ix2 n c))) k)
      = cntOf (Cert.Spec.labelsOf3 T) n k := fun k => by
    rw [show idx_main_v27 (idx_main_v28 (idx_main_v31 (ix2 n c))) k = ix2 n k from
      funext fun a => by match a with | ⟨0, _⟩ => rfl | ⟨1, _⟩ => rfl]
    exact v26_at T n k
  rw [Finset.sum_congr rfl fun k _ => hs k]
  simp only [Ideal.ofBits_def, Ideal.addf_def, Ideal.mulf_def, Ideal.subf_def, Ideal.maximumf_def, Ideal.hostDivf_def]
  unfold Cert.Spec.clsW
  rw [show Ideal.ofBits .f32 0x00000000#32 + Finset.univ.sum (cntOf (Cert.Spec.labelsOf3 T) n)
    = Finset.univ.sum (cntOf (Cert.Spec.labelsOf3 T) n) from by rw [ofBits_zero, zero_add]]

end Wt

theorem weights_apply (T : IVec S8x512x512 32) (n : Fin 8) (c : Fin 19) :
    Read.val_main_v42 (F := Ideal) T (ix2 n c) = Cert.Spec.clsW (cntOf (Cert.Spec.labelsOf3 T) n) c :=
  Wt.weights_apply T n c

end Cert.RefValue

end
-- ==== Proof.RefLogp.lean ====
import proofs.«428925_j42245298323666_3_alg».proof.Proof.RefReadCore
import proofs.«428925_j42245298323666_3_alg».proof.Proof.Spec
import Idealize.ShloMosaic.Lib.ValueIdx
import Idealize.ShloMosaic.PureOps.Reduce
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx
  Idealize.ShloMosaic.StableHlo

theorem ofBits_negInf : Ideal.ofBits .f32 0xFF800000#32 = (⊥ : EReal) := by simp [Ideal.ofBits, Ideal.ieee]

theorem idx_call1_v3_ix4 (n : Fin 8) (z : Fin 1) (i j : Fin 512) :
    idx_main_call1_v3 (ix4 n z i j) = ix3 n i j := by
  funext a; match a with | ⟨0, _⟩ => rfl | ⟨1, _⟩ => rfl | ⟨2, _⟩ => rfl

theorem idx_call1_v4_ix4 (n : Fin 8) (c : Fin 19) (i j : Fin 512) :
    idx_main_call1_v4 (ix4 n c i j) = ix4 n (0 : Fin 1) i j := by
  funext a; match a with | ⟨0, _⟩ => rfl | ⟨1, _⟩ => rfl | ⟨2, _⟩ => rfl | ⟨3, _⟩ => rfl

theorem idx_call1_v7_ix3 (n : Fin 8) (i j : Fin 512) (k : Fin 19) :
    idx_main_call1_v7 (ix3 n i j) k = ix4 n k i j := by
  funext a; match a with | ⟨0, _⟩ => rfl | ⟨1, _⟩ => rfl | ⟨2, _⟩ => rfl | ⟨3, _⟩ => rfl

theorem idx_call1_v8_ix4 (n : Fin 8) (z : Fin 1) (i j : Fin 512) :
    idx_main_call1_v8 (ix4 n z i j) = ix3 n i j := by
  funext a; match a with | ⟨0, _⟩ => rfl | ⟨1, _⟩ => rfl | ⟨2, _⟩ => rfl

theorem idx_call1_v10_ix4 (n : Fin 8) (c : Fin 19) (i j : Fin 512) :
    idx_main_call1_v10 (ix4 n c i j) = ix4 n (0 : Fin 1) i j := by
  funext a; match a with | ⟨0, _⟩ => rfl | ⟨1, _⟩ => rfl | ⟨2, _⟩ => rfl | ⟨3, _⟩ => rfl

theorem lift_class (h : S8x19x512x512.Reduces [1] S8x512x512) (n : Fin 8) (i j : Fin 512)
    (k : Fin (S8x19x512x512.size 1)) : h.lift (ix3 n i j) k = ix4 n (⟨k.val, k.isLt⟩ : Fin 19) i j := by
  funext c; apply Fin.ext
  fin_cases c <;> rfl

theorem val_call1_v0_apply (X : FVec Ideal S8x19x512x512 .f32) (n : Fin 8) (i j : Fin 512) :
    val_main_call1_v0 (F := Ideal) X (ix3 n i j) = Cert.Spec.mx (Cert.Spec.scoresOf X) n i j := by
  unfold val_main_call1_v0
  rw [Host.reduce_eq_fold_single FloatOps.maximumf X _ reducesTo_S8x19x512x512_S8x512x512_d1 (by decide) h_S_]
  have hf : (X ∘ (by decide : S8x19x512x512.Reduces [1] S8x512x512).lift (ix3 n i j))
      = fun k : Fin 19 => X (ix4 n k i j) := funext fun k => congrArg X (lift_class _ n i j k)
  show Finset.fold max (Ideal.ofBits .f32 0xFF800000#32) _ (Finset.univ : Finset (Fin 19)) = _
  rw [hf, ofBits_negInf]
  rfl

theorem val_call1_v2_apply (X : FVec Ideal S8x19x512x512 .f32) (n : Fin 8) (i j : Fin 512) :
    val_main_call1_v2 (F := Ideal) X (ix3 n i j) = Cert.Spec.mx (Cert.Spec.scoresOf X) n i j := by
  rw [val_main_call1_v2_apply, val_main_call1_v1_apply, val_main_call1_cst_0_apply, val_call1_v0_apply,
    Ideal.maximumf_def, Ideal.ofBits_def, ofBits_negInf]
  exact max_eq_right bot_le

theorem val_call1_v5_apply (X : FVec Ideal S8x19x512x512 .f32) (n : Fin 8) (c : Fin 19) (i j : Fin 512) :
    val_main_call1_v5 (F := Ideal) X (ix4 n c i j)
      = Cert.Spec.scoresOf X n c i j - Cert.Spec.mx (Cert.Spec.scoresOf X) n i j := by
  rw [val_main_call1_v5_apply, val_main_call1_v4_apply, idx_call1_v4_ix4, val_main_call1_v3_apply, idx_call1_v3_ix4,
    val_call1_v2_apply, Ideal.subf_def]
  rfl

theorem val_call1_v9_apply (X : FVec Ideal S8x19x512x512 .f32) (n : Fin 8) (z : Fin 1) (i j : Fin 512) :
    val_main_call1_v9 (F := Ideal) X (ix4 n z i j) = Cert.Spec.lse (Cert.Spec.scoresOf X) n i j := by
  rw [val_main_call1_v9_apply, val_main_call1_v8_apply, idx_call1_v8_ix4, val_main_call1_v7_apply,
    val_main_call1_cst_1_apply, Ideal.hostUnary_log_def, Ideal.ofBits_def, Ideal.ofBits_zero_f32, zero_add]
  unfold Cert.Spec.lse
  refine congrArg Ideal.log (Finset.sum_congr rfl fun k _ => ?_)
  rw [idx_call1_v7_ix3, val_main_call1_v6_apply, val_call1_v5_apply, Ideal.hostUnary_exp_def]

theorem logsoftmax_apply (X : FVec Ideal S8x19x512x512 .f32) (n : Fin 8) (c : Fin 19) (i j : Fin 512) :
    val_main_v43 (F := Ideal) X (ix4 n c i j) = Cert.Spec.logp (Cert.Spec.scoresOf X) n c i j := by
  rw [val_main_v43_apply, val_call1_v5_apply, val_main_call1_v10_apply, idx_call1_v10_ix4, val_call1_v9_apply,
    Ideal.subf_def]
  rfl

def clipW (t : BitVec 32) : BitVec 32 := IntOp.minsi 18#32 (IntOp.maxsi 0#32 t)

theorem clipW_toInt (t : BitVec 32) : (clipW t).toInt = max 0 (min 18 t.toInt) := by
  unfold clipW IntOp.minsi IntOp.maxsi
  have h0 : (0#32 : BitVec 32).toInt = 0 := by decide
  have h18 : (18#32 : BitVec 32).toInt = 18 := by decide
  by_cases h1 : t.slt 0#32 = true
  · rw [if_pos h1]
    have h2 : ¬ ((18#32 : BitVec 32).slt 0#32 = true) := by decide
    rw [if_neg h2, h0]
    rw [BitVec.slt_iff_toInt_lt, h0] at h1
    omega
  · rw [if_neg h1]
    rw [BitVec.slt_iff_toInt_lt, h0] at h1
    by_cases h2 : (18#32 : BitVec 32).slt t = true
    · rw [if_pos h2, h18]
      rw [BitVec.slt_iff_toInt_lt, h18] at h2
      omega
    · rw [if_neg h2]
      rw [BitVec.slt_iff_toInt_lt, h18] at h2
      omega

theorem clipW_nonneg (t : BitVec 32) : 0 ≤ (clipW t).toInt := by rw [clipW_toInt]; omega
theorem clipW_le (t : BitVec 32) : (clipW t).toInt ≤ 18 := by rw [clipW_toInt]; omega

theorem clipW_toNat (t : BitVec 32) : (clipW t).toInt.toNat = (Cert.Spec.clipL t).val := by
  rw [clipW_toInt]; rfl

theorem idx_v45_ix4 (n : Fin 8) (z : Fin 1) (i j : Fin 512) : idx_main_v45 (ix4 n z i j) = ix3 n i j := by
  funext a; match a with | ⟨0, _⟩ => rfl | ⟨1, _⟩ => rfl | ⟨2, _⟩ => rfl

theorem val_v44_apply (T : IVec S8x512x512 32) (n : Fin 8) (i j : Fin 512) :
    val_main_v44 (F := Ideal) T (ix3 n i j) = clipW (T (ix3 n i j)) := by
  rw [val_main_v44_apply, val_main_call2_v4_apply, val_main_call2_v3_apply, val_main_c_14_apply,
    val_main_call2_v2_apply, val_main_call2_v1_apply, val_main_call2_v0_apply, val_main_c_13_apply]
  rfl

theorem val_v45_apply (T : IVec S8x512x512 32) (n : Fin 8) (z : Fin 1) (i j : Fin 512) :
    val_main_v45 (F := Ideal) T (ix4 n z i j) = clipW (T (ix3 n i j)) := by
  rw [val_main_v45_apply, idx_v45_ix4, val_v44_apply]

theorem val_v44_gen (T : IVec S8x512x512 32) (p : S8x512x512.Idx) :
    val_main_v44 (F := Ideal) T p = clipW (T p) := by
  rw [val_main_v44_apply, val_main_call2_v4_apply, val_main_call2_v3_apply, val_main_c_14_apply,
    val_main_call2_v2_apply, val_main_call2_v1_apply, val_main_call2_v0_apply, val_main_c_13_apply]
  rfl

theorem val_v45_gen (T : IVec S8x512x512 32) (p : S8x1x512x512.Idx) :
    val_main_v45 (F := Ideal) T p = clipW (T (idx_main_v45 p)) := by
  rw [val_main_v45_apply, val_v44_gen]

theorem val_call3_v4_gen (T : IVec S8x512x512 32) (p : S8x1x512x512.Idx) :
    val_main_call3_v4 (F := Ideal) T p = clipW (T (idx_main_v45 p)) := by
  rw [val_main_call3_v4_apply, val_main_call3_v1_apply, val_main_call3_v0_apply, val_main_call3_c_apply, val_v45_gen]
  have h : ¬ IntOp.cmpi .slt (clipW (T (idx_main_v45 p))) 0#32 = 1#1 := by
    rw [IntOp.cmpi_slt]
    have h0 : (0#32 : BitVec 32).toInt = 0 := by decide
    have := clipW_nonneg (T (idx_main_v45 p))
    omega
  rw [eq_zero_of_ne_one h, select_zero]

theorem val_call3_v5_gen (T : IVec S8x512x512 32) (q : S8x1x512x512x1.Idx) :
    val_main_call3_v5 (F := Ideal) T q = clipW (T (idx_main_v45 (idx_main_call3_v5 q))) := by
  rw [val_main_call3_v5_apply, val_call3_v4_gen]

theorem val_call3_v11_gen (T : IVec S8x512x512 32) (q : S8x1x512x512x1.Idx) :
    val_main_call3_v11 (F := Ideal) T q = 1#1 := by
  rw [val_main_call3_v11_apply, IntOp.andi_eq_one, val_main_call3_v7_apply, val_main_call3_v10_apply,
    val_main_call3_v6_apply, val_main_call3_c_2_apply, val_main_call3_v9_apply, val_main_call3_v8_apply,
    val_main_call3_c_1_apply, val_call3_v5_gen, IntOp.cmpi_sge, IntOp.cmpi_sle]
  have h0 : (0#32 : BitVec 32).toInt = 0 := by decide
  have h18 : (18#32 : BitVec 32).toInt = 18 := by decide
  rw [h0, h18]
  exact ⟨clipW_nonneg _, clipW_le _⟩

theorem fold_andi_one {ι : Type} (S : Finset ι) (f : ι → BitVec 1) (hf : ∀ q, f q = 1#1) :
    S.fold IntOp.andi 1#1 f = 1#1 := by
  induction S using Finset.cons_induction with
  | empty => rfl
  | cons a S ha ih => rw [Finset.fold_cons, ih, hf]; rfl

theorem val_call3_v12_gen (T : IVec S8x512x512 32) (p : S8x1x512x512.Idx) :
    val_main_call3_v12 (F := Ideal) T p = 1#1 := by
  unfold val_main_call3_v12
  rw [Host.reduce_eq_fold]
  exact fold_andi_one _ _ (val_call3_v11_gen T)

abbrev takeD : GatherDims S8x19x512x512 S8x1x512x512x1 S8x1x512x512 :=
  gather_S8x19x512x512_S8x1x512x512x1_S8x1x512x512_n_1_023_023_1_4_1111

theorem takeD_siIdx (n : Fin 8) (z : Fin 1) (i j : Fin 512) (c : Fin takeD.startIndexMap.length) :
    takeD.siIdx (ix4 n z i j) c = ix5 n z i j (0 : Fin 1) := by
  funext b; refine Fin.ext ?_
  match b with
  | ⟨0, _⟩ => rfl
  | ⟨1, _⟩ => rfl
  | ⟨2, _⟩ => rfl
  | ⟨3, _⟩ => rfl
  | ⟨4, _⟩ =>
    have hc : c.val = 0 := by have := c.isLt; have hl : takeD.startIndexMap.length = 1 := rfl; omega
    show c.val = 0
    exact hc

def clampCls (m : Nat) : Fin 19 := ⟨min m 18, by omega⟩

theorem gather_class_apply {α : Type} {w : Nat} (x : S8x19x512x512.Idx → α) (idx : IVec S8x1x512x512x1 w)
    (n : Fin 8) (z : Fin 1) (i j : Fin 512) :
    Host.gather takeD x idx (ix4 n z i j)
      = x (ix4 n (clampCls (idx (ix5 n z i j (0 : Fin 1))).toInt.toNat) i j) := by
  unfold Host.gather
  congr 1
  funext a
  refine Fin.ext ?_
  match a with
  | ⟨0, _⟩ =>
    show takeD.start (ix4 n z i j) idx 0 + takeD.batchCoord (ix4 n z i j) 0 + takeD.offCoord (ix4 n z i j) 0 = n.val
    rw [takeD.start_batching _ idx 0 (by decide),
      takeD.offCoord_eq_zero _ 0 (fun h => ((takeD.mem_sKept 0).1 h).2 (by decide)), Nat.zero_add, Nat.add_zero]
    rfl
  | ⟨1, _⟩ =>
    show takeD.start (ix4 n z i j) idx 1 + takeD.batchCoord (ix4 n z i j) 1 + takeD.offCoord (ix4 n z i j) 1
      = min (idx (ix5 n z i j (0 : Fin 1))).toInt.toNat 18
    rw [takeD.batchCoord_eq_zero _ 1 (by decide),
      takeD.offCoord_eq_zero _ 1 (fun h => ((takeD.mem_sKept 1).1 h).1 (by decide)), Nat.add_zero]
    unfold GatherDims.start
    rw [dif_pos (by decide : (1 : Fin 4) ∈ takeD.startIndexMap), takeD_siIdx]
    rfl
  | ⟨2, _⟩ =>
    show takeD.start (ix4 n z i j) idx 2 + takeD.batchCoord (ix4 n z i j) 2 + takeD.offCoord (ix4 n z i j) 2 = i.val
    rw [takeD.start_batching _ idx 2 (by decide),
      takeD.offCoord_eq_zero _ 2 (fun h => ((takeD.mem_sKept 2).1 h).2 (by decide)), Nat.zero_add, Nat.add_zero]
    rfl
  | ⟨3, _⟩ =>
    show takeD.start (ix4 n z i j) idx 3 + takeD.batchCoord (ix4 n z i j) 3 + takeD.offCoord (ix4 n z i j) 3 = j.val
    rw [takeD.start_batching _ idx 3 (by decide),
      takeD.offCoord_eq_zero _ 3 (fun h => ((takeD.mem_sKept 3).1 h).2 (by decide)), Nat.zero_add, Nat.add_zero]
    rfl

theorem clampCls_clipW (t : BitVec 32) : clampCls (clipW t).toInt.toNat = Cert.Spec.clipL t := by
  refine Fin.ext ?_
  show min (clipW t).toInt.toNat 18 = (Cert.Spec.clipL t).val
  rw [clipW_toNat]
  have := (Cert.Spec.clipL t).isLt
  omega

theorem idx_call3_v5_ix5 (n : Fin 8) (z : Fin 1) (i j : Fin 512) (e : Fin 1) :
    idx_main_call3_v5 (ix5 n z i j e) = ix4 n (0 : Fin 1) i j := by
  funext a; refine Fin.ext ?_
  have hn := n.isLt; have hz := z.isLt; have hi := i.isLt; have hj := j.isLt; have he := e.isLt
  match a with
  | ⟨0, _⟩ => show ((((n.val * 1 + z.val) * 512 + i.val) * 512 + j.val) * 1 + e.val) / 262144 = n.val; omega
  | ⟨1, _⟩ => rfl
  | ⟨2, _⟩ => show ((((n.val * 1 + z.val) * 512 + i.val) * 512 + j.val) * 1 + e.val) / 512 % 512 = i.val; omega
  | ⟨3, _⟩ => show ((((n.val * 1 + z.val) * 512 + i.val) * 512 + j.val) * 1 + e.val) % 512 = j.val; omega

theorem idx_v47_ix3 (n : Fin 8) (i j : Fin 512) : idx_main_v47 (ix3 n i j) = ix4 n (0 : Fin 1) i j := by
  funext a; refine Fin.ext ?_
  have hn := n.isLt; have hi := i.isLt; have hj := j.isLt
  match a with
  | ⟨0, _⟩ => show ((n.val * 512 + i.val) * 512 + j.val) / 262144 = n.val; omega
  | ⟨1, _⟩ => rfl
  | ⟨2, _⟩ => show ((n.val * 512 + i.val) * 512 + j.val) / 512 % 512 = i.val; omega
  | ⟨3, _⟩ => show ((n.val * 512 + i.val) * 512 + j.val) % 512 = j.val; omega

theorem val_call3_v13_apply (X : FVec Ideal S8x19x512x512 .f32) (T : IVec S8x512x512 32) (n : Fin 8) (z : Fin 1)
    (i j : Fin 512) :
    val_main_call3_v13 (F := Ideal) X T (ix4 n z i j)
      = Cert.Spec.logp (Cert.Spec.scoresOf X) n (Cert.Spec.clipL (T (ix3 n i j))) i j := by
  unfold val_main_call3_v13
  rw [gather_class_apply, val_call3_v5_gen, idx_call3_v5_ix5, idx_v45_ix4, clampCls_clipW, logsoftmax_apply]

theorem val_v46_apply (X : FVec Ideal S8x19x512x512 .f32) (T : IVec S8x512x512 32) (n : Fin 8) (z : Fin 1)
    (i j : Fin 512) :
    val_main_v46 (F := Ideal) X T (ix4 n z i j)
      = Cert.Spec.logp (Cert.Spec.scoresOf X) n (Cert.Spec.clipL (T (ix3 n i j))) i j := by
  rw [val_main_v46_apply, val_call3_v12_gen, select_one, val_call3_v13_apply]

theorem lp_apply (X : FVec Ideal S8x19x512x512 .f32) (T : IVec S8x512x512 32) (n : Fin 8) (i j : Fin 512) :
    val_main_v47 (F := Ideal) X T (ix3 n i j)
      = Cert.Spec.logp (Cert.Spec.scoresOf X) n (Cert.Spec.clipL (T (ix3 n i j))) i j := by
  rw [val_main_v47_apply, idx_v47_ix3, val_v46_apply]

end Cert.RefValue

end
-- ==== Proof.RefWp.lean ====
import proofs.«428925_j42245298323666_3_alg».proof.Proof.RefLogp
import proofs.«428925_j42245298323666_3_alg».proof.Proof.RefReadCore
import proofs.«428925_j42245298323666_3_alg».proof.Proof.Spec

noncomputable section

open scoped BigOperators

namespace Cert.RefValue

open Cert.ReferenceIdeal Cert.ReferenceIdeal.Gen Cert.ReferenceIdeal.Read Idealize.ShloMosaic Idealize.ShloMosaic.ValueIdx
  Idealize.ShloMosaic.StableHlo

def flat (i j : Fin 512) : Fin 262144 := ⟨i.val * 512 + j.val, by have := i.isLt; have := j.isLt; omega⟩

theorem idx_v0_flat (n : Fin 8) (i j : Fin 512) : idx_main_v0 (ix2 n (flat i j)) = ix3 n i j := by
  funext a; refine Fin.ext ?_
  have hn := n.isLt; have hi := i.isLt; have hj := j.isLt
  match a with
  | ⟨0, _⟩ => show (n.val * 262144 + (i.val * 512 + j.val)) / 262144 = n.val; omega
  | ⟨1, _⟩ => show (n.val * 262144 + (i.val * 512 + j.val)) / 512 % 512 = i.val; omega
  | ⟨2, _⟩ => show (n.val * 262144 + (i.val * 512 + j.val)) % 512 = j.val; omega

theorem idx_v48_flat (n : Fin 8) (i j : Fin 512) : idx_main_v48 (ix2 n (flat i j)) = ix3 n i j := idx_v0_flat n i j

theorem idx_v50_ix3 (n : Fin 8) (i j : Fin 512) : idx_main_v50 (ix3 n i j) = ix2 n (flat i j) := by
  funext a; refine Fin.ext ?_
  have hn := n.isLt; have hi := i.isLt; have hj := j.isLt
  match a with
  | ⟨0, _⟩ => show ((n.val * 512 + i.val) * 512 + j.val) / 262144 = n.val; omega
  | ⟨1, _⟩ => show ((n.val * 512 + i.val) * 512 + j.val) % 262144 = i.val * 512 + j.val; omega

theorem idx_v51_ix3 (n : Fin 8) (i j : Fin 512) : idx_main_v51 (ix3 n i j) = ix2 n (flat i j) := idx_v50_ix3 n i j

theorem idx_call4_v5_ix3 (n : Fin 8) (m : Fin 262144) (e : Fin 1) : idx_main_call4_v5 (ix3 n m e) = ix2 n m := by
  funext a; refine Fin.ext ?_
  have hn := n.isLt; have hm := m.isLt; have he := e.isLt
  match a with
  | ⟨0, _⟩ => show ((n.val * 262144 + m.val) * 1 + e.val) / 262144 = n.val; omega
  | ⟨1, _⟩ => show ((n.val * 262144 + m.val) * 1 + e.val) % 262144 = m.val; omega

theorem val_v5_gen (T : IVec S8x512x512 32) (p : S8x262144.Idx) :
    val_main_v5 (F := Ideal) T p = 1#1 ↔ Cert.Spec.validL (T (idx_main_v0 p)) := by
  rw [val_main_v5_apply, IntOp.andi_eq_one, val_main_v2_apply, val_main_v4_apply, val_main_v0_apply, val_main_v1_apply,
    val_main_c_apply, val_main_v3_apply, val_main_c_0_apply, IntOp.cmpi_sge, IntOp.cmpi_slt]
  have h0 : (0#32 : BitVec 32).toInt = 0 := by decide
  have h19 : (19#32 : BitVec 32).toInt = 19 := by decide
  rw [h0, h19]
  rfl

theorem val_v5_apply (T : IVec S8x512x512 32) (n : Fin 8) (i j : Fin 512) :
    val_main_v5 (F := Ideal) T (ix2 n (flat i j)) = 1#1 ↔ Cert.Spec.validL (T (ix3 n i j)) := by
  rw [val_v5_gen, idx_v0_flat]

theorem val_v51_apply (T : IVec S8x512x512 32) (n : Fin 8) (i j : Fin 512) :
    val_main_v51 (F := Ideal) T (ix3 n i j) = 1#1 ↔ Cert.Spec.validL (T (ix3 n i j)) := by
  rw [val_main_v51_apply, idx_v51_ix3, val_v5_apply]

theorem val_v48_gen (T : IVec S8x512x512 32) (p : S8x262144.Idx) :
    val_main_v48 (F := Ideal) T p = clipW (T (idx_main_v48 p)) := by
  rw [val_main_v48_apply, val_v44_gen]

theorem val_call4_v4_gen (T : IVec S8x512x512 32) (p : S8x262144.Idx) :
    val_main_call4_v4 (F := Ideal) T p = clipW (T (idx_main_v48 p)) := by
  rw [val_main_call4_v4_apply, val_main_call4_v1_apply, val_main_call4_v0_apply, val_main_call4_c_apply, val_v48_gen]
  have h : ¬ IntOp.cmpi .slt (clipW (T (idx_main_v48 p))) 0#32 = 1#1 := by
    rw [IntOp.cmpi_slt]
    have h0 : (0#32 : BitVec 32).toInt = 0 := by decide
    have := clipW_nonneg (T (idx_main_v48 p))
    omega
  rw [eq_zero_of_ne_one h, select_zero]

theorem val_call4_v5_gen (T : IVec S8x512x512 32) (q : S8x262144x1.Idx) :
    val_main_call4_v5 (F := Ideal) T q = clipW (T (idx_main_v48 (idx_main_call4_v5 q))) := by
  rw [val_main_call4_v5_apply, val_call4_v4_gen]

theorem val_call4_v11_gen (T : IVec S8x512x512 32) (q : S8x262144x1.Idx) :
    val_main_call4_v11 (F := Ideal) T q = 1#1 := by
  rw [val_main_call4_v11_apply, IntOp.andi_eq_one, val_main_call4_v7_apply, val_main_call4_v10_apply,
    val_main_call4_v6_apply, val_main_call4_c_2_apply, val_main_call4_v9_apply, val_main_call4_v8_apply,
    val_main_call4_c_1_apply, val_call4_v5_gen, IntOp.cmpi_sge, IntOp.cmpi_sle]
  have h0 : (0#32 : BitVec 32).toInt = 0 := by decide
  have h18 : (18#32 : BitVec 32).toInt = 18 := by decide
  rw [h0, h18]
  exact ⟨clipW_nonneg _, clipW_le _⟩

theorem val_call4_v12_gen (T : IVec S8x512x512 32) (p : S8x262144.Idx) :
    val_main_call4_v12 (F := Ideal) T p = 1#1 := by
  unfold val_main_call4_v12
  rw [Host.reduce_eq_fold]
  exact fold_andi_one _ _ (val_call4_v11_gen T)

abbrev takeW : GatherDims S8x19 S8x262144x1 S8x262144 := gather_S8x19_S8x262144x1_S8x262144_n_1_0_0_1_2_11

theorem takeW_siIdx (n : Fin 8) (m : Fin 262144) (c : Fin takeW.startIndexMap.length) :
    takeW.siIdx (ix2 n m) c = ix3 n m (0 : Fin 1) := by
  funext b; refine Fin.ext ?_
  match b with
  | ⟨0, _⟩ => rfl
  | ⟨1, _⟩ => rfl
  | ⟨2, _⟩ =>
    have hc : c.val = 0 := by have := c.isLt; have hl : takeW.startIndexMap.length = 1 := rfl; omega
    show c.val = 0
    exact hc

theorem gather_row_apply {α : Type} {w : Nat} (x : S8x19.Idx → α) (idx : IVec S8x262144x1 w) (n : Fin 8)
    (m : Fin 262144) :
    Host.gather takeW x idx (ix2 n m) = x (ix2 n (clampCls (idx (ix3 n m (0 : Fin 1))).toInt.toNat)) := by
  unfold Host.gather
  congr 1
  funext a
  refine Fin.ext ?_
  match a with
  | ⟨0, _⟩ =>
    show takeW.start (ix2 n m) idx 0 + takeW.batchCoord (ix2 n m) 0 + takeW.offCoord (ix2 n m) 0 = n.val
    rw [takeW.start_batching _ idx 0 (by decide),
      takeW.offCoord_eq_zero _ 0 (fun h => ((takeW.mem_sKept 0).1 h).2 (by decide)), Nat.zero_add, Nat.add_zero]
    rfl
  | ⟨1, _⟩ =>
    show takeW.start (ix2 n m) idx 1 + takeW.batchCoord (ix2 n m) 1 + takeW.offCoord (ix2 n m) 1
      = min (idx (ix3 n m (0 : Fin 1))).toInt.toNat 18
    rw [takeW.batchCoord_eq_zero _ 1 (by decide),
      takeW.offCoord_eq_zero _ 1 (fun h => ((takeW.mem_sKept 1).1 h).1 (by decide)), Nat.add_zero]
    unfold GatherDims.start
    rw [dif_pos (by decide : (1 : Fin 2) ∈ takeW.startIndexMap), takeW_siIdx]
    rfl

theorem val_call4_v13_apply (T : IVec S8x512x512 32) (n : Fin 8) (i j : Fin 512) :
    val_main_call4_v13 (F := Ideal) T (ix2 n (flat i j))
      = val_main_v42 (F := Ideal) T (ix2 n (Cert.Spec.clipL (T (ix3 n i j)))) := by
  unfold val_main_call4_v13
  rw [gather_row_apply, val_call4_v5_gen, idx_call4_v5_ix3, idx_v48_flat, clampCls_clipW]

theorem val_v49_apply (T : IVec S8x512x512 32) (n : Fin 8) (i j : Fin 512) :
    val_main_v49 (F := Ideal) T (ix2 n (flat i j))
      = val_main_v42 (F := Ideal) T (ix2 n (Cert.Spec.clipL (T (ix3 n i j)))) := by
  rw [val_main_v49_apply, val_call4_v12_gen, select_one, val_call4_v13_apply]

theorem val_v50_apply (T : IVec S8x512x512 32) (n : Fin 8) (i j : Fin 512) :
    val_main_v50 (F := Ideal) T (ix3 n i j)
      = val_main_v42 (F := Ideal) T (ix2 n (Cert.Spec.clipL (T (ix3 n i j)))) := by
  rw [val_main_v50_apply, idx_v50_ix3, val_v49_apply]

theorem wp_apply (T : IVec S8x512x512 32) (n : Fin 8) (i j : Fin 512) :
    val_main_v52 (F := Ideal) T (ix3 n i j)
      = if Cert.Spec.validL (T (ix3 n i j)) then val_main_v42 (F := Ideal) T (ix2 n (Cert.Spec.clipL (T (ix3 n i j))))
        else Cert.Spec.c0 := by
  rw [val_main_v52_apply, val_v50_apply, val_main_call5_v1_apply, val_main_call5_v0_apply, val_main_cst_15_apply,
    Ideal.ofBits_def]
  by_cases hv : Cert.Spec.validL (T (ix3 n i j))
  · rw [if_pos hv, (val_v51_apply T n i j).2 hv, select_one]
  · rw [if_neg hv, eq_zero_of_ne_one (fun h => hv ((val_v51_apply T n i j).1 h)), select_zero]

theorem wp_apply_of
    (hw : ∀ (T : IVec S8x512x512 32) (n : Fin 8) (c : Fin 19), val_main_v42 (F := Ideal) T (ix2 n c)
      = Cert.Spec.clsW (fun c' => Cert.Spec.pixSum fun i' j' =>
          if Cert.Spec.labelsOf3 T n i' j' = BitVec.ofNat 32 c'.val then 1 else 0) c)
    (T : IVec S8x512x512 32) (n : Fin 8) (i j : Fin 512) :
    val_main_v52 (F := Ideal) T (ix3 n i j)
      = if Cert.Spec.validL (T (ix3 n i j)) then
          Cert.Spec.clsW (fun c' => Cert.Spec.pixSum fun i' j' =>
            if Cert.Spec.labelsOf3 T n i' j' = BitVec.ofNat 32 c'.val then 1 else 0) (Cert.Spec.clipL (T (ix3 n i j)))
        else Cert.Spec.c0 := by
  rw [wp_apply, hw]

end Cert.RefValue

end
-- ==== Proof.RefNllFin.lean ====
import proofs.«428925_j42245298323666_3_alg».proof.Proof.RefNll
import proofs.«428925_j42245298323666_3_alg».proof.Proof.RefWeights
import proofs.«428925_j42245298323666_3_alg».proof.Proof.RefWp
import proofs.«428925_j42245298323666_3_alg».proof.Proof.RefLogp

noncomputable section

namespace Cert.RefValue

open Cert.ReferenceIdeal Cert.ReferenceIdeal.Read Idealize.ShloMosaic Idealize.ShloMosaic.ValueIdx

theorem wpSpec : WpSpec := fun T n i j => wp_apply_of (fun T n c => weights_apply T n c) T n i j

theorem lpSpec : LpSpec := fun X T n i j => lp_apply X T n i j

theorem nll_seg_value (X : FVec Ideal S8x19x512x512 .f32) (T : IVec S8x512x512 32) :
    val_main_v61 (F := Ideal) X T ix0
      = Cert.Spec.c1 * Cert.Spec.nllRef (Cert.Spec.scoresOf X) (Cert.Spec.labelsOf3 T) :=
  nll_seg_value_of wpSpec lpSpec X T

theorem nll_att_value (X : FVec Ideal S8x19x512x512 .f32) (E : FVec Ideal S8x1x512x512 .f32) (T : IVec S8x512x512 32) :
    val_main_v160 (F := Ideal) X E T ix0
      = Cert.Spec.c1 * Cert.Spec.nllRef (Cert.Spec.scoresOf X) (Cert.Spec.attL (Cert.Spec.planeOf E) (Cert.Spec.labelsOf3 T)) :=
  nll_att_value_of wpSpec lpSpec X E T

end Cert.RefValue

end
-- ==== Proof.MathBce.lean ====
import proofs.«428925_j42245298323666_3_alg».proof.Proof.Spec
import Idealize.ShloMosaic.PureOps.Ideal
import Idealize.ShloMosaic.PureOps.Ideal.Laws
import Idealize.ShloMosaic.Lib.IdealHost

noncomputable section

open scoped BigOperators

namespace Cert.Math

open Idealize.ShloMosaic Cert.Spec

namespace Bce

theorem coe_sum {ι : Type} (s : Finset ι) (f : ι → ℝ) :
    (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem sum_real {ι : Type} (s : Finset ι) (f : ι → EReal) (h : ∀ i, ∃ r : ℝ, f i = (r : EReal)) :
    ∃ r : ℝ, ∑ i ∈ s, f i = (r : EReal) := by
  choose fr hfr using h
  exact ⟨∑ i ∈ s, fr i, by simp only [hfr, coe_sum]⟩

theorem pixSum_real (f : Fin 512 → Fin 512 → EReal) (h : ∀ i j, ∃ r : ℝ, f i j = (r : EReal)) :
    ∃ r : ℝ, pixSum f = (r : EReal) :=
  sum_real _ _ fun i => sum_real _ _ (h i)

theorem c0_eq : c0 = 0 := Ideal.ofBits_zero_f32
theorem c1_eq : c1 = 1 := Ideal.ofBits_one_f32
theorem c1_ne_c0 : c1 ≠ c0 := by rw [c0_eq, c1_eq]; exact one_ne_zero

theorem isPos_real (g : Labels) (n : Fin 8) (i j : Fin 512) : ∃ r : ℝ, isPos g n i j = (r : EReal) := by
  unfold isPos
  split
  · exact ⟨1, by simp⟩
  · exact ⟨0, by simp⟩

theorem isNeg_real (g : Labels) (n : Fin 8) (i j : Fin 512) : ∃ r : ℝ, isNeg g n i j = (r : EReal) := by
  unfold isNeg
  split
  · exact ⟨1, by simp⟩
  · exact ⟨0, by simp⟩

theorem bce_real (e : Plane) (g : Labels) (he : ∀ n i j, ∃ r : ℝ, e n i j = (r : EReal)) (n : Fin 8) (i j : Fin 512) :
    ∃ r : ℝ, bce e g n i j = (r : EReal) := by
  obtain ⟨r, hr⟩ := he n i j
  refine ⟨max r 0 - r * ((g n i j).toInt : ℝ) + Real.log (1 + Real.exp (-(max r (-r)))), ?_⟩
  have hpos : ¬ (1 + Real.exp (-(max r (-r))) ≤ 0) := not_le.mpr (by positivity)
  have h1 : Ideal.log1p (Ideal.exp (-(max (r : EReal) (-(r : EReal)))))
      = ((Real.log (1 + Real.exp (-(max r (-r)))) : ℝ) : EReal) := by
    rw [← EReal.coe_neg, ← coe_max, ← EReal.coe_neg, Ideal.exp_coe, Ideal.log1p, ← EReal.coe_one, ← EReal.coe_add,
      Ideal.log_coe, if_neg hpos]
  unfold bce edgeT
  rw [hr, h1, c0_eq, ← EReal.coe_zero, ← coe_max, ← EReal.coe_mul, ← EReal.coe_sub, ← EReal.coe_add]

theorem share_real (x y : EReal) (hx : ∃ r : ℝ, x = (r : EReal)) (hy : ∃ r : ℝ, y = (r : EReal)) :
    ∃ r : ℝ, Ideal.div x (max y c1) = (r : EReal) := by
  obtain ⟨xr, rfl⟩ := hx
  obtain ⟨yr, rfl⟩ := hy
  have hne : max yr 1 ≠ 0 := by
    have : (1 : ℝ) ≤ max yr 1 := le_max_right _ _
    intro h; rw [h] at this; exact absurd this (by norm_num)
  rw [c1_eq, ← EReal.coe_one, ← coe_max, Ideal.div_coe hne, ← EReal.coe_mul]
  exact ⟨_, rfl⟩

theorem weight_split (t a b B : EReal) :
    ((if t = c1 then a else c0) + (if t = c0 then b else c0)) * B
      = a * (B * (if t = c1 then 1 else 0)) + b * (B * (if t = c0 then 1 else 0)) := by
  rw [c0_eq, c1_eq]
  by_cases h1 : t = 1
  · have h0 : ¬ t = 0 := by rw [h1]; exact one_ne_zero
    rw [if_pos h1, if_neg h0, if_pos h1, if_neg h0, add_zero, mul_one, mul_zero, mul_zero, add_zero]
  · by_cases h0 : t = 0
    · rw [if_neg h1, if_pos h0, if_neg h1, if_pos h0, zero_add, mul_one, mul_zero, mul_zero, zero_add]
    · rw [if_neg h1, if_neg h0, if_neg h1, if_neg h0, zero_add, zero_mul, mul_zero, mul_zero, mul_zero, add_zero]

theorem sum_lin (a b : EReal) (ha : ∃ r : ℝ, a = (r : EReal)) (hb : ∃ r : ℝ, b = (r : EReal))
    (U V : Fin 8 → Fin 512 → Fin 512 → EReal)
    (hU : ∀ n i j, ∃ r : ℝ, U n i j = (r : EReal)) (hV : ∀ n i j, ∃ r : ℝ, V n i j = (r : EReal)) :
    (∑ n, pixSum fun i j => a * U n i j + b * V n i j)
      = a * (∑ n, pixSum fun i j => U n i j) + b * (∑ n, pixSum fun i j => V n i j) := by
  obtain ⟨ar, rfl⟩ := ha
  obtain ⟨br, rfl⟩ := hb
  choose Ur hUr using hU
  choose Vr hVr using hV
  simp only [pixSum, hUr, hVr, ← EReal.coe_mul, ← EReal.coe_add, ← coe_sum]
  congr 1
  simp only [Finset.mul_sum, Finset.sum_add_distrib]

end Bce

open Bce in

theorem bceRef_eq (e : Plane) (g : Labels) (he : ∀ n i j, ∃ r : ℝ, e n i j = (r : EReal)) :
    bceRef e g = bceTot (nPos g) (nNeg g) (bPos e g) (bNeg e g) := by
  have hP : ∃ r : ℝ, (∑ n, nPos g n) = (r : EReal) :=
    sum_real _ _ fun n => pixSum_real _ fun i j => isPos_real g n i j
  have hN : ∃ r : ℝ, (∑ n, nNeg g n) = (r : EReal) :=
    sum_real _ _ fun n => pixSum_real _ fun i j => isNeg_real g n i j
  have hPN : ∃ r : ℝ, (∑ n, nPos g n) + (∑ n, nNeg g n) = (r : EReal) := by
    obtain ⟨p, hp⟩ := hP
    obtain ⟨q, hq⟩ := hN
    exact ⟨p + q, by rw [hp, hq, EReal.coe_add]⟩
  have ha := share_real _ _ hN hPN
  have hb := share_real _ _ hP hPN
  have hU : ∀ n i j, ∃ r : ℝ, bce e g n i j * isPos g n i j = (r : EReal) := fun n i j => by
    obtain ⟨u, hu⟩ := bce_real e g he n i j
    obtain ⟨v, hv⟩ := isPos_real g n i j
    exact ⟨u * v, by rw [hu, hv, EReal.coe_mul]⟩
  have hV : ∀ n i j, ∃ r : ℝ, bce e g n i j * isNeg g n i j = (r : EReal) := fun n i j => by
    obtain ⟨u, hu⟩ := bce_real e g he n i j
    obtain ⟨v, hv⟩ := isNeg_real g n i j
    exact ⟨u * v, by rw [hu, hv, EReal.coe_mul]⟩
  have key := sum_lin _ _ ha hb _ _ hU hV
  unfold bceRef bceTot
  dsimp only
  congr 1
  simp only [bPos, bNeg]
  rw [← key]
  refine Finset.sum_congr rfl fun n _ => ?_
  unfold pixSum
  refine Finset.sum_congr rfl fun i _ => Finset.sum_congr rfl fun j _ => ?_
  exact weight_split _ _ _ _

end Cert.Math

end
-- ==== Proof.MathNll.lean ====
import Mathlib.Data.EReal.Operations
import Mathlib.Algebra.Order.BigOperators.Group.Finset
import Mathlib.Algebra.Order.Field.Basic
import Idealize.ShloMosaic.PureOps.Ideal
import Idealize.ShloMosaic.PureOps.Ideal.Laws
import proofs.«428925_j42245298323666_3_alg».proof.Proof.Spec

noncomputable section

open scoped BigOperators

namespace Cert.Math

open Idealize.ShloMosaic Cert.Spec

theorem coe_sum {ι : Type} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

theorem mul_sum_of_nonneg {ι : Type} (s : Finset ι) {a : EReal} (h0 : 0 ≤ a) (ht : a ≠ ⊤) (f : ι → EReal) :
    a * ∑ i ∈ s, f i = ∑ i ∈ s, a * f i := by
  classical
  refine Finset.induction_on s (by simp) ?_
  intro i s hi ih
  rw [Finset.sum_insert hi, Finset.sum_insert hi, EReal.left_distrib_of_nonneg_of_ne_top h0 ht, ih]

theorem mul_pixSum {a : EReal} (h0 : 0 ≤ a) (ht : a ≠ ⊤) (f : Fin 512 → Fin 512 → EReal) :
    a * pixSum f = pixSum fun i j => a * f i j := by
  unfold pixSum
  rw [mul_sum_of_nonneg _ h0 ht]
  exact Finset.sum_congr rfl fun i _ => mul_sum_of_nonneg _ h0 ht _

theorem pixSum_sum {κ : Type} (s : Finset κ) (f : κ → Fin 512 → Fin 512 → EReal) :
    pixSum (fun i j => ∑ c ∈ s, f c i j) = ∑ c ∈ s, pixSum (f c) := by
  unfold pixSum
  calc ∑ i : Fin 512, ∑ j : Fin 512, ∑ c ∈ s, f c i j
      = ∑ i : Fin 512, ∑ c ∈ s, ∑ j : Fin 512, f c i j := Finset.sum_congr rfl fun i _ => Finset.sum_comm
    _ = ∑ c ∈ s, ∑ i : Fin 512, ∑ j : Fin 512, f c i j := Finset.sum_comm

theorem pixSum_congr {f g : Fin 512 → Fin 512 → EReal} (h : ∀ i j, f i j = g i j) : pixSum f = pixSum g :=
  congrArg pixSum (funext fun i => funext fun j => h i j)

theorem c0_eq : c0 = 0 := Ideal.ofBits_zero_f32
theorem c1_eq : c1 = 1 := IdealRules.sign_bit.ideal_onePat .f32

theorem toInt_cls (c : Fin 19) : (BitVec.ofNat 32 c.val).toInt = (c.val : Int) := by
  revert c; decide

theorem eq_cls_iff (t : BitVec 32) (c : Fin 19) : t = BitVec.ofNat 32 c.val ↔ t.toInt = (c.val : Int) := by
  constructor
  · rintro rfl; exact toInt_cls c
  · intro h; exact BitVec.eq_of_toInt_eq (h.trans (toInt_cls c).symm)

theorem eq_cls_iff_of_valid {t : BitVec 32} (h : validL t) (c : Fin 19) :
    t = BitVec.ofNat 32 c.val ↔ c = clipL t := by
  rw [eq_cls_iff, Fin.ext_iff]
  unfold validL at h
  show t.toInt = (c.val : Int) ↔ c.val = (max 0 (min 18 t.toInt)).toNat
  omega

theorem ne_cls_of_invalid {t : BitVec 32} (h : ¬ validL t) (c : Fin 19) : t ≠ BitVec.ofNat 32 c.val := by
  intro he
  apply h
  rw [eq_cls_iff] at he
  unfold validL
  have := c.isLt
  omega

theorem ne_cls_255 (c : Fin 19) : (255#32 : BitVec 32) ≠ BitVec.ofNat 32 c.val := by
  revert c; decide

theorem pixel_group (W G : Fin 19 → EReal) (t : BitVec 32) :
    (if validL t then W (clipL t) else c0) * G (clipL t)
      = ∑ c : Fin 19, W c * (G c * (if t = BitVec.ofNat 32 c.val then (1 : EReal) else 0)) := by
  by_cases h : validL t
  · rw [if_pos h, Finset.sum_eq_single (clipL t)]
    · rw [if_pos ((eq_cls_iff_of_valid h _).mpr rfl), mul_one]
    · intro c _ hc
      rw [if_neg (fun he => hc ((eq_cls_iff_of_valid h c).mp he)), mul_zero, mul_zero]
    · intro hn; exact absurd (Finset.mem_univ _) hn
  · rw [if_neg h, c0_eq, zero_mul]
    symm
    refine Finset.sum_eq_zero fun c _ => ?_
    rw [if_neg (ne_cls_of_invalid h c), mul_zero, mul_zero]

def cntOf (L : Fin 512 → Fin 512 → BitVec 32) : Fin 19 → EReal :=
  fun c => pixSum fun i j => if L i j = BitVec.ofNat 32 c.val then 1 else 0

theorem cntOf_real (L : Fin 512 → Fin 512 → BitVec 32) (c : Fin 19) :
    ∃ k : ℝ, 0 ≤ k ∧ cntOf L c = (k : EReal) := by
  refine ⟨∑ i : Fin 512, ∑ j : Fin 512, (if L i j = BitVec.ofNat 32 c.val then (1 : ℝ) else 0), ?_, ?_⟩
  · exact Finset.sum_nonneg fun i _ => Finset.sum_nonneg fun j _ => by split_ifs <;> norm_num
  · unfold cntOf pixSum
    rw [← coe_sum]
    refine Finset.sum_congr rfl fun i _ => ?_
    rw [← coe_sum]
    refine Finset.sum_congr rfl fun j _ => ?_
    show (if L i j = BitVec.ofNat 32 c.val then (1 : EReal) else 0)
      = ((if L i j = BitVec.ofNat 32 c.val then (1 : ℝ) else 0 : ℝ) : EReal)
    by_cases h : L i j = BitVec.ofNat 32 c.val
    · rw [if_pos h, if_pos h, EReal.coe_one]
    · rw [if_neg h, if_neg h, EReal.coe_zero]

theorem clsW_real (cnt : Fin 19 → EReal) (hk : ∀ c, ∃ k : ℝ, 0 ≤ k ∧ cnt c = (k : EReal)) (c : Fin 19) :
    ∃ w : ℝ, 0 ≤ w ∧ clsW cnt c = (w : EReal) := by
  choose k h0 hk using hk
  have hT : ∑ c', cnt c' = ((∑ c', k c' : ℝ) : EReal) := by
    rw [← coe_sum]; exact Finset.sum_congr rfl fun c' _ => hk c'
  have hkT : k c ≤ ∑ c', k c' := Finset.single_le_sum (fun c' _ => h0 c') (Finset.mem_univ c)
  have hM : (0 : ℝ) < max (∑ c', k c') 1 := lt_of_lt_of_le one_pos (le_max_right _ _)
  have hmax : max (∑ c', cnt c') c1 = ((max (∑ c', k c') 1 : ℝ) : EReal) := by
    rw [hT, c1_eq, ← EReal.coe_one]
    exact (EReal.coe_strictMono.monotone.map_max).symm
  have hq : k c * (1 / max (∑ c', k c') 1) ≤ 1 := by
    rw [mul_one_div, div_le_one hM]; exact hkT.trans (le_max_left _ _)
  unfold clsW
  rw [hmax, Ideal.div_coe hM.ne', hk c, c1_eq, c0_eq]
  by_cases hpos : 0 < k c
  · refine ⟨(1 - k c * (1 / max (∑ c', k c') 1)) + 1, by linarith, ?_⟩
    rw [if_pos (EReal.coe_pos.mpr hpos), one_mul, one_mul, EReal.coe_add, EReal.coe_sub, EReal.coe_mul, EReal.coe_one]
  · refine ⟨1, zero_le_one, ?_⟩
    rw [if_neg (fun h => hpos (EReal.coe_pos.mp h)), zero_mul, zero_mul, zero_add, EReal.coe_one]

theorem clsW_cntOf (L : Fin 512 → Fin 512 → BitVec 32) (c : Fin 19) :
    0 ≤ clsW (cntOf L) c ∧ clsW (cntOf L) c ≠ ⊤ := by
  obtain ⟨w, hw, h⟩ := clsW_real (cntOf L) (cntOf_real L) c
  rw [h]
  exact ⟨EReal.coe_nonneg.mpr hw, EReal.coe_ne_top w⟩

theorem nllImg_group (L : Fin 512 → Fin 512 → BitVec 32) (g : Fin 19 → Fin 512 → Fin 512 → EReal) :
    Ideal.div
        (-(pixSum fun i j => (if validL (L i j) then clsW (cntOf L) (clipL (L i j)) else c0) * g (clipL (L i j)) i j))
        (max (pixSum fun i j => if validL (L i j) then clsW (cntOf L) (clipL (L i j)) else c0) cEps)
      = nllImg (fun c => pixSum fun i j => g c i j * (if L i j = BitVec.ofNat 32 c.val then 1 else 0)) (cntOf L) := by
  have hnum : (pixSum fun i j => (if validL (L i j) then clsW (cntOf L) (clipL (L i j)) else c0) * g (clipL (L i j)) i j)
      = ∑ c, clsW (cntOf L) c * pixSum fun i j => g c i j * (if L i j = BitVec.ofNat 32 c.val then 1 else 0) := by
    calc (pixSum fun i j => (if validL (L i j) then clsW (cntOf L) (clipL (L i j)) else c0) * g (clipL (L i j)) i j)
        = pixSum fun i j => ∑ c, clsW (cntOf L) c * (g c i j * (if L i j = BitVec.ofNat 32 c.val then 1 else 0)) :=
          pixSum_congr fun i j => pixel_group (clsW (cntOf L)) (fun c => g c i j) (L i j)
      _ = ∑ c, pixSum fun i j => clsW (cntOf L) c * (g c i j * (if L i j = BitVec.ofNat 32 c.val then 1 else 0)) :=
          pixSum_sum Finset.univ _
      _ = ∑ c, clsW (cntOf L) c * pixSum fun i j => g c i j * (if L i j = BitVec.ofNat 32 c.val then 1 else 0) :=
          Finset.sum_congr rfl fun c _ => (mul_pixSum (clsW_cntOf L c).1 (clsW_cntOf L c).2 _).symm
  have hden : (pixSum fun i j => if validL (L i j) then clsW (cntOf L) (clipL (L i j)) else c0)
      = ∑ c, clsW (cntOf L) c * cntOf L c := by
    calc (pixSum fun i j => if validL (L i j) then clsW (cntOf L) (clipL (L i j)) else c0)
        = pixSum fun i j => ∑ c, clsW (cntOf L) c * (if L i j = BitVec.ofNat 32 c.val then 1 else 0) :=
          pixSum_congr fun i j => by
            have h := pixel_group (clsW (cntOf L)) (fun _ => 1) (L i j)
            simpa only [mul_one, one_mul] using h
      _ = ∑ c, pixSum fun i j => clsW (cntOf L) c * (if L i j = BitVec.ofNat 32 c.val then 1 else 0) :=
          pixSum_sum Finset.univ _
      _ = ∑ c, clsW (cntOf L) c * cntOf L c :=
          Finset.sum_congr rfl fun c _ => (mul_pixSum (clsW_cntOf L c).1 (clsW_cntOf L c).2 _).symm
  rw [hnum, hden]
  rfl

theorem nllRef_seg_all (x : Scores) (s : Labels) : nllRef x s = nllTot (sSeg x s) (cSeg s) := by
  unfold nllRef nllTot
  refine Finset.sum_congr rfl fun n _ => ?_
  exact nllImg_group (s n) (logp x n)

theorem nllRef_seg (x : Scores) (s : Labels) (hx : ∀ n c i j, ∃ r : ℝ, x n c i j = (r : EReal)) :
    nllRef x s = nllTot (sSeg x s) (cSeg s) := by
  have _ := hx
  exact nllRef_seg_all x s

theorem attL_ind (e : Plane) (s : Labels) (n : Fin 8) (c : Fin 19) (i j : Fin 512) :
    (if attL e s n i j = BitVec.ofNat 32 c.val then (1 : EReal) else 0) = isCls s n c i j * strong e n i j := by
  unfold attL isCls strong
  by_cases hs : cThr < e n i j
  · rw [if_pos hs, if_pos hs, mul_one]
  · rw [if_neg hs, if_neg hs, mul_zero, if_neg (ne_cls_255 c)]

theorem nllRef_att_all (x : Scores) (e : Plane) (s : Labels) :
    nllRef x (attL e s) = nllTot (sAtt x e s) (cAtt e s) := by
  unfold nllRef nllTot
  refine Finset.sum_congr rfl fun n _ => ?_
  have hc : cntOf (attL e s n) = cAtt e s n :=
    funext fun c => pixSum_congr fun i j => attL_ind e s n c i j
  have hS : (fun c => pixSum fun i j => logp x n c i j * (if attL e s n i j = BitVec.ofNat 32 c.val then 1 else 0))
      = sAtt x e s n :=
    funext fun c => pixSum_congr fun i j => by rw [attL_ind]
  calc nllRefImg x (attL e s) n
      = nllImg (fun c => pixSum fun i j => logp x n c i j * (if attL e s n i j = BitVec.ofNat 32 c.val then 1 else 0))
          (cntOf (attL e s n)) := nllImg_group (attL e s n) (logp x n)
    _ = nllImg (sAtt x e s n) (cAtt e s n) := by rw [hS, hc]

theorem nllRef_att (x : Scores) (e : Plane) (s : Labels) (hx : ∀ n c i j, ∃ r : ℝ, x n c i j = (r : EReal)) :
    nllRef x (attL e s) = nllTot (sAtt x e s) (cAtt e s) := by
  have _ := hx
  exact nllRef_att_all x e s

end Cert.Math

end
-- ==== Proof.MathLoss.lean ====
import proofs.«428925_j42245298323666_3_alg».proof.Proof.Spec
import proofs.«428925_j42245298323666_3_alg».proof.Proof.MathBce
import proofs.«428925_j42245298323666_3_alg».proof.Proof.MathNll

noncomputable section

namespace Cert.Math

open Idealize.ShloMosaic Cert.Spec

theorem lossK_eq_lossR_of (x : Scores) (e : Plane) (s g : Labels)
    (hseg : nllRef x s = nllTot (sSeg x s) (cSeg s))
    (hatt : nllRef x (attL e s) = nllTot (sAtt x e s) (cAtt e s))
    (hbce : bceRef e g = bceTot (nPos g) (nNeg g) (bPos e g) (bNeg e g)) :
    lossK x e s g = lossR x e s g := by
  funext k
  match k with
  | 0 => simp only [lossK, lossR, hseg]
  | 1 => simp only [lossK, lossR, hbce]
  | 2 => simp only [lossK, lossR, hatt]
  | 3 => rfl

theorem lossK_eq_lossR (x : Scores) (e : Plane) (s g : Labels)
    (hx : ∀ n c i j, ∃ r : ℝ, x n c i j = (r : EReal)) (he : ∀ n i j, ∃ r : ℝ, e n i j = (r : EReal)) :
    lossK x e s g = lossR x e s g :=
  lossK_eq_lossR_of x e s g (nllRef_seg x s hx) (nllRef_att x e s hx) (bceRef_eq e g he)

end Cert.Math

end
-- ==== Proof.PreFinite.lean ====
import proofs.«428925_j42245298323666_3_alg».proof.Proof.Gen.Pre_finite_inputs
import Idealize.ShloMosaic.Lib.ReduceAll
import Idealize.ShloMosaic.Lib.ValueIdx
import Idealize.ShloMosaic.PureOps.Ideal

namespace Cert.Math

open Idealize.ShloMosaic Cert.Pre_finite_inputs

instance : Subsingleton S_.Idx := ⟨fun a b => funext fun d => d.elim0⟩

theorem ofBits_inf_f32 : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

theorem finite_of_pre (a0 : FVec Ideal S8x19x512x512 .f32) (a1 : FVec Ideal S8x1x512x512 .f32)
    (a2 : IVec S8x512x512 32) (a3 : IVec S8x1x512x512 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hA, hB⟩ := IntOp.andi_eq_one.1 h0
  refine ⟨fun i => ?_, fun i => ?_⟩
  · have := Host.reduce_andi_all _ _ _ _ _ hA i
    exact real_of_abs_lt_inf (a0 i) this
  · have := Host.reduce_andi_all _ _ _ _ _ hB i
    exact real_of_abs_lt_inf (a1 i) this

end Cert.Math
-- ==== Proof.lean ====
import proofs.«428925_j42245298323666_3_alg».proof.Defs
import proofs.«428925_j42245298323666_3_alg».proof.Proof.Gen.Kernel
import proofs.«428925_j42245298323666_3_alg».proof.Proof.Gen.KernelIdeal
import proofs.«428925_j42245298323666_3_alg».proof.Proof.Gen.ReferenceIdeal
import proofs.«428925_j42245298323666_3_alg».proof.Proof.Gen.Pre_finite_inputs
import proofs.«428925_j42245298323666_3_alg».proof.Proof.KB.Frame
import proofs.«428925_j42245298323666_3_alg».proof.Proof.KI.Frame
import proofs.«428925_j42245298323666_3_alg».proof.Proof.KI.Value
import proofs.«428925_j42245298323666_3_alg».proof.Proof.KI.OutArray
import proofs.«428925_j42245298323666_3_alg».proof.Proof.RefRun
import proofs.«428925_j42245298323666_3_alg».proof.Proof.RefLoss
import proofs.«428925_j42245298323666_3_alg».proof.Proof.RefNllFin
import proofs.«428925_j42245298323666_3_alg».proof.Proof.MathLoss
import proofs.«428925_j42245298323666_3_alg».proof.Proof.PreFinite

noncomputable section

namespace Cert.Proof

open Idealize.ShloMosaic Idealize.SL.Sem

theorem frame_k : @Cert.frame_Kernel Cert.Kernel.Gen.facts Cert.Pre_finite_inputs.Gen.facts :=
  fun m ρ _ => Cert.Kernel.HFrame.frame m ρ

theorem frame_ki : @Cert.frame_KernelIdeal Cert.KernelIdeal.Gen.facts Cert.Pre_finite_inputs.Gen.facts :=
  fun m ρ _ => Cert.KernelIdeal.HFrame.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the four losses of `Cert.Spec`: the kernel as `lossK` of per-class sums, the reference as the
    pixel-by-pixel `lossR`; on finite inputs the two agree by grouping the pixels of each sum by label. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.KValue.run_value_of (fun m c => Cert.KernelIdeal.KValue.holds_sums m c) m ρ, ?_⟩
  refine (θ_run Cert.ReferenceIdeal.defs _ _).mono (fun _ h c => ⟨(h c).1.trans ?_, (h c).2⟩)
    (Cert.ReferenceIdeal.Value.run (F := Ideal) m' ρ')
  obtain ⟨hx, he⟩ := Cert.Math.finite_of_pre _ _ _ _ (hpre c)
  rw [Cert.RefValue.loss_value_of Cert.RefValue.nll_seg_value Cert.RefValue.nll_att_value,
    (hagree c).1, (hagree c).2.1, (hagree c).2.2.1, (hagree c).2.2.2]
  exact congrArg Cert.Spec.vec4
    (Cert.Math.lossK_eq_lossR _ _ _ _ (fun n cl i j => hx _) (fun n i j => he _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
